-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S50000x1024 : Shape := ⟨2, ![50000, 1024]⟩
abbrev S50000 : Shape := ⟨1, ![50000]⟩
abbrev S2x1024 : Shape := ⟨2, ![2, 1024]⟩
abbrev S2 : Shape := ⟨1, ![2]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S50000x1024 : S_.BroadcastsInDim S50000x1024 (![] : Fin 0 → Fin S50000x1024.rank)
  reducesTo_S50000x1024_S_d0_1 : S50000x1024.ReducesTo [0, 1] S_
  bcast_S_S50000 : S_.BroadcastsInDim S50000 (![] : Fin 0 → Fin S50000.rank)
  reducesTo_S50000_S_d0 : S50000.ReducesTo [0] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096 32) (main_arg5 : FVec F S2 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg1 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v23 main_v26
  main_v27

def fn {F : FTy → Type} [FloatOps F] (main_arg0 : FVec F S4096x1024 .f32) (main_arg1 : IVec S4096 32) (main_arg2 : FVec F S50000x1024 .f32) (main_arg3 : FVec F S50000 .f32) (main_arg4 : FVec F S2x1024 .f32) (main_arg5 : FVec F S2 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S50000x1024 .f32 := Host.absf main_arg2
  let main_cst_0 : FVec F S_ .f32 := constant S_ .f32 0x7F800000#32
  let main_v5 : FVec F S50000x1024 .f32 := broadcastInDim S50000x1024 ![] bcast_S_S50000x1024 main_cst_0
  let main_v6 : IVec S50000x1024 1 := cmpf .olt main_v4 main_v5
  let main_c_1 : IVec S_ 1 := constantI S_ 1 1#1
  let main_v7 : IVec S_ 1 := (fun x v => Host.reduce IntOp.andi x v reducesTo_S50000x1024_S_d0_1 h_S_) main_v6 main_c_1
  let main_v8 : IVec S_ 1 := andi main_v3 main_v7
  let main_v9 : FVec F S50000 .f32 := Host.absf main_arg3
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S2x1024 .f32 := Host.absf main_arg4
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg1 main_arg5 main_v13 main_v16
-- ==== Kernel.lean ====
abbrev S4096x1024 : Shape := ⟨2, ![4096, 1024]⟩
abbrev S4096 : Shape := ⟨1, ![4096]⟩
abbrev S50000x1024 : Shape := ⟨2, ![50000, 1024]⟩
abbrev S50000 : Shape := ⟨1, ![50000]⟩
abbrev S2x1024 : Shape := ⟨2, ![2, 1024]⟩
abbrev S2 : Shape := ⟨1, ![2]⟩
abbrev S4096x1 : Shape := ⟨2, ![4096, 1]⟩
abbrev S25x1x2000 : Shape := ⟨3, ![25, 1, 2000]⟩
abbrev S512x1024 : Shape := ⟨2, ![512, 1024]⟩
abbrev S2000x1024 : Shape := ⟨2, ![2000, 1024]⟩
abbrev S1x1x2000 : Shape := ⟨3, ![1, 1, 2000]⟩
abbrev S512x1 : Shape := ⟨2, ![512, 1]⟩
abbrev S1024x2000 : Shape := ⟨2, ![1024, 2000]⟩
abbrev S512x2000 : Shape := ⟨2, ![512, 2000]⟩
abbrev S1x2000 : Shape := ⟨2, ![1, 2000]⟩
abbrev S512 : Shape := ⟨1, ![512]⟩
abbrev S1024x2 : Shape := ⟨2, ![1024, 2]⟩
abbrev S4096x2 : Shape := ⟨2, ![4096, 2]⟩
abbrev S1x2 : Shape := ⟨2, ![1, 2]⟩
abbrev S_ : Shape := ⟨0, ![]⟩

abbrev nBuf : Space → Nat
  | .hbm => 83
  | .vmem => 51
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S50000x1024, .f32⟩
  | .hbm, ⟨3, _⟩ => ⟨S50000, .f32⟩
  | .hbm, ⟨4, _⟩ => ⟨S2x1024, .f32⟩
  | .hbm, ⟨5, _⟩ => ⟨S2, .f32⟩
  | .hbm, ⟨6, _⟩ => ⟨S4096x1024, .bf16⟩
  | .hbm, ⟨7, _⟩ => ⟨S50000x1024, .bf16⟩
  | .hbm, ⟨8, _⟩ => ⟨S4096x1, .i32⟩
  | .hbm, ⟨9, _⟩ => ⟨S25x1x2000, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S25x1x2000, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S25x1x2000, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S1024x2, .f32⟩
  | .hbm, ⟨22, _⟩ => ⟨S4096x2, .f32⟩
  | .hbm, ⟨23, _⟩ => ⟨S1x2, .f32⟩
  | .hbm, ⟨24, _⟩ => ⟨S4096x2, .f32⟩
  | .hbm, ⟨25, _⟩ => ⟨S4096x2, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096, .f32⟩
  | .hbm, ⟨43, _⟩ => ⟨S4096x1, .f32⟩
  | .hbm, ⟨44, _⟩ => ⟨S4096x1, .f32⟩
  | .hbm, ⟨45, _⟩ => ⟨S4096, .f32⟩
  | .hbm, ⟨46, _⟩ => ⟨S4096x1, .f32⟩
  | .hbm, ⟨47, _⟩ => ⟨S4096x1, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S_, .i32⟩
  | .hbm, ⟨71, _⟩ => ⟨S4096, .i32⟩
  | .hbm, ⟨72, _⟩ => ⟨S4096, .i1⟩
  | .hbm, ⟨73, _⟩ => ⟨S4096, .i1⟩
  | .hbm, ⟨74, _⟩ => ⟨S4096, .f32⟩
  | .hbm, ⟨75, _⟩ => ⟨S_, .i32⟩
  | .hbm, ⟨76, _⟩ => ⟨S4096, .i32⟩
  | .hbm, ⟨77, _⟩ => ⟨S4096, .i1⟩
  | .hbm, ⟨78, _⟩ => ⟨S_, .i32⟩
  | .hbm, ⟨79, _⟩ => ⟨S4096, .i32⟩
  | .hbm, ⟨80, _⟩ => ⟨S4096, .i1⟩
  | .hbm, ⟨81, _⟩ => ⟨S4096, .i1⟩
  | .hbm, ⟨82, _⟩ => ⟨S4096, .f32⟩
  | .local _ .vmem, ⟨0, _⟩ => ⟨S512x1024, .bf16⟩
  | .local _ .vmem, ⟨1, _⟩ => ⟨S512x1024, .bf16⟩
  | .local _ .vmem, ⟨2, _⟩ => ⟨S2000x1024, .bf16⟩
  | .local _ .vmem, ⟨3, _⟩ => ⟨S2000x1024, .bf16⟩
  | .local _ .vmem, ⟨4, _⟩ => ⟨S1x1x2000, .f32⟩
  | .local _ .vmem, ⟨5, _⟩ => ⟨S1x1x2000, .f32⟩
  | .local _ .vmem, ⟨6, _⟩ => ⟨S512x1, .i32⟩
  | .local _ .vmem, ⟨7, _⟩ => ⟨S512x1, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1024, .bf16⟩
  | .local _ .vmem, ⟨18, _⟩ => ⟨S512x1024, .bf16⟩
  | .local _ .vmem, ⟨19, _⟩ => ⟨S2000x1024, .bf16⟩
  | .local _ .vmem, ⟨20, _⟩ => ⟨S2000x1024, .bf16⟩
  | .local _ .vmem, ⟨21, _⟩ => ⟨S1x1x2000, .f32⟩
  | .local _ .vmem, ⟨22, _⟩ => ⟨S1x1x2000, .f32⟩
  | .local _ .vmem, ⟨23, _⟩ => ⟨S512x1, .i32⟩
  | .local _ .vmem, ⟨24, _⟩ => ⟨S512x1, .i32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x1, .f32⟩
  | .local _ .vmem, ⟨34, _⟩ => ⟨S512x1024, .bf16⟩
  | .local _ .vmem, ⟨35, _⟩ => ⟨S512x1024, .bf16⟩
  | .local _ .vmem, ⟨36, _⟩ => ⟨S2000x1024, .bf16⟩
  | .local _ .vmem, ⟨37, _⟩ => ⟨S2000x1024, .bf16⟩
  | .local _ .vmem, ⟨38, _⟩ => ⟨S1x1x2000, .f32⟩
  | .local _ .vmem, ⟨39, _⟩ => ⟨S1x1x2000, .f32⟩
  | .local _ .vmem, ⟨40, _⟩ => ⟨S512x1, .i32⟩
  | .local _ .vmem, ⟨41, _⟩ => ⟨S512x1, .i32⟩
  | .local _ .vmem, ⟨42, _⟩ => ⟨S512x1, .f32⟩
  | .local _ .vmem, ⟨43, _⟩ => ⟨S512x1, .f32⟩
  | .local _ .vmem, ⟨44, _⟩ => ⟨S512x1, .f32⟩
  | .local _ .vmem, ⟨45, _⟩ => ⟨S512x1, .f32⟩
  | .local _ .vmem, ⟨46, _⟩ => ⟨S512x1, .f32⟩
  | .local _ .vmem, ⟨47, _⟩ => ⟨S512x1, .f32⟩
  | .local _ .vmem, ⟨48, _⟩ => ⟨S512x1, .f32⟩
  | .local _ .vmem, ⟨49, _⟩ => ⟨S512x1, .f32⟩
  | .local _ .vmem, ⟨50, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c : Ref sig .tc := ⟨.hbm, 61, rfl⟩
abbrev main_v49 : Ref sig .tc := ⟨.hbm, 62, rfl⟩
abbrev main_v50 : Ref sig .tc := ⟨.hbm, 63, rfl⟩
abbrev main_cst : Ref sig .tc := ⟨.hbm, 64, rfl⟩
abbrev main_call0_v0 : Ref sig .tc := ⟨.hbm, 65, rfl⟩
abbrev main_v51 : Ref sig .tc := ⟨.hbm, 66, rfl⟩
abbrev main_c_0 : Ref sig .tc := ⟨.hbm, 67, rfl⟩
abbrev main_v52 : Ref sig .tc := ⟨.hbm, 68, rfl⟩
abbrev main_v53 : Ref sig .tc := ⟨.hbm, 69, rfl⟩
abbrev main_c_1 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_2 : Ref sig .tc := ⟨.hbm, 75, rfl⟩
abbrev main_v58 : Ref sig .tc := ⟨.hbm, 76, rfl⟩
abbrev main_v59 : Ref sig .tc := ⟨.hbm, 77, rfl⟩
abbrev main_c_3 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg5_1 : Ref sig .tc := ⟨.vmem, 45, rfl⟩
abbrev cc2_stg6_0 : Ref sig .tc := ⟨.vmem, 46, rfl⟩
abbrev cc2_stg6_1 : Ref sig .tc := ⟨.vmem, 47, rfl⟩
abbrev cc2_scratch0 : Ref sig .tc := ⟨.vmem, 48, rfl⟩
abbrev cc2_scratch1 : Ref sig .tc := ⟨.vmem, 49, rfl⟩
abbrev cc2_scratch2 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v53 : BitVec 1 := Scalar.cmpi .eq arg1 c9_i32
  let v54 : BitVec 32 := Scalar.extui v53
  let c0_i32_28 : BitVec 32 := 0#32
  let v55 : BitVec 1 := Scalar.cmpi .ne v54 c0_i32_28
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 10], ![false, false]⟩

def k1_cond2 (i : grid1.Coords) : BitVec 1 :=
  let arg1 : BitVec 32 := BitVec.ofNat 32 (i 1).val
  let c9_i32 : BitVec 32 := 9#32
  let v53 : BitVec 1 := Scalar.cmpi .eq arg1 c9_i32
  let v54 : BitVec 32 := Scalar.extui v53
  let c0_i32_27 : BitVec 32 := 0#32
  let v55 : BitVec 1 := Scalar.cmpi .ne v54 c0_i32_27
  v55

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![v0.toNat, c0_i32.toNat]

def cc1_transform_2 (i : grid1.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2000x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x2000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![8, 5], ![false, false]⟩

def k2_cond2 (i : grid2.Coords) : BitVec 1 :=
  let arg1 : BitVec 32 := BitVec.ofNat 32 (i 1).val
  let c4_i32 : BitVec 32 := 4#32
  let v53 : BitVec 1 := Scalar.cmpi .eq arg1 c4_i32
  let v54 : BitVec 32 := Scalar.extui v53
  let c0_i32_27 : BitVec 32 := 0#32
  let v55 : BitVec 1 := Scalar.cmpi .ne v54 c0_i32_27
  v55

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![v0.toNat, c0_i32.toNat]

def cc2_transform_2 (i : grid2.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  let c0_i32_1 : BitVec 32 := 0#32
  ![v0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2000x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1x2000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S512x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  bitsLt_bf16_f32 : FTy.bits .bf16 < FTy.bits .f32
  shapeCasts_S4096_S4096x1 : S4096.ShapeCasts S4096x1
  shapeCasts_S50000_S25x1x2000 : S50000.ShapeCasts S25x1x2000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  transposes_S2000x1024_p1_0_S1024x2000 : S2000x1024.Transposes [1, 0] S1024x2000
  inb_S1x1x2000_S1x1x2000_0_0_0 : ∀ a, (![0, 0, 0] : Fin 3 → Nat) a + S1x1x2000.size a ≤ S1x1x2000.size a
  h_S1x1x2000 : 0 < S1x1x2000.numel
  shapeCasts_S1x1x2000_S1x2000 : S1x1x2000.ShapeCasts S1x2000
  broadcasts_S1x2000_S512x2000 : S1x2000.Broadcasts S512x2000
  iota_S512x2000_d1_w32 : S512x2000.Iotas .tc 32 [1]
  broadcasts_S512x1_S512x2000 : S512x1.Broadcasts S512x2000
  reduces_S512x2000_S512 : S512x2000.Reduces [1] S512
  shapeCasts_S512_S512x1 : S512.ShapeCasts S512x1
  transposes_S2x1024_S1024x2_1_0 : S2x1024.Transposes [1, 0] S1024x2
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  slices_S4096x2_S4096x1_0_0 : S4096x2.Slices ![0, 0] S4096x1
  slices_S4096x2_S4096x1_0_1 : S4096x2.Slices ![0, 1] S4096x1
  shapeCasts_S4096x1_S4096 : S4096x1.ShapeCasts S4096
  bcast_S_S4096 : S_.BroadcastsInDim S4096 (![] : Fin 0 → Fin S4096.rank)
  dot_S512x1024_S1024x2000_S512x2000_1_0_0_1_n_n_wf : DotDims.WF S512x1024 S1024x2000 S512x2000 [1] [0] [0] [1] [] []
  dot_S4096x1024_S1024x2_S4096x2_1_0_0_1_n_n_wf : DotDims.WF S4096x1024 S1024x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S50000x1024.size a
  hwx0_1 : ∀ i : grid0.Coords, EltTy.bits .bf16 = 32 ∨ (Rect.block (s := S50000x1024) S2000x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2000.size a ≤ S25x1x2000.size a
  hwx0_2 : ∀ i : grid0.Coords, EltTy.bits .f32 = 32 ∨ (Rect.block (s := S25x1x2000) S1x1x2000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .i32 = 32 ∨ (Rect.block (s := S4096x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1024.size a ≤ S50000x1024.size a
  hwx1_1 : ∀ i : grid1.Coords, EltTy.bits .bf16 = 32 ∨ (Rect.block (s := S50000x1024) S2000x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2000.size a ≤ S25x1x2000.size a
  hwx1_2 : ∀ i : grid1.Coords, EltTy.bits .f32 = 32 ∨ (Rect.block (s := S25x1x2000) S1x1x2000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S4096x1.size a
  hwx1_3 : ∀ i : grid1.Coords, EltTy.bits .i32 = 32 ∨ (Rect.block (s := S4096x1) S512x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .f32 = 32 ∨ (Rect.block (s := S4096x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .f32 = 32 ∨ (Rect.block (s := S4096x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S4096x1.size a
  hwx1_6 : ∀ i : grid1.Coords, EltTy.bits .f32 = 32 ∨ (Rect.block (s := S4096x1) S512x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1024.size a ≤ S50000x1024.size a
  hwx2_1 : ∀ i : grid2.Coords, EltTy.bits .bf16 = 32 ∨ (Rect.block (s := S50000x1024) S2000x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x2000.size a ≤ S25x1x2000.size a
  hwx2_2 : ∀ i : grid2.Coords, EltTy.bits .f32 = 32 ∨ (Rect.block (s := S25x1x2000) S1x1x2000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S4096x1.size a
  hwx2_3 : ∀ i : grid2.Coords, EltTy.bits .i32 = 32 ∨ (Rect.block (s := S4096x1) S512x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S4096x1.size a
  hwx2_4 : ∀ i : grid2.Coords, EltTy.bits .f32 = 32 ∨ (Rect.block (s := S4096x1) S512x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S4096x1.size a
  hwx2_5 : ∀ i : grid2.Coords, EltTy.bits .f32 = 32 ∨ (Rect.block (s := S4096x1) S512x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1.size a ≤ S4096x1.size a
  hwx2_6 : ∀ i : grid2.Coords, EltTy.bits .f32 = 32 ∨ (Rect.block (s := S4096x1) S512x1.size (cc2_transform_6 i) (hinb2_6 i)).WholeWords (EltTy.packing .f32)

variable [Facts₀]

def dot_S512x1024_S1024x2000_S512x2000_1_0_0_1_n_n : DotDims S512x1024 S1024x2000 S512x2000 where
  lhsContracting := [1]
  rhsContracting := [0]
  lhsNonContracting := [0]
  rhsNonContracting := [1]
  lhsBatch := []
  rhsBatch := []
  wf := dot_S512x1024_S1024x2000_S512x2000_1_0_0_1_n_n_wf
def dot_S4096x1024_S1024x2_S4096x2_1_0_0_1_n_n : DotDims S4096x1024 S1024x2 S4096x2 where
  lhsContracting := [1]
  rhsContracting := [0]
  lhsNonContracting := [0]
  rhsNonContracting := [1]
  lhsBatch := []
  rhsBatch := []
  wf := dot_S4096x1024_S1024x2_S4096x2_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x2000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2000x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1x2000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_0) S512x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6_1) S512x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6_2) S512x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun i => !(k1_cond2 i == 1#1) | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2000x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x1x2000.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S512x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8_0) S512x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v8_1) S512x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v8_2) S512x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun i => !(k2_cond2 i == 1#1) | 5 => fun i => !(k2_cond2 i == 1#1) | 6 => fun i => !(k2_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S50000x1024 : Shape := ⟨2, ![50000, 1024]⟩
abbrev S50000 : Shape := ⟨1, ![50000]⟩
abbrev S2x1024 : Shape := ⟨2, ![2, 1024]⟩
abbrev S2 : Shape := ⟨1, ![2]⟩
abbrev S20000x1024 : Shape := ⟨2, ![20000, 1024]⟩
abbrev S20002x1024 : Shape := ⟨2, ![20002, 1024]⟩
abbrev S20000 : Shape := ⟨1, ![20000]⟩
abbrev S20002 : Shape := ⟨1, ![20002]⟩
abbrev S1024x20002 : Shape := ⟨2, ![1024, 20002]⟩
abbrev S4096x20002 : Shape := ⟨2, ![4096, 20002]⟩
abbrev S1x20002 : Shape := ⟨2, ![1, 20002]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S1024x20000 : Shape := ⟨2, ![1024, 20000]⟩
abbrev S4096x20000 : Shape := ⟨2, ![4096, 20000]⟩
abbrev S1x20000 : Shape := ⟨2, ![1, 20000]⟩
abbrev S10000x1024 : Shape := ⟨2, ![10000, 1024]⟩
abbrev S1024x10000 : Shape := ⟨2, ![1024, 10000]⟩
abbrev S4096x10000 : Shape := ⟨2, ![4096, 10000]⟩
abbrev S10000 : Shape := ⟨1, ![10000]⟩
abbrev S1x10000 : Shape := ⟨2, ![1, 10000]⟩

abbrev nBuf : Space → Nat
  | .hbm => 207
  | .vmem => 0
  | .smem => 0
  | _ => 0

abbrev hbmTy0_0 (i : Nat) : BufTy := match i % 128 with
  | 0 => ⟨S4096x1024, .f32⟩
  | 1 => ⟨S4096, .i32⟩
  | 2 => ⟨S50000x1024, .f32⟩
  | 3 => ⟨S50000, .f32⟩
  | 4 => ⟨S2x1024, .f32⟩
  | 5 => ⟨S2, .f32⟩
  | 6 => ⟨S20000x1024, .f32⟩
  | 7 => ⟨S20002x1024, .f32⟩
  | 8 => ⟨S20000, .f32⟩
  | 9 => ⟨S20002, .f32⟩
  | 10 => ⟨S1024x20002, .f32⟩
  | 11 => ⟨S4096x20002, .f32⟩
  | 12 => ⟨S1x20002, .f32⟩
  | 13 => ⟨S4096x20002, .f32⟩
  | 14 => ⟨S4096x20002, .f32⟩
  | 15 => ⟨S_, .f32⟩
  | 16 => ⟨S4096, .f32⟩
  | 17 => ⟨S_, .f32⟩
  | 18 => ⟨S4096, .f32⟩
  | 19 => ⟨S4096, .f32⟩
  | 20 => ⟨S4096x1, .f32⟩
  | 21 => ⟨S4096x20002, .f32⟩
  | 22 => ⟨S4096x20002, .f32⟩
  | 23 => ⟨S4096x20002, .f32⟩
  | 24 => ⟨S_, .f32⟩
  | 25 => ⟨S4096, .f32⟩
  | 26 => ⟨S4096x1, .f32⟩
  | 27 => ⟨S4096x1, .f32⟩
  | 28 => ⟨S4096x20002, .f32⟩
  | 29 => ⟨S4096x20002, .f32⟩
  | 30 => ⟨S_, .i32⟩
  | 31 => ⟨S_, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S4096x1, .i32⟩
  | 39 => ⟨S_, .i32⟩
  | 40 => ⟨S4096x1, .i32⟩
  | 41 => ⟨S4096x1, .i1⟩
  | 42 => ⟨S_, .i32⟩
  | 43 => ⟨S4096x1, .i32⟩
  | 44 => ⟨S4096x1, .i32⟩
  | 45 => ⟨S4096x1, .i32⟩
  | 46 => ⟨S4096x1x1, .i32⟩
  | 47 => ⟨S1, .i32⟩
  | 48 => ⟨S_, .i32⟩
  | 49 => ⟨S4096x1x1, .i32⟩
  | 50 => ⟨S4096x1x1, .i1⟩
  | 51 => ⟨S1x1x1, .i32⟩
  | 52 => ⟨S4096x1x1, .i32⟩
  | 53 => ⟨S4096x1x1, .i1⟩
  | 54 => ⟨S4096x1x1, .i1⟩
  | 55 => ⟨S_, .i1⟩
  | 56 => ⟨S4096x1, .i1⟩
  | 57 => ⟨S4096x1, .f32⟩
  | 58 => ⟨S_, .f32⟩
  | 59 => ⟨S4096x1, .f32⟩
  | 60 => ⟨S4096x1, .f32⟩
  | 61 => ⟨S4096, .f32⟩
  | 62 => ⟨S_, .i32⟩
  | 63 => ⟨S4096, .i32⟩
  | 64 => ⟨S4096, .i1⟩
  | 65 => ⟨S4096, .f32⟩
  | 66 => ⟨S_, .f32⟩
  | 67 => ⟨S4096, .f32⟩
  | 68 => ⟨S4096, .f32⟩
  | 69 => ⟨S20000x1024, .f32⟩
  | 70 => ⟨S1024x20000, .f32⟩
  | 71 => ⟨S4096x20000, .f32⟩
  | 72 => ⟨S20000, .f32⟩
  | 73 => ⟨S1x20000, .f32⟩
  | 74 => ⟨S4096x20000, .f32⟩
  | 75 => ⟨S4096x20000, .f32⟩
  | 76 => ⟨S_, .f32⟩
  | 77 => ⟨S4096, .f32⟩
  | 78 => ⟨S_, .f32⟩
  | 79 => ⟨S4096, .f32⟩
  | 80 => ⟨S4096, .f32⟩
  | 81 => ⟨S4096x1, .f32⟩
  | 82 => ⟨S4096x20000, .f32⟩
  | 83 => ⟨S4096x20000, .f32⟩
  | 84 => ⟨S4096x20000, .f32⟩
  | 85 => ⟨S_, .f32⟩
  | 86 => ⟨S4096, .f32⟩
  | 87 => ⟨S4096x1, .f32⟩
  | 88 => ⟨S4096x1, .f32⟩
  | 89 => ⟨S4096x20000, .f32⟩
  | 90 => ⟨S4096x20000, .f32⟩
  | 91 => ⟨S_, .i32⟩
  | 92 => ⟨S4096, .i32⟩
  | 93 => ⟨S4096, .i32⟩
  | 94 => ⟨S_, .i32⟩
  | 95 => ⟨S_, .i32⟩
  | 96 => ⟨S_, .i32⟩
  | 97 => ⟨S4096, .i32⟩
  | 98 => ⟨S4096, .i32⟩
  | 99 => ⟨S_, .i32⟩
  | 100 => ⟨S4096, .i32⟩
  | 101 => ⟨S4096, .i32⟩
  | 102 => ⟨S4096x1, .f32⟩
  | 103 => ⟨S4096, .f32⟩
  | 104 => ⟨S4096x1, .i32⟩
  | 105 => ⟨S_, .i32⟩
  | 106 => ⟨S4096x1, .i32⟩
  | 107 => ⟨S4096x1, .i1⟩
  | 108 => ⟨S_, .i32⟩
  | 109 => ⟨S4096x1, .i32⟩
  | 110 => ⟨S4096x1, .i32⟩
  | 111 => ⟨S4096x1, .i32⟩
  | 112 => ⟨S4096x1x1, .i32⟩
  | 113 => ⟨S1, .i32⟩
  | 114 => ⟨S_, .i32⟩
  | 115 => ⟨S4096x1x1, .i32⟩
  | 116 => ⟨S4096x1x1, .i1⟩
  | 117 => ⟨S1x1x1, .i32⟩
  | 118 => ⟨S4096x1x1, .i32⟩
  | 119 => ⟨S4096x1x1, .i1⟩
  | 120 => ⟨S4096x1x1, .i1⟩
  | 121 => ⟨S_, .i1⟩
  | 122 => ⟨S4096x1, .i1⟩
  | 123 => ⟨S4096x1, .f32⟩
  | 124 => ⟨S_, .f32⟩
  | 125 => ⟨S4096x1, .f32⟩
  | 126 => ⟨S4096x1, .f32⟩
  | 127 => ⟨S4096, .f32⟩
  | _ => ⟨S4096x1024, .f32⟩

abbrev hbmTy0_1 (i : Nat) : BufTy := match i % 128 with
  | 0 => ⟨S4096, .f32⟩
  | 1 => ⟨S_, .i32⟩
  | 2 => ⟨S4096, .i32⟩
  | 3 => ⟨S4096, .i1⟩
  | 4 => ⟨S_, .i32⟩
  | 5 => ⟨S4096, .i32⟩
  | 6 => ⟨S4096, .i1⟩
  | 7 => ⟨S4096, .i1⟩
  | 8 => ⟨S4096, .f32⟩
  | 9 => ⟨S4096, .f32⟩
  | 10 => ⟨S10000x1024, .f32⟩
  | 11 => ⟨S1024x10000, .f32⟩
  | 12 => ⟨S4096x10000, .f32⟩
  | 13 => ⟨S10000, .f32⟩
  | 14 => ⟨S1x10000, .f32⟩
  | 15 => ⟨S4096x10000, .f32⟩
  | 16 => ⟨S4096x10000, .f32⟩
  | 17 => ⟨S_, .f32⟩
  | 18 => ⟨S4096, .f32⟩
  | 19 => ⟨S_, .f32⟩
  | 20 => ⟨S4096, .f32⟩
  | 21 => ⟨S4096, .f32⟩
  | 22 => ⟨S4096x1, .f32⟩
  | 23 => ⟨S4096x10000, .f32⟩
  | 24 => ⟨S4096x10000, .f32⟩
  | 25 => ⟨S4096x10000, .f32⟩
  | 26 => ⟨S_, .f32⟩
  | 27 => ⟨S4096, .f32⟩
  | 28 => ⟨S4096x1, .f32⟩
  | 29 => ⟨S4096x1, .f32⟩
  | 30 => ⟨S4096x10000, .f32⟩
  | 31 => ⟨S4096x10000, .f32⟩
  | 32 => ⟨S_, .i32⟩
  | 33 => ⟨S4096, .i32⟩
  | 34 => ⟨S4096, .i32⟩
  | 35 => ⟨S_, .i32⟩
  | 36 => ⟨S_, .i32⟩
  | 37 => ⟨S_, .i32⟩
  | 38 => ⟨S4096, .i32⟩
  | 39 => ⟨S4096, .i32⟩
  | 40 => ⟨S_, .i32⟩
  | 41 => ⟨S4096, .i32⟩
  | 42 => ⟨S4096, .i32⟩
  | 43 => ⟨S4096x1, .f32⟩
  | 44 => ⟨S4096, .f32⟩
  | 45 => ⟨S4096x1, .i32⟩
  | 46 => ⟨S_, .i32⟩
  | 47 => ⟨S4096x1, .i32⟩
  | 48 => ⟨S4096x1, .i1⟩
  | 49 => ⟨S_, .i32⟩
  | 50 => ⟨S4096x1, .i32⟩
  | 51 => ⟨S4096x1, .i32⟩
  | 52 => ⟨S4096x1, .i32⟩
  | 53 => ⟨S4096x1x1, .i32⟩
  | 54 => ⟨S1, .i32⟩
  | 55 => ⟨S_, .i32⟩
  | 56 => ⟨S4096x1x1, .i32⟩
  | 57 => ⟨S4096x1x1, .i1⟩
  | 58 => ⟨S1x1x1, .i32⟩
  | 59 => ⟨S4096x1x1, .i32⟩
  | 60 => ⟨S4096x1x1, .i1⟩
  | 61 => ⟨S4096x1x1, .i1⟩
  | 62 => ⟨S_, .i1⟩
  | 63 => ⟨S4096x1, .i1⟩
  | 64 => ⟨S4096x1, .f32⟩
  | 65 => ⟨S_, .f32⟩
  | 66 => ⟨S4096x1, .f32⟩
  | 67 => ⟨S4096x1, .f32⟩
  | 68 => ⟨S4096, .f32⟩
  | 69 => ⟨S4096, .f32⟩
  | 70 => ⟨S_, .i32⟩
  | 71 => ⟨S4096, .i32⟩
  | 72 => ⟨S4096, .i1⟩
  | 73 => ⟨S_, .i32⟩
  | 74 => ⟨S4096, .i32⟩
  | 75 => ⟨S4096, .i1⟩
  | 76 => ⟨S4096, .i1⟩
  | 77 => ⟨S4096, .f32⟩
  | 78 => ⟨S4096, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v9 : Ref sig .tc := ⟨.hbm, 29, rfl⟩
abbrev main_c : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v10 : Ref sig .tc := ⟨.hbm, 37, rfl⟩
abbrev main_v11 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_cst : Ref sig .tc := ⟨.hbm, 58, rfl⟩
abbrev main_call2_v14 : Ref sig .tc := ⟨.hbm, 59, rfl⟩
abbrev main_v12 : Ref sig .tc := ⟨.hbm, 60, rfl⟩
abbrev main_v13 : Ref sig .tc := ⟨.hbm, 61, rfl⟩
abbrev main_c_1 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_cst : Ref sig .tc := ⟨.hbm, 66, rfl⟩
abbrev main_call3_v0 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_call4_cst : Ref sig .tc := ⟨.hbm, 76, rfl⟩
abbrev main_call4_v0 : Ref sig .tc := ⟨.hbm, 77, rfl⟩
abbrev main_call4_cst_0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_v6 : Ref sig .tc := ⟨.hbm, 84, rfl⟩
abbrev main_call4_cst_1 : Ref sig .tc := ⟨.hbm, 85, rfl⟩
abbrev main_call4_v7 : Ref sig .tc := ⟨.hbm, 86, rfl⟩
abbrev main_call4_v8 : Ref sig .tc := ⟨.hbm, 87, rfl⟩
abbrev main_call4_v9 : Ref sig .tc := ⟨.hbm, 88, rfl⟩
abbrev main_call4_v10 : Ref sig .tc := ⟨.hbm, 89, rfl⟩
abbrev main_v25 : Ref sig .tc := ⟨.hbm, 90, rfl⟩
abbrev main_c_2 : Ref sig .tc := ⟨.hbm, 91, rfl⟩
abbrev main_v26 : Ref sig .tc := ⟨.hbm, 92, rfl⟩
abbrev main_v27 : Ref sig .tc := ⟨.hbm, 93, rfl⟩
abbrev main_c_3 : Ref sig .tc := ⟨.hbm, 94, rfl⟩
abbrev main_c_4 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_call6_c : Ref sig .tc := ⟨.hbm, 105, rfl⟩
abbrev main_call6_v0 : Ref sig .tc := ⟨.hbm, 106, rfl⟩
abbrev main_call6_v1 : Ref sig .tc := ⟨.hbm, 107, rfl⟩
abbrev main_call6_c_0 : Ref sig .tc := ⟨.hbm, 108, rfl⟩
abbrev main_call6_v2 : Ref sig .tc := ⟨.hbm, 109, rfl⟩
abbrev main_call6_v3 : Ref sig .tc := ⟨.hbm, 110, rfl⟩
abbrev main_call6_v4 : Ref sig .tc := ⟨.hbm, 111, rfl⟩
abbrev main_call6_v5 : Ref sig .tc := ⟨.hbm, 112, rfl⟩
abbrev main_call6_c_1 : Ref sig .tc := ⟨.hbm, 113, rfl⟩
abbrev main_call6_c_2 : Ref sig .tc := ⟨.hbm, 114, rfl⟩
abbrev main_call6_v6 : Ref sig .tc := ⟨.hbm, 115, rfl⟩
abbrev main_call6_v7 : Ref sig .tc := ⟨.hbm, 116, rfl⟩
abbrev main_call6_v8 : Ref sig .tc := ⟨.hbm, 117, rfl⟩
abbrev main_call6_v9 : Ref sig .tc := ⟨.hbm, 118, rfl⟩
abbrev main_call6_v10 : Ref sig .tc := ⟨.hbm, 119, rfl⟩
abbrev main_call6_v11 : Ref sig .tc := ⟨.hbm, 120, rfl⟩
abbrev main_call6_c_3 : Ref sig .tc := ⟨.hbm, 121, rfl⟩
abbrev main_call6_v12 : Ref sig .tc := ⟨.hbm, 122, rfl⟩
abbrev main_call6_v13 : Ref sig .tc := ⟨.hbm, 123, rfl⟩
abbrev main_call6_cst : Ref sig .tc := ⟨.hbm, 124, rfl⟩
abbrev main_call6_v14 : Ref sig .tc := ⟨.hbm, 125, rfl⟩
abbrev main_v32 : Ref sig .tc := ⟨.hbm, 126, rfl⟩
abbrev main_v33 : Ref sig .tc := ⟨.hbm, 127, rfl⟩
abbrev main_v34 : Ref sig .tc := ⟨.hbm, 128, rfl⟩
abbrev main_c_5 : Ref sig .tc := ⟨.hbm, 129, rfl⟩
abbrev main_v35 : Ref sig .tc := ⟨.hbm, 130, rfl⟩
abbrev main_v36 : Ref sig .tc := ⟨.hbm, 131, rfl⟩
abbrev main_c_6 : Ref sig .tc := ⟨.hbm, 132, rfl⟩
abbrev main_v37 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_call8_cst : Ref sig .tc := ⟨.hbm, 145, rfl⟩
abbrev main_call8_v0 : Ref sig .tc := ⟨.hbm, 146, rfl⟩
abbrev main_call8_cst_0 : Ref sig .tc := ⟨.hbm, 147, rfl⟩
abbrev main_call8_v1 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_call8_v5 : Ref sig .tc := ⟨.hbm, 152, rfl⟩
abbrev main_call8_v6 : Ref sig .tc := ⟨.hbm, 153, rfl⟩
abbrev main_call8_cst_1 : Ref sig .tc := ⟨.hbm, 154, rfl⟩
abbrev main_call8_v7 : Ref sig .tc := ⟨.hbm, 155, rfl⟩
abbrev main_call8_v8 : Ref sig .tc := ⟨.hbm, 156, rfl⟩
abbrev main_call8_v9 : Ref sig .tc := ⟨.hbm, 157, rfl⟩
abbrev main_call8_v10 : Ref sig .tc := ⟨.hbm, 158, rfl⟩
abbrev main_v49 : Ref sig .tc := ⟨.hbm, 159, rfl⟩
abbrev main_c_7 : Ref sig .tc := ⟨.hbm, 160, rfl⟩
abbrev main_v50 : Ref sig .tc := ⟨.hbm, 161, rfl⟩
abbrev main_v51 : Ref sig .tc := ⟨.hbm, 162, rfl⟩
abbrev main_c_8 : Ref sig .tc := ⟨.hbm, 163, rfl⟩
abbrev main_c_9 : Ref sig .tc := ⟨.hbm, 164, rfl⟩
abbrev main_call9_v0 : Ref sig .tc := ⟨.hbm, 165, rfl⟩
abbrev main_call9_v1 : Ref sig .tc := ⟨.hbm, 166, rfl⟩
abbrev main_call9_v2 : Ref sig .tc := ⟨.hbm, 167, rfl⟩
abbrev main_call9_v3 : Ref sig .tc := ⟨.hbm, 168, rfl⟩
abbrev main_call9_v4 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_call10_c : Ref sig .tc := ⟨.hbm, 174, rfl⟩
abbrev main_call10_v0 : Ref sig .tc := ⟨.hbm, 175, rfl⟩
abbrev main_call10_v1 : Ref sig .tc := ⟨.hbm, 176, rfl⟩
abbrev main_call10_c_0 : Ref sig .tc := ⟨.hbm, 177, rfl⟩
abbrev main_call10_v2 : Ref sig .tc := ⟨.hbm, 178, rfl⟩
abbrev main_call10_v3 : Ref sig .tc := ⟨.hbm, 179, rfl⟩
abbrev main_call10_v4 : Ref sig .tc := ⟨.hbm, 180, rfl⟩
abbrev main_call10_v5 : Ref sig .tc := ⟨.hbm, 181, rfl⟩
abbrev main_call10_c_1 : Ref sig .tc := ⟨.hbm, 182, rfl⟩
abbrev main_call10_c_2 : Ref sig .tc := ⟨.hbm, 183, rfl⟩
abbrev main_call10_v6 : Ref sig .tc := ⟨.hbm, 184, rfl⟩
abbrev main_call10_v7 : Ref sig .tc := ⟨.hbm, 185, rfl⟩
abbrev main_call10_v8 : Ref sig .tc := ⟨.hbm, 186, rfl⟩
abbrev main_call10_v9 : Ref sig .tc := ⟨.hbm, 187, rfl⟩
abbrev main_call10_v10 : Ref sig .tc := ⟨.hbm, 188, rfl⟩
abbrev main_call10_v11 : Ref sig .tc := ⟨.hbm, 189, rfl⟩
abbrev main_call10_c_3 : Ref sig .tc := ⟨.hbm, 190, rfl⟩
abbrev main_call10_v12 : Ref sig .tc := ⟨.hbm, 191, rfl⟩
abbrev main_call10_v13 : Ref sig .tc := ⟨.hbm, 192, rfl⟩
abbrev main_call10_cst : Ref sig .tc := ⟨.hbm, 193, rfl⟩
abbrev main_call10_v14 : Ref sig .tc := ⟨.hbm, 194, rfl⟩
abbrev main_v56 : Ref sig .tc := ⟨.hbm, 195, rfl⟩
abbrev main_v57 : Ref sig .tc := ⟨.hbm, 196, rfl⟩
abbrev main_v58 : Ref sig .tc := ⟨.hbm, 197, rfl⟩
abbrev main_c_10 : Ref sig .tc := ⟨.hbm, 198, rfl⟩
abbrev main_v59 : Ref sig .tc := ⟨.hbm, 199, rfl⟩
abbrev main_v60 : Ref sig .tc := ⟨.hbm, 200, rfl⟩
abbrev main_c_11 : Ref sig .tc := ⟨.hbm, 201, rfl⟩
abbrev main_v61 : Ref sig .tc := ⟨.hbm, 202, rfl⟩
abbrev main_v62 : Ref sig .tc := ⟨.hbm, 203, rfl⟩
abbrev main_v63 : Ref sig .tc := ⟨.hbm, 204, rfl⟩
abbrev main_v64 : Ref sig .tc := ⟨.hbm, 205, rfl⟩
abbrev main_v65 : Ref sig .tc := ⟨.hbm, 206, rfl⟩

abbrev nD : Nat := 1
abbrev τ : Topo := Topo.v7x

variable {F : FTy → Type} [FloatOps F]

class Facts₀ : Prop where
  slices_S50000x1024_S20000x1024_0_0 : S50000x1024.Slices ![0, 0] S20000x1024
  concatenates_S20000x1024_S2x1024_S20002x1024_d0 : Shape.Concatenates [S20000x1024, S2x1024] S20002x1024 0
  slices_S50000_S20000_0 : S50000.Slices ![0] S20000
  concatenates_S20000_S2_S20002_d0 : Shape.Concatenates [S20000, S2] S20002 0
  transposes_S20002x1024_S1024x20002_1_0 : S20002x1024.Transposes [1, 0] S1024x20002
  bcast_S20002_S1x20002_1 : S20002.BroadcastsInDim S1x20002 (![1] : Fin 1 → Fin S1x20002.rank)
  bcast_S1x20002_S4096x20002_0_1 : S1x20002.BroadcastsInDim S4096x20002 (![0, 1] : Fin 2 → Fin S4096x20002.rank)
  reducesTo_S4096x20002_S4096_d1 : S4096x20002.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x20002_0_1 : S4096x1.BroadcastsInDim S4096x20002 (![0, 1] : Fin 2 → Fin S4096x20002.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  slices_S50000x1024_S20000x1024_20000_0 : S50000x1024.Slices ![20000, 0] S20000x1024
  transposes_S20000x1024_S1024x20000_1_0 : S20000x1024.Transposes [1, 0] S1024x20000
  slices_S50000_S20000_20000 : S50000.Slices ![20000] S20000
  bcast_S20000_S1x20000_1 : S20000.BroadcastsInDim S1x20000 (![1] : Fin 1 → Fin S1x20000.rank)
  bcast_S1x20000_S4096x20000_0_1 : S1x20000.BroadcastsInDim S4096x20000 (![0, 1] : Fin 2 → Fin S4096x20000.rank)
  reducesTo_S4096x20000_S4096_d1 : S4096x20000.ReducesTo [1] S4096
  bcast_S4096x1_S4096x20000_0_1 : S4096x1.BroadcastsInDim S4096x20000 (![0, 1] : Fin 2 → Fin S4096x20000.rank)
  slices_S4096x20002_S4096x1_0_20001 : S4096x20002.Slices ![0, 20001] S4096x1
  slices_S50000x1024_S10000x1024_40000_0 : S50000x1024.Slices ![40000, 0] S10000x1024
  transposes_S10000x1024_S1024x10000_1_0 : S10000x1024.Transposes [1, 0] S1024x10000
  slices_S50000_S10000_40000 : S50000.Slices ![40000] S10000
  bcast_S10000_S1x10000_1 : S10000.BroadcastsInDim S1x10000 (![1] : Fin 1 → Fin S1x10000.rank)
  bcast_S1x10000_S4096x10000_0_1 : S1x10000.BroadcastsInDim S4096x10000 (![0, 1] : Fin 2 → Fin S4096x10000.rank)
  reducesTo_S4096x10000_S4096_d1 : S4096x10000.ReducesTo [1] S4096
  bcast_S4096x1_S4096x10000_0_1 : S4096x1.BroadcastsInDim S4096x10000 (![0, 1] : Fin 2 → Fin S4096x10000.rank)
  slices_S4096x20002_S4096x1_0_20000 : S4096x20002.Slices ![0, 20000] S4096x1
  dot_S4096x1024_S1024x20002_S4096x20002_1_0_0_1_n_n_wf : DotDims.WF S4096x1024 S1024x20002 S4096x20002 [1] [0] [0] [1] [] []
  gather_S4096x20002_S4096x1x1_S4096x1_n_1_0_0_1_2_11_wf : GatherDims.WF S4096x20002 S4096x1x1 S4096x1 [] [1] [0] [1] [0] 2 ![1, 1]
  dot_S4096x1024_S1024x20000_S4096x20000_1_0_0_1_n_n_wf : DotDims.WF S4096x1024 S1024x20000 S4096x20000 [1] [0] [0] [1] [] []
  gather_S4096x20000_S4096x1x1_S4096x1_n_1_0_0_1_2_11_wf : GatherDims.WF S4096x20000 S4096x1x1 S4096x1 [] [1] [0] [1] [0] 2 ![1, 1]
  dot_S4096x1024_S1024x10000_S4096x10000_1_0_0_1_n_n_wf : DotDims.WF S4096x1024 S1024x10000 S4096x10000 [1] [0] [0] [1] [] []
  gather_S4096x10000_S4096x1x1_S4096x1_n_1_0_0_1_2_11_wf : GatherDims.WF S4096x10000 S4096x1x1 S4096x1 [] [1] [0] [1] [0] 2 ![1, 1]

variable [Facts₀]

def dot_S4096x1024_S1024x20002_S4096x20002_1_0_0_1_n_n : DotDims S4096x1024 S1024x20002 S4096x20002 where
  lhsContracting := [1]
  rhsContracting := [0]
  lhsNonContracting := [0]
  rhsNonContracting := [1]
  lhsBatch := []
  rhsBatch := []
  wf := dot_S4096x1024_S1024x20002_S4096x20002_1_0_0_1_n_n_wf
def gather_S4096x20002_S4096x1x1_S4096x1_n_1_0_0_1_2_11 : GatherDims S4096x20002 S4096x1x1 S4096x1 where
  offsetDims := []
  collapsedSliceDims := [1]
  operandBatchingDims := [0]
  startIndicesBatchingDims := [0]
  startIndexMap := [1]
  indexVectorDim := 2
  sliceSizes := ![1, 1]
  wf := gather_S4096x20002_S4096x1x1_S4096x1_n_1_0_0_1_2_11_wf
def dot_S4096x1024_S1024x20000_S4096x20000_1_0_0_1_n_n : DotDims S4096x1024 S1024x20000 S4096x20000 where
  lhsContracting := [1]
  rhsContracting := [0]
  lhsNonContracting := [0]
  rhsNonContracting := [1]
  lhsBatch := []
  rhsBatch := []
  wf := dot_S4096x1024_S1024x20000_S4096x20000_1_0_0_1_n_n_wf
def gather_S4096x20000_S4096x1x1_S4096x1_n_1_0_0_1_2_11 : GatherDims S4096x20000 S4096x1x1 S4096x1 where
  offsetDims := []
  collapsedSliceDims := [1]
  operandBatchingDims := [0]
  startIndicesBatchingDims := [0]
  startIndexMap := [1]
  indexVectorDim := 2
  sliceSizes := ![1, 1]
  wf := gather_S4096x20000_S4096x1x1_S4096x1_n_1_0_0_1_2_11_wf
def dot_S4096x1024_S1024x10000_S4096x10000_1_0_0_1_n_n : DotDims S4096x1024 S1024x10000 S4096x10000 where
  lhsContracting := [1]
  rhsContracting := [0]
  lhsNonContracting := [0]
  rhsNonContracting := [1]
  lhsBatch := []
  rhsBatch := []
  wf := dot_S4096x1024_S1024x10000_S4096x10000_1_0_0_1_n_n_wf
def gather_S4096x10000_S4096x1x1_S4096x1_n_1_0_0_1_2_11 : GatherDims S4096x10000 S4096x1x1 S4096x1 where
  offsetDims := []
  collapsedSliceDims := [1]
  operandBatchingDims := [0]
  startIndicesBatchingDims := [0]
  startIndexMap := [1]
  indexVectorDim := 2
  sliceSizes := ![1, 1]
  wf := gather_S4096x10000_S4096x1x1_S4096x1_n_1_0_0_1_2_11_wf

class Facts : Prop extends Facts₀ where

variable [Facts]
-- ==== Proof.BR0Common.lean ====
import proofs.«429997_j76270029243071_3_alg».proof.Proof.Gen.Kernel.Launch
import proofs.«429997_j76270029243071_3_alg».proof.Proof.Gen.Kernel.Skeleton
import proofs.«429997_j76270029243071_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev condFirst0 (i : grid0.Coords) : Prop := (Scalar.cmpi .ne (Scalar.extui (Scalar.cmpi .eq (BitVec.ofNat 32 (i 1).val) 0#32)) 0#32) = 1#1

theorem hcondFirst0 : ∀ t : Fin cfg0.N, condFirst0 (grid0.coords t) ↔ t.val % 10 = 0 :=
  (by decide +kernel : ∀ t : Fin grid0.N, condFirst0 (grid0.coords t) ↔ t.val % 10 = 0)

abbrev condLast0 (i : grid0.Coords) : Prop := k0_cond2 i = 1#1

theorem hcondLast0 : ∀ t : Fin cfg0.N, condLast0 (grid0.coords t) ↔ t.val % 10 = 9 :=
  (by decide +kernel : ∀ t : Fin grid0.N, condLast0 (grid0.coords t) ↔ t.val % 10 = 9)

theorem idleOut0 : ∀ t : Fin cfg0.N, ¬condLast0 (grid0.coords t) →
    (cfg0.idle 4 (grid0.coords t) = true ∧ (cfg0.win 4).flush t = false) ∧ (cfg0.idle 5 (grid0.coords t) = true ∧ (cfg0.win 5).flush t = false)
      ∧ (cfg0.idle 6 (grid0.coords t) = true ∧ (cfg0.win 6).flush t = false) := by decide +kernel
theorem liveOut0 : ∀ t : Fin cfg0.N, condLast0 (grid0.coords t) →
    cfg0.idle 4 (grid0.coords t) = false ∧ cfg0.idle 5 (grid0.coords t) = false ∧ cfg0.idle 6 (grid0.coords t) = false := by decide +kernel

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d))
          ∗ Pipeline.scopedRestBut (Ix := Unit) (Name := ℕ) (U := UR sig nD τ) (Lvl := ℕ) (Val := Elt F) spec0 c [cc0_scratch0, cc0_scratch1, cc0_scratch2])
          ∗ (∃ r, prngReg c r)) := by
  unfold Pipeline.ΦA; rw [scopedRest0_split]; simp only [scM0_0, scM0_1, scM0_2, owns_whole]
  rfl

end Cert.Kernel.Hand

end
-- ==== Proof.BR0Runs.lean ====
import proofs.«429997_j76270029243071_3_alg».proof.Proof.BR0Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg2 : Memref sig .tc .vmem S512x1024 .bf16) (harg2 : arg2.IsWhole) (arg3 : Memref sig .tc .vmem S2000x1024 .bf16) (harg3 : arg3.IsWhole)
  (arg4 : Memref sig .tc .vmem S1x1x2000 .f32) (harg4 : arg4.IsWhole) (arg5 : Memref sig .tc .vmem S512x1 .i32) (harg5 : arg5.IsWhole)
  (arg6 : Memref sig .tc .vmem S512x1 .f32) (harg6 : arg6.IsWhole) (arg7 : Memref sig .tc .vmem S512x1 .f32) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1 .f32) (harg10 : arg10.IsWhole) (arg11 : Memref sig .tc .vmem S512x1 .f32) (harg11 : arg11.IsWhole)

set_option maxHeartbeats 4000000 in
noncomputable def kernelRunA0 (hc0 : condFirst0 i) (hc1 : ¬condLast0 i)
    (x0 : Vec F S512x1024 .bf16) (x1 : Vec F S2000x1024 .bf16) (x2 : Vec F S1x1x2000 .f32) (x3 : Vec F S512x1 .i32) :
    Σ' (LS9 : List (View.Piece (Elt F) S512x1 .f32)) (LS10 : List (View.Piece (Elt F) S512x1 .f32)), { LS11 : List (View.Piece (Elt F) S512x1 .f32) //
      ∀ (xi6 xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc0__cluster_pass_kernel i arg2 harg2 arg3 harg3 arg4 harg4 arg5 harg5 arg6 harg6 arg7 harg7 arg8 harg8 arg9 harg9 arg10 harg10 arg11 harg11) K } := by
  refine ⟨?_, ?_, ?_, fun xi6 xi7 xi8 E K => ?run⟩
  case run =>
    simp only [cc0__cluster_pass_kernel_eq_skeleton]; unfold cc0__cluster_pass_kernel_skel
    simp only [k0_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%ds9, %fs9, -, HS9⟩, ⟨%ds10, %fs10, -, HS10⟩, ⟨%ds11, %fs11, -, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS9]; · iexists _; iexact HS9
    isplitl [HS10]; · iexists _; iexact HS10
    iexists _; iexact HS11

set_option maxHeartbeats 4000000 in
noncomputable def kernelRunB0 (hc0 : ¬condFirst0 i) (hc1 : ¬condLast0 i)
    (x0 : Vec F S512x1024 .bf16) (x1 : Vec F S2000x1024 .bf16) (x2 : Vec F S1x1x2000 .f32) (x3 : Vec F S512x1 .i32) (xs9 xs10 xs11 : Vec F S512x1 .f32) :
    Σ' (LS9 : List (View.Piece (Elt F) S512x1 .f32)) (LS10 : List (View.Piece (Elt F) S512x1 .f32)), { LS11 : List (View.Piece (Elt F) S512x1 .f32) //
      ∀ (xi6 xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc0__cluster_pass_kernel i arg2 harg2 arg3 harg3 arg4 harg4 arg5 harg5 arg6 harg6 arg7 harg7 arg8 harg8 arg9 harg9 arg10 harg10 arg11 harg11) K } := by
  refine ⟨?_, ?_, ?_, fun xi6 xi7 xi8 E K => ?run⟩
  case run =>
    simp only [cc0__cluster_pass_kernel_eq_skeleton]; unfold cc0__cluster_pass_kernel_skel
    simp only [k0_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS9]; · iexists _; iexact HS9
    isplitl [HS10]; · iexists _; iexact HS10
    iexists _; iexact HS11

set_option maxHeartbeats 4000000 in
noncomputable def kernelRunC0 (hc0 : ¬condFirst0 i) (hc1 : condLast0 i)
    (x0 : Vec F S512x1024 .bf16) (x1 : Vec F S2000x1024 .bf16) (x2 : Vec F S1x1x2000 .f32) (x3 : Vec F S512x1 .i32) (xs9 xs10 xs11 : Vec F S512x1 .f32) :
    Σ' (L6 : List (View.Piece (Elt F) S512x1 .f32)) (L7 : List (View.Piece (Elt F) S512x1 .f32)) (L8 : List (View.Piece (Elt F) S512x1 .f32)) (LS9 : List (View.Piece (Elt F) S512x1 .f32)) (LS10 : List (View.Piece (Elt F) S512x1 .f32)), { LS11 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc0__cluster_pass_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__cluster_pass_kernel_eq_skeleton]; unfold cc0__cluster_pass_kernel_skel
    simp only [k0_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    isplitl [H8]; · iexists _; iexact H8
    isplitl [HS9]; · iexists _; iexact HS9
    isplitl [HS10]; · iexists _; iexact HS10
    iexists _; iexact HS11

end Cert.Kernel.Hand

end
-- ==== Proof.BR0Data.lean ====
import proofs.«429997_j76270029243071_3_alg».proof.Proof.BR0Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

structure Cols0 (F : FTy → Type) [FloatOps F] where
  m : Vec F S512x1 .f32
  l : Vec F S512x1 .f32
  s : Vec F S512x1 .f32

def colsInit0 : Cols0 F := ⟨k0_pay4 (F := F), k0_pay5 (F := F), k0_pay6 (F := F)⟩

def colsStep0 (i : grid0.Coords) (x0 : Vec F S512x1024 .bf16) (x1 : Vec F S2000x1024 .bf16) (x2 : Vec F S1x1x2000 .f32) (x3 : Vec F S512x1 .i32)
    (σ : Cols0 F) : Cols0 F :=
  ⟨k0_pay2 (k0_pay9 x0 x1 x2 σ.m),
   k0_pay1 (k0_pay7 x0 x1 x2) (k0_pay9 x0 x1 x2 σ.m) (k0_pay10 x0 x1 x2 σ.m σ.m) σ.l,
   k0_pay3 (k0_pay8 i x0 x1 x2 x3) σ.s⟩

section

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def colsAt0 (c : Dev nD) : (n : ℕ) → n < cfg0.N → Cols0 F
  | 0, hn => colsStep0 (grid0.coords ⟨0, hn⟩) (iblk0 V c 0 ⟨0, hn⟩) (iblk0 V c 1 ⟨0, hn⟩) (iblk0 V c 2 ⟨0, hn⟩) (iblk0 V c 3 ⟨0, hn⟩) colsInit0
  | n + 1, hn => colsStep0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩)
      (if (n + 1) % 10 = 0 then colsInit0 else colsAt0 c n (Nat.lt_of_succ_lt hn))

theorem colsAt0_first (c : Dev nD) (t : Fin cfg0.N) (h0 : t.val % 10 = 0) :
    colsAt0 V c t.val t.isLt = colsStep0 (grid0.coords t) (iblk0 V c 0 t) (iblk0 V c 1 t) (iblk0 V c 2 t) (iblk0 V c 3 t) colsInit0 := by
  obtain ⟨n, hn⟩ := t
  cases n with
  | zero => rfl
  | succ n => exact (congrArg (colsStep0 _ _ _ _ _) (if_pos h0))

theorem colsAt0_next (c : Dev nD) (t : Fin cfg0.N) (h0 : ¬t.val % 10 = 0) :
    colsAt0 V c t.val t.isLt = colsStep0 (grid0.coords t) (iblk0 V c 0 t) (iblk0 V c 1 t) (iblk0 V c 2 t) (iblk0 V c 3 t)
      (colsAt0 V c (t.val - 1) (Nat.lt_of_le_of_lt (Nat.sub_le _ _) t.isLt)) := by
  obtain ⟨n, hn⟩ := t
  cases n with
  | zero => exact absurd (Nat.zero_mod _) h0
  | succ n => exact (congrArg (colsStep0 _ _ _ _ _) (if_neg h0))

def PhiS0 (c : Dev nD) : (n : ℕ) → n ≤ cfg0.N → sProp 𝕄
  | 0, _ => Pipeline.ΦA spec0 c
  | n + 1, hn => iprop(iprop(iprop(owns (c : Thread nD τ) scM0_0 fullShare (colsAt0 V c n hn).m ∗ owns (c : Thread nD τ) scM0_1 fullShare (colsAt0 V c n hn).l ∗ owns (c : Thread nD τ) scM0_2 fullShare (colsAt0 V c n hn).s)
      ∗ Pipeline.scopedRestBut (Ix := Unit) (Name := ℕ) (U := UR sig nD τ) (Lvl := ℕ) (Val := Elt F) spec0 c [cc0_scratch0, cc0_scratch1, cc0_scratch2])
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (colsAt0 V c n hn).m ∗ owns (c : Thread nD τ) scM0_1 fullShare (colsAt0 V c n hn).l ∗ owns (c : Thread nD τ) scM0_2 fullShare (colsAt0 V c n hn).s)
      ∗ Pipeline.scopedRestBut (Ix := Unit) (Name := ℕ) (U := UR sig nD τ) (Lvl := ℕ) (Val := Elt F) spec0 c [cc0_scratch0, cc0_scratch1, cc0_scratch2])
      ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (colsAt0 V c (n - 1) (by omega)).m ∗ owns (c : Thread nD τ) scM0_1 fullShare (colsAt0 V c (n - 1) (by omega)).l ∗ owns (c : Thread nD τ) scM0_2 fullShare (colsAt0 V c (n - 1) (by omega)).s)
      ∗ Pipeline.scopedRestBut (Ix := Unit) (Name := ℕ) (U := UR sig nD τ) (Lvl := ℕ) (Val := Elt F) spec0 c [cc0_scratch0, cc0_scratch1, cc0_scratch2])
      ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (colsAt0 V c t.val t.isLt).m
    | ⟨5, _⟩ => (colsAt0 V c t.val t.isLt).l
    | ⟨6, _⟩ => (colsAt0 V c t.val t.isLt).s
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (colsAt0 V c t.val t.isLt).m := by dsimp only [dat0]
theorem after0_5 (c : Dev nD) (t : Fin cfg0.N) : (dat0 V c).after 5 t = (colsAt0 V c t.val t.isLt).l := by dsimp only [dat0]
theorem after0_6 (c : Dev nD) (t : Fin cfg0.N) : (dat0 V c).after 6 t = (colsAt0 V c t.val t.isLt).s := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

end

end Cert.Kernel.Hand

end
-- ==== Proof.BR0Pieces.lean ====
import proofs.«429997_j76270029243071_3_alg».proof.Proof.BR0Runs
import proofs.«429997_j76270029243071_3_alg».proof.Proof.BR0Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

variable {c : Dev nD} {i : grid0.Coords} {arg2 : Memref sig .tc .vmem S512x1024 .bf16} {harg2 : arg2.IsWhole} {arg3 : Memref sig .tc .vmem S2000x1024 .bf16} {harg3 : arg3.IsWhole}
  {arg4 : Memref sig .tc .vmem S1x1x2000 .f32} {harg4 : arg4.IsWhole} {arg5 : Memref sig .tc .vmem S512x1 .i32} {harg5 : arg5.IsWhole}
  {arg6 : Memref sig .tc .vmem S512x1 .f32} {harg6 : arg6.IsWhole} {arg7 : Memref sig .tc .vmem S512x1 .f32} {harg7 : arg7.IsWhole}
  {arg8 : Memref sig .tc .vmem S512x1 .f32} {harg8 : arg8.IsWhole} {arg9 : Memref sig .tc .vmem S512x1 .f32} {harg9 : arg9.IsWhole}
  {arg10 : Memref sig .tc .vmem S512x1 .f32} {harg10 : arg10.IsWhole} {arg11 : Memref sig .tc .vmem S512x1 .f32} {harg11 : arg11.IsWhole}
  {x0 : Vec F S512x1024 .bf16} {x1 : Vec F S2000x1024 .bf16} {x2 : Vec F S1x1x2000 .f32} {x3 : Vec F S512x1 .i32} {xs9 xs10 xs11 : Vec F S512x1 .f32}

/-- Each column's stores in a run end with a store of the whole column, so the column reads back as that store's value: the
    update of the running maximum, sum and selected logit from the reset values (first point) -/
theorem pieceA0 {hc0 : condFirst0 i} {hc1 : ¬condLast0 i} :
    (∀ f, arg9.view.read (Elt F) (arg9.view.writes (Elt F) f (kernelRunA0 c i arg2 harg2 arg3 harg3 arg4 harg4 arg5 harg5 arg6 harg6 arg7 harg7 arg8 harg8 arg9 harg9 arg10 harg10 arg11 harg11 hc0 hc1 x0 x1 x2 x3).1) = (colsStep0 i x0 x1 x2 x3 colsInit0).m)
    ∧ (∀ f, arg10.view.read (Elt F) (arg10.view.writes (Elt F) f (kernelRunA0 c i arg2 harg2 arg3 harg3 arg4 harg4 arg5 harg5 arg6 harg6 arg7 harg7 arg8 harg8 arg9 harg9 arg10 harg10 arg11 harg11 hc0 hc1 x0 x1 x2 x3).2.1) = (colsStep0 i x0 x1 x2 x3 colsInit0).l)
    ∧ (∀ f, arg11.view.read (Elt F) (arg11.view.writes (Elt F) f (kernelRunA0 c i arg2 harg2 arg3 harg3 arg4 harg4 arg5 harg5 arg6 harg6 arg7 harg7 arg8 harg8 arg9 harg9 arg10 harg10 arg11 harg11 hc0 hc1 x0 x1 x2 x3).2.2.1) = (colsStep0 i x0 x1 x2 x3 colsInit0).s) := by
  refine ⟨?_, ?_, ?_⟩ <;> intro f <;>
  · rw [View.read_writes_eq_canon _ _ _ (View.cover_of_tiledL _ S512x1.size (by sl_kernel_rfl))]
    unfold kernelRunA0
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

/-- or from what the columns held (inner point); -/
theorem pieceB0 {hc0 : ¬condFirst0 i} {hc1 : ¬condLast0 i} :
    (∀ f, arg9.view.read (Elt F) (arg9.view.writes (Elt F) f (kernelRunB0 c i arg2 harg2 arg3 harg3 arg4 harg4 arg5 harg5 arg6 harg6 arg7 harg7 arg8 harg8 arg9 harg9 arg10 harg10 arg11 harg11 hc0 hc1 x0 x1 x2 x3 xs9 xs10 xs11).1) = (colsStep0 i x0 x1 x2 x3 ⟨xs9, xs10, xs11⟩).m)
    ∧ (∀ f, arg10.view.read (Elt F) (arg10.view.writes (Elt F) f (kernelRunB0 c i arg2 harg2 arg3 harg3 arg4 harg4 arg5 harg5 arg6 harg6 arg7 harg7 arg8 harg8 arg9 harg9 arg10 harg10 arg11 harg11 hc0 hc1 x0 x1 x2 x3 xs9 xs10 xs11).2.1) = (colsStep0 i x0 x1 x2 x3 ⟨xs9, xs10, xs11⟩).l)
    ∧ (∀ f, arg11.view.read (Elt F) (arg11.view.writes (Elt F) f (kernelRunB0 c i arg2 harg2 arg3 harg3 arg4 harg4 arg5 harg5 arg6 harg6 arg7 harg7 arg8 harg8 arg9 harg9 arg10 harg10 arg11 harg11 hc0 hc1 x0 x1 x2 x3 xs9 xs10 xs11).2.2.1) = (colsStep0 i x0 x1 x2 x3 ⟨xs9, xs10, xs11⟩).s) := by
  refine ⟨?_, ?_, ?_⟩ <;> intro f <;>
  · rw [View.read_writes_eq_canon _ _ _ (View.cover_of_tiledL _ S512x1.size (by sl_kernel_rfl))]
    unfold kernelRunB0
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

/-- at a last point the three output blocks receive the same three values. -/
theorem pieceC0 {hc0 : ¬condFirst0 i} {hc1 : condLast0 i} :
    (∀ f, arg6.view.read (Elt F) (arg6.view.writes (Elt F) f (kernelRunC0 c i arg2 harg2 arg3 harg3 arg4 harg4 arg5 harg5 arg6 harg6 arg7 harg7 arg8 harg8 arg9 harg9 arg10 harg10 arg11 harg11 hc0 hc1 x0 x1 x2 x3 xs9 xs10 xs11).1) = (colsStep0 i x0 x1 x2 x3 ⟨xs9, xs10, xs11⟩).m)
    ∧ (∀ f, arg7.view.read (Elt F) (arg7.view.writes (Elt F) f (kernelRunC0 c i arg2 harg2 arg3 harg3 arg4 harg4 arg5 harg5 arg6 harg6 arg7 harg7 arg8 harg8 arg9 harg9 arg10 harg10 arg11 harg11 hc0 hc1 x0 x1 x2 x3 xs9 xs10 xs11).2.1) = (colsStep0 i x0 x1 x2 x3 ⟨xs9, xs10, xs11⟩).l)
    ∧ (∀ f, arg8.view.read (Elt F) (arg8.view.writes (Elt F) f (kernelRunC0 c i arg2 harg2 arg3 harg3 arg4 harg4 arg5 harg5 arg6 harg6 arg7 harg7 arg8 harg8 arg9 harg9 arg10 harg10 arg11 harg11 hc0 hc1 x0 x1 x2 x3 xs9 xs10 xs11).2.2.1) = (colsStep0 i x0 x1 x2 x3 ⟨xs9, xs10, xs11⟩).s)
    ∧ (∀ f, arg9.view.read (Elt F) (arg9.view.writes (Elt F) f (kernelRunC0 c i arg2 harg2 arg3 harg3 arg4 harg4 arg5 harg5 arg6 harg6 arg7 harg7 arg8 harg8 arg9 harg9 arg10 harg10 arg11 harg11 hc0 hc1 x0 x1 x2 x3 xs9 xs10 xs11).2.2.2.1) = (colsStep0 i x0 x1 x2 x3 ⟨xs9, xs10, xs11⟩).m)
    ∧ (∀ f, arg10.view.read (Elt F) (arg10.view.writes (Elt F) f (kernelRunC0 c i arg2 harg2 arg3 harg3 arg4 harg4 arg5 harg5 arg6 harg6 arg7 harg7 arg8 harg8 arg9 harg9 arg10 harg10 arg11 harg11 hc0 hc1 x0 x1 x2 x3 xs9 xs10 xs11).2.2.2.2.1) = (colsStep0 i x0 x1 x2 x3 ⟨xs9, xs10, xs11⟩).l)
    ∧ (∀ f, arg11.view.read (Elt F) (arg11.view.writes (Elt F) f (kernelRunC0 c i arg2 harg2 arg3 harg3 arg4 harg4 arg5 harg5 arg6 harg6 arg7 harg7 arg8 harg8 arg9 harg9 arg10 harg10 arg11 harg11 hc0 hc1 x0 x1 x2 x3 xs9 xs10 xs11).2.2.2.2.2.1) = (colsStep0 i x0 x1 x2 x3 ⟨xs9, xs10, xs11⟩).s) := by
  refine ⟨?_, ?_, ?_, ?_, ?_, ?_⟩ <;> intro f <;>
  · rw [View.read_writes_eq_canon _ _ _ (View.cover_of_tiledL _ S512x1.size (by sl_kernel_rfl))]
    unfold kernelRunC0
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

end Cert.Kernel.Hand

end
-- ==== Proof.LibOwns.lean ====
import Idealize.ShloMosaic.Lib.Memref
import Idealize.ShloMosaic.Lib.Ring

namespace Idealize.ShloMosaic

open Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {c : Thread nD τ} {cs : Space} {s : Shape} {e : EltTy} {q : PosShare TreeShare}

/-- A buffer whose stores read back as `X` over whatever it held is owned at `X`. -/
theorem owns_of_writes {M : Memref sig c.2.kind cs s e} {L : List (View.Piece Val s e)} {X : s.Idx → Val e}
    (h : ∀ f, M.view.read Val (M.view.writes Val f L) = X) :
    (iprop(∃ f, M.view.loc c ↦[M.view.set]{q} M.view.writes Val f L) : sProp 𝕄) ⊢ owns c M q X := by
  iintro ⟨%f, H⟩; unfold owns; iexists _; isplitr
  · ipureintro; exact h f
  · iexact H

/-- The same for three buffers side by side, -/
theorem owns3_of_writes {M₁ M₂ M₃ : Memref sig c.2.kind cs s e} {L₁ L₂ L₃ : List (View.Piece Val s e)} {X₁ X₂ X₃ : s.Idx → Val e}
    (h : (∀ f, M₁.view.read Val (M₁.view.writes Val f L₁) = X₁) ∧ (∀ f, M₂.view.read Val (M₂.view.writes Val f L₂) = X₂)
      ∧ (∀ f, M₃.view.read Val (M₃.view.writes Val f L₃) = X₃)) :
    (iprop((∃ f, M₁.view.loc c ↦[M₁.view.set]{q} M₁.view.writes Val f L₁) ∗ (∃ f, M₂.view.loc c ↦[M₂.view.set]{q} M₂.view.writes Val f L₂)
        ∗ (∃ f, M₃.view.loc c ↦[M₃.view.set]{q} M₃.view.writes Val f L₃)) : sProp 𝕄)
      ⊢ iprop(owns c M₁ q X₁ ∗ owns c M₂ q X₂ ∗ owns c M₃ q X₃) := by
  iintro ⟨H₁, H₂, H₃⟩
  isplitl [H₁]; · iapply (owns_of_writes h.1); iexact H₁
  isplitl [H₂]; · iapply (owns_of_writes h.2.1); iexact H₂
  iapply (owns_of_writes h.2.2); iexact H₃

/-- and for six. -/
theorem owns6_of_writes {M₁ M₂ M₃ M₄ M₅ M₆ : Memref sig c.2.kind cs s e} {L₁ L₂ L₃ L₄ L₅ L₆ : List (View.Piece Val s e)}
    {X₁ X₂ X₃ X₄ X₅ X₆ : s.Idx → Val e}
    (h : (∀ f, M₁.view.read Val (M₁.view.writes Val f L₁) = X₁) ∧ (∀ f, M₂.view.read Val (M₂.view.writes Val f L₂) = X₂)
      ∧ (∀ f, M₃.view.read Val (M₃.view.writes Val f L₃) = X₃) ∧ (∀ f, M₄.view.read Val (M₄.view.writes Val f L₄) = X₄)
      ∧ (∀ f, M₅.view.read Val (M₅.view.writes Val f L₅) = X₅) ∧ (∀ f, M₆.view.read Val (M₆.view.writes Val f L₆) = X₆)) :
    (iprop((∃ f, M₁.view.loc c ↦[M₁.view.set]{q} M₁.view.writes Val f L₁) ∗ (∃ f, M₂.view.loc c ↦[M₂.view.set]{q} M₂.view.writes Val f L₂)
        ∗ (∃ f, M₃.view.loc c ↦[M₃.view.set]{q} M₃.view.writes Val f L₃) ∗ (∃ f, M₄.view.loc c ↦[M₄.view.set]{q} M₄.view.writes Val f L₄)
        ∗ (∃ f, M₅.view.loc c ↦[M₅.view.set]{q} M₅.view.writes Val f L₅) ∗ (∃ f, M₆.view.loc c ↦[M₆.view.set]{q} M₆.view.writes Val f L₆)) : sProp 𝕄)
      ⊢ iprop(owns c M₁ q X₁ ∗ owns c M₂ q X₂ ∗ owns c M₃ q X₃ ∗ owns c M₄ q X₄ ∗ owns c M₅ q X₅ ∗ owns c M₆ q X₆) := by
  iintro ⟨H₁, H₂, H₃, HS⟩
  isplitl [H₁]; · iapply (owns_of_writes h.1); iexact H₁
  isplitl [H₂]; · iapply (owns_of_writes h.2.1); iexact H₂
  isplitl [H₃]; · iapply (owns_of_writes h.2.2.1); iexact H₃
  iapply (owns3_of_writes h.2.2.2); iexact HS

end Idealize.ShloMosaic
-- ==== Proof.BR0Body.lean ====
import proofs.«429997_j76270029243071_3_alg».proof.Proof.BR0Pieces
import proofs.«429997_j76270029243071_3_alg».proof.Proof.LibOwns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem PhiS0_castSucc (c : Dev nD) (t : Fin cfg0.N) :
    (dat0 V c).Φ t.castSucc = PhiS0 V c t.val (Nat.le_of_lt t.isLt) := by
  dsimp only [dat0]; simp only [Fin.coe_castSucc]

/-- At every position the invariant gives back what the launch handed over: the columns' named contents are forgotten. -/
theorem PhiS0_forget (c : Dev nD) (n : ℕ) (h : n ≤ cfg0.N) : PhiS0 V c n h ⊢ Pipeline.ΦA spec0 c := by
  by_cases hz : n = 0
  · rw [PhiS0_zero V c n h hz]
  rw [PhiS0_pos V c n h hz, PhiA0_eq]
  iintro ⟨⟨⟨HS9, HS10, HS11⟩, Hrest⟩, Hg⟩
  isplitl [HS9 HS10 HS11 Hrest]
  · isplitl [HS9 HS10 HS11]
    · isplitl [HS9]; · iexists _; iexact HS9
      isplitl [HS10]; · iexists _; iexact HS10
      iexists _; iexact HS11
    iexact Hrest
  iexact Hg

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 4800000 in
/-- A point is the first of its row block, an inner one or the last, and the matching run of the body applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ, PhiS0_castSucc V c t]
  have hN : t.val < 80 := lt_of_lt_of_eq t.isLt (show cfg0.N = 80 from N_0)
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2,
    show (dat0 V c).leavesExact 3 t = owns (c : Thread nD τ) (st0_3 t) fullShare ((dat0 V c).after 3 t) from rfl, after0_3]
  by_cases h0 : t.val % 10 = 0
  · have h1 : ¬t.val % 10 = 9 := by omega
    have hq := idleOut0 t (fun h => h1 ((hcondLast0 t).mp h))
    rw [Dat.leavesExact_idle (dat0 V c) 4 t hq.1.1 hq.1.2, Dat.leavesExact_idle (dat0 V c) 5 t hq.2.1.1 hq.2.1.2, Dat.leavesExact_idle (dat0 V c) 6 t hq.2.2.1 hq.2.2.2]
    rw [colsAt0_first V c t h0]
    refine (sep_mono_left (PhiS0_forget V c _ _)).trans ?_
    rw [PhiA0_eq]
    iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunA0 c (grid0.coords t) _ _ _ _ _ _ _ _ _ _ _ _ _ _ _ _ _ _ _ _ ((hcondFirst0 t).mpr h0) (fun h => h1 ((hcondLast0 t).mp h)) (iblk0 V c 0 t) (iblk0 V c 1 t) (iblk0 V c 2 t) (iblk0 V c 3 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS9]; · iexact HS9
    isplitl [HS10]; · iexact HS10
    isplitl [HS11]; · iexact HS11
    iintro ⟨H0, H1, H2, H3, H4, H5, H6, HW⟩
    ihave HS' := (owns3_of_writes (c := (c : Thread nD τ)) (Val := Elt F) pieceA0) $$ HW
    isplitl [HS' Hrest Hg]
    · isplitl [HS' Hrest]
      · isplitl [HS']; · iexact HS'
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  have hz : t.val ≠ 0 := fun e => h0 (by rw [e])
  rw [PhiS0_pos V c _ _ hz]
  by_cases h1 : t.val % 10 = 9
  · rw [show (dat0 V c).leavesExact 4 t = owns (c : Thread nD τ) (st0_4 t) fullShare ((dat0 V c).after 4 t) from by
          unfold Dat.leavesExact; rw [(liveOut0 t ((hcondLast0 t).mpr h1)).1], after0_4,
        show (dat0 V c).leavesExact 5 t = owns (c : Thread nD τ) (st0_5 t) fullShare ((dat0 V c).after 5 t) from by
          unfold Dat.leavesExact; rw [(liveOut0 t ((hcondLast0 t).mpr h1)).2.1], after0_5,
        show (dat0 V c).leavesExact 6 t = owns (c : Thread nD τ) (st0_6 t) fullShare ((dat0 V c).after 6 t) from by
          unfold Dat.leavesExact; rw [(liveOut0 t ((hcondLast0 t).mpr h1)).2.2], after0_6]
    rw [colsAt0_next V c t h0]
    iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunC0 c (grid0.coords t) _ _ _ _ _ _ _ _ _ _ _ _ _ _ _ _ _ _ _ _ (fun h => h0 ((hcondFirst0 t).mp h)) ((hcondLast0 t).mpr h1) (iblk0 V c 0 t) (iblk0 V c 1 t) (iblk0 V c 2 t) (iblk0 V c 3 t) (colsAt0 V c (t.val - 1) (Nat.lt_of_le_of_lt (Nat.sub_le _ _) t.isLt)).m (colsAt0 V c (t.val - 1) (Nat.lt_of_le_of_lt (Nat.sub_le _ _) t.isLt)).l (colsAt0 V c (t.val - 1) (Nat.lt_of_le_of_lt (Nat.sub_le _ _) t.isLt)).s).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS9]; · iexact HS9
    isplitl [HS10]; · iexact HS10
    isplitl [HS11]; · iexact HS11
    iintro ⟨H0, H1, H2, H3, HT⟩
    ihave HT' := (owns6_of_writes (c := (c : Thread nD τ)) (Val := Elt F) pieceC0) $$ HT
    icases HT' with ⟨H4, H5, H6, HS'⟩
    isplitl [HS' Hrest Hg]
    · isplitl [HS' Hrest]
      · isplitl [HS']; · iexact HS'
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  have hq := idleOut0 t (fun h => h1 ((hcondLast0 t).mp h))
  rw [Dat.leavesExact_idle (dat0 V c) 4 t hq.1.1 hq.1.2, Dat.leavesExact_idle (dat0 V c) 5 t hq.2.1.1 hq.2.1.2, Dat.leavesExact_idle (dat0 V c) 6 t hq.2.2.1 hq.2.2.2]
  rw [colsAt0_next V c t h0]
  iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRunB0 c (grid0.coords t) _ _ _ _ _ _ _ _ _ _ _ _ _ _ _ _ _ _ _ _ (fun h => h0 ((hcondFirst0 t).mp h)) (fun h => h1 ((hcondLast0 t).mp h)) (iblk0 V c 0 t) (iblk0 V c 1 t) (iblk0 V c 2 t) (iblk0 V c 3 t) (colsAt0 V c (t.val - 1) (Nat.lt_of_le_of_lt (Nat.sub_le _ _) t.isLt)).m (colsAt0 V c (t.val - 1) (Nat.lt_of_le_of_lt (Nat.sub_le _ _) t.isLt)).l (colsAt0 V c (t.val - 1) (Nat.lt_of_le_of_lt (Nat.sub_le _ _) t.isLt)).s).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS9]; · iexact HS9
  isplitl [HS10]; · iexact HS10
  isplitl [HS11]; · iexact HS11
  iintro ⟨H0, H1, H2, H3, H4, H5, H6, HW⟩
  ihave HS' := (owns3_of_writes (c := (c : Thread nD τ)) (Val := Elt F) pieceB0) $$ HW
  isplitl [HS' Hrest Hg]
  · isplitl [HS' Hrest]
    · isplitl [HS']; · iexact HS'
      iexact Hrest
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

theorem hout0 (c : Dev nD) : (dat0 V c).Φ (Fin.last cfg0.N) ⊢ Pipeline.ΦA spec0 c :=
  show PhiS0 V c (Fin.last cfg0.N).val (Nat.le_of_lt_succ (Fin.last cfg0.N).isLt) ⊢ _ from PhiS0_forget V c _ _

end

end Cert.Kernel.Hand

end
-- ==== Proof.BR1Common.lean ====
import proofs.«429997_j76270029243071_3_alg».proof.Proof.Gen.Kernel.Launch
import proofs.«429997_j76270029243071_3_alg».proof.Proof.Gen.Kernel.Skeleton
import proofs.«429997_j76270029243071_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev condFirst1 (i : grid1.Coords) : Prop := (Scalar.cmpi .ne (Scalar.extui (Scalar.cmpi .eq (BitVec.ofNat 32 (i 1).val) 0#32)) 0#32) = 1#1

theorem hcondFirst1 : ∀ t : Fin cfg1.N, condFirst1 (grid1.coords t) ↔ t.val % 10 = 0 :=
  (by decide +kernel : ∀ t : Fin grid1.N, condFirst1 (grid1.coords t) ↔ t.val % 10 = 0)

abbrev condLast1 (i : grid1.Coords) : Prop := k1_cond2 i = 1#1

theorem hcondLast1 : ∀ t : Fin cfg1.N, condLast1 (grid1.coords t) ↔ t.val % 10 = 9 :=
  (by decide +kernel : ∀ t : Fin grid1.N, condLast1 (grid1.coords t) ↔ t.val % 10 = 9)

theorem idleOut1 : ∀ t : Fin cfg1.N, ¬condLast1 (grid1.coords t) →
    (cfg1.idle 4 (grid1.coords t) = true ∧ (cfg1.win 4).flush t = false) ∧ (cfg1.idle 5 (grid1.coords t) = true ∧ (cfg1.win 5).flush t = false)
      ∧ (cfg1.idle 6 (grid1.coords t) = true ∧ (cfg1.win 6).flush t = false) := by decide +kernel
theorem liveOut1 : ∀ t : Fin cfg1.N, condLast1 (grid1.coords t) →
    cfg1.idle 4 (grid1.coords t) = false ∧ cfg1.idle 5 (grid1.coords t) = false ∧ cfg1.idle 6 (grid1.coords t) = false := by decide +kernel

abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2])
          ∗ (∃ r, prngReg c r)) := by
  unfold Pipeline.ΦA; rw [scopedRest1_split]; simp only [scM1_0, scM1_1, scM1_2, owns_whole]
  rfl

end Cert.Kernel.Hand

end
-- ==== Proof.BR1Runs.lean ====
import proofs.«429997_j76270029243071_3_alg».proof.Proof.BR1Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid1.Coords) (arg2 : Memref sig .tc .vmem S512x1024 .bf16) (harg2 : arg2.IsWhole) (arg3 : Memref sig .tc .vmem S2000x1024 .bf16) (harg3 : arg3.IsWhole)
  (arg4 : Memref sig .tc .vmem S1x1x2000 .f32) (harg4 : arg4.IsWhole) (arg5 : Memref sig .tc .vmem S512x1 .i32) (harg5 : arg5.IsWhole)
  (arg6 : Memref sig .tc .vmem S512x1 .f32) (harg6 : arg6.IsWhole) (arg7 : Memref sig .tc .vmem S512x1 .f32) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1 .f32) (harg10 : arg10.IsWhole) (arg11 : Memref sig .tc .vmem S512x1 .f32) (harg11 : arg11.IsWhole)

set_option maxHeartbeats 4000000 in
noncomputable def kernelRunA1 (hc0 : condFirst1 i) (hc1 : ¬condLast1 i)
    (x0 : Vec F S512x1024 .bf16) (x1 : Vec F S2000x1024 .bf16) (x2 : Vec F S1x1x2000 .f32) (x3 : Vec F S512x1 .i32) :
    Σ' (LS9 : List (View.Piece (Elt F) S512x1 .f32)) (LS10 : List (View.Piece (Elt F) S512x1 .f32)), { LS11 : List (View.Piece (Elt F) S512x1 .f32) //
      ∀ (xi6 xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc1__cluster_pass_kernel i arg2 harg2 arg3 harg3 arg4 harg4 arg5 harg5 arg6 harg6 arg7 harg7 arg8 harg8 arg9 harg9 arg10 harg10 arg11 harg11) K } := by
  refine ⟨?_, ?_, ?_, fun xi6 xi7 xi8 E K => ?run⟩
  case run =>
    simp only [cc1__cluster_pass_kernel_eq_skeleton]; unfold cc1__cluster_pass_kernel_skel
    simp only [k1_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%ds9, %fs9, -, HS9⟩, ⟨%ds10, %fs10, -, HS10⟩, ⟨%ds11, %fs11, -, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS9]; · iexists _; iexact HS9
    isplitl [HS10]; · iexists _; iexact HS10
    iexists _; iexact HS11

set_option maxHeartbeats 4000000 in
noncomputable def kernelRunB1 (hc0 : ¬condFirst1 i) (hc1 : ¬condLast1 i)
    (x0 : Vec F S512x1024 .bf16) (x1 : Vec F S2000x1024 .bf16) (x2 : Vec F S1x1x2000 .f32) (x3 : Vec F S512x1 .i32) (xs9 xs10 xs11 : Vec F S512x1 .f32) :
    Σ' (LS9 : List (View.Piece (Elt F) S512x1 .f32)) (LS10 : List (View.Piece (Elt F) S512x1 .f32)), { LS11 : List (View.Piece (Elt F) S512x1 .f32) //
      ∀ (xi6 xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc1__cluster_pass_kernel i arg2 harg2 arg3 harg3 arg4 harg4 arg5 harg5 arg6 harg6 arg7 harg7 arg8 harg8 arg9 harg9 arg10 harg10 arg11 harg11) K } := by
  refine ⟨?_, ?_, ?_, fun xi6 xi7 xi8 E K => ?run⟩
  case run =>
    simp only [cc1__cluster_pass_kernel_eq_skeleton]; unfold cc1__cluster_pass_kernel_skel
    simp only [k1_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS9]; · iexists _; iexact HS9
    isplitl [HS10]; · iexists _; iexact HS10
    iexists _; iexact HS11

set_option maxHeartbeats 4000000 in
noncomputable def kernelRunC1 (hc0 : ¬condFirst1 i) (hc1 : condLast1 i)
    (x0 : Vec F S512x1024 .bf16) (x1 : Vec F S2000x1024 .bf16) (x2 : Vec F S1x1x2000 .f32) (x3 : Vec F S512x1 .i32) (xs9 xs10 xs11 : Vec F S512x1 .f32) :
    Σ' (L6 : List (View.Piece (Elt F) S512x1 .f32)) (L7 : List (View.Piece (Elt F) S512x1 .f32)) (L8 : List (View.Piece (Elt F) S512x1 .f32)) (LS9 : List (View.Piece (Elt F) S512x1 .f32)) (LS10 : List (View.Piece (Elt F) S512x1 .f32)), { LS11 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc1__cluster_pass_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc1__cluster_pass_kernel_eq_skeleton]; unfold cc1__cluster_pass_kernel_skel
    simp only [k1_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    isplitl [H8]; · iexists _; iexact H8
    isplitl [HS9]; · iexists _; iexact HS9
    isplitl [HS10]; · iexists _; iexact HS10
    iexists _; iexact HS11

end Cert.Kernel.Hand

end
-- ==== Proof.BR1Data.lean ====
import proofs.«429997_j76270029243071_3_alg».proof.Proof.BR1Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

structure Cols1 (F : FTy → Type) [FloatOps F] where
  m : Vec F S512x1 .f32
  l : Vec F S512x1 .f32
  s : Vec F S512x1 .f32

def colsInit1 : Cols1 F := ⟨k1_pay4 (F := F), k1_pay5 (F := F), k1_pay6 (F := F)⟩

def colsStep1 (i : grid1.Coords) (x0 : Vec F S512x1024 .bf16) (x1 : Vec F S2000x1024 .bf16) (x2 : Vec F S1x1x2000 .f32) (x3 : Vec F S512x1 .i32)
    (σ : Cols1 F) : Cols1 F :=
  ⟨k1_pay2 (k1_pay9 x0 x1 x2 σ.m),
   k1_pay1 (k1_pay7 x0 x1 x2) (k1_pay9 x0 x1 x2 σ.m) (k1_pay10 x0 x1 x2 σ.m σ.m) σ.l,
   k1_pay3 (k1_pay8 i x0 x1 x2 x3) σ.s⟩

section

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def colsAt1 (c : Dev nD) : (n : ℕ) → n < cfg1.N → Cols1 F
  | 0, hn => colsStep1 (grid1.coords ⟨0, hn⟩) (iblk1 V c 0 ⟨0, hn⟩) (iblk1 V c 1 ⟨0, hn⟩) (iblk1 V c 2 ⟨0, hn⟩) (iblk1 V c 3 ⟨0, hn⟩) colsInit1
  | n + 1, hn => colsStep1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 10 = 0 then colsInit1 else colsAt1 c n (Nat.lt_of_succ_lt hn))

theorem colsAt1_first (c : Dev nD) (t : Fin cfg1.N) (h0 : t.val % 10 = 0) :
    colsAt1 V c t.val t.isLt = colsStep1 (grid1.coords t) (iblk1 V c 0 t) (iblk1 V c 1 t) (iblk1 V c 2 t) (iblk1 V c 3 t) colsInit1 := by
  obtain ⟨n, hn⟩ := t
  cases n with
  | zero => rfl
  | succ n => exact (congrArg (colsStep1 _ _ _ _ _) (if_pos h0))

theorem colsAt1_next (c : Dev nD) (t : Fin cfg1.N) (h0 : ¬t.val % 10 = 0) :
    colsAt1 V c t.val t.isLt = colsStep1 (grid1.coords t) (iblk1 V c 0 t) (iblk1 V c 1 t) (iblk1 V c 2 t) (iblk1 V c 3 t)
      (colsAt1 V c (t.val - 1) (Nat.lt_of_le_of_lt (Nat.sub_le _ _) t.isLt)) := by
  obtain ⟨n, hn⟩ := t
  cases n with
  | zero => exact absurd (Nat.zero_mod _) h0
  | succ n => exact (congrArg (colsStep1 _ _ _ _ _) (if_neg h0))

def PhiS1 (c : Dev nD) : (n : ℕ) → n ≤ cfg1.N → sProp 𝕄
  | 0, _ => Pipeline.ΦA spec1 c
  | n + 1, hn => iprop(iprop(iprop(owns (c : Thread nD τ) scM1_0 fullShare (colsAt1 V c n hn).m ∗ owns (c : Thread nD τ) scM1_1 fullShare (colsAt1 V c n hn).l ∗ owns (c : Thread nD τ) scM1_2 fullShare (colsAt1 V c n hn).s)
      ∗ Pipeline.scopedRestBut (Ix := Unit) (Name := ℕ) (U := UR sig nD τ) (Lvl := ℕ) (Val := Elt F) spec1 c [cc1_scratch0, cc1_scratch1, cc1_scratch2])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (colsAt1 V c n hn).m ∗ owns (c : Thread nD τ) scM1_1 fullShare (colsAt1 V c n hn).l ∗ owns (c : Thread nD τ) scM1_2 fullShare (colsAt1 V c n hn).s)
      ∗ Pipeline.scopedRestBut (Ix := Unit) (Name := ℕ) (U := UR sig nD τ) (Lvl := ℕ) (Val := Elt F) spec1 c [cc1_scratch0, cc1_scratch1, cc1_scratch2])
      ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (colsAt1 V c (n - 1) (by omega)).m ∗ owns (c : Thread nD τ) scM1_1 fullShare (colsAt1 V c (n - 1) (by omega)).l ∗ owns (c : Thread nD τ) scM1_2 fullShare (colsAt1 V c (n - 1) (by omega)).s)
      ∗ Pipeline.scopedRestBut (Ix := Unit) (Name := ℕ) (U := UR sig nD τ) (Lvl := ℕ) (Val := Elt F) spec1 c [cc1_scratch0, cc1_scratch1, cc1_scratch2])
      ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (colsAt1 V c t.val t.isLt).m
    | ⟨5, _⟩ => (colsAt1 V c t.val t.isLt).l
    | ⟨6, _⟩ => (colsAt1 V c t.val t.isLt).s
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (colsAt1 V c t.val t.isLt).m := by dsimp only [dat1]
theorem after1_5 (c : Dev nD) (t : Fin cfg1.N) : (dat1 V c).after 5 t = (colsAt1 V c t.val t.isLt).l := by dsimp only [dat1]
theorem after1_6 (c : Dev nD) (t : Fin cfg1.N) : (dat1 V c).after 6 t = (colsAt1 V c t.val t.isLt).s := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

end

end Cert.Kernel.Hand

end
-- ==== Proof.BR1Pieces.lean ====
import proofs.«429997_j76270029243071_3_alg».proof.Proof.BR1Runs
import proofs.«429997_j76270029243071_3_alg».proof.Proof.BR1Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

variable {c : Dev nD} {i : grid1.Coords} {arg2 : Memref sig .tc .vmem S512x1024 .bf16} {harg2 : arg2.IsWhole} {arg3 : Memref sig .tc .vmem S2000x1024 .bf16} {harg3 : arg3.IsWhole}
  {arg4 : Memref sig .tc .vmem S1x1x2000 .f32} {harg4 : arg4.IsWhole} {arg5 : Memref sig .tc .vmem S512x1 .i32} {harg5 : arg5.IsWhole}
  {arg6 : Memref sig .tc .vmem S512x1 .f32} {harg6 : arg6.IsWhole} {arg7 : Memref sig .tc .vmem S512x1 .f32} {harg7 : arg7.IsWhole}
  {arg8 : Memref sig .tc .vmem S512x1 .f32} {harg8 : arg8.IsWhole} {arg9 : Memref sig .tc .vmem S512x1 .f32} {harg9 : arg9.IsWhole}
  {arg10 : Memref sig .tc .vmem S512x1 .f32} {harg10 : arg10.IsWhole} {arg11 : Memref sig .tc .vmem S512x1 .f32} {harg11 : arg11.IsWhole}
  {x0 : Vec F S512x1024 .bf16} {x1 : Vec F S2000x1024 .bf16} {x2 : Vec F S1x1x2000 .f32} {x3 : Vec F S512x1 .i32} {xs9 xs10 xs11 : Vec F S512x1 .f32}

/-- Each column's stores in a run end with a store of the whole column, so the column reads back as that store's value: the
    update of the running maximum, sum and selected logit from the reset values (first point) -/
theorem pieceA1 {hc0 : condFirst1 i} {hc1 : ¬condLast1 i} :
    (∀ f, arg9.view.read (Elt F) (arg9.view.writes (Elt F) f (kernelRunA1 c i arg2 harg2 arg3 harg3 arg4 harg4 arg5 harg5 arg6 harg6 arg7 harg7 arg8 harg8 arg9 harg9 arg10 harg10 arg11 harg11 hc0 hc1 x0 x1 x2 x3).1) = (colsStep1 i x0 x1 x2 x3 colsInit1).m)
    ∧ (∀ f, arg10.view.read (Elt F) (arg10.view.writes (Elt F) f (kernelRunA1 c i arg2 harg2 arg3 harg3 arg4 harg4 arg5 harg5 arg6 harg6 arg7 harg7 arg8 harg8 arg9 harg9 arg10 harg10 arg11 harg11 hc0 hc1 x0 x1 x2 x3).2.1) = (colsStep1 i x0 x1 x2 x3 colsInit1).l)
    ∧ (∀ f, arg11.view.read (Elt F) (arg11.view.writes (Elt F) f (kernelRunA1 c i arg2 harg2 arg3 harg3 arg4 harg4 arg5 harg5 arg6 harg6 arg7 harg7 arg8 harg8 arg9 harg9 arg10 harg10 arg11 harg11 hc0 hc1 x0 x1 x2 x3).2.2.1) = (colsStep1 i x0 x1 x2 x3 colsInit1).s) := by
  refine ⟨?_, ?_, ?_⟩ <;> intro f <;>
  · rw [View.read_writes_eq_canon _ _ _ (View.cover_of_tiledL _ S512x1.size (by sl_kernel_rfl))]
    unfold kernelRunA1
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

/-- or from what the columns held (inner point); -/
theorem pieceB1 {hc0 : ¬condFirst1 i} {hc1 : ¬condLast1 i} :
    (∀ f, arg9.view.read (Elt F) (arg9.view.writes (Elt F) f (kernelRunB1 c i arg2 harg2 arg3 harg3 arg4 harg4 arg5 harg5 arg6 harg6 arg7 harg7 arg8 harg8 arg9 harg9 arg10 harg10 arg11 harg11 hc0 hc1 x0 x1 x2 x3 xs9 xs10 xs11).1) = (colsStep1 i x0 x1 x2 x3 ⟨xs9, xs10, xs11⟩).m)
    ∧ (∀ f, arg10.view.read (Elt F) (arg10.view.writes (Elt F) f (kernelRunB1 c i arg2 harg2 arg3 harg3 arg4 harg4 arg5 harg5 arg6 harg6 arg7 harg7 arg8 harg8 arg9 harg9 arg10 harg10 arg11 harg11 hc0 hc1 x0 x1 x2 x3 xs9 xs10 xs11).2.1) = (colsStep1 i x0 x1 x2 x3 ⟨xs9, xs10, xs11⟩).l)
    ∧ (∀ f, arg11.view.read (Elt F) (arg11.view.writes (Elt F) f (kernelRunB1 c i arg2 harg2 arg3 harg3 arg4 harg4 arg5 harg5 arg6 harg6 arg7 harg7 arg8 harg8 arg9 harg9 arg10 harg10 arg11 harg11 hc0 hc1 x0 x1 x2 x3 xs9 xs10 xs11).2.2.1) = (colsStep1 i x0 x1 x2 x3 ⟨xs9, xs10, xs11⟩).s) := by
  refine ⟨?_, ?_, ?_⟩ <;> intro f <;>
  · rw [View.read_writes_eq_canon _ _ _ (View.cover_of_tiledL _ S512x1.size (by sl_kernel_rfl))]
    unfold kernelRunB1
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

/-- at a last point the three output blocks receive the same three values. -/
theorem pieceC1 {hc0 : ¬condFirst1 i} {hc1 : condLast1 i} :
    (∀ f, arg6.view.read (Elt F) (arg6.view.writes (Elt F) f (kernelRunC1 c i arg2 harg2 arg3 harg3 arg4 harg4 arg5 harg5 arg6 harg6 arg7 harg7 arg8 harg8 arg9 harg9 arg10 harg10 arg11 harg11 hc0 hc1 x0 x1 x2 x3 xs9 xs10 xs11).1) = (colsStep1 i x0 x1 x2 x3 ⟨xs9, xs10, xs11⟩).m)
    ∧ (∀ f, arg7.view.read (Elt F) (arg7.view.writes (Elt F) f (kernelRunC1 c i arg2 harg2 arg3 harg3 arg4 harg4 arg5 harg5 arg6 harg6 arg7 harg7 arg8 harg8 arg9 harg9 arg10 harg10 arg11 harg11 hc0 hc1 x0 x1 x2 x3 xs9 xs10 xs11).2.1) = (colsStep1 i x0 x1 x2 x3 ⟨xs9, xs10, xs11⟩).l)
    ∧ (∀ f, arg8.view.read (Elt F) (arg8.view.writes (Elt F) f (kernelRunC1 c i arg2 harg2 arg3 harg3 arg4 harg4 arg5 harg5 arg6 harg6 arg7 harg7 arg8 harg8 arg9 harg9 arg10 harg10 arg11 harg11 hc0 hc1 x0 x1 x2 x3 xs9 xs10 xs11).2.2.1) = (colsStep1 i x0 x1 x2 x3 ⟨xs9, xs10, xs11⟩).s)
    ∧ (∀ f, arg9.view.read (Elt F) (arg9.view.writes (Elt F) f (kernelRunC1 c i arg2 harg2 arg3 harg3 arg4 harg4 arg5 harg5 arg6 harg6 arg7 harg7 arg8 harg8 arg9 harg9 arg10 harg10 arg11 harg11 hc0 hc1 x0 x1 x2 x3 xs9 xs10 xs11).2.2.2.1) = (colsStep1 i x0 x1 x2 x3 ⟨xs9, xs10, xs11⟩).m)
    ∧ (∀ f, arg10.view.read (Elt F) (arg10.view.writes (Elt F) f (kernelRunC1 c i arg2 harg2 arg3 harg3 arg4 harg4 arg5 harg5 arg6 harg6 arg7 harg7 arg8 harg8 arg9 harg9 arg10 harg10 arg11 harg11 hc0 hc1 x0 x1 x2 x3 xs9 xs10 xs11).2.2.2.2.1) = (colsStep1 i x0 x1 x2 x3 ⟨xs9, xs10, xs11⟩).l)
    ∧ (∀ f, arg11.view.read (Elt F) (arg11.view.writes (Elt F) f (kernelRunC1 c i arg2 harg2 arg3 harg3 arg4 harg4 arg5 harg5 arg6 harg6 arg7 harg7 arg8 harg8 arg9 harg9 arg10 harg10 arg11 harg11 hc0 hc1 x0 x1 x2 x3 xs9 xs10 xs11).2.2.2.2.2.1) = (colsStep1 i x0 x1 x2 x3 ⟨xs9, xs10, xs11⟩).s) := by
  refine ⟨?_, ?_, ?_, ?_, ?_, ?_⟩ <;> intro f <;>
  · rw [View.read_writes_eq_canon _ _ _ (View.cover_of_tiledL _ S512x1.size (by sl_kernel_rfl))]
    unfold kernelRunC1
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

end Cert.Kernel.Hand

end
-- ==== Proof.BR1Body.lean ====
import proofs.«429997_j76270029243071_3_alg».proof.Proof.BR1Pieces
import proofs.«429997_j76270029243071_3_alg».proof.Proof.LibOwns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem PhiS1_castSucc (c : Dev nD) (t : Fin cfg1.N) :
    (dat1 V c).Φ t.castSucc = PhiS1 V c t.val (Nat.le_of_lt t.isLt) := by
  dsimp only [dat1]; simp only [Fin.coe_castSucc]

/-- At every position the invariant gives back what the launch handed over: the columns' named contents are forgotten. -/
theorem PhiS1_forget (c : Dev nD) (n : ℕ) (h : n ≤ cfg1.N) : PhiS1 V c n h ⊢ Pipeline.ΦA spec1 c := by
  by_cases hz : n = 0
  · rw [PhiS1_zero V c n h hz]
  rw [PhiS1_pos V c n h hz, PhiA1_eq]
  iintro ⟨⟨⟨HS9, HS10, HS11⟩, Hrest⟩, Hg⟩
  isplitl [HS9 HS10 HS11 Hrest]
  · isplitl [HS9 HS10 HS11]
    · isplitl [HS9]; · iexists _; iexact HS9
      isplitl [HS10]; · iexists _; iexact HS10
      iexists _; iexact HS11
    iexact Hrest
  iexact Hg

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

set_option maxHeartbeats 4800000 in
/-- A point is the first of its row block, an inner one or the last, and the matching run of the body applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ, PhiS1_castSucc V c t]
  have hN : t.val < 80 := lt_of_lt_of_eq t.isLt (show cfg1.N = 80 from N_1)
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2,
    show (dat1 V c).leavesExact 3 t = owns (c : Thread nD τ) (st1_3 t) fullShare ((dat1 V c).after 3 t) from rfl, after1_3]
  by_cases h0 : t.val % 10 = 0
  · have h1 : ¬t.val % 10 = 9 := by omega
    have hq := idleOut1 t (fun h => h1 ((hcondLast1 t).mp h))
    rw [Dat.leavesExact_idle (dat1 V c) 4 t hq.1.1 hq.1.2, Dat.leavesExact_idle (dat1 V c) 5 t hq.2.1.1 hq.2.1.2, Dat.leavesExact_idle (dat1 V c) 6 t hq.2.2.1 hq.2.2.2]
    rw [colsAt1_first V c t h0]
    refine (sep_mono_left (PhiS1_forget V c _ _)).trans ?_
    rw [PhiA1_eq]
    iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunA1 c (grid1.coords t) _ _ _ _ _ _ _ _ _ _ _ _ _ _ _ _ _ _ _ _ ((hcondFirst1 t).mpr h0) (fun h => h1 ((hcondLast1 t).mp h)) (iblk1 V c 0 t) (iblk1 V c 1 t) (iblk1 V c 2 t) (iblk1 V c 3 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS9]; · iexact HS9
    isplitl [HS10]; · iexact HS10
    isplitl [HS11]; · iexact HS11
    iintro ⟨H0, H1, H2, H3, H4, H5, H6, HW⟩
    ihave HS' := (owns3_of_writes (c := (c : Thread nD τ)) (Val := Elt F) pieceA1) $$ HW
    isplitl [HS' Hrest Hg]
    · isplitl [HS' Hrest]
      · isplitl [HS']; · iexact HS'
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  have hz : t.val ≠ 0 := fun e => h0 (by rw [e])
  rw [PhiS1_pos V c _ _ hz]
  by_cases h1 : t.val % 10 = 9
  · rw [show (dat1 V c).leavesExact 4 t = owns (c : Thread nD τ) (st1_4 t) fullShare ((dat1 V c).after 4 t) from by
          unfold Dat.leavesExact; rw [(liveOut1 t ((hcondLast1 t).mpr h1)).1], after1_4,
        show (dat1 V c).leavesExact 5 t = owns (c : Thread nD τ) (st1_5 t) fullShare ((dat1 V c).after 5 t) from by
          unfold Dat.leavesExact; rw [(liveOut1 t ((hcondLast1 t).mpr h1)).2.1], after1_5,
        show (dat1 V c).leavesExact 6 t = owns (c : Thread nD τ) (st1_6 t) fullShare ((dat1 V c).after 6 t) from by
          unfold Dat.leavesExact; rw [(liveOut1 t ((hcondLast1 t).mpr h1)).2.2], after1_6]
    rw [colsAt1_next V c t h0]
    iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunC1 c (grid1.coords t) _ _ _ _ _ _ _ _ _ _ _ _ _ _ _ _ _ _ _ _ (fun h => h0 ((hcondFirst1 t).mp h)) ((hcondLast1 t).mpr h1) (iblk1 V c 0 t) (iblk1 V c 1 t) (iblk1 V c 2 t) (iblk1 V c 3 t) (colsAt1 V c (t.val - 1) (Nat.lt_of_le_of_lt (Nat.sub_le _ _) t.isLt)).m (colsAt1 V c (t.val - 1) (Nat.lt_of_le_of_lt (Nat.sub_le _ _) t.isLt)).l (colsAt1 V c (t.val - 1) (Nat.lt_of_le_of_lt (Nat.sub_le _ _) t.isLt)).s).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS9]; · iexact HS9
    isplitl [HS10]; · iexact HS10
    isplitl [HS11]; · iexact HS11
    iintro ⟨H0, H1, H2, H3, HT⟩
    ihave HT' := (owns6_of_writes (c := (c : Thread nD τ)) (Val := Elt F) pieceC1) $$ HT
    icases HT' with ⟨H4, H5, H6, HS'⟩
    isplitl [HS' Hrest Hg]
    · isplitl [HS' Hrest]
      · isplitl [HS']; · iexact HS'
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  have hq := idleOut1 t (fun h => h1 ((hcondLast1 t).mp h))
  rw [Dat.leavesExact_idle (dat1 V c) 4 t hq.1.1 hq.1.2, Dat.leavesExact_idle (dat1 V c) 5 t hq.2.1.1 hq.2.1.2, Dat.leavesExact_idle (dat1 V c) 6 t hq.2.2.1 hq.2.2.2]
  rw [colsAt1_next V c t h0]
  iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRunB1 c (grid1.coords t) _ _ _ _ _ _ _ _ _ _ _ _ _ _ _ _ _ _ _ _ (fun h => h0 ((hcondFirst1 t).mp h)) (fun h => h1 ((hcondLast1 t).mp h)) (iblk1 V c 0 t) (iblk1 V c 1 t) (iblk1 V c 2 t) (iblk1 V c 3 t) (colsAt1 V c (t.val - 1) (Nat.lt_of_le_of_lt (Nat.sub_le _ _) t.isLt)).m (colsAt1 V c (t.val - 1) (Nat.lt_of_le_of_lt (Nat.sub_le _ _) t.isLt)).l (colsAt1 V c (t.val - 1) (Nat.lt_of_le_of_lt (Nat.sub_le _ _) t.isLt)).s).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS9]; · iexact HS9
  isplitl [HS10]; · iexact HS10
  isplitl [HS11]; · iexact HS11
  iintro ⟨H0, H1, H2, H3, H4, H5, H6, HW⟩
  ihave HS' := (owns3_of_writes (c := (c : Thread nD τ)) (Val := Elt F) pieceB1) $$ HW
  isplitl [HS' Hrest Hg]
  · isplitl [HS' Hrest]
    · isplitl [HS']; · iexact HS'
      iexact Hrest
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c :=
  show PhiS1 V c (Fin.last cfg1.N).val (Nat.le_of_lt_succ (Fin.last cfg1.N).isLt) ⊢ _ from PhiS1_forget V c _ _

end

end Cert.Kernel.Hand

end
-- ==== Proof.BR2Common.lean ====
import proofs.«429997_j76270029243071_3_alg».proof.Proof.Gen.Kernel.Launch
import proofs.«429997_j76270029243071_3_alg».proof.Proof.Gen.Kernel.Skeleton
import proofs.«429997_j76270029243071_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev condFirst2 (i : grid2.Coords) : Prop := (Scalar.cmpi .ne (Scalar.extui (Scalar.cmpi .eq (BitVec.ofNat 32 (i 1).val) 0#32)) 0#32) = 1#1

theorem hcondFirst2 : ∀ t : Fin cfg2.N, condFirst2 (grid2.coords t) ↔ t.val % 5 = 0 :=
  (by decide +kernel : ∀ t : Fin grid2.N, condFirst2 (grid2.coords t) ↔ t.val % 5 = 0)

abbrev condLast2 (i : grid2.Coords) : Prop := k2_cond2 i = 1#1

theorem hcondLast2 : ∀ t : Fin cfg2.N, condLast2 (grid2.coords t) ↔ t.val % 5 = 4 :=
  (by decide +kernel : ∀ t : Fin grid2.N, condLast2 (grid2.coords t) ↔ t.val % 5 = 4)

theorem idleOut2 : ∀ t : Fin cfg2.N, ¬condLast2 (grid2.coords t) →
    (cfg2.idle 4 (grid2.coords t) = true ∧ (cfg2.win 4).flush t = false) ∧ (cfg2.idle 5 (grid2.coords t) = true ∧ (cfg2.win 5).flush t = false)
      ∧ (cfg2.idle 6 (grid2.coords t) = true ∧ (cfg2.win 6).flush t = false) := by decide +kernel
theorem liveOut2 : ∀ t : Fin cfg2.N, condLast2 (grid2.coords t) →
    cfg2.idle 4 (grid2.coords t) = false ∧ cfg2.idle 5 (grid2.coords t) = false ∧ cfg2.idle 6 (grid2.coords t) = false := by decide +kernel

abbrev scM2_0 : Memref sig .tc .vmem S512x1 .f32 := Memref.whole cc2_scratch0
abbrev scM2_1 : Memref sig .tc .vmem S512x1 .f32 := Memref.whole cc2_scratch1
abbrev scM2_2 : Memref sig .tc .vmem S512x1 .f32 := Memref.whole cc2_scratch2

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ Pipeline.scopedRestBut (Ix := Unit) (Name := ℕ) (U := UR sig nD τ) (Lvl := ℕ) (Val := Elt F) spec2 c [cc2_scratch0, cc2_scratch1, cc2_scratch2])
          ∗ (∃ r, prngReg c r)) := by
  unfold Pipeline.ΦA; rw [scopedRest2_split]; simp only [scM2_0, scM2_1, scM2_2, owns_whole]
  rfl

end Cert.Kernel.Hand

end
-- ==== Proof.BR2Runs.lean ====
import proofs.«429997_j76270029243071_3_alg».proof.Proof.BR2Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid2.Coords) (arg2 : Memref sig .tc .vmem S512x1024 .bf16) (harg2 : arg2.IsWhole) (arg3 : Memref sig .tc .vmem S2000x1024 .bf16) (harg3 : arg3.IsWhole)
  (arg4 : Memref sig .tc .vmem S1x1x2000 .f32) (harg4 : arg4.IsWhole) (arg5 : Memref sig .tc .vmem S512x1 .i32) (harg5 : arg5.IsWhole)
  (arg6 : Memref sig .tc .vmem S512x1 .f32) (harg6 : arg6.IsWhole) (arg7 : Memref sig .tc .vmem S512x1 .f32) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1 .f32) (harg10 : arg10.IsWhole) (arg11 : Memref sig .tc .vmem S512x1 .f32) (harg11 : arg11.IsWhole)

set_option maxHeartbeats 4000000 in
noncomputable def kernelRunA2 (hc0 : condFirst2 i) (hc1 : ¬condLast2 i)
    (x0 : Vec F S512x1024 .bf16) (x1 : Vec F S2000x1024 .bf16) (x2 : Vec F S1x1x2000 .f32) (x3 : Vec F S512x1 .i32) :
    Σ' (LS9 : List (View.Piece (Elt F) S512x1 .f32)) (LS10 : List (View.Piece (Elt F) S512x1 .f32)), { LS11 : List (View.Piece (Elt F) S512x1 .f32) //
      ∀ (xi6 xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc2__cluster_pass_kernel i arg2 harg2 arg3 harg3 arg4 harg4 arg5 harg5 arg6 harg6 arg7 harg7 arg8 harg8 arg9 harg9 arg10 harg10 arg11 harg11) K } := by
  refine ⟨?_, ?_, ?_, fun xi6 xi7 xi8 E K => ?run⟩
  case run =>
    simp only [cc2__cluster_pass_kernel_eq_skeleton]; unfold cc2__cluster_pass_kernel_skel
    simp only [k2_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%ds9, %fs9, -, HS9⟩, ⟨%ds10, %fs10, -, HS10⟩, ⟨%ds11, %fs11, -, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS9]; · iexists _; iexact HS9
    isplitl [HS10]; · iexists _; iexact HS10
    iexists _; iexact HS11

set_option maxHeartbeats 4000000 in
noncomputable def kernelRunB2 (hc0 : ¬condFirst2 i) (hc1 : ¬condLast2 i)
    (x0 : Vec F S512x1024 .bf16) (x1 : Vec F S2000x1024 .bf16) (x2 : Vec F S1x1x2000 .f32) (x3 : Vec F S512x1 .i32) (xs9 xs10 xs11 : Vec F S512x1 .f32) :
    Σ' (LS9 : List (View.Piece (Elt F) S512x1 .f32)) (LS10 : List (View.Piece (Elt F) S512x1 .f32)), { LS11 : List (View.Piece (Elt F) S512x1 .f32) //
      ∀ (xi6 xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc2__cluster_pass_kernel i arg2 harg2 arg3 harg3 arg4 harg4 arg5 harg5 arg6 harg6 arg7 harg7 arg8 harg8 arg9 harg9 arg10 harg10 arg11 harg11) K } := by
  refine ⟨?_, ?_, ?_, fun xi6 xi7 xi8 E K => ?run⟩
  case run =>
    simp only [cc2__cluster_pass_kernel_eq_skeleton]; unfold cc2__cluster_pass_kernel_skel
    simp only [k2_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS9]; · iexists _; iexact HS9
    isplitl [HS10]; · iexists _; iexact HS10
    iexists _; iexact HS11

set_option maxHeartbeats 4000000 in
noncomputable def kernelRunC2 (hc0 : ¬condFirst2 i) (hc1 : condLast2 i)
    (x0 : Vec F S512x1024 .bf16) (x1 : Vec F S2000x1024 .bf16) (x2 : Vec F S1x1x2000 .f32) (x3 : Vec F S512x1 .i32) (xs9 xs10 xs11 : Vec F S512x1 .f32) :
    Σ' (L6 : List (View.Piece (Elt F) S512x1 .f32)) (L7 : List (View.Piece (Elt F) S512x1 .f32)) (L8 : List (View.Piece (Elt F) S512x1 .f32)) (LS9 : List (View.Piece (Elt F) S512x1 .f32)) (LS10 : List (View.Piece (Elt F) S512x1 .f32)), { LS11 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc2__cluster_pass_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc2__cluster_pass_kernel_eq_skeleton]; unfold cc2__cluster_pass_kernel_skel
    simp only [k2_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    isplitl [H8]; · iexists _; iexact H8
    isplitl [HS9]; · iexists _; iexact HS9
    isplitl [HS10]; · iexists _; iexact HS10
    iexists _; iexact HS11

end Cert.Kernel.Hand

end
-- ==== Proof.BR2Data.lean ====
import proofs.«429997_j76270029243071_3_alg».proof.Proof.BR2Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

structure Cols2 (F : FTy → Type) [FloatOps F] where
  m : Vec F S512x1 .f32
  l : Vec F S512x1 .f32
  s : Vec F S512x1 .f32

def colsInit2 : Cols2 F := ⟨k2_pay4 (F := F), k2_pay5 (F := F), k2_pay6 (F := F)⟩

def colsStep2 (i : grid2.Coords) (x0 : Vec F S512x1024 .bf16) (x1 : Vec F S2000x1024 .bf16) (x2 : Vec F S1x1x2000 .f32) (x3 : Vec F S512x1 .i32)
    (σ : Cols2 F) : Cols2 F :=
  ⟨k2_pay2 (k2_pay9 x0 x1 x2 σ.m),
   k2_pay1 (k2_pay7 x0 x1 x2) (k2_pay9 x0 x1 x2 σ.m) (k2_pay10 x0 x1 x2 σ.m σ.m) σ.l,
   k2_pay3 (k2_pay8 i x0 x1 x2 x3) σ.s⟩

section

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def colsAt2 (c : Dev nD) : (n : ℕ) → n < cfg2.N → Cols2 F
  | 0, hn => colsStep2 (grid2.coords ⟨0, hn⟩) (iblk2 V c 0 ⟨0, hn⟩) (iblk2 V c 1 ⟨0, hn⟩) (iblk2 V c 2 ⟨0, hn⟩) (iblk2 V c 3 ⟨0, hn⟩) colsInit2
  | n + 1, hn => colsStep2 (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩)
      (if (n + 1) % 5 = 0 then colsInit2 else colsAt2 c n (Nat.lt_of_succ_lt hn))

theorem colsAt2_first (c : Dev nD) (t : Fin cfg2.N) (h0 : t.val % 5 = 0) :
    colsAt2 V c t.val t.isLt = colsStep2 (grid2.coords t) (iblk2 V c 0 t) (iblk2 V c 1 t) (iblk2 V c 2 t) (iblk2 V c 3 t) colsInit2 := by
  obtain ⟨n, hn⟩ := t
  cases n with
  | zero => rfl
  | succ n => exact (congrArg (colsStep2 _ _ _ _ _) (if_pos h0))

theorem colsAt2_next (c : Dev nD) (t : Fin cfg2.N) (h0 : ¬t.val % 5 = 0) :
    colsAt2 V c t.val t.isLt = colsStep2 (grid2.coords t) (iblk2 V c 0 t) (iblk2 V c 1 t) (iblk2 V c 2 t) (iblk2 V c 3 t)
      (colsAt2 V c (t.val - 1) (Nat.lt_of_le_of_lt (Nat.sub_le _ _) t.isLt)) := by
  obtain ⟨n, hn⟩ := t
  cases n with
  | zero => exact absurd (Nat.zero_mod _) h0
  | succ n => exact (congrArg (colsStep2 _ _ _ _ _) (if_neg h0))

def PhiS2 (c : Dev nD) : (n : ℕ) → n ≤ cfg2.N → sProp 𝕄
  | 0, _ => Pipeline.ΦA spec2 c
  | n + 1, hn => iprop(iprop(iprop(owns (c : Thread nD τ) scM2_0 fullShare (colsAt2 V c n hn).m ∗ owns (c : Thread nD τ) scM2_1 fullShare (colsAt2 V c n hn).l ∗ owns (c : Thread nD τ) scM2_2 fullShare (colsAt2 V c n hn).s)
      ∗ Pipeline.scopedRestBut (Ix := Unit) (Name := ℕ) (U := UR sig nD τ) (Lvl := ℕ) (Val := Elt F) spec2 c [cc2_scratch0, cc2_scratch1, cc2_scratch2])
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (colsAt2 V c n hn).m ∗ owns (c : Thread nD τ) scM2_1 fullShare (colsAt2 V c n hn).l ∗ owns (c : Thread nD τ) scM2_2 fullShare (colsAt2 V c n hn).s)
      ∗ Pipeline.scopedRestBut (Ix := Unit) (Name := ℕ) (U := UR sig nD τ) (Lvl := ℕ) (Val := Elt F) spec2 c [cc2_scratch0, cc2_scratch1, cc2_scratch2])
      ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (colsAt2 V c (n - 1) (by omega)).m ∗ owns (c : Thread nD τ) scM2_1 fullShare (colsAt2 V c (n - 1) (by omega)).l ∗ owns (c : Thread nD τ) scM2_2 fullShare (colsAt2 V c (n - 1) (by omega)).s)
      ∗ Pipeline.scopedRestBut (Ix := Unit) (Name := ℕ) (U := UR sig nD τ) (Lvl := ℕ) (Val := Elt F) spec2 c [cc2_scratch0, cc2_scratch1, cc2_scratch2])
      ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (colsAt2 V c t.val t.isLt).m
    | ⟨5, _⟩ => (colsAt2 V c t.val t.isLt).l
    | ⟨6, _⟩ => (colsAt2 V c t.val t.isLt).s
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (colsAt2 V c t.val t.isLt).m := by dsimp only [dat2]
theorem after2_5 (c : Dev nD) (t : Fin cfg2.N) : (dat2 V c).after 5 t = (colsAt2 V c t.val t.isLt).l := by dsimp only [dat2]
theorem after2_6 (c : Dev nD) (t : Fin cfg2.N) : (dat2 V c).after 6 t = (colsAt2 V c t.val t.isLt).s := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

end

end Cert.Kernel.Hand

end
-- ==== Proof.BR2Pieces.lean ====
import proofs.«429997_j76270029243071_3_alg».proof.Proof.BR2Runs
import proofs.«429997_j76270029243071_3_alg».proof.Proof.BR2Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

variable {c : Dev nD} {i : grid2.Coords} {arg2 : Memref sig .tc .vmem S512x1024 .bf16} {harg2 : arg2.IsWhole} {arg3 : Memref sig .tc .vmem S2000x1024 .bf16} {harg3 : arg3.IsWhole}
  {arg4 : Memref sig .tc .vmem S1x1x2000 .f32} {harg4 : arg4.IsWhole} {arg5 : Memref sig .tc .vmem S512x1 .i32} {harg5 : arg5.IsWhole}
  {arg6 : Memref sig .tc .vmem S512x1 .f32} {harg6 : arg6.IsWhole} {arg7 : Memref sig .tc .vmem S512x1 .f32} {harg7 : arg7.IsWhole}
  {arg8 : Memref sig .tc .vmem S512x1 .f32} {harg8 : arg8.IsWhole} {arg9 : Memref sig .tc .vmem S512x1 .f32} {harg9 : arg9.IsWhole}
  {arg10 : Memref sig .tc .vmem S512x1 .f32} {harg10 : arg10.IsWhole} {arg11 : Memref sig .tc .vmem S512x1 .f32} {harg11 : arg11.IsWhole}
  {x0 : Vec F S512x1024 .bf16} {x1 : Vec F S2000x1024 .bf16} {x2 : Vec F S1x1x2000 .f32} {x3 : Vec F S512x1 .i32} {xs9 xs10 xs11 : Vec F S512x1 .f32}

/-- Each column's stores in a run end with a store of the whole column, so the column reads back as that store's value: the
    update of the running maximum, sum and selected logit from the reset values (first point) -/
theorem pieceA2 {hc0 : condFirst2 i} {hc1 : ¬condLast2 i} :
    (∀ f, arg9.view.read (Elt F) (arg9.view.writes (Elt F) f (kernelRunA2 c i arg2 harg2 arg3 harg3 arg4 harg4 arg5 harg5 arg6 harg6 arg7 harg7 arg8 harg8 arg9 harg9 arg10 harg10 arg11 harg11 hc0 hc1 x0 x1 x2 x3).1) = (colsStep2 i x0 x1 x2 x3 colsInit2).m)
    ∧ (∀ f, arg10.view.read (Elt F) (arg10.view.writes (Elt F) f (kernelRunA2 c i arg2 harg2 arg3 harg3 arg4 harg4 arg5 harg5 arg6 harg6 arg7 harg7 arg8 harg8 arg9 harg9 arg10 harg10 arg11 harg11 hc0 hc1 x0 x1 x2 x3).2.1) = (colsStep2 i x0 x1 x2 x3 colsInit2).l)
    ∧ (∀ f, arg11.view.read (Elt F) (arg11.view.writes (Elt F) f (kernelRunA2 c i arg2 harg2 arg3 harg3 arg4 harg4 arg5 harg5 arg6 harg6 arg7 harg7 arg8 harg8 arg9 harg9 arg10 harg10 arg11 harg11 hc0 hc1 x0 x1 x2 x3).2.2.1) = (colsStep2 i x0 x1 x2 x3 colsInit2).s) := by
  refine ⟨?_, ?_, ?_⟩ <;> intro f <;>
  · rw [View.read_writes_eq_canon _ _ _ (View.cover_of_tiledL _ S512x1.size (by sl_kernel_rfl))]
    unfold kernelRunA2
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

/-- or from what the columns held (inner point); -/
theorem pieceB2 {hc0 : ¬condFirst2 i} {hc1 : ¬condLast2 i} :
    (∀ f, arg9.view.read (Elt F) (arg9.view.writes (Elt F) f (kernelRunB2 c i arg2 harg2 arg3 harg3 arg4 harg4 arg5 harg5 arg6 harg6 arg7 harg7 arg8 harg8 arg9 harg9 arg10 harg10 arg11 harg11 hc0 hc1 x0 x1 x2 x3 xs9 xs10 xs11).1) = (colsStep2 i x0 x1 x2 x3 ⟨xs9, xs10, xs11⟩).m)
    ∧ (∀ f, arg10.view.read (Elt F) (arg10.view.writes (Elt F) f (kernelRunB2 c i arg2 harg2 arg3 harg3 arg4 harg4 arg5 harg5 arg6 harg6 arg7 harg7 arg8 harg8 arg9 harg9 arg10 harg10 arg11 harg11 hc0 hc1 x0 x1 x2 x3 xs9 xs10 xs11).2.1) = (colsStep2 i x0 x1 x2 x3 ⟨xs9, xs10, xs11⟩).l)
    ∧ (∀ f, arg11.view.read (Elt F) (arg11.view.writes (Elt F) f (kernelRunB2 c i arg2 harg2 arg3 harg3 arg4 harg4 arg5 harg5 arg6 harg6 arg7 harg7 arg8 harg8 arg9 harg9 arg10 harg10 arg11 harg11 hc0 hc1 x0 x1 x2 x3 xs9 xs10 xs11).2.2.1) = (colsStep2 i x0 x1 x2 x3 ⟨xs9, xs10, xs11⟩).s) := by
  refine ⟨?_, ?_, ?_⟩ <;> intro f <;>
  · rw [View.read_writes_eq_canon _ _ _ (View.cover_of_tiledL _ S512x1.size (by sl_kernel_rfl))]
    unfold kernelRunB2
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

/-- at a last point the three output blocks receive the same three values. -/
theorem pieceC2 {hc0 : ¬condFirst2 i} {hc1 : condLast2 i} :
    (∀ f, arg6.view.read (Elt F) (arg6.view.writes (Elt F) f (kernelRunC2 c i arg2 harg2 arg3 harg3 arg4 harg4 arg5 harg5 arg6 harg6 arg7 harg7 arg8 harg8 arg9 harg9 arg10 harg10 arg11 harg11 hc0 hc1 x0 x1 x2 x3 xs9 xs10 xs11).1) = (colsStep2 i x0 x1 x2 x3 ⟨xs9, xs10, xs11⟩).m)
    ∧ (∀ f, arg7.view.read (Elt F) (arg7.view.writes (Elt F) f (kernelRunC2 c i arg2 harg2 arg3 harg3 arg4 harg4 arg5 harg5 arg6 harg6 arg7 harg7 arg8 harg8 arg9 harg9 arg10 harg10 arg11 harg11 hc0 hc1 x0 x1 x2 x3 xs9 xs10 xs11).2.1) = (colsStep2 i x0 x1 x2 x3 ⟨xs9, xs10, xs11⟩).l)
    ∧ (∀ f, arg8.view.read (Elt F) (arg8.view.writes (Elt F) f (kernelRunC2 c i arg2 harg2 arg3 harg3 arg4 harg4 arg5 harg5 arg6 harg6 arg7 harg7 arg8 harg8 arg9 harg9 arg10 harg10 arg11 harg11 hc0 hc1 x0 x1 x2 x3 xs9 xs10 xs11).2.2.1) = (colsStep2 i x0 x1 x2 x3 ⟨xs9, xs10, xs11⟩).s)
    ∧ (∀ f, arg9.view.read (Elt F) (arg9.view.writes (Elt F) f (kernelRunC2 c i arg2 harg2 arg3 harg3 arg4 harg4 arg5 harg5 arg6 harg6 arg7 harg7 arg8 harg8 arg9 harg9 arg10 harg10 arg11 harg11 hc0 hc1 x0 x1 x2 x3 xs9 xs10 xs11).2.2.2.1) = (colsStep2 i x0 x1 x2 x3 ⟨xs9, xs10, xs11⟩).m)
    ∧ (∀ f, arg10.view.read (Elt F) (arg10.view.writes (Elt F) f (kernelRunC2 c i arg2 harg2 arg3 harg3 arg4 harg4 arg5 harg5 arg6 harg6 arg7 harg7 arg8 harg8 arg9 harg9 arg10 harg10 arg11 harg11 hc0 hc1 x0 x1 x2 x3 xs9 xs10 xs11).2.2.2.2.1) = (colsStep2 i x0 x1 x2 x3 ⟨xs9, xs10, xs11⟩).l)
    ∧ (∀ f, arg11.view.read (Elt F) (arg11.view.writes (Elt F) f (kernelRunC2 c i arg2 harg2 arg3 harg3 arg4 harg4 arg5 harg5 arg6 harg6 arg7 harg7 arg8 harg8 arg9 harg9 arg10 harg10 arg11 harg11 hc0 hc1 x0 x1 x2 x3 xs9 xs10 xs11).2.2.2.2.2.1) = (colsStep2 i x0 x1 x2 x3 ⟨xs9, xs10, xs11⟩).s) := by
  refine ⟨?_, ?_, ?_, ?_, ?_, ?_⟩ <;> intro f <;>
  · rw [View.read_writes_eq_canon _ _ _ (View.cover_of_tiledL _ S512x1.size (by sl_kernel_rfl))]
    unfold kernelRunC2
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

end Cert.Kernel.Hand

end
-- ==== Proof.BR2Body.lean ====
import proofs.«429997_j76270029243071_3_alg».proof.Proof.BR2Pieces
import proofs.«429997_j76270029243071_3_alg».proof.Proof.LibOwns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem PhiS2_castSucc (c : Dev nD) (t : Fin cfg2.N) :
    (dat2 V c).Φ t.castSucc = PhiS2 V c t.val (Nat.le_of_lt t.isLt) := by
  dsimp only [dat2]; simp only [Fin.coe_castSucc]

/-- At every position the invariant gives back what the launch handed over: the columns' named contents are forgotten. -/
theorem PhiS2_forget (c : Dev nD) (n : ℕ) (h : n ≤ cfg2.N) : PhiS2 V c n h ⊢ Pipeline.ΦA spec2 c := by
  by_cases hz : n = 0
  · rw [PhiS2_zero V c n h hz]
  rw [PhiS2_pos V c n h hz, PhiA2_eq]
  iintro ⟨⟨⟨HS9, HS10, HS11⟩, Hrest⟩, Hg⟩
  isplitl [HS9 HS10 HS11 Hrest]
  · isplitl [HS9 HS10 HS11]
    · isplitl [HS9]; · iexists _; iexact HS9
      isplitl [HS10]; · iexists _; iexact HS10
      iexists _; iexact HS11
    iexact Hrest
  iexact Hg

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t ∗ (dat2 V c).leavesExact 5 t ∗ (dat2 V c).leavesExact 6 t)

set_option maxHeartbeats 4800000 in
/-- A point is the first of its row block, an inner one or the last, and the matching run of the body applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ, PhiS2_castSucc V c t]
  have hN : t.val < 40 := lt_of_lt_of_eq t.isLt (show cfg2.N = 40 from N_2)
  rw [show (dat2 V c).leavesExact 0 t = owns (c : Thread nD τ) (st2_0 t) fullShare ((dat2 V c).after 0 t) from rfl, after2_0,
    show (dat2 V c).leavesExact 1 t = owns (c : Thread nD τ) (st2_1 t) fullShare ((dat2 V c).after 1 t) from rfl, after2_1,
    show (dat2 V c).leavesExact 2 t = owns (c : Thread nD τ) (st2_2 t) fullShare ((dat2 V c).after 2 t) from rfl, after2_2,
    show (dat2 V c).leavesExact 3 t = owns (c : Thread nD τ) (st2_3 t) fullShare ((dat2 V c).after 3 t) from rfl, after2_3]
  by_cases h0 : t.val % 5 = 0
  · have h1 : ¬t.val % 5 = 4 := by omega
    have hq := idleOut2 t (fun h => h1 ((hcondLast2 t).mp h))
    rw [Dat.leavesExact_idle (dat2 V c) 4 t hq.1.1 hq.1.2, Dat.leavesExact_idle (dat2 V c) 5 t hq.2.1.1 hq.2.1.2, Dat.leavesExact_idle (dat2 V c) 6 t hq.2.2.1 hq.2.2.2]
    rw [colsAt2_first V c t h0]
    refine (sep_mono_left (PhiS2_forget V c _ _)).trans ?_
    rw [PhiA2_eq]
    iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunA2 c (grid2.coords t) _ _ _ _ _ _ _ _ _ _ _ _ _ _ _ _ _ _ _ _ ((hcondFirst2 t).mpr h0) (fun h => h1 ((hcondLast2 t).mp h)) (iblk2 V c 0 t) (iblk2 V c 1 t) (iblk2 V c 2 t) (iblk2 V c 3 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS9]; · iexact HS9
    isplitl [HS10]; · iexact HS10
    isplitl [HS11]; · iexact HS11
    iintro ⟨H0, H1, H2, H3, H4, H5, H6, HW⟩
    ihave HS' := (owns3_of_writes (c := (c : Thread nD τ)) (Val := Elt F) pieceA2) $$ HW
    isplitl [HS' Hrest Hg]
    · isplitl [HS' Hrest]
      · isplitl [HS']; · iexact HS'
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  have hz : t.val ≠ 0 := fun e => h0 (by rw [e])
  rw [PhiS2_pos V c _ _ hz]
  by_cases h1 : t.val % 5 = 4
  · rw [show (dat2 V c).leavesExact 4 t = owns (c : Thread nD τ) (st2_4 t) fullShare ((dat2 V c).after 4 t) from by
          unfold Dat.leavesExact; rw [(liveOut2 t ((hcondLast2 t).mpr h1)).1], after2_4,
        show (dat2 V c).leavesExact 5 t = owns (c : Thread nD τ) (st2_5 t) fullShare ((dat2 V c).after 5 t) from by
          unfold Dat.leavesExact; rw [(liveOut2 t ((hcondLast2 t).mpr h1)).2.1], after2_5,
        show (dat2 V c).leavesExact 6 t = owns (c : Thread nD τ) (st2_6 t) fullShare ((dat2 V c).after 6 t) from by
          unfold Dat.leavesExact; rw [(liveOut2 t ((hcondLast2 t).mpr h1)).2.2], after2_6]
    rw [colsAt2_next V c t h0]
    iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunC2 c (grid2.coords t) _ _ _ _ _ _ _ _ _ _ _ _ _ _ _ _ _ _ _ _ (fun h => h0 ((hcondFirst2 t).mp h)) ((hcondLast2 t).mpr h1) (iblk2 V c 0 t) (iblk2 V c 1 t) (iblk2 V c 2 t) (iblk2 V c 3 t) (colsAt2 V c (t.val - 1) (Nat.lt_of_le_of_lt (Nat.sub_le _ _) t.isLt)).m (colsAt2 V c (t.val - 1) (Nat.lt_of_le_of_lt (Nat.sub_le _ _) t.isLt)).l (colsAt2 V c (t.val - 1) (Nat.lt_of_le_of_lt (Nat.sub_le _ _) t.isLt)).s).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS9]; · iexact HS9
    isplitl [HS10]; · iexact HS10
    isplitl [HS11]; · iexact HS11
    iintro ⟨H0, H1, H2, H3, HT⟩
    ihave HT' := (owns6_of_writes (c := (c : Thread nD τ)) (Val := Elt F) pieceC2) $$ HT
    icases HT' with ⟨H4, H5, H6, HS'⟩
    isplitl [HS' Hrest Hg]
    · isplitl [HS' Hrest]
      · isplitl [HS']; · iexact HS'
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  have hq := idleOut2 t (fun h => h1 ((hcondLast2 t).mp h))
  rw [Dat.leavesExact_idle (dat2 V c) 4 t hq.1.1 hq.1.2, Dat.leavesExact_idle (dat2 V c) 5 t hq.2.1.1 hq.2.1.2, Dat.leavesExact_idle (dat2 V c) 6 t hq.2.2.1 hq.2.2.2]
  rw [colsAt2_next V c t h0]
  iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRunB2 c (grid2.coords t) _ _ _ _ _ _ _ _ _ _ _ _ _ _ _ _ _ _ _ _ (fun h => h0 ((hcondFirst2 t).mp h)) (fun h => h1 ((hcondLast2 t).mp h)) (iblk2 V c 0 t) (iblk2 V c 1 t) (iblk2 V c 2 t) (iblk2 V c 3 t) (colsAt2 V c (t.val - 1) (Nat.lt_of_le_of_lt (Nat.sub_le _ _) t.isLt)).m (colsAt2 V c (t.val - 1) (Nat.lt_of_le_of_lt (Nat.sub_le _ _) t.isLt)).l (colsAt2 V c (t.val - 1) (Nat.lt_of_le_of_lt (Nat.sub_le _ _) t.isLt)).s).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS9]; · iexact HS9
  isplitl [HS10]; · iexact HS10
  isplitl [HS11]; · iexact HS11
  iintro ⟨H0, H1, H2, H3, H4, H5, H6, HW⟩
  ihave HS' := (owns3_of_writes (c := (c : Thread nD τ)) (Val := Elt F) pieceB2) $$ HW
  isplitl [HS' Hrest Hg]
  · isplitl [HS' Hrest]
    · isplitl [HS']; · iexact HS'
      iexact Hrest
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]

theorem hout2 (c : Dev nD) : (dat2 V c).Φ (Fin.last cfg2.N) ⊢ Pipeline.ΦA spec2 c :=
  show PhiS2 V c (Fin.last cfg2.N).val (Nat.le_of_lt_succ (Fin.last cfg2.N).isLt) ⊢ _ from PhiS2_forget V c _ _

end

end Cert.Kernel.Hand

end
-- ==== Proof.BKRun.lean ====
import proofs.«429997_j76270029243071_3_alg».proof.Proof.Gen.Kernel.Regions

set_option maxRecDepth 1048

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V12 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V12 m outs c))
    (hch := fun c => ⟨.rfl, hpre0 c, hpost0 c, hpre1 c, hpost1 c, hpre2 c, hpost2 c, .rfl, .rfl, .rfl, .rfl, .rfl, sep_mono .rfl (hE3 c)⟩)
    (hinit := ?_) (QY := fun c s => ∀ b ∈ Pipeline.ucRefs τ sig, s.mem (((c : Thread nD τ)).1, b) = V12 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V12 m outs c) s') $$ [Hh HSI]
    · isplitl [Hh] <;> iassumption
    icases Hr with ⟨%h, HSI⟩
    imodintro
    isplitr
    · ipureintro
      exact h
    · iexact HSI

end Cert.Kernel.Hand

end
-- ==== Proof.BKSegs.lean ====
import proofs.«429997_j76270029243071_3_alg».proof.Proof.BR0Body
import proofs.«429997_j76270029243071_3_alg».proof.Proof.BR1Body
import proofs.«429997_j76270029243071_3_alg».proof.Proof.BR2Body
import proofs.«429997_j76270029243071_3_alg».proof.Proof.BKRun
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

def X2 (c : Dev nD) : Valuation τ sig (Elt F) :=
  Pipeline.withArrays spec0 c (V1 m c) fun w => (dat0 (fun c b => V1 m c b) c).arrAt w cfg0.N

def outsA : Outs (F := F) := fun _ r c => X2 m c r

def X4 (c : Dev nD) : Valuation τ sig (Elt F) :=
  Pipeline.withArrays spec1 c (V3 m (outsA m) c) fun w => (dat1 (fun c b => V3 m (outsA m) c b) c).arrAt w cfg1.N
def outsB : Outs (F := F) := fun J r c => match J with
  | 2 => X2 m c r
  | _ => X4 m c r

def X6 (c : Dev nD) : Valuation τ sig (Elt F) :=
  Pipeline.withArrays spec2 c (V5 m (outsB m) c) fun w => (dat2 (fun c b => V5 m (outsB m) c b) c).arrAt w cfg2.N

def outs : Outs (F := F) := fun J r c => match J with
  | 2 => X2 m c r
  | 4 => X4 m c r
  | _ => X6 m c r

def pdats : (p : Fin 3) → (c : Dev nD) → Dat τ (Elt F) Unit ℕ (UR sig nD τ) ℕ (cfgs p) c
  | ⟨0, _⟩ => fun c => dat0 (fun c b => V1 m c b) c
  | ⟨1, _⟩ => fun c => dat1 (fun c b => V3 m (outsA m) c b) c
  | ⟨2, _⟩ => fun c => dat2 (fun c b => V5 m (outsB m) c b) c

abbrev LL : GSem nD τ sig → Finset Unit := fun _ => ∅
abbrev lvl : GSem nD τ sig → Unit → ℕ := fun _ _ => 0

abbrev RR (c : Dev nD) : sProp 𝕄 := iprop((∃ r, prngReg c r) ∗ ∃ W, owes (c : Thread nD τ) (0 : CellTallies nD τ sig Unit) W)

theorem hF0 (c : Dev nD) (w : Fin cfg0.W) : (pdats m 0 c).arrAt w cfg0.N = V2 m (outs m) c (Pipeline.arrRef spec0 w) := by
  have hin : ∀ w' : Fin cfg0.W, (cfg0.win w').isOut = false → Pipeline.arrRef spec0 w' ∉ ([main_v4_0, main_v4_1, main_v4_2] : List (Ref sig .tc)) →
      (pdats m 0 c).arrAt w' cfg0.N = V2 m (outs m) c (Pipeline.arrRef spec0 w') := fun w' hw' hn =>
    ((pdats m 0 c).arrAt_in w' hw' _).trans ((V2_of m (outs m) c _ hn).symm)
  have hout : ∀ w' : Fin cfg0.W, (b : Ref sig .tc) → Pipeline.arrRef spec0 w' = b → b ∈ ([main_v4_0, main_v4_1, main_v4_2] : List (Ref sig .tc)) →
      V2 m (outs m) c b = X2 m c b → (pdats m 0 c).arrAt w' cfg0.N = V2 m (outs m) c (Pipeline.arrRef spec0 w') := fun w' b hb _ hv => by
    subst hb
    rw [hv]; unfold X2
    exact (Pipeline.withArrays_arr spec0 launch0.win.arr_inj c (V1 m c) (fun w => (dat0 (fun c b => V1 m c b) c).arrAt w cfg0.N) w').symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hout 4 main_v4_0 rfl (by decide) (by
      show Function.update (Function.update (Function.update _ _ _) _ _) _ _ _ = _
      rw [Function.update_of_ne (StableHlo.devRef_ne_of_ne (by decide)), Function.update_of_ne (StableHlo.devRef_ne_of_ne (by decide)), Function.update_self]; rfl)
  | ⟨5, _⟩ => exact hout 5 main_v4_1 rfl (by decide) (by
      show Function.update (Function.update (Function.update _ _ _) _ _) _ _ _ = _
      rw [Function.update_of_ne (StableHlo.devRef_ne_of_ne (by decide)), Function.update_self]; rfl)
  | ⟨6, _⟩ => exact hout 6 main_v4_2 rfl (by decide) (by
      show Function.update (Function.update (Function.update _ _ _) _ _) _ _ _ = _
      rw [Function.update_self]; rfl)

theorem hrest0 (c : Dev nD) : ∀ b, b ∉ Finset.univ.image (Pipeline.arrRef spec0) → (fun b => V2 m (outs m) c b) b = (fun b => V1 m c b) b :=
  fun b hb => V2_of m (outs m) c b (fun hmem => hb (by
    simp only [List.mem_cons, List.mem_nil_iff, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩))

theorem hF1 (c : Dev nD) (w : Fin cfg1.W) : (pdats m 1 c).arrAt w cfg1.N = V4 m (outs m) c (Pipeline.arrRef spec1 w) := by
  have hin : ∀ w' : Fin cfg1.W, (cfg1.win w').isOut = false → Pipeline.arrRef spec1 w' ∉ ([main_v6_0, main_v6_1, main_v6_2] : List (Ref sig .tc)) →
      (pdats m 1 c).arrAt w' cfg1.N = V4 m (outs m) c (Pipeline.arrRef spec1 w') := fun w' hw' hn =>
    ((pdats m 1 c).arrAt_in w' hw' _).trans ((V4_of m (outs m) c _ hn).symm)
  have hout : ∀ w' : Fin cfg1.W, (b : Ref sig .tc) → Pipeline.arrRef spec1 w' = b → b ∈ ([main_v6_0, main_v6_1, main_v6_2] : List (Ref sig .tc)) →
      V4 m (outs m) c b = X4 m c b → (pdats m 1 c).arrAt w' cfg1.N = V4 m (outs m) c (Pipeline.arrRef spec1 w') := fun w' b hb _ hv => by
    subst hb
    rw [hv]; unfold X4
    exact (Pipeline.withArrays_arr spec1 launch1.win.arr_inj c (V3 m (outsA m) c) (fun w => (dat1 (fun c b => V3 m (outsA m) c b) c).arrAt w cfg1.N) w').symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hout 4 main_v6_0 rfl (by decide) (by
      show Function.update (Function.update (Function.update _ _ _) _ _) _ _ _ = _
      rw [Function.update_of_ne (StableHlo.devRef_ne_of_ne (by decide)), Function.update_of_ne (StableHlo.devRef_ne_of_ne (by decide)), Function.update_self]; rfl)
  | ⟨5, _⟩ => exact hout 5 main_v6_1 rfl (by decide) (by
      show Function.update (Function.update (Function.update _ _ _) _ _) _ _ _ = _
      rw [Function.update_of_ne (StableHlo.devRef_ne_of_ne (by decide)), Function.update_self]; rfl)
  | ⟨6, _⟩ => exact hout 6 main_v6_2 rfl (by decide) (by
      show Function.update (Function.update (Function.update _ _ _) _ _) _ _ _ = _
      rw [Function.update_self]; rfl)

theorem hrest1 (c : Dev nD) : ∀ b, b ∉ Finset.univ.image (Pipeline.arrRef spec1) → (fun b => V4 m (outs m) c b) b = (fun b => V3 m (outs m) c b) b :=
  fun b hb => V4_of m (outs m) c b (fun hmem => hb (by
    simp only [List.mem_cons, List.mem_nil_iff, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩))

theorem hF2 (c : Dev nD) (w : Fin cfg2.W) : (pdats m 2 c).arrAt w cfg2.N = V6 m (outs m) c (Pipeline.arrRef spec2 w) := by
  have hin : ∀ w' : Fin cfg2.W, (cfg2.win w').isOut = false → Pipeline.arrRef spec2 w' ∉ ([main_v8_0, main_v8_1, main_v8_2] : List (Ref sig .tc)) →
      (pdats m 2 c).arrAt w' cfg2.N = V6 m (outs m) c (Pipeline.arrRef spec2 w') := fun w' hw' hn =>
    ((pdats m 2 c).arrAt_in w' hw' _).trans ((V6_of m (outs m) c _ hn).symm)
  have hout : ∀ w' : Fin cfg2.W, (b : Ref sig .tc) → Pipeline.arrRef spec2 w' = b → b ∈ ([main_v8_0, main_v8_1, main_v8_2] : List (Ref sig .tc)) →
      V6 m (outs m) c b = X6 m c b → (pdats m 2 c).arrAt w' cfg2.N = V6 m (outs m) c (Pipeline.arrRef spec2 w') := fun w' b hb _ hv => by
    subst hb
    rw [hv]; unfold X6
    exact (Pipeline.withArrays_arr spec2 launch2.win.arr_inj c (V5 m (outsB m) c) (fun w => (dat2 (fun c b => V5 m (outsB m) c b) c).arrAt w cfg2.N) w').symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hout 4 main_v8_0 rfl (by decide) (by
      show Function.update (Function.update (Function.update _ _ _) _ _) _ _ _ = _
      rw [Function.update_of_ne (StableHlo.devRef_ne_of_ne (by decide)), Function.update_of_ne (StableHlo.devRef_ne_of_ne (by decide)), Function.update_self]; rfl)
  | ⟨5, _⟩ => exact hout 5 main_v8_1 rfl (by decide) (by
      show Function.update (Function.update (Function.update _ _ _) _ _) _ _ _ = _
      rw [Function.update_of_ne (StableHlo.devRef_ne_of_ne (by decide)), Function.update_self]; rfl)
  | ⟨6, _⟩ => exact hout 6 main_v8_2 rfl (by decide) (by
      show Function.update (Function.update (Function.update _ _ _) _ _) _ _ _ = _
      rw [Function.update_self]; rfl)

theorem hrest2 (c : Dev nD) : ∀ b, b ∉ Finset.univ.image (Pipeline.arrRef spec2) → (fun b => V6 m (outs m) c b) b = (fun b => V5 m (outs m) c b) b :=
  fun b hb => V6_of m (outs m) c b (fun hmem => hb (by
    simp only [List.mem_cons, List.mem_nil_iff, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩))

set_option backward.isDefEq.respectTransparency.types false in
def reg0 : Pipeline.RegionSeg (pcfgs (F := F)) adm (pdats m) () defs₀ Variants.none LL lvl 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ LL lvl 0 fun _ _ => rfl
  pre c := iprop(StableHlo.held (c : Thread nD τ) (Pipeline.ucRefs τ sig) (V1 m c) ∗ RR c)
  post c := iprop(StableHlo.held (c : Thread nD τ) (Pipeline.ucRefs τ sig) (V2 m (outs m) c) ∗ RR c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (fun c b => V1 m c b) c).Φ 0 from rfl]
    iintro ⟨Hp, -, Hr⟩
    iapply (hin0 _ c)
    unfold Pipeline.ΦA
    isplitl [Hr]; · iexact Hr
    iexact Hp
  hout c := by
    rw [Pipeline.ownSems0_none, show (pdats m 0 c).Φ (Fin.last _) = (dat0 (fun c b => V1 m c b) c).Φ (Fin.last cfg0.N) from rfl]
    iintro H
    ihave H' := (hout0 _ c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ Variants.none LL lvl 1 where
  win := launch1.win.to₀
  block_pos := launch1.block_pos
  stage_whole := launch1.stage_whole
  K := PEmpty
  osem k := k.elim
  ho := Pipeline.OwnSemFacts.none _
  hbody c := (body_obligation1 (fun c b => V3 m (outs m) c b) c).loose
  hwaits := Pipeline.hwaits_of_owed_zero _ _ _ _ LL lvl 1 fun _ _ => rfl
  pre c := iprop(StableHlo.held (c : Thread nD τ) (Pipeline.ucRefs τ sig) (V3 m (outs m) c) ∗ RR c)
  post c := iprop(StableHlo.held (c : Thread nD τ) (Pipeline.ucRefs τ sig) (V4 m (outs m) c) ∗ RR c)
  X c := iprop(∃ r, prngReg c r)
  Y c := iprop(∃ r, prngReg c r)
  Z c := Pipeline.unscopedRest (Ix := Unit) (Name := ℕ) (U := UR sig nD τ) (Lvl := ℕ) spec1 c (fun b => V3 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V3 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (fun c b => V3 m (outsA m) c b) c).Φ 0 from rfl]
    iintro ⟨Hp, -, Hr⟩
    iapply (hin1 _ c)
    unfold Pipeline.ΦA
    isplitl [Hr]; · iexact Hr
    iexact Hp
  hout c := by
    rw [Pipeline.ownSems0_none, show (pdats m 1 c).Φ (Fin.last _) = (dat1 (fun c b => V3 m (outsA m) c b) c).Φ (Fin.last cfg1.N) from rfl]
    iintro H
    ihave H' := (hout1 _ c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V3 m (outs m) c b) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ Variants.none LL lvl 2 where
  win := launch2.win.to₀
  block_pos := launch2.block_pos
  stage_whole := launch2.stage_whole
  K := PEmpty
  osem k := k.elim
  ho := Pipeline.OwnSemFacts.none _
  hbody c := (body_obligation2 (fun c b => V5 m (outs m) c b) c).loose
  hwaits := Pipeline.hwaits_of_owed_zero _ _ _ _ LL lvl 2 fun _ _ => rfl
  pre c := iprop(StableHlo.held (c : Thread nD τ) (Pipeline.ucRefs τ sig) (V5 m (outs m) c) ∗ RR c)
  post c := iprop(StableHlo.held (c : Thread nD τ) (Pipeline.ucRefs τ sig) (V6 m (outs m) c) ∗ RR c)
  X c := iprop(∃ r, prngReg c r)
  Y c := iprop(∃ r, prngReg c r)
  Z c := Pipeline.unscopedRest (Ix := Unit) (Name := ℕ) (U := UR sig nD τ) (Lvl := ℕ) spec2 c (fun b => V5 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (fun c b => V5 m (outsB m) c b) c).Φ 0 from rfl]
    iintro ⟨Hp, -, Hr⟩
    iapply (hin2 _ c)
    unfold Pipeline.ΦA
    isplitl [Hr]; · iexact Hr
    iexact Hp
  hout c := by
    rw [Pipeline.ownSems0_none, show (pdats m 2 c).Φ (Fin.last _) = (dat2 (fun c b => V5 m (outsB m) c b) c).Φ (Fin.last cfg2.N) from rfl]
    iintro H
    ihave H' := (hout2 _ c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V5 m (outs m) c b) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem kernel_run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V12 m (outs m) c b) :=
  run_cond m emb₁ () Variants.none LL lvl (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => RR c)
    (by
      have hcore : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
          ⊢ RR c := fun c => by
        iintro ⟨-, HO, -, Hp, -⟩
        isplitl [Hp]; · iexists _; iexact Hp
        iexists ∅; iexact HO
      have hall : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => RR c) : sProp 𝕄) := bigSep_mono fun c _ => hcore c
      iintro ⟨H, -⟩
      imodintro
      iapply hall
      iexact H)
    (fun c => by iintro ⟨-, HO⟩; iexact HO)
    (reg0 m) (fun _ => .rfl) (fun _ => .rfl)
    (reg1 m) (fun _ => .rfl) (fun _ => .rfl)
    (reg2 m) (fun _ => .rfl) (fun _ => .rfl)

theorem run_result (ρ : Dev nD → PrngReg) :
    θ_run defs (onTc (τ := τ) (main (F := F))) ⟨m, fun _ => 0, ρ⟩ (fun r => ∀ c : Dev nD,
      r.2.mem ((c.tc : Thread nD τ).loc main_v63) = V12 m (outs m) c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v63 (by decide)),
     (h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c)⟩) (kernel_run m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_result m ρ)

end Cert.Kernel.Hand

end
-- ==== Proof.R0Common.lean ====
import proofs.«429997_j76270029243071_3_alg».proof.Proof.Gen.KernelIdeal.Launch
import proofs.«429997_j76270029243071_3_alg».proof.Proof.Gen.KernelIdeal.Skeleton
import proofs.«429997_j76270029243071_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev condFirst0 (i : grid0.Coords) : Prop := (Scalar.cmpi .ne (Scalar.extui (Scalar.cmpi .eq (BitVec.ofNat 32 (i 1).val) 0#32)) 0#32) = 1#1

theorem hcondFirst0 : ∀ t : Fin cfg0.N, condFirst0 (grid0.coords t) ↔ t.val % 10 = 0 :=
  (by decide +kernel : ∀ t : Fin grid0.N, condFirst0 (grid0.coords t) ↔ t.val % 10 = 0)

abbrev condLast0 (i : grid0.Coords) : Prop := k0_cond2 i = 1#1

theorem hcondLast0 : ∀ t : Fin cfg0.N, condLast0 (grid0.coords t) ↔ t.val % 10 = 9 :=
  (by decide +kernel : ∀ t : Fin grid0.N, condLast0 (grid0.coords t) ↔ t.val % 10 = 9)

theorem idleOut0 : ∀ t : Fin cfg0.N, ¬condLast0 (grid0.coords t) →
    (cfg0.idle 4 (grid0.coords t) = true ∧ (cfg0.win 4).flush t = false) ∧ (cfg0.idle 5 (grid0.coords t) = true ∧ (cfg0.win 5).flush t = false)
      ∧ (cfg0.idle 6 (grid0.coords t) = true ∧ (cfg0.win 6).flush t = false) := by decide +kernel
theorem liveOut0 : ∀ t : Fin cfg0.N, condLast0 (grid0.coords t) →
    cfg0.idle 4 (grid0.coords t) = false ∧ cfg0.idle 5 (grid0.coords t) = false ∧ cfg0.idle 6 (grid0.coords t) = false := by decide +kernel

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d))
          ∗ Pipeline.scopedRestBut (Ix := Unit) (Name := ℕ) (U := UR sig nD τ) (Lvl := ℕ) (Val := Elt F) spec0 c [cc0_scratch0, cc0_scratch1, cc0_scratch2])
          ∗ (∃ r, prngReg c r)) := by
  unfold Pipeline.ΦA; rw [scopedRest0_split]; simp only [scM0_0, scM0_1, scM0_2, owns_whole]
  rfl

end Cert.KernelIdeal.Hand

end
-- ==== Proof.R0Runs.lean ====
import proofs.«429997_j76270029243071_3_alg».proof.Proof.R0Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S512x1024 .bf16) (harg2 : arg2.IsWhole) (arg3 : Memref sig .tc .vmem S2000x1024 .bf16) (harg3 : arg3.IsWhole)
  (arg4 : Memref sig .tc .vmem S1x1x2000 .f32) (harg4 : arg4.IsWhole) (arg5 : Memref sig .tc .vmem S512x1 .i32) (harg5 : arg5.IsWhole)
  (arg6 : Memref sig .tc .vmem S512x1 .f32) (harg6 : arg6.IsWhole) (arg7 : Memref sig .tc .vmem S512x1 .f32) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1 .f32) (harg10 : arg10.IsWhole) (arg11 : Memref sig .tc .vmem S512x1 .f32) (harg11 : arg11.IsWhole)

set_option maxHeartbeats 4000000 in
noncomputable def kernelRunA0 (hc0 : condFirst0 i) (hc1 : ¬condLast0 i)
    (x0 : Vec F S512x1024 .bf16) (x1 : Vec F S2000x1024 .bf16) (x2 : Vec F S1x1x2000 .f32) (x3 : Vec F S512x1 .i32) :
    Σ' (LS9 : List (View.Piece (Elt F) S512x1 .f32)) (LS10 : List (View.Piece (Elt F) S512x1 .f32)), { LS11 : List (View.Piece (Elt F) S512x1 .f32) //
      ∀ (xi6 xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc0__cluster_pass_kernel i arg2 harg2 arg3 harg3 arg4 harg4 arg5 harg5 arg6 harg6 arg7 harg7 arg8 harg8 arg9 harg9 arg10 harg10 arg11 harg11) K } := by
  refine ⟨?_, ?_, ?_, fun xi6 xi7 xi8 E K => ?run⟩
  case run =>
    simp only [cc0__cluster_pass_kernel_eq_skeleton]; unfold cc0__cluster_pass_kernel_skel
    simp only [k0_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%ds9, %fs9, -, HS9⟩, ⟨%ds10, %fs10, -, HS10⟩, ⟨%ds11, %fs11, -, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS9]; · iexists _; iexact HS9
    isplitl [HS10]; · iexists _; iexact HS10
    iexists _; iexact HS11

set_option maxHeartbeats 4000000 in
noncomputable def kernelRunB0 (hc0 : ¬condFirst0 i) (hc1 : ¬condLast0 i)
    (x0 : Vec F S512x1024 .bf16) (x1 : Vec F S2000x1024 .bf16) (x2 : Vec F S1x1x2000 .f32) (x3 : Vec F S512x1 .i32) (xs9 xs10 xs11 : Vec F S512x1 .f32) :
    Σ' (LS9 : List (View.Piece (Elt F) S512x1 .f32)) (LS10 : List (View.Piece (Elt F) S512x1 .f32)), { LS11 : List (View.Piece (Elt F) S512x1 .f32) //
      ∀ (xi6 xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc0__cluster_pass_kernel i arg2 harg2 arg3 harg3 arg4 harg4 arg5 harg5 arg6 harg6 arg7 harg7 arg8 harg8 arg9 harg9 arg10 harg10 arg11 harg11) K } := by
  refine ⟨?_, ?_, ?_, fun xi6 xi7 xi8 E K => ?run⟩
  case run =>
    simp only [cc0__cluster_pass_kernel_eq_skeleton]; unfold cc0__cluster_pass_kernel_skel
    simp only [k0_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS9]; · iexists _; iexact HS9
    isplitl [HS10]; · iexists _; iexact HS10
    iexists _; iexact HS11

set_option maxHeartbeats 4000000 in
noncomputable def kernelRunC0 (hc0 : ¬condFirst0 i) (hc1 : condLast0 i)
    (x0 : Vec F S512x1024 .bf16) (x1 : Vec F S2000x1024 .bf16) (x2 : Vec F S1x1x2000 .f32) (x3 : Vec F S512x1 .i32) (xs9 xs10 xs11 : Vec F S512x1 .f32) :
    Σ' (L6 : List (View.Piece (Elt F) S512x1 .f32)) (L7 : List (View.Piece (Elt F) S512x1 .f32)) (L8 : List (View.Piece (Elt F) S512x1 .f32)) (LS9 : List (View.Piece (Elt F) S512x1 .f32)) (LS10 : List (View.Piece (Elt F) S512x1 .f32)), { LS11 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc0__cluster_pass_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__cluster_pass_kernel_eq_skeleton]; unfold cc0__cluster_pass_kernel_skel
    simp only [k0_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    isplitl [H8]; · iexists _; iexact H8
    isplitl [HS9]; · iexists _; iexact HS9
    isplitl [HS10]; · iexists _; iexact HS10
    iexists _; iexact HS11

end Cert.KernelIdeal.Hand

end
-- ==== Proof.R0Data.lean ====
import proofs.«429997_j76270029243071_3_alg».proof.Proof.R0Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

structure Cols0 (F : FTy → Type) [FloatOps F] where
  m : Vec F S512x1 .f32
  l : Vec F S512x1 .f32
  s : Vec F S512x1 .f32

def colsInit0 : Cols0 F := ⟨k0_pay4 (F := F), k0_pay5 (F := F), k0_pay6 (F := F)⟩

def colsStep0 (i : grid0.Coords) (x0 : Vec F S512x1024 .bf16) (x1 : Vec F S2000x1024 .bf16) (x2 : Vec F S1x1x2000 .f32) (x3 : Vec F S512x1 .i32)
    (σ : Cols0 F) : Cols0 F :=
  ⟨k0_pay2 (k0_pay9 x0 x1 x2 σ.m),
   k0_pay1 (k0_pay7 x0 x1 x2) (k0_pay9 x0 x1 x2 σ.m) (k0_pay10 x0 x1 x2 σ.m σ.m) σ.l,
   k0_pay3 (k0_pay8 i x0 x1 x2 x3) σ.s⟩

section

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def colsAt0 (c : Dev nD) : (n : ℕ) → n < cfg0.N → Cols0 F
  | 0, hn => colsStep0 (grid0.coords ⟨0, hn⟩) (iblk0 V c 0 ⟨0, hn⟩) (iblk0 V c 1 ⟨0, hn⟩) (iblk0 V c 2 ⟨0, hn⟩) (iblk0 V c 3 ⟨0, hn⟩) colsInit0
  | n + 1, hn => colsStep0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩)
      (if (n + 1) % 10 = 0 then colsInit0 else colsAt0 c n (Nat.lt_of_succ_lt hn))

theorem colsAt0_first (c : Dev nD) (t : Fin cfg0.N) (h0 : t.val % 10 = 0) :
    colsAt0 V c t.val t.isLt = colsStep0 (grid0.coords t) (iblk0 V c 0 t) (iblk0 V c 1 t) (iblk0 V c 2 t) (iblk0 V c 3 t) colsInit0 := by
  obtain ⟨n, hn⟩ := t
  cases n with
  | zero => rfl
  | succ n => exact (congrArg (colsStep0 _ _ _ _ _) (if_pos h0))

theorem colsAt0_next (c : Dev nD) (t : Fin cfg0.N) (h0 : ¬t.val % 10 = 0) :
    colsAt0 V c t.val t.isLt = colsStep0 (grid0.coords t) (iblk0 V c 0 t) (iblk0 V c 1 t) (iblk0 V c 2 t) (iblk0 V c 3 t)
      (colsAt0 V c (t.val - 1) (Nat.lt_of_le_of_lt (Nat.sub_le _ _) t.isLt)) := by
  obtain ⟨n, hn⟩ := t
  cases n with
  | zero => exact absurd (Nat.zero_mod _) h0
  | succ n => exact (congrArg (colsStep0 _ _ _ _ _) (if_neg h0))

def PhiS0 (c : Dev nD) : (n : ℕ) → n ≤ cfg0.N → sProp 𝕄
  | 0, _ => Pipeline.ΦA spec0 c
  | n + 1, hn => iprop(iprop(iprop(owns (c : Thread nD τ) scM0_0 fullShare (colsAt0 V c n hn).m ∗ owns (c : Thread nD τ) scM0_1 fullShare (colsAt0 V c n hn).l ∗ owns (c : Thread nD τ) scM0_2 fullShare (colsAt0 V c n hn).s)
      ∗ Pipeline.scopedRestBut (Ix := Unit) (Name := ℕ) (U := UR sig nD τ) (Lvl := ℕ) (Val := Elt F) spec0 c [cc0_scratch0, cc0_scratch1, cc0_scratch2])
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (colsAt0 V c n hn).m ∗ owns (c : Thread nD τ) scM0_1 fullShare (colsAt0 V c n hn).l ∗ owns (c : Thread nD τ) scM0_2 fullShare (colsAt0 V c n hn).s)
      ∗ Pipeline.scopedRestBut (Ix := Unit) (Name := ℕ) (U := UR sig nD τ) (Lvl := ℕ) (Val := Elt F) spec0 c [cc0_scratch0, cc0_scratch1, cc0_scratch2])
      ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (colsAt0 V c (n - 1) (by omega)).m ∗ owns (c : Thread nD τ) scM0_1 fullShare (colsAt0 V c (n - 1) (by omega)).l ∗ owns (c : Thread nD τ) scM0_2 fullShare (colsAt0 V c (n - 1) (by omega)).s)
      ∗ Pipeline.scopedRestBut (Ix := Unit) (Name := ℕ) (U := UR sig nD τ) (Lvl := ℕ) (Val := Elt F) spec0 c [cc0_scratch0, cc0_scratch1, cc0_scratch2])
      ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (colsAt0 V c t.val t.isLt).m
    | ⟨5, _⟩ => (colsAt0 V c t.val t.isLt).l
    | ⟨6, _⟩ => (colsAt0 V c t.val t.isLt).s
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (colsAt0 V c t.val t.isLt).m := by dsimp only [dat0]
theorem after0_5 (c : Dev nD) (t : Fin cfg0.N) : (dat0 V c).after 5 t = (colsAt0 V c t.val t.isLt).l := by dsimp only [dat0]
theorem after0_6 (c : Dev nD) (t : Fin cfg0.N) : (dat0 V c).after 6 t = (colsAt0 V c t.val t.isLt).s := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

end

end Cert.KernelIdeal.Hand

end
-- ==== Proof.R0Pieces.lean ====
import proofs.«429997_j76270029243071_3_alg».proof.Proof.R0Runs
import proofs.«429997_j76270029243071_3_alg».proof.Proof.R0Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

variable {c : Dev nD} {i : grid0.Coords} {arg2 : Memref sig .tc .vmem S512x1024 .bf16} {harg2 : arg2.IsWhole} {arg3 : Memref sig .tc .vmem S2000x1024 .bf16} {harg3 : arg3.IsWhole}
  {arg4 : Memref sig .tc .vmem S1x1x2000 .f32} {harg4 : arg4.IsWhole} {arg5 : Memref sig .tc .vmem S512x1 .i32} {harg5 : arg5.IsWhole}
  {arg6 : Memref sig .tc .vmem S512x1 .f32} {harg6 : arg6.IsWhole} {arg7 : Memref sig .tc .vmem S512x1 .f32} {harg7 : arg7.IsWhole}
  {arg8 : Memref sig .tc .vmem S512x1 .f32} {harg8 : arg8.IsWhole} {arg9 : Memref sig .tc .vmem S512x1 .f32} {harg9 : arg9.IsWhole}
  {arg10 : Memref sig .tc .vmem S512x1 .f32} {harg10 : arg10.IsWhole} {arg11 : Memref sig .tc .vmem S512x1 .f32} {harg11 : arg11.IsWhole}
  {x0 : Vec F S512x1024 .bf16} {x1 : Vec F S2000x1024 .bf16} {x2 : Vec F S1x1x2000 .f32} {x3 : Vec F S512x1 .i32} {xs9 xs10 xs11 : Vec F S512x1 .f32}

/-- Each column's stores in a run end with a store of the whole column, so the column reads back as that store's value: the
    update of the running maximum, sum and selected logit from the reset values (first point) -/
theorem pieceA0 {hc0 : condFirst0 i} {hc1 : ¬condLast0 i} :
    (∀ f, arg9.view.read (Elt F) (arg9.view.writes (Elt F) f (kernelRunA0 c i arg2 harg2 arg3 harg3 arg4 harg4 arg5 harg5 arg6 harg6 arg7 harg7 arg8 harg8 arg9 harg9 arg10 harg10 arg11 harg11 hc0 hc1 x0 x1 x2 x3).1) = (colsStep0 i x0 x1 x2 x3 colsInit0).m)
    ∧ (∀ f, arg10.view.read (Elt F) (arg10.view.writes (Elt F) f (kernelRunA0 c i arg2 harg2 arg3 harg3 arg4 harg4 arg5 harg5 arg6 harg6 arg7 harg7 arg8 harg8 arg9 harg9 arg10 harg10 arg11 harg11 hc0 hc1 x0 x1 x2 x3).2.1) = (colsStep0 i x0 x1 x2 x3 colsInit0).l)
    ∧ (∀ f, arg11.view.read (Elt F) (arg11.view.writes (Elt F) f (kernelRunA0 c i arg2 harg2 arg3 harg3 arg4 harg4 arg5 harg5 arg6 harg6 arg7 harg7 arg8 harg8 arg9 harg9 arg10 harg10 arg11 harg11 hc0 hc1 x0 x1 x2 x3).2.2.1) = (colsStep0 i x0 x1 x2 x3 colsInit0).s) := by
  refine ⟨?_, ?_, ?_⟩ <;> intro f <;>
  · rw [View.read_writes_eq_canon _ _ _ (View.cover_of_tiledL _ S512x1.size (by sl_kernel_rfl))]
    unfold kernelRunA0
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

/-- or from what the columns held (inner point); -/
theorem pieceB0 {hc0 : ¬condFirst0 i} {hc1 : ¬condLast0 i} :
    (∀ f, arg9.view.read (Elt F) (arg9.view.writes (Elt F) f (kernelRunB0 c i arg2 harg2 arg3 harg3 arg4 harg4 arg5 harg5 arg6 harg6 arg7 harg7 arg8 harg8 arg9 harg9 arg10 harg10 arg11 harg11 hc0 hc1 x0 x1 x2 x3 xs9 xs10 xs11).1) = (colsStep0 i x0 x1 x2 x3 ⟨xs9, xs10, xs11⟩).m)
    ∧ (∀ f, arg10.view.read (Elt F) (arg10.view.writes (Elt F) f (kernelRunB0 c i arg2 harg2 arg3 harg3 arg4 harg4 arg5 harg5 arg6 harg6 arg7 harg7 arg8 harg8 arg9 harg9 arg10 harg10 arg11 harg11 hc0 hc1 x0 x1 x2 x3 xs9 xs10 xs11).2.1) = (colsStep0 i x0 x1 x2 x3 ⟨xs9, xs10, xs11⟩).l)
    ∧ (∀ f, arg11.view.read (Elt F) (arg11.view.writes (Elt F) f (kernelRunB0 c i arg2 harg2 arg3 harg3 arg4 harg4 arg5 harg5 arg6 harg6 arg7 harg7 arg8 harg8 arg9 harg9 arg10 harg10 arg11 harg11 hc0 hc1 x0 x1 x2 x3 xs9 xs10 xs11).2.2.1) = (colsStep0 i x0 x1 x2 x3 ⟨xs9, xs10, xs11⟩).s) := by
  refine ⟨?_, ?_, ?_⟩ <;> intro f <;>
  · rw [View.read_writes_eq_canon _ _ _ (View.cover_of_tiledL _ S512x1.size (by sl_kernel_rfl))]
    unfold kernelRunB0
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

/-- at a last point the three output blocks receive the same three values. -/
theorem pieceC0 {hc0 : ¬condFirst0 i} {hc1 : condLast0 i} :
    (∀ f, arg6.view.read (Elt F) (arg6.view.writes (Elt F) f (kernelRunC0 c i arg2 harg2 arg3 harg3 arg4 harg4 arg5 harg5 arg6 harg6 arg7 harg7 arg8 harg8 arg9 harg9 arg10 harg10 arg11 harg11 hc0 hc1 x0 x1 x2 x3 xs9 xs10 xs11).1) = (colsStep0 i x0 x1 x2 x3 ⟨xs9, xs10, xs11⟩).m)
    ∧ (∀ f, arg7.view.read (Elt F) (arg7.view.writes (Elt F) f (kernelRunC0 c i arg2 harg2 arg3 harg3 arg4 harg4 arg5 harg5 arg6 harg6 arg7 harg7 arg8 harg8 arg9 harg9 arg10 harg10 arg11 harg11 hc0 hc1 x0 x1 x2 x3 xs9 xs10 xs11).2.1) = (colsStep0 i x0 x1 x2 x3 ⟨xs9, xs10, xs11⟩).l)
    ∧ (∀ f, arg8.view.read (Elt F) (arg8.view.writes (Elt F) f (kernelRunC0 c i arg2 harg2 arg3 harg3 arg4 harg4 arg5 harg5 arg6 harg6 arg7 harg7 arg8 harg8 arg9 harg9 arg10 harg10 arg11 harg11 hc0 hc1 x0 x1 x2 x3 xs9 xs10 xs11).2.2.1) = (colsStep0 i x0 x1 x2 x3 ⟨xs9, xs10, xs11⟩).s)
    ∧ (∀ f, arg9.view.read (Elt F) (arg9.view.writes (Elt F) f (kernelRunC0 c i arg2 harg2 arg3 harg3 arg4 harg4 arg5 harg5 arg6 harg6 arg7 harg7 arg8 harg8 arg9 harg9 arg10 harg10 arg11 harg11 hc0 hc1 x0 x1 x2 x3 xs9 xs10 xs11).2.2.2.1) = (colsStep0 i x0 x1 x2 x3 ⟨xs9, xs10, xs11⟩).m)
    ∧ (∀ f, arg10.view.read (Elt F) (arg10.view.writes (Elt F) f (kernelRunC0 c i arg2 harg2 arg3 harg3 arg4 harg4 arg5 harg5 arg6 harg6 arg7 harg7 arg8 harg8 arg9 harg9 arg10 harg10 arg11 harg11 hc0 hc1 x0 x1 x2 x3 xs9 xs10 xs11).2.2.2.2.1) = (colsStep0 i x0 x1 x2 x3 ⟨xs9, xs10, xs11⟩).l)
    ∧ (∀ f, arg11.view.read (Elt F) (arg11.view.writes (Elt F) f (kernelRunC0 c i arg2 harg2 arg3 harg3 arg4 harg4 arg5 harg5 arg6 harg6 arg7 harg7 arg8 harg8 arg9 harg9 arg10 harg10 arg11 harg11 hc0 hc1 x0 x1 x2 x3 xs9 xs10 xs11).2.2.2.2.2.1) = (colsStep0 i x0 x1 x2 x3 ⟨xs9, xs10, xs11⟩).s) := by
  refine ⟨?_, ?_, ?_, ?_, ?_, ?_⟩ <;> intro f <;>
  · rw [View.read_writes_eq_canon _ _ _ (View.cover_of_tiledL _ S512x1.size (by sl_kernel_rfl))]
    unfold kernelRunC0
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

end Cert.KernelIdeal.Hand

end
-- ==== Proof.R0Body.lean ====
import proofs.«429997_j76270029243071_3_alg».proof.Proof.R0Pieces
import proofs.«429997_j76270029243071_3_alg».proof.Proof.LibOwns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem PhiS0_castSucc (c : Dev nD) (t : Fin cfg0.N) :
    (dat0 V c).Φ t.castSucc = PhiS0 V c t.val (Nat.le_of_lt t.isLt) := by
  dsimp only [dat0]; simp only [Fin.coe_castSucc]

/-- At every position the invariant gives back what the launch handed over: the columns' named contents are forgotten. -/
theorem PhiS0_forget (c : Dev nD) (n : ℕ) (h : n ≤ cfg0.N) : PhiS0 V c n h ⊢ Pipeline.ΦA spec0 c := by
  by_cases hz : n = 0
  · rw [PhiS0_zero V c n h hz]
  rw [PhiS0_pos V c n h hz, PhiA0_eq]
  iintro ⟨⟨⟨HS9, HS10, HS11⟩, Hrest⟩, Hg⟩
  isplitl [HS9 HS10 HS11 Hrest]
  · isplitl [HS9 HS10 HS11]
    · isplitl [HS9]; · iexists _; iexact HS9
      isplitl [HS10]; · iexists _; iexact HS10
      iexists _; iexact HS11
    iexact Hrest
  iexact Hg

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 4800000 in
/-- A point is the first of its row block, an inner one or the last, and the matching run of the body applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ, PhiS0_castSucc V c t]
  have hN : t.val < 80 := lt_of_lt_of_eq t.isLt (show cfg0.N = 80 from N_0)
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2,
    show (dat0 V c).leavesExact 3 t = owns (c : Thread nD τ) (st0_3 t) fullShare ((dat0 V c).after 3 t) from rfl, after0_3]
  by_cases h0 : t.val % 10 = 0
  · have h1 : ¬t.val % 10 = 9 := by omega
    have hq := idleOut0 t (fun h => h1 ((hcondLast0 t).mp h))
    rw [Dat.leavesExact_idle (dat0 V c) 4 t hq.1.1 hq.1.2, Dat.leavesExact_idle (dat0 V c) 5 t hq.2.1.1 hq.2.1.2, Dat.leavesExact_idle (dat0 V c) 6 t hq.2.2.1 hq.2.2.2]
    rw [colsAt0_first V c t h0]
    refine (sep_mono_left (PhiS0_forget V c _ _)).trans ?_
    rw [PhiA0_eq]
    iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunA0 c (grid0.coords t) _ _ _ _ _ _ _ _ _ _ _ _ _ _ _ _ _ _ _ _ ((hcondFirst0 t).mpr h0) (fun h => h1 ((hcondLast0 t).mp h)) (iblk0 V c 0 t) (iblk0 V c 1 t) (iblk0 V c 2 t) (iblk0 V c 3 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS9]; · iexact HS9
    isplitl [HS10]; · iexact HS10
    isplitl [HS11]; · iexact HS11
    iintro ⟨H0, H1, H2, H3, H4, H5, H6, HW⟩
    ihave HS' := (owns3_of_writes (c := (c : Thread nD τ)) (Val := Elt F) pieceA0) $$ HW
    isplitl [HS' Hrest Hg]
    · isplitl [HS' Hrest]
      · isplitl [HS']; · iexact HS'
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  have hz : t.val ≠ 0 := fun e => h0 (by rw [e])
  rw [PhiS0_pos V c _ _ hz]
  by_cases h1 : t.val % 10 = 9
  · rw [show (dat0 V c).leavesExact 4 t = owns (c : Thread nD τ) (st0_4 t) fullShare ((dat0 V c).after 4 t) from by
          unfold Dat.leavesExact; rw [(liveOut0 t ((hcondLast0 t).mpr h1)).1], after0_4,
        show (dat0 V c).leavesExact 5 t = owns (c : Thread nD τ) (st0_5 t) fullShare ((dat0 V c).after 5 t) from by
          unfold Dat.leavesExact; rw [(liveOut0 t ((hcondLast0 t).mpr h1)).2.1], after0_5,
        show (dat0 V c).leavesExact 6 t = owns (c : Thread nD τ) (st0_6 t) fullShare ((dat0 V c).after 6 t) from by
          unfold Dat.leavesExact; rw [(liveOut0 t ((hcondLast0 t).mpr h1)).2.2], after0_6]
    rw [colsAt0_next V c t h0]
    iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunC0 c (grid0.coords t) _ _ _ _ _ _ _ _ _ _ _ _ _ _ _ _ _ _ _ _ (fun h => h0 ((hcondFirst0 t).mp h)) ((hcondLast0 t).mpr h1) (iblk0 V c 0 t) (iblk0 V c 1 t) (iblk0 V c 2 t) (iblk0 V c 3 t) (colsAt0 V c (t.val - 1) (Nat.lt_of_le_of_lt (Nat.sub_le _ _) t.isLt)).m (colsAt0 V c (t.val - 1) (Nat.lt_of_le_of_lt (Nat.sub_le _ _) t.isLt)).l (colsAt0 V c (t.val - 1) (Nat.lt_of_le_of_lt (Nat.sub_le _ _) t.isLt)).s).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS9]; · iexact HS9
    isplitl [HS10]; · iexact HS10
    isplitl [HS11]; · iexact HS11
    iintro ⟨H0, H1, H2, H3, HT⟩
    ihave HT' := (owns6_of_writes (c := (c : Thread nD τ)) (Val := Elt F) pieceC0) $$ HT
    icases HT' with ⟨H4, H5, H6, HS'⟩
    isplitl [HS' Hrest Hg]
    · isplitl [HS' Hrest]
      · isplitl [HS']; · iexact HS'
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  have hq := idleOut0 t (fun h => h1 ((hcondLast0 t).mp h))
  rw [Dat.leavesExact_idle (dat0 V c) 4 t hq.1.1 hq.1.2, Dat.leavesExact_idle (dat0 V c) 5 t hq.2.1.1 hq.2.1.2, Dat.leavesExact_idle (dat0 V c) 6 t hq.2.2.1 hq.2.2.2]
  rw [colsAt0_next V c t h0]
  iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRunB0 c (grid0.coords t) _ _ _ _ _ _ _ _ _ _ _ _ _ _ _ _ _ _ _ _ (fun h => h0 ((hcondFirst0 t).mp h)) (fun h => h1 ((hcondLast0 t).mp h)) (iblk0 V c 0 t) (iblk0 V c 1 t) (iblk0 V c 2 t) (iblk0 V c 3 t) (colsAt0 V c (t.val - 1) (Nat.lt_of_le_of_lt (Nat.sub_le _ _) t.isLt)).m (colsAt0 V c (t.val - 1) (Nat.lt_of_le_of_lt (Nat.sub_le _ _) t.isLt)).l (colsAt0 V c (t.val - 1) (Nat.lt_of_le_of_lt (Nat.sub_le _ _) t.isLt)).s).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS9]; · iexact HS9
  isplitl [HS10]; · iexact HS10
  isplitl [HS11]; · iexact HS11
  iintro ⟨H0, H1, H2, H3, H4, H5, H6, HW⟩
  ihave HS' := (owns3_of_writes (c := (c : Thread nD τ)) (Val := Elt F) pieceB0) $$ HW
  isplitl [HS' Hrest Hg]
  · isplitl [HS' Hrest]
    · isplitl [HS']; · iexact HS'
      iexact Hrest
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

theorem hout0 (c : Dev nD) : (dat0 V c).Φ (Fin.last cfg0.N) ⊢ Pipeline.ΦA spec0 c :=
  show PhiS0 V c (Fin.last cfg0.N).val (Nat.le_of_lt_succ (Fin.last cfg0.N).isLt) ⊢ _ from PhiS0_forget V c _ _

end

end Cert.KernelIdeal.Hand

end
-- ==== Proof.R1Common.lean ====
import proofs.«429997_j76270029243071_3_alg».proof.Proof.Gen.KernelIdeal.Launch
import proofs.«429997_j76270029243071_3_alg».proof.Proof.Gen.KernelIdeal.Skeleton
import proofs.«429997_j76270029243071_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev condFirst1 (i : grid1.Coords) : Prop := (Scalar.cmpi .ne (Scalar.extui (Scalar.cmpi .eq (BitVec.ofNat 32 (i 1).val) 0#32)) 0#32) = 1#1

theorem hcondFirst1 : ∀ t : Fin cfg1.N, condFirst1 (grid1.coords t) ↔ t.val % 10 = 0 :=
  (by decide +kernel : ∀ t : Fin grid1.N, condFirst1 (grid1.coords t) ↔ t.val % 10 = 0)

abbrev condLast1 (i : grid1.Coords) : Prop := k1_cond2 i = 1#1

theorem hcondLast1 : ∀ t : Fin cfg1.N, condLast1 (grid1.coords t) ↔ t.val % 10 = 9 :=
  (by decide +kernel : ∀ t : Fin grid1.N, condLast1 (grid1.coords t) ↔ t.val % 10 = 9)

theorem idleOut1 : ∀ t : Fin cfg1.N, ¬condLast1 (grid1.coords t) →
    (cfg1.idle 4 (grid1.coords t) = true ∧ (cfg1.win 4).flush t = false) ∧ (cfg1.idle 5 (grid1.coords t) = true ∧ (cfg1.win 5).flush t = false)
      ∧ (cfg1.idle 6 (grid1.coords t) = true ∧ (cfg1.win 6).flush t = false) := by decide +kernel
theorem liveOut1 : ∀ t : Fin cfg1.N, condLast1 (grid1.coords t) →
    cfg1.idle 4 (grid1.coords t) = false ∧ cfg1.idle 5 (grid1.coords t) = false ∧ cfg1.idle 6 (grid1.coords t) = false := by decide +kernel

abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2])
          ∗ (∃ r, prngReg c r)) := by
  unfold Pipeline.ΦA; rw [scopedRest1_split]; simp only [scM1_0, scM1_1, scM1_2, owns_whole]
  rfl

end Cert.KernelIdeal.Hand

end
-- ==== Proof.R1Runs.lean ====
import proofs.«429997_j76270029243071_3_alg».proof.Proof.R1Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid1.Coords) (arg2 : Memref sig .tc .vmem S512x1024 .bf16) (harg2 : arg2.IsWhole) (arg3 : Memref sig .tc .vmem S2000x1024 .bf16) (harg3 : arg3.IsWhole)
  (arg4 : Memref sig .tc .vmem S1x1x2000 .f32) (harg4 : arg4.IsWhole) (arg5 : Memref sig .tc .vmem S512x1 .i32) (harg5 : arg5.IsWhole)
  (arg6 : Memref sig .tc .vmem S512x1 .f32) (harg6 : arg6.IsWhole) (arg7 : Memref sig .tc .vmem S512x1 .f32) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1 .f32) (harg10 : arg10.IsWhole) (arg11 : Memref sig .tc .vmem S512x1 .f32) (harg11 : arg11.IsWhole)

set_option maxHeartbeats 4000000 in
noncomputable def kernelRunA1 (hc0 : condFirst1 i) (hc1 : ¬condLast1 i)
    (x0 : Vec F S512x1024 .bf16) (x1 : Vec F S2000x1024 .bf16) (x2 : Vec F S1x1x2000 .f32) (x3 : Vec F S512x1 .i32) :
    Σ' (LS9 : List (View.Piece (Elt F) S512x1 .f32)) (LS10 : List (View.Piece (Elt F) S512x1 .f32)), { LS11 : List (View.Piece (Elt F) S512x1 .f32) //
      ∀ (xi6 xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc1__cluster_pass_kernel i arg2 harg2 arg3 harg3 arg4 harg4 arg5 harg5 arg6 harg6 arg7 harg7 arg8 harg8 arg9 harg9 arg10 harg10 arg11 harg11) K } := by
  refine ⟨?_, ?_, ?_, fun xi6 xi7 xi8 E K => ?run⟩
  case run =>
    simp only [cc1__cluster_pass_kernel_eq_skeleton]; unfold cc1__cluster_pass_kernel_skel
    simp only [k1_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%ds9, %fs9, -, HS9⟩, ⟨%ds10, %fs10, -, HS10⟩, ⟨%ds11, %fs11, -, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS9]; · iexists _; iexact HS9
    isplitl [HS10]; · iexists _; iexact HS10
    iexists _; iexact HS11

set_option maxHeartbeats 4000000 in
noncomputable def kernelRunB1 (hc0 : ¬condFirst1 i) (hc1 : ¬condLast1 i)
    (x0 : Vec F S512x1024 .bf16) (x1 : Vec F S2000x1024 .bf16) (x2 : Vec F S1x1x2000 .f32) (x3 : Vec F S512x1 .i32) (xs9 xs10 xs11 : Vec F S512x1 .f32) :
    Σ' (LS9 : List (View.Piece (Elt F) S512x1 .f32)) (LS10 : List (View.Piece (Elt F) S512x1 .f32)), { LS11 : List (View.Piece (Elt F) S512x1 .f32) //
      ∀ (xi6 xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc1__cluster_pass_kernel i arg2 harg2 arg3 harg3 arg4 harg4 arg5 harg5 arg6 harg6 arg7 harg7 arg8 harg8 arg9 harg9 arg10 harg10 arg11 harg11) K } := by
  refine ⟨?_, ?_, ?_, fun xi6 xi7 xi8 E K => ?run⟩
  case run =>
    simp only [cc1__cluster_pass_kernel_eq_skeleton]; unfold cc1__cluster_pass_kernel_skel
    simp only [k1_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS9]; · iexists _; iexact HS9
    isplitl [HS10]; · iexists _; iexact HS10
    iexists _; iexact HS11

set_option maxHeartbeats 4000000 in
noncomputable def kernelRunC1 (hc0 : ¬condFirst1 i) (hc1 : condLast1 i)
    (x0 : Vec F S512x1024 .bf16) (x1 : Vec F S2000x1024 .bf16) (x2 : Vec F S1x1x2000 .f32) (x3 : Vec F S512x1 .i32) (xs9 xs10 xs11 : Vec F S512x1 .f32) :
    Σ' (L6 : List (View.Piece (Elt F) S512x1 .f32)) (L7 : List (View.Piece (Elt F) S512x1 .f32)) (L8 : List (View.Piece (Elt F) S512x1 .f32)) (LS9 : List (View.Piece (Elt F) S512x1 .f32)) (LS10 : List (View.Piece (Elt F) S512x1 .f32)), { LS11 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc1__cluster_pass_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc1__cluster_pass_kernel_eq_skeleton]; unfold cc1__cluster_pass_kernel_skel
    simp only [k1_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    isplitl [H8]; · iexists _; iexact H8
    isplitl [HS9]; · iexists _; iexact HS9
    isplitl [HS10]; · iexists _; iexact HS10
    iexists _; iexact HS11

end Cert.KernelIdeal.Hand

end
-- ==== Proof.R1Data.lean ====
import proofs.«429997_j76270029243071_3_alg».proof.Proof.R1Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

structure Cols1 (F : FTy → Type) [FloatOps F] where
  m : Vec F S512x1 .f32
  l : Vec F S512x1 .f32
  s : Vec F S512x1 .f32

def colsInit1 : Cols1 F := ⟨k1_pay4 (F := F), k1_pay5 (F := F), k1_pay6 (F := F)⟩

def colsStep1 (i : grid1.Coords) (x0 : Vec F S512x1024 .bf16) (x1 : Vec F S2000x1024 .bf16) (x2 : Vec F S1x1x2000 .f32) (x3 : Vec F S512x1 .i32)
    (σ : Cols1 F) : Cols1 F :=
  ⟨k1_pay2 (k1_pay9 x0 x1 x2 σ.m),
   k1_pay1 (k1_pay7 x0 x1 x2) (k1_pay9 x0 x1 x2 σ.m) (k1_pay10 x0 x1 x2 σ.m σ.m) σ.l,
   k1_pay3 (k1_pay8 i x0 x1 x2 x3) σ.s⟩

section

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def colsAt1 (c : Dev nD) : (n : ℕ) → n < cfg1.N → Cols1 F
  | 0, hn => colsStep1 (grid1.coords ⟨0, hn⟩) (iblk1 V c 0 ⟨0, hn⟩) (iblk1 V c 1 ⟨0, hn⟩) (iblk1 V c 2 ⟨0, hn⟩) (iblk1 V c 3 ⟨0, hn⟩) colsInit1
  | n + 1, hn => colsStep1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 10 = 0 then colsInit1 else colsAt1 c n (Nat.lt_of_succ_lt hn))

theorem colsAt1_first (c : Dev nD) (t : Fin cfg1.N) (h0 : t.val % 10 = 0) :
    colsAt1 V c t.val t.isLt = colsStep1 (grid1.coords t) (iblk1 V c 0 t) (iblk1 V c 1 t) (iblk1 V c 2 t) (iblk1 V c 3 t) colsInit1 := by
  obtain ⟨n, hn⟩ := t
  cases n with
  | zero => rfl
  | succ n => exact (congrArg (colsStep1 _ _ _ _ _) (if_pos h0))

theorem colsAt1_next (c : Dev nD) (t : Fin cfg1.N) (h0 : ¬t.val % 10 = 0) :
    colsAt1 V c t.val t.isLt = colsStep1 (grid1.coords t) (iblk1 V c 0 t) (iblk1 V c 1 t) (iblk1 V c 2 t) (iblk1 V c 3 t)
      (colsAt1 V c (t.val - 1) (Nat.lt_of_le_of_lt (Nat.sub_le _ _) t.isLt)) := by
  obtain ⟨n, hn⟩ := t
  cases n with
  | zero => exact absurd (Nat.zero_mod _) h0
  | succ n => exact (congrArg (colsStep1 _ _ _ _ _) (if_neg h0))

def PhiS1 (c : Dev nD) : (n : ℕ) → n ≤ cfg1.N → sProp 𝕄
  | 0, _ => Pipeline.ΦA spec1 c
  | n + 1, hn => iprop(iprop(iprop(owns (c : Thread nD τ) scM1_0 fullShare (colsAt1 V c n hn).m ∗ owns (c : Thread nD τ) scM1_1 fullShare (colsAt1 V c n hn).l ∗ owns (c : Thread nD τ) scM1_2 fullShare (colsAt1 V c n hn).s)
      ∗ Pipeline.scopedRestBut (Ix := Unit) (Name := ℕ) (U := UR sig nD τ) (Lvl := ℕ) (Val := Elt F) spec1 c [cc1_scratch0, cc1_scratch1, cc1_scratch2])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (colsAt1 V c n hn).m ∗ owns (c : Thread nD τ) scM1_1 fullShare (colsAt1 V c n hn).l ∗ owns (c : Thread nD τ) scM1_2 fullShare (colsAt1 V c n hn).s)
      ∗ Pipeline.scopedRestBut (Ix := Unit) (Name := ℕ) (U := UR sig nD τ) (Lvl := ℕ) (Val := Elt F) spec1 c [cc1_scratch0, cc1_scratch1, cc1_scratch2])
      ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (colsAt1 V c (n - 1) (by omega)).m ∗ owns (c : Thread nD τ) scM1_1 fullShare (colsAt1 V c (n - 1) (by omega)).l ∗ owns (c : Thread nD τ) scM1_2 fullShare (colsAt1 V c (n - 1) (by omega)).s)
      ∗ Pipeline.scopedRestBut (Ix := Unit) (Name := ℕ) (U := UR sig nD τ) (Lvl := ℕ) (Val := Elt F) spec1 c [cc1_scratch0, cc1_scratch1, cc1_scratch2])
      ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (colsAt1 V c t.val t.isLt).m
    | ⟨5, _⟩ => (colsAt1 V c t.val t.isLt).l
    | ⟨6, _⟩ => (colsAt1 V c t.val t.isLt).s
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (colsAt1 V c t.val t.isLt).m := by dsimp only [dat1]
theorem after1_5 (c : Dev nD) (t : Fin cfg1.N) : (dat1 V c).after 5 t = (colsAt1 V c t.val t.isLt).l := by dsimp only [dat1]
theorem after1_6 (c : Dev nD) (t : Fin cfg1.N) : (dat1 V c).after 6 t = (colsAt1 V c t.val t.isLt).s := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

end

end Cert.KernelIdeal.Hand

end
-- ==== Proof.R1Pieces.lean ====
import proofs.«429997_j76270029243071_3_alg».proof.Proof.R1Runs
import proofs.«429997_j76270029243071_3_alg».proof.Proof.R1Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

variable {c : Dev nD} {i : grid1.Coords} {arg2 : Memref sig .tc .vmem S512x1024 .bf16} {harg2 : arg2.IsWhole} {arg3 : Memref sig .tc .vmem S2000x1024 .bf16} {harg3 : arg3.IsWhole}
  {arg4 : Memref sig .tc .vmem S1x1x2000 .f32} {harg4 : arg4.IsWhole} {arg5 : Memref sig .tc .vmem S512x1 .i32} {harg5 : arg5.IsWhole}
  {arg6 : Memref sig .tc .vmem S512x1 .f32} {harg6 : arg6.IsWhole} {arg7 : Memref sig .tc .vmem S512x1 .f32} {harg7 : arg7.IsWhole}
  {arg8 : Memref sig .tc .vmem S512x1 .f32} {harg8 : arg8.IsWhole} {arg9 : Memref sig .tc .vmem S512x1 .f32} {harg9 : arg9.IsWhole}
  {arg10 : Memref sig .tc .vmem S512x1 .f32} {harg10 : arg10.IsWhole} {arg11 : Memref sig .tc .vmem S512x1 .f32} {harg11 : arg11.IsWhole}
  {x0 : Vec F S512x1024 .bf16} {x1 : Vec F S2000x1024 .bf16} {x2 : Vec F S1x1x2000 .f32} {x3 : Vec F S512x1 .i32} {xs9 xs10 xs11 : Vec F S512x1 .f32}

/-- Each column's stores in a run end with a store of the whole column, so the column reads back as that store's value: the
    update of the running maximum, sum and selected logit from the reset values (first point) -/
theorem pieceA1 {hc0 : condFirst1 i} {hc1 : ¬condLast1 i} :
    (∀ f, arg9.view.read (Elt F) (arg9.view.writes (Elt F) f (kernelRunA1 c i arg2 harg2 arg3 harg3 arg4 harg4 arg5 harg5 arg6 harg6 arg7 harg7 arg8 harg8 arg9 harg9 arg10 harg10 arg11 harg11 hc0 hc1 x0 x1 x2 x3).1) = (colsStep1 i x0 x1 x2 x3 colsInit1).m)
    ∧ (∀ f, arg10.view.read (Elt F) (arg10.view.writes (Elt F) f (kernelRunA1 c i arg2 harg2 arg3 harg3 arg4 harg4 arg5 harg5 arg6 harg6 arg7 harg7 arg8 harg8 arg9 harg9 arg10 harg10 arg11 harg11 hc0 hc1 x0 x1 x2 x3).2.1) = (colsStep1 i x0 x1 x2 x3 colsInit1).l)
    ∧ (∀ f, arg11.view.read (Elt F) (arg11.view.writes (Elt F) f (kernelRunA1 c i arg2 harg2 arg3 harg3 arg4 harg4 arg5 harg5 arg6 harg6 arg7 harg7 arg8 harg8 arg9 harg9 arg10 harg10 arg11 harg11 hc0 hc1 x0 x1 x2 x3).2.2.1) = (colsStep1 i x0 x1 x2 x3 colsInit1).s) := by
  refine ⟨?_, ?_, ?_⟩ <;> intro f <;>
  · rw [View.read_writes_eq_canon _ _ _ (View.cover_of_tiledL _ S512x1.size (by sl_kernel_rfl))]
    unfold kernelRunA1
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

/-- or from what the columns held (inner point); -/
theorem pieceB1 {hc0 : ¬condFirst1 i} {hc1 : ¬condLast1 i} :
    (∀ f, arg9.view.read (Elt F) (arg9.view.writes (Elt F) f (kernelRunB1 c i arg2 harg2 arg3 harg3 arg4 harg4 arg5 harg5 arg6 harg6 arg7 harg7 arg8 harg8 arg9 harg9 arg10 harg10 arg11 harg11 hc0 hc1 x0 x1 x2 x3 xs9 xs10 xs11).1) = (colsStep1 i x0 x1 x2 x3 ⟨xs9, xs10, xs11⟩).m)
    ∧ (∀ f, arg10.view.read (Elt F) (arg10.view.writes (Elt F) f (kernelRunB1 c i arg2 harg2 arg3 harg3 arg4 harg4 arg5 harg5 arg6 harg6 arg7 harg7 arg8 harg8 arg9 harg9 arg10 harg10 arg11 harg11 hc0 hc1 x0 x1 x2 x3 xs9 xs10 xs11).2.1) = (colsStep1 i x0 x1 x2 x3 ⟨xs9, xs10, xs11⟩).l)
    ∧ (∀ f, arg11.view.read (Elt F) (arg11.view.writes (Elt F) f (kernelRunB1 c i arg2 harg2 arg3 harg3 arg4 harg4 arg5 harg5 arg6 harg6 arg7 harg7 arg8 harg8 arg9 harg9 arg10 harg10 arg11 harg11 hc0 hc1 x0 x1 x2 x3 xs9 xs10 xs11).2.2.1) = (colsStep1 i x0 x1 x2 x3 ⟨xs9, xs10, xs11⟩).s) := by
  refine ⟨?_, ?_, ?_⟩ <;> intro f <;>
  · rw [View.read_writes_eq_canon _ _ _ (View.cover_of_tiledL _ S512x1.size (by sl_kernel_rfl))]
    unfold kernelRunB1
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

/-- at a last point the three output blocks receive the same three values. -/
theorem pieceC1 {hc0 : ¬condFirst1 i} {hc1 : condLast1 i} :
    (∀ f, arg6.view.read (Elt F) (arg6.view.writes (Elt F) f (kernelRunC1 c i arg2 harg2 arg3 harg3 arg4 harg4 arg5 harg5 arg6 harg6 arg7 harg7 arg8 harg8 arg9 harg9 arg10 harg10 arg11 harg11 hc0 hc1 x0 x1 x2 x3 xs9 xs10 xs11).1) = (colsStep1 i x0 x1 x2 x3 ⟨xs9, xs10, xs11⟩).m)
    ∧ (∀ f, arg7.view.read (Elt F) (arg7.view.writes (Elt F) f (kernelRunC1 c i arg2 harg2 arg3 harg3 arg4 harg4 arg5 harg5 arg6 harg6 arg7 harg7 arg8 harg8 arg9 harg9 arg10 harg10 arg11 harg11 hc0 hc1 x0 x1 x2 x3 xs9 xs10 xs11).2.1) = (colsStep1 i x0 x1 x2 x3 ⟨xs9, xs10, xs11⟩).l)
    ∧ (∀ f, arg8.view.read (Elt F) (arg8.view.writes (Elt F) f (kernelRunC1 c i arg2 harg2 arg3 harg3 arg4 harg4 arg5 harg5 arg6 harg6 arg7 harg7 arg8 harg8 arg9 harg9 arg10 harg10 arg11 harg11 hc0 hc1 x0 x1 x2 x3 xs9 xs10 xs11).2.2.1) = (colsStep1 i x0 x1 x2 x3 ⟨xs9, xs10, xs11⟩).s)
    ∧ (∀ f, arg9.view.read (Elt F) (arg9.view.writes (Elt F) f (kernelRunC1 c i arg2 harg2 arg3 harg3 arg4 harg4 arg5 harg5 arg6 harg6 arg7 harg7 arg8 harg8 arg9 harg9 arg10 harg10 arg11 harg11 hc0 hc1 x0 x1 x2 x3 xs9 xs10 xs11).2.2.2.1) = (colsStep1 i x0 x1 x2 x3 ⟨xs9, xs10, xs11⟩).m)
    ∧ (∀ f, arg10.view.read (Elt F) (arg10.view.writes (Elt F) f (kernelRunC1 c i arg2 harg2 arg3 harg3 arg4 harg4 arg5 harg5 arg6 harg6 arg7 harg7 arg8 harg8 arg9 harg9 arg10 harg10 arg11 harg11 hc0 hc1 x0 x1 x2 x3 xs9 xs10 xs11).2.2.2.2.1) = (colsStep1 i x0 x1 x2 x3 ⟨xs9, xs10, xs11⟩).l)
    ∧ (∀ f, arg11.view.read (Elt F) (arg11.view.writes (Elt F) f (kernelRunC1 c i arg2 harg2 arg3 harg3 arg4 harg4 arg5 harg5 arg6 harg6 arg7 harg7 arg8 harg8 arg9 harg9 arg10 harg10 arg11 harg11 hc0 hc1 x0 x1 x2 x3 xs9 xs10 xs11).2.2.2.2.2.1) = (colsStep1 i x0 x1 x2 x3 ⟨xs9, xs10, xs11⟩).s) := by
  refine ⟨?_, ?_, ?_, ?_, ?_, ?_⟩ <;> intro f <;>
  · rw [View.read_writes_eq_canon _ _ _ (View.cover_of_tiledL _ S512x1.size (by sl_kernel_rfl))]
    unfold kernelRunC1
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

end Cert.KernelIdeal.Hand

end
-- ==== Proof.R1Body.lean ====
import proofs.«429997_j76270029243071_3_alg».proof.Proof.R1Pieces
import proofs.«429997_j76270029243071_3_alg».proof.Proof.LibOwns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem PhiS1_castSucc (c : Dev nD) (t : Fin cfg1.N) :
    (dat1 V c).Φ t.castSucc = PhiS1 V c t.val (Nat.le_of_lt t.isLt) := by
  dsimp only [dat1]; simp only [Fin.coe_castSucc]

/-- At every position the invariant gives back what the launch handed over: the columns' named contents are forgotten. -/
theorem PhiS1_forget (c : Dev nD) (n : ℕ) (h : n ≤ cfg1.N) : PhiS1 V c n h ⊢ Pipeline.ΦA spec1 c := by
  by_cases hz : n = 0
  · rw [PhiS1_zero V c n h hz]
  rw [PhiS1_pos V c n h hz, PhiA1_eq]
  iintro ⟨⟨⟨HS9, HS10, HS11⟩, Hrest⟩, Hg⟩
  isplitl [HS9 HS10 HS11 Hrest]
  · isplitl [HS9 HS10 HS11]
    · isplitl [HS9]; · iexists _; iexact HS9
      isplitl [HS10]; · iexists _; iexact HS10
      iexists _; iexact HS11
    iexact Hrest
  iexact Hg

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

set_option maxHeartbeats 4800000 in
/-- A point is the first of its row block, an inner one or the last, and the matching run of the body applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ, PhiS1_castSucc V c t]
  have hN : t.val < 80 := lt_of_lt_of_eq t.isLt (show cfg1.N = 80 from N_1)
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2,
    show (dat1 V c).leavesExact 3 t = owns (c : Thread nD τ) (st1_3 t) fullShare ((dat1 V c).after 3 t) from rfl, after1_3]
  by_cases h0 : t.val % 10 = 0
  · have h1 : ¬t.val % 10 = 9 := by omega
    have hq := idleOut1 t (fun h => h1 ((hcondLast1 t).mp h))
    rw [Dat.leavesExact_idle (dat1 V c) 4 t hq.1.1 hq.1.2, Dat.leavesExact_idle (dat1 V c) 5 t hq.2.1.1 hq.2.1.2, Dat.leavesExact_idle (dat1 V c) 6 t hq.2.2.1 hq.2.2.2]
    rw [colsAt1_first V c t h0]
    refine (sep_mono_left (PhiS1_forget V c _ _)).trans ?_
    rw [PhiA1_eq]
    iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunA1 c (grid1.coords t) _ _ _ _ _ _ _ _ _ _ _ _ _ _ _ _ _ _ _ _ ((hcondFirst1 t).mpr h0) (fun h => h1 ((hcondLast1 t).mp h)) (iblk1 V c 0 t) (iblk1 V c 1 t) (iblk1 V c 2 t) (iblk1 V c 3 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS9]; · iexact HS9
    isplitl [HS10]; · iexact HS10
    isplitl [HS11]; · iexact HS11
    iintro ⟨H0, H1, H2, H3, H4, H5, H6, HW⟩
    ihave HS' := (owns3_of_writes (c := (c : Thread nD τ)) (Val := Elt F) pieceA1) $$ HW
    isplitl [HS' Hrest Hg]
    · isplitl [HS' Hrest]
      · isplitl [HS']; · iexact HS'
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  have hz : t.val ≠ 0 := fun e => h0 (by rw [e])
  rw [PhiS1_pos V c _ _ hz]
  by_cases h1 : t.val % 10 = 9
  · rw [show (dat1 V c).leavesExact 4 t = owns (c : Thread nD τ) (st1_4 t) fullShare ((dat1 V c).after 4 t) from by
          unfold Dat.leavesExact; rw [(liveOut1 t ((hcondLast1 t).mpr h1)).1], after1_4,
        show (dat1 V c).leavesExact 5 t = owns (c : Thread nD τ) (st1_5 t) fullShare ((dat1 V c).after 5 t) from by
          unfold Dat.leavesExact; rw [(liveOut1 t ((hcondLast1 t).mpr h1)).2.1], after1_5,
        show (dat1 V c).leavesExact 6 t = owns (c : Thread nD τ) (st1_6 t) fullShare ((dat1 V c).after 6 t) from by
          unfold Dat.leavesExact; rw [(liveOut1 t ((hcondLast1 t).mpr h1)).2.2], after1_6]
    rw [colsAt1_next V c t h0]
    iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunC1 c (grid1.coords t) _ _ _ _ _ _ _ _ _ _ _ _ _ _ _ _ _ _ _ _ (fun h => h0 ((hcondFirst1 t).mp h)) ((hcondLast1 t).mpr h1) (iblk1 V c 0 t) (iblk1 V c 1 t) (iblk1 V c 2 t) (iblk1 V c 3 t) (colsAt1 V c (t.val - 1) (Nat.lt_of_le_of_lt (Nat.sub_le _ _) t.isLt)).m (colsAt1 V c (t.val - 1) (Nat.lt_of_le_of_lt (Nat.sub_le _ _) t.isLt)).l (colsAt1 V c (t.val - 1) (Nat.lt_of_le_of_lt (Nat.sub_le _ _) t.isLt)).s).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS9]; · iexact HS9
    isplitl [HS10]; · iexact HS10
    isplitl [HS11]; · iexact HS11
    iintro ⟨H0, H1, H2, H3, HT⟩
    ihave HT' := (owns6_of_writes (c := (c : Thread nD τ)) (Val := Elt F) pieceC1) $$ HT
    icases HT' with ⟨H4, H5, H6, HS'⟩
    isplitl [HS' Hrest Hg]
    · isplitl [HS' Hrest]
      · isplitl [HS']; · iexact HS'
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  have hq := idleOut1 t (fun h => h1 ((hcondLast1 t).mp h))
  rw [Dat.leavesExact_idle (dat1 V c) 4 t hq.1.1 hq.1.2, Dat.leavesExact_idle (dat1 V c) 5 t hq.2.1.1 hq.2.1.2, Dat.leavesExact_idle (dat1 V c) 6 t hq.2.2.1 hq.2.2.2]
  rw [colsAt1_next V c t h0]
  iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRunB1 c (grid1.coords t) _ _ _ _ _ _ _ _ _ _ _ _ _ _ _ _ _ _ _ _ (fun h => h0 ((hcondFirst1 t).mp h)) (fun h => h1 ((hcondLast1 t).mp h)) (iblk1 V c 0 t) (iblk1 V c 1 t) (iblk1 V c 2 t) (iblk1 V c 3 t) (colsAt1 V c (t.val - 1) (Nat.lt_of_le_of_lt (Nat.sub_le _ _) t.isLt)).m (colsAt1 V c (t.val - 1) (Nat.lt_of_le_of_lt (Nat.sub_le _ _) t.isLt)).l (colsAt1 V c (t.val - 1) (Nat.lt_of_le_of_lt (Nat.sub_le _ _) t.isLt)).s).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS9]; · iexact HS9
  isplitl [HS10]; · iexact HS10
  isplitl [HS11]; · iexact HS11
  iintro ⟨H0, H1, H2, H3, H4, H5, H6, HW⟩
  ihave HS' := (owns3_of_writes (c := (c : Thread nD τ)) (Val := Elt F) pieceB1) $$ HW
  isplitl [HS' Hrest Hg]
  · isplitl [HS' Hrest]
    · isplitl [HS']; · iexact HS'
      iexact Hrest
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c :=
  show PhiS1 V c (Fin.last cfg1.N).val (Nat.le_of_lt_succ (Fin.last cfg1.N).isLt) ⊢ _ from PhiS1_forget V c _ _

end

end Cert.KernelIdeal.Hand

end
-- ==== Proof.R2Common.lean ====
import proofs.«429997_j76270029243071_3_alg».proof.Proof.Gen.KernelIdeal.Launch
import proofs.«429997_j76270029243071_3_alg».proof.Proof.Gen.KernelIdeal.Skeleton
import proofs.«429997_j76270029243071_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev condFirst2 (i : grid2.Coords) : Prop := (Scalar.cmpi .ne (Scalar.extui (Scalar.cmpi .eq (BitVec.ofNat 32 (i 1).val) 0#32)) 0#32) = 1#1

theorem hcondFirst2 : ∀ t : Fin cfg2.N, condFirst2 (grid2.coords t) ↔ t.val % 5 = 0 :=
  (by decide +kernel : ∀ t : Fin grid2.N, condFirst2 (grid2.coords t) ↔ t.val % 5 = 0)

abbrev condLast2 (i : grid2.Coords) : Prop := k2_cond2 i = 1#1

theorem hcondLast2 : ∀ t : Fin cfg2.N, condLast2 (grid2.coords t) ↔ t.val % 5 = 4 :=
  (by decide +kernel : ∀ t : Fin grid2.N, condLast2 (grid2.coords t) ↔ t.val % 5 = 4)

theorem idleOut2 : ∀ t : Fin cfg2.N, ¬condLast2 (grid2.coords t) →
    (cfg2.idle 4 (grid2.coords t) = true ∧ (cfg2.win 4).flush t = false) ∧ (cfg2.idle 5 (grid2.coords t) = true ∧ (cfg2.win 5).flush t = false)
      ∧ (cfg2.idle 6 (grid2.coords t) = true ∧ (cfg2.win 6).flush t = false) := by decide +kernel
theorem liveOut2 : ∀ t : Fin cfg2.N, condLast2 (grid2.coords t) →
    cfg2.idle 4 (grid2.coords t) = false ∧ cfg2.idle 5 (grid2.coords t) = false ∧ cfg2.idle 6 (grid2.coords t) = false := by decide +kernel

abbrev scM2_0 : Memref sig .tc .vmem S512x1 .f32 := Memref.whole cc2_scratch0
abbrev scM2_1 : Memref sig .tc .vmem S512x1 .f32 := Memref.whole cc2_scratch1
abbrev scM2_2 : Memref sig .tc .vmem S512x1 .f32 := Memref.whole cc2_scratch2

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ Pipeline.scopedRestBut (Ix := Unit) (Name := ℕ) (U := UR sig nD τ) (Lvl := ℕ) (Val := Elt F) spec2 c [cc2_scratch0, cc2_scratch1, cc2_scratch2])
          ∗ (∃ r, prngReg c r)) := by
  unfold Pipeline.ΦA; rw [scopedRest2_split]; simp only [scM2_0, scM2_1, scM2_2, owns_whole]
  rfl

end Cert.KernelIdeal.Hand

end
-- ==== Proof.R2Runs.lean ====
import proofs.«429997_j76270029243071_3_alg».proof.Proof.R2Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid2.Coords) (arg2 : Memref sig .tc .vmem S512x1024 .bf16) (harg2 : arg2.IsWhole) (arg3 : Memref sig .tc .vmem S2000x1024 .bf16) (harg3 : arg3.IsWhole)
  (arg4 : Memref sig .tc .vmem S1x1x2000 .f32) (harg4 : arg4.IsWhole) (arg5 : Memref sig .tc .vmem S512x1 .i32) (harg5 : arg5.IsWhole)
  (arg6 : Memref sig .tc .vmem S512x1 .f32) (harg6 : arg6.IsWhole) (arg7 : Memref sig .tc .vmem S512x1 .f32) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1 .f32) (harg10 : arg10.IsWhole) (arg11 : Memref sig .tc .vmem S512x1 .f32) (harg11 : arg11.IsWhole)

set_option maxHeartbeats 4000000 in
noncomputable def kernelRunA2 (hc0 : condFirst2 i) (hc1 : ¬condLast2 i)
    (x0 : Vec F S512x1024 .bf16) (x1 : Vec F S2000x1024 .bf16) (x2 : Vec F S1x1x2000 .f32) (x3 : Vec F S512x1 .i32) :
    Σ' (LS9 : List (View.Piece (Elt F) S512x1 .f32)) (LS10 : List (View.Piece (Elt F) S512x1 .f32)), { LS11 : List (View.Piece (Elt F) S512x1 .f32) //
      ∀ (xi6 xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc2__cluster_pass_kernel i arg2 harg2 arg3 harg3 arg4 harg4 arg5 harg5 arg6 harg6 arg7 harg7 arg8 harg8 arg9 harg9 arg10 harg10 arg11 harg11) K } := by
  refine ⟨?_, ?_, ?_, fun xi6 xi7 xi8 E K => ?run⟩
  case run =>
    simp only [cc2__cluster_pass_kernel_eq_skeleton]; unfold cc2__cluster_pass_kernel_skel
    simp only [k2_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%ds9, %fs9, -, HS9⟩, ⟨%ds10, %fs10, -, HS10⟩, ⟨%ds11, %fs11, -, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS9]; · iexists _; iexact HS9
    isplitl [HS10]; · iexists _; iexact HS10
    iexists _; iexact HS11

set_option maxHeartbeats 4000000 in
noncomputable def kernelRunB2 (hc0 : ¬condFirst2 i) (hc1 : ¬condLast2 i)
    (x0 : Vec F S512x1024 .bf16) (x1 : Vec F S2000x1024 .bf16) (x2 : Vec F S1x1x2000 .f32) (x3 : Vec F S512x1 .i32) (xs9 xs10 xs11 : Vec F S512x1 .f32) :
    Σ' (LS9 : List (View.Piece (Elt F) S512x1 .f32)) (LS10 : List (View.Piece (Elt F) S512x1 .f32)), { LS11 : List (View.Piece (Elt F) S512x1 .f32) //
      ∀ (xi6 xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7 ∗ owns (c : Thread nD τ) arg8 fullShare xi8
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc2__cluster_pass_kernel i arg2 harg2 arg3 harg3 arg4 harg4 arg5 harg5 arg6 harg6 arg7 harg7 arg8 harg8 arg9 harg9 arg10 harg10 arg11 harg11) K } := by
  refine ⟨?_, ?_, ?_, fun xi6 xi7 xi8 E K => ?run⟩
  case run =>
    simp only [cc2__cluster_pass_kernel_eq_skeleton]; unfold cc2__cluster_pass_kernel_skel
    simp only [k2_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HS9]; · iexists _; iexact HS9
    isplitl [HS10]; · iexists _; iexact HS10
    iexists _; iexact HS11

set_option maxHeartbeats 4000000 in
noncomputable def kernelRunC2 (hc0 : ¬condFirst2 i) (hc1 : condLast2 i)
    (x0 : Vec F S512x1024 .bf16) (x1 : Vec F S2000x1024 .bf16) (x2 : Vec F S1x1x2000 .f32) (x3 : Vec F S512x1 .i32) (xs9 xs10 xs11 : Vec F S512x1 .f32) :
    Σ' (L6 : List (View.Piece (Elt F) S512x1 .f32)) (L7 : List (View.Piece (Elt F) S512x1 .f32)) (L8 : List (View.Piece (Elt F) S512x1 .f32)) (LS9 : List (View.Piece (Elt F) S512x1 .f32)) (LS10 : List (View.Piece (Elt F) S512x1 .f32)), { LS11 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc2__cluster_pass_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc2__cluster_pass_kernel_eq_skeleton]; unfold cc2__cluster_pass_kernel_skel
    simp only [k2_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    isplitl [H8]; · iexists _; iexact H8
    isplitl [HS9]; · iexists _; iexact HS9
    isplitl [HS10]; · iexists _; iexact HS10
    iexists _; iexact HS11

end Cert.KernelIdeal.Hand

end
-- ==== Proof.R2Data.lean ====
import proofs.«429997_j76270029243071_3_alg».proof.Proof.R2Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

structure Cols2 (F : FTy → Type) [FloatOps F] where
  m : Vec F S512x1 .f32
  l : Vec F S512x1 .f32
  s : Vec F S512x1 .f32

def colsInit2 : Cols2 F := ⟨k2_pay4 (F := F), k2_pay5 (F := F), k2_pay6 (F := F)⟩

def colsStep2 (i : grid2.Coords) (x0 : Vec F S512x1024 .bf16) (x1 : Vec F S2000x1024 .bf16) (x2 : Vec F S1x1x2000 .f32) (x3 : Vec F S512x1 .i32)
    (σ : Cols2 F) : Cols2 F :=
  ⟨k2_pay2 (k2_pay9 x0 x1 x2 σ.m),
   k2_pay1 (k2_pay7 x0 x1 x2) (k2_pay9 x0 x1 x2 σ.m) (k2_pay10 x0 x1 x2 σ.m σ.m) σ.l,
   k2_pay3 (k2_pay8 i x0 x1 x2 x3) σ.s⟩

section

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def colsAt2 (c : Dev nD) : (n : ℕ) → n < cfg2.N → Cols2 F
  | 0, hn => colsStep2 (grid2.coords ⟨0, hn⟩) (iblk2 V c 0 ⟨0, hn⟩) (iblk2 V c 1 ⟨0, hn⟩) (iblk2 V c 2 ⟨0, hn⟩) (iblk2 V c 3 ⟨0, hn⟩) colsInit2
  | n + 1, hn => colsStep2 (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩)
      (if (n + 1) % 5 = 0 then colsInit2 else colsAt2 c n (Nat.lt_of_succ_lt hn))

theorem colsAt2_first (c : Dev nD) (t : Fin cfg2.N) (h0 : t.val % 5 = 0) :
    colsAt2 V c t.val t.isLt = colsStep2 (grid2.coords t) (iblk2 V c 0 t) (iblk2 V c 1 t) (iblk2 V c 2 t) (iblk2 V c 3 t) colsInit2 := by
  obtain ⟨n, hn⟩ := t
  cases n with
  | zero => rfl
  | succ n => exact (congrArg (colsStep2 _ _ _ _ _) (if_pos h0))

theorem colsAt2_next (c : Dev nD) (t : Fin cfg2.N) (h0 : ¬t.val % 5 = 0) :
    colsAt2 V c t.val t.isLt = colsStep2 (grid2.coords t) (iblk2 V c 0 t) (iblk2 V c 1 t) (iblk2 V c 2 t) (iblk2 V c 3 t)
      (colsAt2 V c (t.val - 1) (Nat.lt_of_le_of_lt (Nat.sub_le _ _) t.isLt)) := by
  obtain ⟨n, hn⟩ := t
  cases n with
  | zero => exact absurd (Nat.zero_mod _) h0
  | succ n => exact (congrArg (colsStep2 _ _ _ _ _) (if_neg h0))

def PhiS2 (c : Dev nD) : (n : ℕ) → n ≤ cfg2.N → sProp 𝕄
  | 0, _ => Pipeline.ΦA spec2 c
  | n + 1, hn => iprop(iprop(iprop(owns (c : Thread nD τ) scM2_0 fullShare (colsAt2 V c n hn).m ∗ owns (c : Thread nD τ) scM2_1 fullShare (colsAt2 V c n hn).l ∗ owns (c : Thread nD τ) scM2_2 fullShare (colsAt2 V c n hn).s)
      ∗ Pipeline.scopedRestBut (Ix := Unit) (Name := ℕ) (U := UR sig nD τ) (Lvl := ℕ) (Val := Elt F) spec2 c [cc2_scratch0, cc2_scratch1, cc2_scratch2])
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (colsAt2 V c n hn).m ∗ owns (c : Thread nD τ) scM2_1 fullShare (colsAt2 V c n hn).l ∗ owns (c : Thread nD τ) scM2_2 fullShare (colsAt2 V c n hn).s)
      ∗ Pipeline.scopedRestBut (Ix := Unit) (Name := ℕ) (U := UR sig nD τ) (Lvl := ℕ) (Val := Elt F) spec2 c [cc2_scratch0, cc2_scratch1, cc2_scratch2])
      ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (colsAt2 V c (n - 1) (by omega)).m ∗ owns (c : Thread nD τ) scM2_1 fullShare (colsAt2 V c (n - 1) (by omega)).l ∗ owns (c : Thread nD τ) scM2_2 fullShare (colsAt2 V c (n - 1) (by omega)).s)
      ∗ Pipeline.scopedRestBut (Ix := Unit) (Name := ℕ) (U := UR sig nD τ) (Lvl := ℕ) (Val := Elt F) spec2 c [cc2_scratch0, cc2_scratch1, cc2_scratch2])
      ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (colsAt2 V c t.val t.isLt).m
    | ⟨5, _⟩ => (colsAt2 V c t.val t.isLt).l
    | ⟨6, _⟩ => (colsAt2 V c t.val t.isLt).s
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (colsAt2 V c t.val t.isLt).m := by dsimp only [dat2]
theorem after2_5 (c : Dev nD) (t : Fin cfg2.N) : (dat2 V c).after 5 t = (colsAt2 V c t.val t.isLt).l := by dsimp only [dat2]
theorem after2_6 (c : Dev nD) (t : Fin cfg2.N) : (dat2 V c).after 6 t = (colsAt2 V c t.val t.isLt).s := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

end

end Cert.KernelIdeal.Hand

end
-- ==== Proof.R2Pieces.lean ====
import proofs.«429997_j76270029243071_3_alg».proof.Proof.R2Runs
import proofs.«429997_j76270029243071_3_alg».proof.Proof.R2Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

variable {c : Dev nD} {i : grid2.Coords} {arg2 : Memref sig .tc .vmem S512x1024 .bf16} {harg2 : arg2.IsWhole} {arg3 : Memref sig .tc .vmem S2000x1024 .bf16} {harg3 : arg3.IsWhole}
  {arg4 : Memref sig .tc .vmem S1x1x2000 .f32} {harg4 : arg4.IsWhole} {arg5 : Memref sig .tc .vmem S512x1 .i32} {harg5 : arg5.IsWhole}
  {arg6 : Memref sig .tc .vmem S512x1 .f32} {harg6 : arg6.IsWhole} {arg7 : Memref sig .tc .vmem S512x1 .f32} {harg7 : arg7.IsWhole}
  {arg8 : Memref sig .tc .vmem S512x1 .f32} {harg8 : arg8.IsWhole} {arg9 : Memref sig .tc .vmem S512x1 .f32} {harg9 : arg9.IsWhole}
  {arg10 : Memref sig .tc .vmem S512x1 .f32} {harg10 : arg10.IsWhole} {arg11 : Memref sig .tc .vmem S512x1 .f32} {harg11 : arg11.IsWhole}
  {x0 : Vec F S512x1024 .bf16} {x1 : Vec F S2000x1024 .bf16} {x2 : Vec F S1x1x2000 .f32} {x3 : Vec F S512x1 .i32} {xs9 xs10 xs11 : Vec F S512x1 .f32}

/-- Each column's stores in a run end with a store of the whole column, so the column reads back as that store's value: the
    update of the running maximum, sum and selected logit from the reset values (first point) -/
theorem pieceA2 {hc0 : condFirst2 i} {hc1 : ¬condLast2 i} :
    (∀ f, arg9.view.read (Elt F) (arg9.view.writes (Elt F) f (kernelRunA2 c i arg2 harg2 arg3 harg3 arg4 harg4 arg5 harg5 arg6 harg6 arg7 harg7 arg8 harg8 arg9 harg9 arg10 harg10 arg11 harg11 hc0 hc1 x0 x1 x2 x3).1) = (colsStep2 i x0 x1 x2 x3 colsInit2).m)
    ∧ (∀ f, arg10.view.read (Elt F) (arg10.view.writes (Elt F) f (kernelRunA2 c i arg2 harg2 arg3 harg3 arg4 harg4 arg5 harg5 arg6 harg6 arg7 harg7 arg8 harg8 arg9 harg9 arg10 harg10 arg11 harg11 hc0 hc1 x0 x1 x2 x3).2.1) = (colsStep2 i x0 x1 x2 x3 colsInit2).l)
    ∧ (∀ f, arg11.view.read (Elt F) (arg11.view.writes (Elt F) f (kernelRunA2 c i arg2 harg2 arg3 harg3 arg4 harg4 arg5 harg5 arg6 harg6 arg7 harg7 arg8 harg8 arg9 harg9 arg10 harg10 arg11 harg11 hc0 hc1 x0 x1 x2 x3).2.2.1) = (colsStep2 i x0 x1 x2 x3 colsInit2).s) := by
  refine ⟨?_, ?_, ?_⟩ <;> intro f <;>
  · rw [View.read_writes_eq_canon _ _ _ (View.cover_of_tiledL _ S512x1.size (by sl_kernel_rfl))]
    unfold kernelRunA2
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

/-- or from what the columns held (inner point); -/
theorem pieceB2 {hc0 : ¬condFirst2 i} {hc1 : ¬condLast2 i} :
    (∀ f, arg9.view.read (Elt F) (arg9.view.writes (Elt F) f (kernelRunB2 c i arg2 harg2 arg3 harg3 arg4 harg4 arg5 harg5 arg6 harg6 arg7 harg7 arg8 harg8 arg9 harg9 arg10 harg10 arg11 harg11 hc0 hc1 x0 x1 x2 x3 xs9 xs10 xs11).1) = (colsStep2 i x0 x1 x2 x3 ⟨xs9, xs10, xs11⟩).m)
    ∧ (∀ f, arg10.view.read (Elt F) (arg10.view.writes (Elt F) f (kernelRunB2 c i arg2 harg2 arg3 harg3 arg4 harg4 arg5 harg5 arg6 harg6 arg7 harg7 arg8 harg8 arg9 harg9 arg10 harg10 arg11 harg11 hc0 hc1 x0 x1 x2 x3 xs9 xs10 xs11).2.1) = (colsStep2 i x0 x1 x2 x3 ⟨xs9, xs10, xs11⟩).l)
    ∧ (∀ f, arg11.view.read (Elt F) (arg11.view.writes (Elt F) f (kernelRunB2 c i arg2 harg2 arg3 harg3 arg4 harg4 arg5 harg5 arg6 harg6 arg7 harg7 arg8 harg8 arg9 harg9 arg10 harg10 arg11 harg11 hc0 hc1 x0 x1 x2 x3 xs9 xs10 xs11).2.2.1) = (colsStep2 i x0 x1 x2 x3 ⟨xs9, xs10, xs11⟩).s) := by
  refine ⟨?_, ?_, ?_⟩ <;> intro f <;>
  · rw [View.read_writes_eq_canon _ _ _ (View.cover_of_tiledL _ S512x1.size (by sl_kernel_rfl))]
    unfold kernelRunB2
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

/-- at a last point the three output blocks receive the same three values. -/
theorem pieceC2 {hc0 : ¬condFirst2 i} {hc1 : condLast2 i} :
    (∀ f, arg6.view.read (Elt F) (arg6.view.writes (Elt F) f (kernelRunC2 c i arg2 harg2 arg3 harg3 arg4 harg4 arg5 harg5 arg6 harg6 arg7 harg7 arg8 harg8 arg9 harg9 arg10 harg10 arg11 harg11 hc0 hc1 x0 x1 x2 x3 xs9 xs10 xs11).1) = (colsStep2 i x0 x1 x2 x3 ⟨xs9, xs10, xs11⟩).m)
    ∧ (∀ f, arg7.view.read (Elt F) (arg7.view.writes (Elt F) f (kernelRunC2 c i arg2 harg2 arg3 harg3 arg4 harg4 arg5 harg5 arg6 harg6 arg7 harg7 arg8 harg8 arg9 harg9 arg10 harg10 arg11 harg11 hc0 hc1 x0 x1 x2 x3 xs9 xs10 xs11).2.1) = (colsStep2 i x0 x1 x2 x3 ⟨xs9, xs10, xs11⟩).l)
    ∧ (∀ f, arg8.view.read (Elt F) (arg8.view.writes (Elt F) f (kernelRunC2 c i arg2 harg2 arg3 harg3 arg4 harg4 arg5 harg5 arg6 harg6 arg7 harg7 arg8 harg8 arg9 harg9 arg10 harg10 arg11 harg11 hc0 hc1 x0 x1 x2 x3 xs9 xs10 xs11).2.2.1) = (colsStep2 i x0 x1 x2 x3 ⟨xs9, xs10, xs11⟩).s)
    ∧ (∀ f, arg9.view.read (Elt F) (arg9.view.writes (Elt F) f (kernelRunC2 c i arg2 harg2 arg3 harg3 arg4 harg4 arg5 harg5 arg6 harg6 arg7 harg7 arg8 harg8 arg9 harg9 arg10 harg10 arg11 harg11 hc0 hc1 x0 x1 x2 x3 xs9 xs10 xs11).2.2.2.1) = (colsStep2 i x0 x1 x2 x3 ⟨xs9, xs10, xs11⟩).m)
    ∧ (∀ f, arg10.view.read (Elt F) (arg10.view.writes (Elt F) f (kernelRunC2 c i arg2 harg2 arg3 harg3 arg4 harg4 arg5 harg5 arg6 harg6 arg7 harg7 arg8 harg8 arg9 harg9 arg10 harg10 arg11 harg11 hc0 hc1 x0 x1 x2 x3 xs9 xs10 xs11).2.2.2.2.1) = (colsStep2 i x0 x1 x2 x3 ⟨xs9, xs10, xs11⟩).l)
    ∧ (∀ f, arg11.view.read (Elt F) (arg11.view.writes (Elt F) f (kernelRunC2 c i arg2 harg2 arg3 harg3 arg4 harg4 arg5 harg5 arg6 harg6 arg7 harg7 arg8 harg8 arg9 harg9 arg10 harg10 arg11 harg11 hc0 hc1 x0 x1 x2 x3 xs9 xs10 xs11).2.2.2.2.2.1) = (colsStep2 i x0 x1 x2 x3 ⟨xs9, xs10, xs11⟩).s) := by
  refine ⟨?_, ?_, ?_, ?_, ?_, ?_⟩ <;> intro f <;>
  · rw [View.read_writes_eq_canon _ _ _ (View.cover_of_tiledL _ S512x1.size (by sl_kernel_rfl))]
    unfold kernelRunC2
    dsimp only
    sl_unfold_words
    rw [View.canon_cons_unit_zero (S := S512x1) hz2]
    simp only [View.readAt_eq_ld, Memref.IsWhole.read_unread, View.ld_unit_zero (S := S512x1024) hz2, View.ld_unit_zero (S := S2000x1024) hz2,
      View.ld_unit_zero (S := S1x1x2000) hz3, View.ld_unit_zero (S := S512x1) hz2, View.readCov_unit_zero (S := S512x1) _ hz2]
    rfl

end Cert.KernelIdeal.Hand

end
-- ==== Proof.R2Body.lean ====
import proofs.«429997_j76270029243071_3_alg».proof.Proof.R2Pieces
import proofs.«429997_j76270029243071_3_alg».proof.Proof.LibOwns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem PhiS2_castSucc (c : Dev nD) (t : Fin cfg2.N) :
    (dat2 V c).Φ t.castSucc = PhiS2 V c t.val (Nat.le_of_lt t.isLt) := by
  dsimp only [dat2]; simp only [Fin.coe_castSucc]

/-- At every position the invariant gives back what the launch handed over: the columns' named contents are forgotten. -/
theorem PhiS2_forget (c : Dev nD) (n : ℕ) (h : n ≤ cfg2.N) : PhiS2 V c n h ⊢ Pipeline.ΦA spec2 c := by
  by_cases hz : n = 0
  · rw [PhiS2_zero V c n h hz]
  rw [PhiS2_pos V c n h hz, PhiA2_eq]
  iintro ⟨⟨⟨HS9, HS10, HS11⟩, Hrest⟩, Hg⟩
  isplitl [HS9 HS10 HS11 Hrest]
  · isplitl [HS9 HS10 HS11]
    · isplitl [HS9]; · iexists _; iexact HS9
      isplitl [HS10]; · iexists _; iexact HS10
      iexists _; iexact HS11
    iexact Hrest
  iexact Hg

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t ∗ (dat2 V c).leavesExact 5 t ∗ (dat2 V c).leavesExact 6 t)

set_option maxHeartbeats 4800000 in
/-- A point is the first of its row block, an inner one or the last, and the matching run of the body applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ, PhiS2_castSucc V c t]
  have hN : t.val < 40 := lt_of_lt_of_eq t.isLt (show cfg2.N = 40 from N_2)
  rw [show (dat2 V c).leavesExact 0 t = owns (c : Thread nD τ) (st2_0 t) fullShare ((dat2 V c).after 0 t) from rfl, after2_0,
    show (dat2 V c).leavesExact 1 t = owns (c : Thread nD τ) (st2_1 t) fullShare ((dat2 V c).after 1 t) from rfl, after2_1,
    show (dat2 V c).leavesExact 2 t = owns (c : Thread nD τ) (st2_2 t) fullShare ((dat2 V c).after 2 t) from rfl, after2_2,
    show (dat2 V c).leavesExact 3 t = owns (c : Thread nD τ) (st2_3 t) fullShare ((dat2 V c).after 3 t) from rfl, after2_3]
  by_cases h0 : t.val % 5 = 0
  · have h1 : ¬t.val % 5 = 4 := by omega
    have hq := idleOut2 t (fun h => h1 ((hcondLast2 t).mp h))
    rw [Dat.leavesExact_idle (dat2 V c) 4 t hq.1.1 hq.1.2, Dat.leavesExact_idle (dat2 V c) 5 t hq.2.1.1 hq.2.1.2, Dat.leavesExact_idle (dat2 V c) 6 t hq.2.2.1 hq.2.2.2]
    rw [colsAt2_first V c t h0]
    refine (sep_mono_left (PhiS2_forget V c _ _)).trans ?_
    rw [PhiA2_eq]
    iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunA2 c (grid2.coords t) _ _ _ _ _ _ _ _ _ _ _ _ _ _ _ _ _ _ _ _ ((hcondFirst2 t).mpr h0) (fun h => h1 ((hcondLast2 t).mp h)) (iblk2 V c 0 t) (iblk2 V c 1 t) (iblk2 V c 2 t) (iblk2 V c 3 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS9]; · iexact HS9
    isplitl [HS10]; · iexact HS10
    isplitl [HS11]; · iexact HS11
    iintro ⟨H0, H1, H2, H3, H4, H5, H6, HW⟩
    ihave HS' := (owns3_of_writes (c := (c : Thread nD τ)) (Val := Elt F) pieceA2) $$ HW
    isplitl [HS' Hrest Hg]
    · isplitl [HS' Hrest]
      · isplitl [HS']; · iexact HS'
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  have hz : t.val ≠ 0 := fun e => h0 (by rw [e])
  rw [PhiS2_pos V c _ _ hz]
  by_cases h1 : t.val % 5 = 4
  · rw [show (dat2 V c).leavesExact 4 t = owns (c : Thread nD τ) (st2_4 t) fullShare ((dat2 V c).after 4 t) from by
          unfold Dat.leavesExact; rw [(liveOut2 t ((hcondLast2 t).mpr h1)).1], after2_4,
        show (dat2 V c).leavesExact 5 t = owns (c : Thread nD τ) (st2_5 t) fullShare ((dat2 V c).after 5 t) from by
          unfold Dat.leavesExact; rw [(liveOut2 t ((hcondLast2 t).mpr h1)).2.1], after2_5,
        show (dat2 V c).leavesExact 6 t = owns (c : Thread nD τ) (st2_6 t) fullShare ((dat2 V c).after 6 t) from by
          unfold Dat.leavesExact; rw [(liveOut2 t ((hcondLast2 t).mpr h1)).2.2], after2_6]
    rw [colsAt2_next V c t h0]
    iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunC2 c (grid2.coords t) _ _ _ _ _ _ _ _ _ _ _ _ _ _ _ _ _ _ _ _ (fun h => h0 ((hcondFirst2 t).mp h)) ((hcondLast2 t).mpr h1) (iblk2 V c 0 t) (iblk2 V c 1 t) (iblk2 V c 2 t) (iblk2 V c 3 t) (colsAt2 V c (t.val - 1) (Nat.lt_of_le_of_lt (Nat.sub_le _ _) t.isLt)).m (colsAt2 V c (t.val - 1) (Nat.lt_of_le_of_lt (Nat.sub_le _ _) t.isLt)).l (colsAt2 V c (t.val - 1) (Nat.lt_of_le_of_lt (Nat.sub_le _ _) t.isLt)).s).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS9]; · iexact HS9
    isplitl [HS10]; · iexact HS10
    isplitl [HS11]; · iexact HS11
    iintro ⟨H0, H1, H2, H3, HT⟩
    ihave HT' := (owns6_of_writes (c := (c : Thread nD τ)) (Val := Elt F) pieceC2) $$ HT
    icases HT' with ⟨H4, H5, H6, HS'⟩
    isplitl [HS' Hrest Hg]
    · isplitl [HS' Hrest]
      · isplitl [HS']; · iexact HS'
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  have hq := idleOut2 t (fun h => h1 ((hcondLast2 t).mp h))
  rw [Dat.leavesExact_idle (dat2 V c) 4 t hq.1.1 hq.1.2, Dat.leavesExact_idle (dat2 V c) 5 t hq.2.1.1 hq.2.1.2, Dat.leavesExact_idle (dat2 V c) 6 t hq.2.2.1 hq.2.2.2]
  rw [colsAt2_next V c t h0]
  iintro ⟨⟨⟨⟨HS9, HS10, HS11⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRunB2 c (grid2.coords t) _ _ _ _ _ _ _ _ _ _ _ _ _ _ _ _ _ _ _ _ (fun h => h0 ((hcondFirst2 t).mp h)) (fun h => h1 ((hcondLast2 t).mp h)) (iblk2 V c 0 t) (iblk2 V c 1 t) (iblk2 V c 2 t) (iblk2 V c 3 t) (colsAt2 V c (t.val - 1) (Nat.lt_of_le_of_lt (Nat.sub_le _ _) t.isLt)).m (colsAt2 V c (t.val - 1) (Nat.lt_of_le_of_lt (Nat.sub_le _ _) t.isLt)).l (colsAt2 V c (t.val - 1) (Nat.lt_of_le_of_lt (Nat.sub_le _ _) t.isLt)).s).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS9]; · iexact HS9
  isplitl [HS10]; · iexact HS10
  isplitl [HS11]; · iexact HS11
  iintro ⟨H0, H1, H2, H3, H4, H5, H6, HW⟩
  ihave HS' := (owns3_of_writes (c := (c : Thread nD τ)) (Val := Elt F) pieceB2) $$ HW
  isplitl [HS' Hrest Hg]
  · isplitl [HS' Hrest]
    · isplitl [HS']; · iexact HS'
      iexact Hrest
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]

theorem hout2 (c : Dev nD) : (dat2 V c).Φ (Fin.last cfg2.N) ⊢ Pipeline.ΦA spec2 c :=
  show PhiS2 V c (Fin.last cfg2.N).val (Nat.le_of_lt_succ (Fin.last cfg2.N).isLt) ⊢ _ from PhiS2_forget V c _ _

end

end Cert.KernelIdeal.Hand

end
-- ==== Proof.KRun.lean ====
import proofs.«429997_j76270029243071_3_alg».proof.Proof.Gen.KernelIdeal.Regions

set_option maxRecDepth 1048

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V12 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V12 m outs c))
    (hch := fun c => ⟨.rfl, hpre0 c, hpost0 c, hpre1 c, hpost1 c, hpre2 c, hpost2 c, .rfl, .rfl, .rfl, .rfl, .rfl, sep_mono .rfl (hE3 c)⟩)
    (hinit := ?_) (QY := fun c s => ∀ b ∈ Pipeline.ucRefs τ sig, s.mem (((c : Thread nD τ)).1, b) = V12 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V12 m outs c) s') $$ [Hh HSI]
    · isplitl [Hh] <;> iassumption
    icases Hr with ⟨%h, HSI⟩
    imodintro
    isplitr
    · ipureintro
      exact h
    · iexact HSI

end Cert.KernelIdeal.Hand

end
-- ==== Proof.KSegs.lean ====
import proofs.«429997_j76270029243071_3_alg».proof.Proof.R0Body
import proofs.«429997_j76270029243071_3_alg».proof.Proof.R1Body
import proofs.«429997_j76270029243071_3_alg».proof.Proof.R2Body
import proofs.«429997_j76270029243071_3_alg».proof.Proof.KRun
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def X2 (c : Dev nD) : Valuation τ sig (Elt F) :=
  Pipeline.withArrays spec0 c (V1 m c) fun w => (dat0 (fun c b => V1 m c b) c).arrAt w cfg0.N

def outsA : Outs (F := F) := fun _ r c => X2 m c r

def X4 (c : Dev nD) : Valuation τ sig (Elt F) :=
  Pipeline.withArrays spec1 c (V3 m (outsA m) c) fun w => (dat1 (fun c b => V3 m (outsA m) c b) c).arrAt w cfg1.N
def outsB : Outs (F := F) := fun J r c => match J with
  | 2 => X2 m c r
  | _ => X4 m c r

def X6 (c : Dev nD) : Valuation τ sig (Elt F) :=
  Pipeline.withArrays spec2 c (V5 m (outsB m) c) fun w => (dat2 (fun c b => V5 m (outsB m) c b) c).arrAt w cfg2.N

def outs : Outs (F := F) := fun J r c => match J with
  | 2 => X2 m c r
  | 4 => X4 m c r
  | _ => X6 m c r

def pdats : (p : Fin 3) → (c : Dev nD) → Dat τ (Elt F) Unit ℕ (UR sig nD τ) ℕ (cfgs p) c
  | ⟨0, _⟩ => fun c => dat0 (fun c b => V1 m c b) c
  | ⟨1, _⟩ => fun c => dat1 (fun c b => V3 m (outsA m) c b) c
  | ⟨2, _⟩ => fun c => dat2 (fun c b => V5 m (outsB m) c b) c

abbrev LL : GSem nD τ sig → Finset Unit := fun _ => ∅
abbrev lvl : GSem nD τ sig → Unit → ℕ := fun _ _ => 0

abbrev RR (c : Dev nD) : sProp 𝕄 := iprop((∃ r, prngReg c r) ∗ ∃ W, owes (c : Thread nD τ) (0 : CellTallies nD τ sig Unit) W)

theorem hF0 (c : Dev nD) (w : Fin cfg0.W) : (pdats m 0 c).arrAt w cfg0.N = V2 m (outs m) c (Pipeline.arrRef spec0 w) := by
  have hin : ∀ w' : Fin cfg0.W, (cfg0.win w').isOut = false → Pipeline.arrRef spec0 w' ∉ ([main_v4_0, main_v4_1, main_v4_2] : List (Ref sig .tc)) →
      (pdats m 0 c).arrAt w' cfg0.N = V2 m (outs m) c (Pipeline.arrRef spec0 w') := fun w' hw' hn =>
    ((pdats m 0 c).arrAt_in w' hw' _).trans ((V2_of m (outs m) c _ hn).symm)
  have hout : ∀ w' : Fin cfg0.W, (b : Ref sig .tc) → Pipeline.arrRef spec0 w' = b → b ∈ ([main_v4_0, main_v4_1, main_v4_2] : List (Ref sig .tc)) →
      V2 m (outs m) c b = X2 m c b → (pdats m 0 c).arrAt w' cfg0.N = V2 m (outs m) c (Pipeline.arrRef spec0 w') := fun w' b hb _ hv => by
    subst hb
    rw [hv]; unfold X2
    exact (Pipeline.withArrays_arr spec0 launch0.win.arr_inj c (V1 m c) (fun w => (dat0 (fun c b => V1 m c b) c).arrAt w cfg0.N) w').symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hout 4 main_v4_0 rfl (by decide) (by
      show Function.update (Function.update (Function.update _ _ _) _ _) _ _ _ = _
      rw [Function.update_of_ne (StableHlo.devRef_ne_of_ne (by decide)), Function.update_of_ne (StableHlo.devRef_ne_of_ne (by decide)), Function.update_self]; rfl)
  | ⟨5, _⟩ => exact hout 5 main_v4_1 rfl (by decide) (by
      show Function.update (Function.update (Function.update _ _ _) _ _) _ _ _ = _
      rw [Function.update_of_ne (StableHlo.devRef_ne_of_ne (by decide)), Function.update_self]; rfl)
  | ⟨6, _⟩ => exact hout 6 main_v4_2 rfl (by decide) (by
      show Function.update (Function.update (Function.update _ _ _) _ _) _ _ _ = _
      rw [Function.update_self]; rfl)

theorem hrest0 (c : Dev nD) : ∀ b, b ∉ Finset.univ.image (Pipeline.arrRef spec0) → (fun b => V2 m (outs m) c b) b = (fun b => V1 m c b) b :=
  fun b hb => V2_of m (outs m) c b (fun hmem => hb (by
    simp only [List.mem_cons, List.mem_nil_iff, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩))

theorem hF1 (c : Dev nD) (w : Fin cfg1.W) : (pdats m 1 c).arrAt w cfg1.N = V4 m (outs m) c (Pipeline.arrRef spec1 w) := by
  have hin : ∀ w' : Fin cfg1.W, (cfg1.win w').isOut = false → Pipeline.arrRef spec1 w' ∉ ([main_v6_0, main_v6_1, main_v6_2] : List (Ref sig .tc)) →
      (pdats m 1 c).arrAt w' cfg1.N = V4 m (outs m) c (Pipeline.arrRef spec1 w') := fun w' hw' hn =>
    ((pdats m 1 c).arrAt_in w' hw' _).trans ((V4_of m (outs m) c _ hn).symm)
  have hout : ∀ w' : Fin cfg1.W, (b : Ref sig .tc) → Pipeline.arrRef spec1 w' = b → b ∈ ([main_v6_0, main_v6_1, main_v6_2] : List (Ref sig .tc)) →
      V4 m (outs m) c b = X4 m c b → (pdats m 1 c).arrAt w' cfg1.N = V4 m (outs m) c (Pipeline.arrRef spec1 w') := fun w' b hb _ hv => by
    subst hb
    rw [hv]; unfold X4
    exact (Pipeline.withArrays_arr spec1 launch1.win.arr_inj c (V3 m (outsA m) c) (fun w => (dat1 (fun c b => V3 m (outsA m) c b) c).arrAt w cfg1.N) w').symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hout 4 main_v6_0 rfl (by decide) (by
      show Function.update (Function.update (Function.update _ _ _) _ _) _ _ _ = _
      rw [Function.update_of_ne (StableHlo.devRef_ne_of_ne (by decide)), Function.update_of_ne (StableHlo.devRef_ne_of_ne (by decide)), Function.update_self]; rfl)
  | ⟨5, _⟩ => exact hout 5 main_v6_1 rfl (by decide) (by
      show Function.update (Function.update (Function.update _ _ _) _ _) _ _ _ = _
      rw [Function.update_of_ne (StableHlo.devRef_ne_of_ne (by decide)), Function.update_self]; rfl)
  | ⟨6, _⟩ => exact hout 6 main_v6_2 rfl (by decide) (by
      show Function.update (Function.update (Function.update _ _ _) _ _) _ _ _ = _
      rw [Function.update_self]; rfl)

theorem hrest1 (c : Dev nD) : ∀ b, b ∉ Finset.univ.image (Pipeline.arrRef spec1) → (fun b => V4 m (outs m) c b) b = (fun b => V3 m (outs m) c b) b :=
  fun b hb => V4_of m (outs m) c b (fun hmem => hb (by
    simp only [List.mem_cons, List.mem_nil_iff, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩))

theorem hF2 (c : Dev nD) (w : Fin cfg2.W) : (pdats m 2 c).arrAt w cfg2.N = V6 m (outs m) c (Pipeline.arrRef spec2 w) := by
  have hin : ∀ w' : Fin cfg2.W, (cfg2.win w').isOut = false → Pipeline.arrRef spec2 w' ∉ ([main_v8_0, main_v8_1, main_v8_2] : List (Ref sig .tc)) →
      (pdats m 2 c).arrAt w' cfg2.N = V6 m (outs m) c (Pipeline.arrRef spec2 w') := fun w' hw' hn =>
    ((pdats m 2 c).arrAt_in w' hw' _).trans ((V6_of m (outs m) c _ hn).symm)
  have hout : ∀ w' : Fin cfg2.W, (b : Ref sig .tc) → Pipeline.arrRef spec2 w' = b → b ∈ ([main_v8_0, main_v8_1, main_v8_2] : List (Ref sig .tc)) →
      V6 m (outs m) c b = X6 m c b → (pdats m 2 c).arrAt w' cfg2.N = V6 m (outs m) c (Pipeline.arrRef spec2 w') := fun w' b hb _ hv => by
    subst hb
    rw [hv]; unfold X6
    exact (Pipeline.withArrays_arr spec2 launch2.win.arr_inj c (V5 m (outsB m) c) (fun w => (dat2 (fun c b => V5 m (outsB m) c b) c).arrAt w cfg2.N) w').symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hout 4 main_v8_0 rfl (by decide) (by
      show Function.update (Function.update (Function.update _ _ _) _ _) _ _ _ = _
      rw [Function.update_of_ne (StableHlo.devRef_ne_of_ne (by decide)), Function.update_of_ne (StableHlo.devRef_ne_of_ne (by decide)), Function.update_self]; rfl)
  | ⟨5, _⟩ => exact hout 5 main_v8_1 rfl (by decide) (by
      show Function.update (Function.update (Function.update _ _ _) _ _) _ _ _ = _
      rw [Function.update_of_ne (StableHlo.devRef_ne_of_ne (by decide)), Function.update_self]; rfl)
  | ⟨6, _⟩ => exact hout 6 main_v8_2 rfl (by decide) (by
      show Function.update (Function.update (Function.update _ _ _) _ _) _ _ _ = _
      rw [Function.update_self]; rfl)

theorem hrest2 (c : Dev nD) : ∀ b, b ∉ Finset.univ.image (Pipeline.arrRef spec2) → (fun b => V6 m (outs m) c b) b = (fun b => V5 m (outs m) c b) b :=
  fun b hb => V6_of m (outs m) c b (fun hmem => hb (by
    simp only [List.mem_cons, List.mem_nil_iff, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩))

set_option backward.isDefEq.respectTransparency.types false in
def reg0 : Pipeline.RegionSeg (pcfgs (F := F)) adm (pdats m) () defs₀ Variants.none LL lvl 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ LL lvl 0 fun _ _ => rfl
  pre c := iprop(StableHlo.held (c : Thread nD τ) (Pipeline.ucRefs τ sig) (V1 m c) ∗ RR c)
  post c := iprop(StableHlo.held (c : Thread nD τ) (Pipeline.ucRefs τ sig) (V2 m (outs m) c) ∗ RR c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (fun c b => V1 m c b) c).Φ 0 from rfl]
    iintro ⟨Hp, -, Hr⟩
    iapply (hin0 _ c)
    unfold Pipeline.ΦA
    isplitl [Hr]; · iexact Hr
    iexact Hp
  hout c := by
    rw [Pipeline.ownSems0_none, show (pdats m 0 c).Φ (Fin.last _) = (dat0 (fun c b => V1 m c b) c).Φ (Fin.last cfg0.N) from rfl]
    iintro H
    ihave H' := (hout0 _ c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ Variants.none LL lvl 1 where
  win := launch1.win.to₀
  block_pos := launch1.block_pos
  stage_whole := launch1.stage_whole
  K := PEmpty
  osem k := k.elim
  ho := Pipeline.OwnSemFacts.none _
  hbody c := (body_obligation1 (fun c b => V3 m (outs m) c b) c).loose
  hwaits := Pipeline.hwaits_of_owed_zero _ _ _ _ LL lvl 1 fun _ _ => rfl
  pre c := iprop(StableHlo.held (c : Thread nD τ) (Pipeline.ucRefs τ sig) (V3 m (outs m) c) ∗ RR c)
  post c := iprop(StableHlo.held (c : Thread nD τ) (Pipeline.ucRefs τ sig) (V4 m (outs m) c) ∗ RR c)
  X c := iprop(∃ r, prngReg c r)
  Y c := iprop(∃ r, prngReg c r)
  Z c := Pipeline.unscopedRest (Ix := Unit) (Name := ℕ) (U := UR sig nD τ) (Lvl := ℕ) spec1 c (fun b => V3 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V3 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (fun c b => V3 m (outsA m) c b) c).Φ 0 from rfl]
    iintro ⟨Hp, -, Hr⟩
    iapply (hin1 _ c)
    unfold Pipeline.ΦA
    isplitl [Hr]; · iexact Hr
    iexact Hp
  hout c := by
    rw [Pipeline.ownSems0_none, show (pdats m 1 c).Φ (Fin.last _) = (dat1 (fun c b => V3 m (outsA m) c b) c).Φ (Fin.last cfg1.N) from rfl]
    iintro H
    ihave H' := (hout1 _ c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V3 m (outs m) c b) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ Variants.none LL lvl 2 where
  win := launch2.win.to₀
  block_pos := launch2.block_pos
  stage_whole := launch2.stage_whole
  K := PEmpty
  osem k := k.elim
  ho := Pipeline.OwnSemFacts.none _
  hbody c := (body_obligation2 (fun c b => V5 m (outs m) c b) c).loose
  hwaits := Pipeline.hwaits_of_owed_zero _ _ _ _ LL lvl 2 fun _ _ => rfl
  pre c := iprop(StableHlo.held (c : Thread nD τ) (Pipeline.ucRefs τ sig) (V5 m (outs m) c) ∗ RR c)
  post c := iprop(StableHlo.held (c : Thread nD τ) (Pipeline.ucRefs τ sig) (V6 m (outs m) c) ∗ RR c)
  X c := iprop(∃ r, prngReg c r)
  Y c := iprop(∃ r, prngReg c r)
  Z c := Pipeline.unscopedRest (Ix := Unit) (Name := ℕ) (U := UR sig nD τ) (Lvl := ℕ) spec2 c (fun b => V5 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (fun c b => V5 m (outsB m) c b) c).Φ 0 from rfl]
    iintro ⟨Hp, -, Hr⟩
    iapply (hin2 _ c)
    unfold Pipeline.ΦA
    isplitl [Hr]; · iexact Hr
    iexact Hp
  hout c := by
    rw [Pipeline.ownSems0_none, show (pdats m 2 c).Φ (Fin.last _) = (dat2 (fun c b => V5 m (outsB m) c b) c).Φ (Fin.last cfg2.N) from rfl]
    iintro H
    ihave H' := (hout2 _ c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V5 m (outs m) c b) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem kernel_run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V12 m (outs m) c b) :=
  run_cond m emb₁ () Variants.none LL lvl (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => RR c)
    (by
      have hcore : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
          ⊢ RR c := fun c => by
        iintro ⟨-, HO, -, Hp, -⟩
        isplitl [Hp]; · iexists _; iexact Hp
        iexists ∅; iexact HO
      have hall : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => RR c) : sProp 𝕄) := bigSep_mono fun c _ => hcore c
      iintro ⟨H, -⟩
      imodintro
      iapply hall
      iexact H)
    (fun c => by iintro ⟨-, HO⟩; iexact HO)
    (reg0 m) (fun _ => .rfl) (fun _ => .rfl)
    (reg1 m) (fun _ => .rfl) (fun _ => .rfl)
    (reg2 m) (fun _ => .rfl) (fun _ => .rfl)

theorem run_result (ρ : Dev nD → PrngReg) :
    θ_run defs (onTc (τ := τ) (main (F := F))) ⟨m, fun _ => 0, ρ⟩ (fun r => ∀ c : Dev nD,
      r.2.mem ((c.tc : Thread nD τ).loc main_v63) = V12 m (outs m) c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v63 (by decide)),
     (h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c)⟩) (kernel_run m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_result m ρ)

end Cert.KernelIdeal.Hand

end
-- ==== Proof.Spec.lean ====
import Idealize.ShloMosaic.PureOps.Ideal

noncomputable section

namespace Cert.Spec

open Idealize.ShloMosaic

def negBig : EReal := Ideal.ofBits .f32 0xF149F2CA#32

structure St where
  m : EReal
  l : EReal
  s : EReal

def St.init : St := ⟨negBig, 0, 0⟩

def chunkMax (x : Fin 2000 → EReal) : EReal := (Finset.univ : Finset (Fin 2000)).fold max ⊥ x

def St.step (x : Fin 2000 → EReal) (hit : Fin 2000 → Bool) (σ : St) : St :=
  ⟨max σ.m (chunkMax x),
   Ideal.exp (σ.m - max σ.m (chunkMax x)) * σ.l + ∑ q : Fin 2000, Ideal.exp (x q - max σ.m (chunkMax x)),
   σ.s + ∑ q : Fin 2000, (if hit q then x q else 0)⟩

def St.run (X : ℕ → Fin 2000 → EReal) (hit : ℕ → Fin 2000 → Bool) : ℕ → St
  | 0 => St.init
  | n + 1 => (St.run X hit n).step (X n) (hit n)

def headLse (σ : St) (c0 c1 : EReal) : EReal :=
  max (max σ.m c0) c1
    + Ideal.log (σ.l * Ideal.exp (σ.m - max (max σ.m c0) c1) + Ideal.exp (c0 - max (max σ.m c0) c1)
        + Ideal.exp (c1 - max (max σ.m c0) c1))

def kShort (σ0 : St) (c0 c1 : EReal) : EReal := headLse σ0 c0 c1 - σ0.s

def kTail1 (σ0 σ1 : St) (c0 c1 : EReal) : EReal := headLse σ0 c0 c1 - c1 + (σ1.m + Ideal.log σ1.l) - σ1.s

def kTail2 (σ0 σ2 : St) (c0 c1 : EReal) : EReal := headLse σ0 c0 c1 - c0 + (σ2.m + Ideal.log σ2.l) - σ2.s

def rowMax {n : ℕ} (x : Fin n → EReal) : EReal := max ⊥ ((Finset.univ : Finset (Fin n)).fold max ⊥ x)

def lsm {n : ℕ} (x : Fin n → EReal) (v : Fin n) : EReal :=
  (x v - rowMax x) - Ideal.log (0 + ∑ u : Fin n, Ideal.exp (x u - rowMax x))

def chunkOf (x : ℕ → ℝ) (lo : ℕ) (j : ℕ) (q : Fin 2000) : EReal := ((x (lo + 2000 * j + q.val) : ℝ) : EReal)

def hitOf (t : ℕ) (lo : ℕ) (j : ℕ) (q : Fin 2000) : Bool := decide (lo + 2000 * j + q.val = t)

def headRow (x : ℕ → ℝ) (c0 c1 : ℝ) (v : Fin 20002) : EReal :=
  if v.val < 20000 then ((x v.val : ℝ) : EReal) else if v.val = 20000 then ((c0 : ℝ) : EReal) else ((c1 : ℝ) : EReal)

def tailRow (x : ℕ → ℝ) (lo n : ℕ) (v : Fin n) : EReal := ((x (lo + v.val) : ℝ) : EReal)

end Cert.Spec

end
-- ==== Proof.Math.lean ====
import proofs.«429997_j76270029243071_3_alg».proof.Proof.Spec
import Mathlib.Data.Fintype.BigOperators
import Mathlib.Algebra.BigOperators.Fin
import Mathlib.Algebra.Order.BigOperators.Group.Finset
import Mathlib.Data.Finset.Fold
import Mathlib.Analysis.SpecialFunctions.Log.Basic

noncomputable section

namespace Cert.Spec

open Idealize.ShloMosaic

namespace M

theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : ((max a b : ℝ) : EReal) = max (a : EReal) (b : EReal) :=
  EReal.coe_strictMono.monotone.map_max

theorem negBig_real : ∃ r : ℝ, negBig = (r : EReal) := by
  refine ⟨-(13234890 * 2 ^ 76), ?_⟩
  simp [negBig, Ideal.ofBits, Ideal.ieee]

theorem fold_max_real {ι : Type*} (s : Finset ι) (hs : s.Nonempty) (f : ι → ℝ) :
    ∃ r : ℝ, s.fold max ⊥ (fun i => ((f i : ℝ) : EReal)) = (r : EReal) := by
  obtain ⟨a, ha⟩ := hs
  have h1 : s.fold max ⊥ (fun i => ((f i : ℝ) : EReal)) ≠ ⊥ := by
    have h : ((f a : ℝ) : EReal) ≤ s.fold max ⊥ (fun i => ((f i : ℝ) : EReal)) :=
      (Finset.le_fold_max _).mpr (Or.inr ⟨a, ha, le_refl _⟩)
    exact ne_of_gt (lt_of_lt_of_le (EReal.bot_lt_coe _) h)
  have h2 : s.fold max ⊥ (fun i => ((f i : ℝ) : EReal)) ≠ ⊤ := by
    have h : s.fold max ⊥ (fun i => ((f i : ℝ) : EReal)) < ⊤ :=
      (Finset.fold_max_lt _).mpr ⟨bot_lt_top, fun i _ => EReal.coe_lt_top _⟩
    exact ne_of_lt h
  exact ⟨_, (EReal.coe_toReal h2 h1).symm⟩

def Inv (σ : St) (E S : ℝ) : Prop :=
  ∃ m l : ℝ, σ.m = (m : EReal) ∧ σ.l = (l : EReal) ∧ σ.s = (S : EReal) ∧ l * Real.exp m = E

theorem step_inv (σ : St) (E S : ℝ) (h : Inv σ E S) (y : Fin 2000 → ℝ) (hit : Fin 2000 → Bool) :
    Inv (σ.step (fun q => ((y q : ℝ) : EReal)) hit) (E + ∑ q : Fin 2000, Real.exp (y q))
      (S + ∑ q : Fin 2000, if hit q then y q else 0) := by
  obtain ⟨m, l, hm, hl, hs, hE⟩ := h
  obtain ⟨c, hc⟩ : ∃ c : ℝ, chunkMax (fun q => ((y q : ℝ) : EReal)) = (c : EReal) :=
    fold_max_real _ ⟨⟨0, by norm_num⟩, Finset.mem_univ _⟩ y
  have hmax : max σ.m (chunkMax (fun q => ((y q : ℝ) : EReal))) = ((max m c : ℝ) : EReal) := by
    rw [hm, hc, coe_max]
  have hexp : ∀ q : Fin 2000, Ideal.exp (((y q : ℝ) : EReal) - ((max m c : ℝ) : EReal))
      = ((Real.exp (y q - max m c) : ℝ) : EReal) := fun q => by
    rw [← EReal.coe_sub, Ideal.exp_coe]
  have hpick : ∀ q : Fin 2000, (if hit q then ((y q : ℝ) : EReal) else 0)
      = (((if hit q then y q else 0 : ℝ)) : EReal) := fun q => by
    split_ifs <;> simp
  refine ⟨max m c, Real.exp (m - max m c) * l + ∑ q : Fin 2000, Real.exp (y q - max m c), ?_, ?_, ?_, ?_⟩
  · exact hmax
  · show Ideal.exp (σ.m - max σ.m (chunkMax _)) * σ.l + ∑ q : Fin 2000, Ideal.exp (_ - max σ.m (chunkMax _)) = _
    rw [hmax, hm, hl, ← EReal.coe_sub, Ideal.exp_coe, ← EReal.coe_mul]
    simp only [hexp]
    rw [coe_sum, ← EReal.coe_add]
  · show σ.s + ∑ q : Fin 2000, (if hit q then ((y q : ℝ) : EReal) else 0) = _
    simp only [hpick]
    rw [hs, coe_sum, ← EReal.coe_add]
  · have e1 : Real.exp (m - max m c) * Real.exp (max m c) = Real.exp m := by
      rw [← Real.exp_add, sub_add_cancel]
    have e2 : ∀ q : Fin 2000, Real.exp (y q - max m c) * Real.exp (max m c) = Real.exp (y q) := fun q => by
      rw [← Real.exp_add, sub_add_cancel]
    rw [add_mul, Finset.sum_mul]
    simp only [e2]
    rw [← hE, mul_right_comm, e1, mul_comm]

theorem run_inv (x : ℕ → ℝ) (lo t : ℕ) (n : ℕ) :
    Inv (St.run (chunkOf x lo) (hitOf t lo) n)
      (∑ j ∈ Finset.range n, ∑ q : Fin 2000, Real.exp (x (lo + 2000 * j + q.val)))
      (∑ j ∈ Finset.range n, ∑ q : Fin 2000, if hitOf t lo j q then x (lo + 2000 * j + q.val) else 0) := by
  induction n with
  | zero =>
    obtain ⟨r, hr⟩ := negBig_real
    exact ⟨r, 0, hr, by simp [St.run, St.init], by simp [St.run, St.init], by simp⟩
  | succ n ih =>
    rw [Finset.sum_range_succ, Finset.sum_range_succ]
    exact step_inv _ _ _ ih (fun q => x (lo + 2000 * n + q.val)) (hitOf t lo n)

theorem sum_chunks (f : ℕ → ℝ) (lo n : ℕ) :
    ∑ j ∈ Finset.range n, ∑ q : Fin 2000, f (lo + 2000 * j + q.val) = ∑ i ∈ Finset.range (2000 * n), f (lo + i) := by
  induction n with
  | zero => simp
  | succ n ih =>
    rw [Finset.sum_range_succ, ih, Nat.mul_succ, Finset.sum_range_add,
      Fin.sum_univ_eq_sum_range (fun q => f (lo + 2000 * n + q)) 2000]
    simp only [Nat.add_assoc]

theorem sum_pick (x : ℕ → ℝ) (lo N t : ℕ) :
    ∑ i ∈ Finset.range N, (if lo + i = t then x (lo + i) else 0) = if lo ≤ t ∧ t < lo + N then x t else 0 := by
  by_cases h : lo ≤ t ∧ t < lo + N
  · rw [if_pos h, Finset.sum_eq_single (t - lo)]
    · rw [if_pos (by omega)]; congr 1; omega
    · intro i _ hi; rw [if_neg (by omega)]
    · intro hn; exact absurd (Finset.mem_range.mpr (by omega)) hn
  · rw [if_neg h]
    apply Finset.sum_eq_zero
    intro i hi
    have := Finset.mem_range.mp hi
    rw [if_neg (by omega)]

theorem run_real (x : ℕ → ℝ) (lo t : ℕ) (n : ℕ) :
    Inv (St.run (chunkOf x lo) (hitOf t lo) n)
      (∑ i ∈ Finset.range (2000 * n), Real.exp (x (lo + i)))
      (if lo ≤ t ∧ t < lo + 2000 * n then x t else 0) := by
  have h := run_inv x lo t n
  rw [sum_chunks (fun i => Real.exp (x i)) lo n] at h
  have hS : (∑ j ∈ Finset.range n, ∑ q : Fin 2000, if hitOf t lo j q then x (lo + 2000 * j + q.val) else 0)
      = ∑ j ∈ Finset.range n, ∑ q : Fin 2000, (fun i => if i = t then x i else 0) (lo + 2000 * j + q.val) := by
    refine Finset.sum_congr rfl fun j _ => Finset.sum_congr rfl fun q _ => ?_
    simp only [hitOf, decide_eq_true_eq]
  rw [hS, sum_chunks (fun i => if i = t then x i else 0) lo n, sum_pick] at h
  exact h

theorem sum_exp_pos (f : ℕ → ℝ) (N : ℕ) (hN : 0 < N) : 0 < ∑ i ∈ Finset.range N, Real.exp (f i) :=
  Finset.sum_pos (fun i _ => Real.exp_pos _) (Finset.nonempty_range_iff.mpr (Nat.pos_iff_ne_zero.mp hN))

theorem lse_of_inv (σ : St) (E S : ℝ) (h : Inv σ E S) (hE : 0 < E) :
    σ.m + Ideal.log σ.l = ((Real.log E : ℝ) : EReal) := by
  obtain ⟨m, l, hm, hl, _, hml⟩ := h
  have hl0 : 0 < l := by
    by_contra hneg
    have : l * Real.exp m ≤ 0 := mul_nonpos_of_nonpos_of_nonneg (not_lt.mp hneg) (Real.exp_pos m).le
    linarith
  rw [hm, hl, Ideal.log_coe, if_neg (not_le.mpr hl0), ← EReal.coe_add, ← hml,
    Real.log_mul hl0.ne' (Real.exp_pos m).ne', Real.log_exp, add_comm]

theorem headLse_of_inv (σ : St) (E S : ℝ) (h : Inv σ E S) (hE : 0 ≤ E) (c0 c1 : ℝ) :
    headLse σ (c0 : EReal) (c1 : EReal) = ((Real.log (E + Real.exp c0 + Real.exp c1) : ℝ) : EReal) := by
  obtain ⟨m, l, hm, hl, _, hml⟩ := h
  have hmax : max (max σ.m (c0 : EReal)) (c1 : EReal) = ((max (max m c0) c1 : ℝ) : EReal) := by
    rw [hm, coe_max, coe_max]
  set mh : ℝ := max (max m c0) c1 with hmh
  have e0 : Real.exp (m - mh) * Real.exp mh = Real.exp m := by rw [← Real.exp_add, sub_add_cancel]
  have e1 : Real.exp (c0 - mh) * Real.exp mh = Real.exp c0 := by rw [← Real.exp_add, sub_add_cancel]
  have e2 : Real.exp (c1 - mh) * Real.exp mh = Real.exp c1 := by rw [← Real.exp_add, sub_add_cancel]
  have hsum : (l * Real.exp (m - mh) + Real.exp (c0 - mh) + Real.exp (c1 - mh)) * Real.exp mh
      = E + Real.exp c0 + Real.exp c1 := by
    rw [add_mul, add_mul, mul_assoc, e0, e1, e2, hml]
  have hpos : 0 < l * Real.exp (m - mh) + Real.exp (c0 - mh) + Real.exp (c1 - mh) := by
    have h1 : 0 < E + Real.exp c0 + Real.exp c1 := by
      have := Real.exp_pos c0; have := Real.exp_pos c1; linarith
    rw [← hsum] at h1
    exact (mul_pos_iff_of_pos_right (Real.exp_pos mh)).mp h1
  show max (max σ.m (c0 : EReal)) (c1 : EReal)
      + Ideal.log (σ.l * Ideal.exp (σ.m - max (max σ.m (c0 : EReal)) (c1 : EReal))
          + Ideal.exp ((c0 : EReal) - max (max σ.m (c0 : EReal)) (c1 : EReal))
          + Ideal.exp ((c1 : EReal) - max (max σ.m (c0 : EReal)) (c1 : EReal))) = _
  rw [hmax, hm, hl, ← EReal.coe_sub, ← EReal.coe_sub, ← EReal.coe_sub, Ideal.exp_coe, Ideal.exp_coe, Ideal.exp_coe,
    ← EReal.coe_mul, ← EReal.coe_add, ← EReal.coe_add, Ideal.log_coe, if_neg (not_le.mpr hpos), ← EReal.coe_add,
    ← hsum, Real.log_mul hpos.ne' (Real.exp_pos mh).ne', Real.log_exp, add_comm]

theorem lsm_real {n : ℕ} (hn : 0 < n) (x : Fin n → EReal) (y : Fin n → ℝ) (hx : ∀ u, x u = ((y u : ℝ) : EReal))
    (v : Fin n) : lsm x v = ((y v - Real.log (∑ u : Fin n, Real.exp (y u)) : ℝ) : EReal) := by
  have hxy : x = fun u => ((y u : ℝ) : EReal) := funext hx
  subst hxy
  obtain ⟨M, hM⟩ : ∃ M : ℝ, rowMax (fun u : Fin n => ((y u : ℝ) : EReal)) = (M : EReal) := by
    obtain ⟨r, hr⟩ := fold_max_real (Finset.univ : Finset (Fin n)) ⟨⟨0, hn⟩, Finset.mem_univ _⟩ y
    exact ⟨r, by rw [rowMax, hr]; exact max_eq_right bot_le⟩
  have hexp : ∀ u : Fin n, Ideal.exp (((y u : ℝ) : EReal) - (M : EReal)) = ((Real.exp (y u - M) : ℝ) : EReal) :=
    fun u => by rw [← EReal.coe_sub, Ideal.exp_coe]
  have hsum : (∑ u : Fin n, Real.exp (y u - M)) * Real.exp M = ∑ u : Fin n, Real.exp (y u) := by
    rw [Finset.sum_mul]
    refine Finset.sum_congr rfl fun u _ => ?_
    rw [← Real.exp_add, sub_add_cancel]
  have hpos : 0 < ∑ u : Fin n, Real.exp (y u - M) :=
    Finset.sum_pos (fun u _ => Real.exp_pos _) ⟨⟨0, hn⟩, Finset.mem_univ _⟩
  show (((y v : ℝ) : EReal) - rowMax _) - Ideal.log (0 + ∑ u : Fin n, Ideal.exp (((y u : ℝ) : EReal) - rowMax _)) = _
  rw [hM]
  simp only [hexp]
  rw [coe_sum, zero_add, Ideal.log_coe, if_neg (not_le.mpr hpos), ← EReal.coe_sub, ← EReal.coe_sub, ← hsum,
    Real.log_mul hpos.ne' (Real.exp_pos M).ne', Real.log_exp]
  congr 1
  ring

def headReal (x : ℕ → ℝ) (c0 c1 : ℝ) (i : ℕ) : ℝ := if i < 20000 then x i else if i = 20000 then c0 else c1

theorem headRow_real (x : ℕ → ℝ) (c0 c1 : ℝ) (v : Fin 20002) :
    headRow x c0 c1 v = ((headReal x c0 c1 v.val : ℝ) : EReal) := by
  unfold headRow headReal
  split_ifs <;> rfl

theorem head_sum (x : ℕ → ℝ) (c0 c1 : ℝ) :
    ∑ u : Fin 20002, Real.exp (headReal x c0 c1 u.val)
      = (∑ i ∈ Finset.range 20000, Real.exp (x i)) + Real.exp c0 + Real.exp c1 := by
  rw [Fin.sum_univ_eq_sum_range (fun i => Real.exp (headReal x c0 c1 i)) 20002,
    show (20002 : ℕ) = 20000 + 1 + 1 from rfl, Finset.sum_range_succ, Finset.sum_range_succ]
  have h0 : headReal x c0 c1 20000 = c0 := by simp [headReal]
  have h1 : headReal x c0 c1 (20000 + 1) = c1 := by simp [headReal]
  have hs : ∑ i ∈ Finset.range 20000, Real.exp (headReal x c0 c1 i) = ∑ i ∈ Finset.range 20000, Real.exp (x i) :=
    Finset.sum_congr rfl fun i hi => by rw [headReal, if_pos (Finset.mem_range.mp hi)]
  rw [h0, h1, hs]

theorem lsm_head (x : ℕ → ℝ) (c0 c1 : ℝ) (v : Fin 20002) :
    lsm (headRow x c0 c1) v = ((headReal x c0 c1 v.val
      - Real.log ((∑ i ∈ Finset.range 20000, Real.exp (x i)) + Real.exp c0 + Real.exp c1) : ℝ) : EReal) := by
  rw [lsm_real (by norm_num) (headRow x c0 c1) (fun u => headReal x c0 c1 u.val) (headRow_real x c0 c1) v, head_sum]

theorem lsm_tail (x : ℕ → ℝ) (lo n : ℕ) (hn : 0 < n) (v : Fin n) :
    lsm (tailRow x lo n) v
      = ((x (lo + v.val) - Real.log (∑ i ∈ Finset.range n, Real.exp (x (lo + i))) : ℝ) : EReal) := by
  rw [lsm_real hn (tailRow x lo n) (fun u => x (lo + u.val)) (fun _ => rfl) v,
    Fin.sum_univ_eq_sum_range (fun i => Real.exp (x (lo + i))) n]

theorem run_region (x : ℕ → ℝ) (lo t n N : ℕ) (hN : 2000 * n = N) :
    Inv (St.run (chunkOf x lo) (hitOf t lo) n)
      (∑ i ∈ Finset.range N, Real.exp (x (lo + i)))
      (if lo ≤ t ∧ t < lo + N then x t else 0) :=
  hN ▸ run_real x lo t n

theorem run_head (x : ℕ → ℝ) (t : ℕ) :
    Inv (St.run (chunkOf x 0) (hitOf t 0) 10)
      (∑ i ∈ Finset.range 20000, Real.exp (x i)) (if t < 20000 then x t else 0) := by
  have h := run_region x 0 t 10 20000 (by norm_num)
  simpa only [Nat.zero_add, Nat.zero_le, true_and] using h

theorem head_sum_nonneg (x : ℕ → ℝ) : 0 ≤ ∑ i ∈ Finset.range 20000, Real.exp (x i) :=
  Finset.sum_nonneg fun i _ => (Real.exp_pos _).le

end M

theorem short_eq (x : ℕ → ℝ) (c0 c1 : ℝ) (t : ℕ) (ht : t < 20000) :
    kShort (St.run (chunkOf x 0) (hitOf t 0) 10) c0 c1 = -(lsm (headRow x c0 c1) ⟨t, by omega⟩) := by
  have h0 := M.run_head x t
  rw [if_pos ht] at h0
  have hL := M.headLse_of_inv _ _ _ h0 (M.head_sum_nonneg x) c0 c1
  obtain ⟨_, _, _, _, hs, _⟩ := h0
  have hv : M.headReal x c0 c1 t = x t := by rw [M.headReal, if_pos ht]
  rw [kShort, hL, hs, M.lsm_head]
  simp only [Fin.val_mk]
  rw [hv, ← EReal.coe_sub, ← EReal.coe_neg, neg_sub]

theorem tail1_eq (x : ℕ → ℝ) (c0 c1 : ℝ) (t : ℕ) (h1 : 20000 ≤ t) (h2 : t < 40000) :
    kTail1 (St.run (chunkOf x 0) (hitOf t 0) 10) (St.run (chunkOf x 20000) (hitOf t 20000) 10) c0 c1
      = -(lsm (headRow x c0 c1) ⟨20001, by omega⟩ + lsm (tailRow x 20000 20000) ⟨t - 20000, by omega⟩) := by
  have hL := M.headLse_of_inv _ _ _ (M.run_head x t) (M.head_sum_nonneg x) c0 c1
  have h1inv := M.run_region x 20000 t 10 20000 (by norm_num)
  rw [if_pos ⟨h1, by omega⟩] at h1inv
  have hT := M.lse_of_inv _ _ _ h1inv (M.sum_exp_pos (fun i => x (20000 + i)) 20000 (by norm_num))
  obtain ⟨_, _, _, _, hs, _⟩ := h1inv
  have hv : M.headReal x c0 c1 20001 = c1 := by simp [M.headReal]
  have ht : 20000 + (t - 20000) = t := by omega
  rw [kTail1, hL, hT, hs, M.lsm_head, M.lsm_tail x 20000 20000 (by norm_num)]
  simp only [Fin.val_mk]
  rw [hv, ht, ← EReal.coe_sub, ← EReal.coe_add, ← EReal.coe_sub, ← EReal.coe_add, ← EReal.coe_neg]
  refine congrArg Real.toEReal ?_
  ring

theorem tail2_eq (x : ℕ → ℝ) (c0 c1 : ℝ) (t : ℕ) (h1 : 40000 ≤ t) (h2 : t < 50000) :
    kTail2 (St.run (chunkOf x 0) (hitOf t 0) 10) (St.run (chunkOf x 40000) (hitOf t 40000) 5) c0 c1
      = -(lsm (headRow x c0 c1) ⟨20000, by omega⟩ + lsm (tailRow x 40000 10000) ⟨t - 40000, by omega⟩) := by
  have hL := M.headLse_of_inv _ _ _ (M.run_head x t) (M.head_sum_nonneg x) c0 c1
  have h2inv := M.run_region x 40000 t 5 10000 (by norm_num)
  rw [if_pos ⟨h1, by omega⟩] at h2inv
  have hT := M.lse_of_inv _ _ _ h2inv (M.sum_exp_pos (fun i => x (40000 + i)) 10000 (by norm_num))
  obtain ⟨_, _, _, _, hs, _⟩ := h2inv
  have hv : M.headReal x c0 c1 20000 = c0 := by simp [M.headReal]
  have ht : 40000 + (t - 40000) = t := by omega
  rw [kTail2, hL, hT, hs, M.lsm_head, M.lsm_tail x 40000 10000 (by norm_num)]
  simp only [Fin.val_mk]
  rw [hv, ht, ← EReal.coe_sub, ← EReal.coe_add, ← EReal.coe_sub, ← EReal.coe_add, ← EReal.coe_neg]
  refine congrArg Real.toEReal ?_
  ring

end Cert.Spec

end
-- ==== Proof.Spec2.lean ====
import proofs.«429997_j76270029243071_3_alg».proof.Proof.Spec

noncomputable section

namespace Cert.Spec

open Idealize.ShloMosaic

def lsmAt {n : ℕ} (x : Fin n → EReal) (v : ℕ) : EReal := if h : v < n then lsm x ⟨v, h⟩ else 0

def pick (t : ℤ) (short tail1 tail2 : EReal) : EReal :=
  if 40000 ≤ t ∧ t < 50000 then tail2 else if 20000 ≤ t ∧ t < 40000 then tail1 else if t < 20000 then short else 0

def logitE (H : Fin 4096 → Fin 1024 → EReal) (W : Fin 50000 → Fin 1024 → EReal) (b : Fin 50000 → EReal) (r : Fin 4096) (v : ℕ) : EReal :=
  if h : v < 50000 then (∑ k : Fin 1024, H r k * W ⟨v, h⟩ k) + b ⟨v, h⟩ else 0

def clogE (H : Fin 4096 → Fin 1024 → EReal) (CW : Fin 2 → Fin 1024 → EReal) (cb : Fin 2 → EReal) (r : Fin 4096) (a : Fin 2) : EReal :=
  (∑ k : Fin 1024, H r k * CW a k) + cb a

def chunkE (x : ℕ → EReal) (lo : ℕ) (j : ℕ) (q : Fin 2000) : EReal := x (lo + 2000 * j + q.val)
def hitZ (t : ℤ) (lo : ℕ) (j : ℕ) (q : Fin 2000) : Bool := decide (((lo + 2000 * j + q.val : ℕ) : ℤ) = t)

def headRowE (x : ℕ → EReal) (c0 c1 : EReal) (v : Fin 20002) : EReal :=
  if v.val < 20000 then x v.val else if v.val = 20000 then c0 else c1
def tailRowE (x : ℕ → EReal) (lo n : ℕ) (v : Fin n) : EReal := x (lo + v.val)

def clampZ (t lo hi : ℤ) : ℤ := min hi (max lo t)

def kerLossE (x : ℕ → EReal) (c0 c1 : EReal) (t : ℤ) : EReal :=
  pick t (kShort (St.run (chunkE x 0) (hitZ t 0) 10) c0 c1)
    (kTail1 (St.run (chunkE x 0) (hitZ t 0) 10) (St.run (chunkE x 20000) (hitZ t 20000) 10) c0 c1)
    (kTail2 (St.run (chunkE x 0) (hitZ t 0) 10) (St.run (chunkE x 40000) (hitZ t 40000) 5) c0 c1)

def refLossE (x : ℕ → EReal) (c0 c1 : EReal) (t : ℤ) : EReal :=
  pick t (-(lsmAt (headRowE x c0 c1) (clampZ t 0 19999).toNat))
    (-(lsmAt (headRowE x c0 c1) 20001 + lsmAt (tailRowE x 20000 20000) (clampZ (t - 20000) 0 19999).toNat))
    (-(lsmAt (headRowE x c0 c1) 20000 + lsmAt (tailRowE x 40000 10000) (clampZ (t - 40000) 0 9999).toNat))

end Cert.Spec

end
-- ==== Proof.MathGlue.lean ====
import proofs.«429997_j76270029243071_3_alg».proof.Proof.Math
import proofs.«429997_j76270029243071_3_alg».proof.Proof.Spec2

noncomputable section

namespace Cert.Spec

open Idealize.ShloMosaic

namespace G

theorem run_congr (X X' : ℕ → Fin 2000 → EReal) (hit hit' : ℕ → Fin 2000 → Bool) (n : ℕ)
    (hX : ∀ j, j < n → X j = X' j) (hh : ∀ j, j < n → hit j = hit' j) :
    St.run X hit n = St.run X' hit' n := by
  induction n with
  | zero => rfl
  | succ n ih =>
    show (St.run X hit n).step (X n) (hit n) = (St.run X' hit' n).step (X' n) (hit' n)
    rw [ih (fun j hj => hX j (Nat.lt_succ_of_lt hj)) (fun j hj => hh j (Nat.lt_succ_of_lt hj)),
      hX n (Nat.lt_succ_self n), hh n (Nat.lt_succ_self n)]

theorem chunkE_eq (xr : ℕ → ℝ) (x : ℕ → EReal) (hx : ∀ v, v < 50000 → x v = ((xr v : ℝ) : EReal))
    (lo n : ℕ) (hn : lo + 2000 * n ≤ 50000) (j : ℕ) (hj : j < n) : chunkE x lo j = chunkOf xr lo j := by
  funext q
  have hq := q.isLt
  exact hx _ (by omega)

theorem hitZ_eq (tn lo j : ℕ) : hitZ (tn : ℤ) lo j = hitOf tn lo j := by
  funext q
  unfold hitZ hitOf
  exact decide_eq_decide.mpr Nat.cast_inj

theorem run_eq (xr : ℕ → ℝ) (x : ℕ → EReal) (hx : ∀ v, v < 50000 → x v = ((xr v : ℝ) : EReal))
    (tn lo n : ℕ) (hn : lo + 2000 * n ≤ 50000) :
    St.run (chunkE x lo) (hitZ (tn : ℤ) lo) n = St.run (chunkOf xr lo) (hitOf tn lo) n :=
  run_congr _ _ _ _ n (fun j hj => chunkE_eq xr x hx lo n hn j hj) (fun j _ => hitZ_eq tn lo j)

theorem headRowE_eq (xr : ℕ → ℝ) (x : ℕ → EReal) (hx : ∀ v, v < 50000 → x v = ((xr v : ℝ) : EReal)) (c0 c1 : ℝ) :
    headRowE x ((c0 : ℝ) : EReal) ((c1 : ℝ) : EReal) = headRow xr c0 c1 := by
  funext v
  unfold headRowE headRow
  by_cases h : v.val < 20000
  · rw [if_pos h, if_pos h]; exact hx _ (by omega)
  · rw [if_neg h, if_neg h]

theorem tailRowE_eq (xr : ℕ → ℝ) (x : ℕ → EReal) (hx : ∀ v, v < 50000 → x v = ((xr v : ℝ) : EReal))
    (lo n : ℕ) (hn : lo + n ≤ 50000) : tailRowE x lo n = tailRow xr lo n := by
  funext v
  have hv := v.isLt
  exact hx _ (by omega)

theorem lsmAt_lt {n : ℕ} (x : Fin n → EReal) (v : ℕ) (h : v < n) : lsmAt x v = lsm x ⟨v, h⟩ := dif_pos h

end G

theorem loss_eq (xr : ℕ → ℝ) (c0 c1 : ℝ) (x : ℕ → EReal) (hx : ∀ v, v < 50000 → x v = ((xr v : ℝ) : EReal)) (t : ℤ) (ht : 0 ≤ t) :
    kerLossE x ((c0 : ℝ) : EReal) ((c1 : ℝ) : EReal) t = refLossE x ((c0 : ℝ) : EReal) ((c1 : ℝ) : EReal) t := by
  obtain ⟨tn, rfl⟩ := Int.eq_ofNat_of_zero_le ht
  have hrun0 := G.run_eq xr x hx tn 0 10 (by norm_num)
  have hrun1 := G.run_eq xr x hx tn 20000 10 (by norm_num)
  have hrun2 := G.run_eq xr x hx tn 40000 5 (by norm_num)
  have hhead := G.headRowE_eq xr x hx c0 c1
  have htail1 := G.tailRowE_eq xr x hx 20000 20000 (by norm_num)
  have htail2 := G.tailRowE_eq xr x hx 40000 10000 (by norm_num)
  unfold kerLossE refLossE pick
  rw [hrun0, hrun1, hrun2, hhead, htail1, htail2]
  by_cases hA : (40000 : ℤ) ≤ (tn : ℤ) ∧ (tn : ℤ) < 50000
  · rw [if_pos hA, if_pos hA]
    have h1 : 40000 ≤ tn := by omega
    have h2 : tn < 50000 := by omega
    have hc : (clampZ ((tn : ℤ) - 40000) 0 9999).toNat = tn - 40000 := by unfold clampZ; omega
    rw [tail2_eq xr c0 c1 tn h1 h2, hc, G.lsmAt_lt _ 20000 (by norm_num), G.lsmAt_lt _ (tn - 40000) (by omega)]
  · rw [if_neg hA, if_neg hA]
    by_cases hB : (20000 : ℤ) ≤ (tn : ℤ) ∧ (tn : ℤ) < 40000
    · rw [if_pos hB, if_pos hB]
      have h1 : 20000 ≤ tn := by omega
      have h2 : tn < 40000 := by omega
      have hc : (clampZ ((tn : ℤ) - 20000) 0 19999).toNat = tn - 20000 := by unfold clampZ; omega
      rw [tail1_eq xr c0 c1 tn h1 h2, hc, G.lsmAt_lt _ 20001 (by norm_num), G.lsmAt_lt _ (tn - 20000) (by omega)]
    · rw [if_neg hB, if_neg hB]
      by_cases hC : (tn : ℤ) < 20000
      · rw [if_pos hC, if_pos hC]
        have h1 : tn < 20000 := by omega
        have hc : (clampZ (tn : ℤ) 0 19999).toNat = tn := by unfold clampZ; omega
        rw [short_eq xr c0 c1 tn h1, hc, G.lsmAt_lt _ tn (by omega)]
      · rw [if_neg hC, if_neg hC]

end Cert.Spec

end
-- ==== Proof.PreFacts.lean ====
import proofs.«429997_j76270029243071_3_alg».proof.Pre_finite_inputs
import Idealize.ShloMosaic.Lib.ReduceAll
import Idealize.ShloMosaic.Lib.ValueIdx
import Idealize.ShloMosaic.PureOps.Ideal

noncomputable section

namespace Cert.PreFacts

open Idealize.ShloMosaic Cert.Pre_finite_inputs

instance : Subsingleton S_.Idx := ⟨fun a b => funext fun d => d.elim0⟩

theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => exact absurd hlt (by simp)
  | coe r => exact ⟨r, rfl⟩
  | top => exact absurd hlt (by simp)

theorem all_real {s : Shape} {axes : List (Fin s.rank)} (hb : S_.BroadcastsInDim s (![] : Fin 0 → Fin s.rank))
    (hr : s.ReducesTo axes S_) (hS : 0 < S_.numel) (a : FVec Ideal s .f32)
    (h : Host.reduce IntOp.andi (cmpf .olt (Host.absf a) (broadcastInDim s ![] hb (constant S_ .f32 0x7F800000#32)))
      (constantI S_ 1 1#1) hr hS ValueIdx.ix0 = 1#1) (i : s.Idx) : ∃ r : ℝ, a i = (r : EReal) :=
  real_of_abs_lt (a i) (Host.reduce_andi_all _ _ hr hS _ h i)

theorem all_nonneg {s : Shape} {axes : List (Fin s.rank)} (hb : S_.BroadcastsInDim s (![] : Fin 0 → Fin s.rank))
    (hr : s.ReducesTo axes S_) (hS : 0 < S_.numel) (a : IVec s 32)
    (h : Host.reduce IntOp.andi (cmpi .sge a (broadcastInDim s ![] hb (constantI S_ 32 0#32)))
      (constantI S_ 1 1#1) hr hS ValueIdx.ix0 = 1#1) (i : s.Idx) : 0 ≤ (a i).toInt := by
  have h1 : IntOp.cmpi .sge (a i) 0#32 = 1#1 := Host.reduce_andi_all _ _ hr hS _ h i
  have h2 := IntOp.cmpi_sge.1 h1
  simpa using h2

theorem of_pre [Cert.Pre_finite_inputs.Facts] (a0 : FVec Ideal S4096x1024 .f32) (a1 : IVec S4096 32)
    (a2 : FVec Ideal S50000x1024 .f32) (a3 : FVec Ideal S50000 .f32) (a4 : FVec Ideal S2x1024 .f32)
    (a5 : FVec Ideal S2 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, 0 ≤ (a1 i).toInt) := by
  have h0 := congrFun h ValueIdx.ix0
  dsimp only [Cert.Pre_finite_inputs.fn, Cert.Pre_finite_inputs.fn_part1] at h0
  obtain ⟨h0, h26⟩ := IntOp.andi_eq_one.1 h0
  obtain ⟨h0, h22⟩ := IntOp.andi_eq_one.1 h0
  obtain ⟨h0, h17⟩ := IntOp.andi_eq_one.1 h0
  obtain ⟨h0, h12⟩ := IntOp.andi_eq_one.1 h0
  obtain ⟨h3, h7⟩ := IntOp.andi_eq_one.1 h0
  exact ⟨all_real _ _ _ a0 h3, all_real _ _ _ a2 h7, all_real _ _ _ a3 h12, all_real _ _ _ a4 h17,
    all_real _ _ _ a5 h22, all_nonneg _ _ _ a1 h26⟩

end Cert.PreFacts

end
-- ==== Proof.LogitReal.lean ====
import proofs.«429997_j76270029243071_3_alg».proof.Proof.Spec2
import Mathlib.Data.EReal.Basic
import Mathlib.Data.EReal.Operations
import Mathlib.Algebra.BigOperators.Group.Finset.Basic

noncomputable section

namespace Cert.Spec

open Idealize.ShloMosaic

theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem dot_real {n : ℕ} (x y : Fin n → EReal) (hx : ∀ k, ∃ a : ℝ, x k = (a : EReal))
    (hy : ∀ k, ∃ a : ℝ, y k = (a : EReal)) : ∃ a : ℝ, ∑ k : Fin n, x k * y k = (a : EReal) := by
  choose xr hxr using hx
  choose yr hyr using hy
  refine ⟨∑ k : Fin n, xr k * yr k, ?_⟩
  rw [← coe_sum_real]
  refine Finset.sum_congr rfl (fun k _ => ?_)
  rw [hxr k, hyr k, EReal.coe_mul]

theorem logitE_real (H : Fin 4096 → Fin 1024 → EReal) (W : Fin 50000 → Fin 1024 → EReal) (b : Fin 50000 → EReal)
    (hH : ∀ r k, ∃ x : ℝ, H r k = (x : EReal)) (hW : ∀ v k, ∃ x : ℝ, W v k = (x : EReal))
    (hb : ∀ v, ∃ x : ℝ, b v = (x : EReal)) (r : Fin 4096) :
    ∃ xr : ℕ → ℝ, ∀ v, v < 50000 → logitE H W b r v = ((xr v : ℝ) : EReal) := by
  have key : ∀ v : ℕ, ∃ x : ℝ, v < 50000 → logitE H W b r v = (x : EReal) := by
    intro v
    by_cases h : v < 50000
    · obtain ⟨d, hd⟩ := dot_real (H r) (W ⟨v, h⟩) (hH r) (hW ⟨v, h⟩)
      obtain ⟨β, hβ⟩ := hb ⟨v, h⟩
      refine ⟨d + β, fun _ => ?_⟩
      rw [logitE, dif_pos h, hd, hβ, EReal.coe_add]
    · exact ⟨0, fun h' => absurd h' h⟩
  choose xr hxr using key
  exact ⟨xr, hxr⟩

theorem clogE_real (H : Fin 4096 → Fin 1024 → EReal) (CW : Fin 2 → Fin 1024 → EReal) (cb : Fin 2 → EReal)
    (hH : ∀ r k, ∃ x : ℝ, H r k = (x : EReal)) (hC : ∀ a k, ∃ x : ℝ, CW a k = (x : EReal))
    (hc : ∀ a, ∃ x : ℝ, cb a = (x : EReal)) (r : Fin 4096) (a : Fin 2) :
    ∃ x : ℝ, clogE H CW cb r a = ((x : ℝ) : EReal) := by
  obtain ⟨d, hd⟩ := dot_real (H r) (CW a) (hH r) (hC a)
  obtain ⟨β, hβ⟩ := hc a
  exact ⟨d + β, by rw [clogE, hd, hβ, EReal.coe_add]⟩

end Cert.Spec

end
-- ==== Proof.KTail.lean ====
import proofs.«429997_j76270029243071_3_alg».proof.Proof.Gen.KernelIdeal.Regions
import proofs.«429997_j76270029243071_3_alg».proof.Proof.Spec2
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.StableHlo
open Cert.KernelIdeal Cert.KernelIdeal.Gen ValueIdx

namespace KTail

section Pure

abbrev VF (S : Shape) : Type := FVec Ideal S .f32
abbrev VI (S : Shape) : Type := IVec S 32
abbrev VB (S : Shape) : Type := IVec S 1

def clusterLogits (x0 : VF S4096x1024) (x4 : VF S2x1024) (x5 : VF S2) : VF S4096x2 :=
  addf (Host.dotGeneral dot_S4096x1024_S1024x2_S4096x2_1_0_0_1_n_n none x0 (transpose S1024x2 [1, 0] x4 transposes_S2x1024_S1024x2_1_0))
    (broadcastInDim S4096x2 ![0, 1] bcast_S1x2_S4096x2_0_1 (broadcastInDim S1x2 ![1] bcast_S2_S1x2_1 x5))

def col0 (y : VF S4096x2) : VF S4096x1 := extractStridedSlice S4096x1 ![0, 0] y slices_S4096x2_S4096x1_0_0
def col1 (y : VF S4096x2) : VF S4096x1 := extractStridedSlice S4096x1 ![0, 1] y slices_S4096x2_S4096x1_0_1

def headMax (a0 k0 k1 : VF S4096x1) : VF S4096x1 := maximumf (maximumf a0 k0) k1

def headLseV (a0 a1 k0 k1 : VF S4096x1) : VF S4096x1 :=
  addf (headMax a0 k0 k1)
    (Host.log (addf (addf (mulf a1 (Host.exp (subf a0 (headMax a0 k0 k1)))) (Host.exp (subf k0 (headMax a0 k0 k1))))
      (Host.exp (subf k1 (headMax a0 k0 k1)))))

def flat (y : VF S4096x1) : VF S4096 := shapeCast S4096 y shapeCasts_S4096x1_S4096

def shortV (a0 a1 a2 k0 k1 : VF S4096x1) : VF S4096 := flat (subf (headLseV a0 a1 k0 k1) a2)

def tailV (a0 a1 k0 k1 kc b0 b1 b2 : VF S4096x1) : VF S4096 :=
  subf (addf (subf (flat (headLseV a0 a1 k0 k1)) (flat kc)) (flat (addf b0 (Host.log b1)))) (flat b2)

def constRow (w : BitVec 32) : VI S4096 := broadcastInDim S4096 ![] bcast_S_S4096 (constantI S_ 32 w)
def zeroRow (z : VF S_) : VF S4096 := broadcastInDim S4096 ![] bcast_S_S4096 z

def maskLt (t : VI S4096) (hi : BitVec 32) : VB S4096 := cmpi .slt t (constRow hi)
def maskIn (t : VI S4096) (lo hi : BitVec 32) : VB S4096 := andi (cmpi .sge t (constRow lo)) (cmpi .slt t (constRow hi))

end Pure

section Run

variable (W : Valuation τ sig (Elt Ideal))

local notation "W⟦" r "⟧" => W (Proc.devRef Proc.tc r)

theorem run3_v30 :
    after hostOps3 W (Proc.devRef .tc main_v30)
      = shortV W⟦main_v4_0⟧ W⟦main_v4_1⟧ W⟦main_v4_2⟧ (col0 (clusterLogits W⟦main_arg0⟧ W⟦main_arg4⟧ W⟦main_arg5⟧))
          (col1 (clusterLogits W⟦main_arg0⟧ W⟦main_arg4⟧ W⟦main_arg5⟧)) := by
  after_results_simp
  rfl

theorem run3_v42 :
    after hostOps3 W (Proc.devRef .tc main_v42)
      = tailV W⟦main_v4_0⟧ W⟦main_v4_1⟧ (col0 (clusterLogits W⟦main_arg0⟧ W⟦main_arg4⟧ W⟦main_arg5⟧))
          (col1 (clusterLogits W⟦main_arg0⟧ W⟦main_arg4⟧ W⟦main_arg5⟧)) (col1 (clusterLogits W⟦main_arg0⟧ W⟦main_arg4⟧ W⟦main_arg5⟧))
          W⟦main_v6_0⟧ W⟦main_v6_1⟧ W⟦main_v6_2⟧ := by
  after_results_simp
  rfl

theorem run3_v48 :
    after hostOps3 W (Proc.devRef .tc main_v48)
      = tailV W⟦main_v4_0⟧ W⟦main_v4_1⟧ (col0 (clusterLogits W⟦main_arg0⟧ W⟦main_arg4⟧ W⟦main_arg5⟧))
          (col1 (clusterLogits W⟦main_arg0⟧ W⟦main_arg4⟧ W⟦main_arg5⟧)) (col0 (clusterLogits W⟦main_arg0⟧ W⟦main_arg4⟧ W⟦main_arg5⟧))
          W⟦main_v8_0⟧ W⟦main_v8_1⟧ W⟦main_v8_2⟧ := by
  after_results_simp
  rfl

theorem run3_v50 : after hostOps3 W (Proc.devRef .tc main_v50) = maskLt W⟦main_arg1⟧ 20000#32 := by
  after_results_simp
  rfl

theorem run3_cst : after hostOps3 W (Proc.devRef .tc main_cst) = constant (F := Ideal) S_ .f32 0x00000000#32 := by
  after_results_simp

theorem run3_1_v51 :
    after hostOps3_1 W (Proc.devRef .tc main_v51) = select W⟦main_v50⟧ W⟦main_v30⟧ (zeroRow W⟦main_cst⟧) := by
  after_results
  rfl

theorem run3_2_v56 : after hostOps3_2 W (Proc.devRef .tc main_v56) = maskIn W⟦main_arg1⟧ 20000#32 40000#32 := by
  after_results
  rfl

theorem run3_3_v57 :
    after hostOps3_3 W (Proc.devRef .tc main_v57) = select W⟦main_v56⟧ W⟦main_v42⟧ W⟦main_v51⟧ := by
  after_results
  rfl

theorem run3_4_v62 : after hostOps3_4 W (Proc.devRef .tc main_v62) = maskIn W⟦main_arg1⟧ 40000#32 50000#32 := by
  after_results
  rfl

theorem run3_5_v63 :
    after hostOps3_5 W (Proc.devRef .tc main_v63) = select W⟦main_v62⟧ W⟦main_v48⟧ W⟦main_v57⟧ := by
  after_results
  rfl

end Run

section Read

open Idealize.ShloMosaic.StableHlo.Predicate (ofBool_eq_one_iff)

private theorem dot_lhs0 (i : S4096x2.Idx) (q : dot_S4096x1024_S1024x2_S4096x2_1_0_0_1_n_n.contr.Idx) :
    (dot_S4096x1024_S1024x2_S4096x2_1_0_0_1_n_n.lhsIdx i q 0).val = (i 0).val := by
  unfold DotDims.lhsIdx
  rw [dif_neg (show ¬(0 : Fin S4096x1024.rank) ∈ dot_S4096x1024_S1024x2_S4096x2_1_0_0_1_n_n.lhsBatch by decide), dif_pos (show (0 : Fin S4096x1024.rank) ∈ dot_S4096x1024_S1024x2_S4096x2_1_0_0_1_n_n.lhsNonContracting by decide)]
  rfl
private theorem dot_lhs1 (i : S4096x2.Idx) (q : dot_S4096x1024_S1024x2_S4096x2_1_0_0_1_n_n.contr.Idx) :
    (dot_S4096x1024_S1024x2_S4096x2_1_0_0_1_n_n.lhsIdx i q 1).val = (q ⟨0, by decide⟩).val :=
  dot_S4096x1024_S1024x2_S4096x2_1_0_0_1_n_n.lhsIdx_val_of_single rfl i q
private theorem dot_rhs0 (i : S4096x2.Idx) (q : dot_S4096x1024_S1024x2_S4096x2_1_0_0_1_n_n.contr.Idx) :
    (dot_S4096x1024_S1024x2_S4096x2_1_0_0_1_n_n.rhsIdx i q 0).val = (q ⟨0, by decide⟩).val :=
  dot_S4096x1024_S1024x2_S4096x2_1_0_0_1_n_n.rhsIdx_val_of_single rfl i q
private theorem dot_rhs1 (i : S4096x2.Idx) (q : dot_S4096x1024_S1024x2_S4096x2_1_0_0_1_n_n.contr.Idx) :
    (dot_S4096x1024_S1024x2_S4096x2_1_0_0_1_n_n.rhsIdx i q 1).val = (i 1).val := by
  unfold DotDims.rhsIdx
  rw [dif_neg (show ¬(1 : Fin S1024x2.rank) ∈ dot_S4096x1024_S1024x2_S4096x2_1_0_0_1_n_n.rhsBatch by decide), dif_pos (show (1 : Fin S1024x2.rank) ∈ dot_S4096x1024_S1024x2_S4096x2_1_0_0_1_n_n.rhsNonContracting by decide)]
  rfl

theorem dot_apply (x0 : VF S4096x1024) (y0 : VF S1024x2) (r : Fin 4096) (a : Fin 2) :
    Host.dotGeneral dot_S4096x1024_S1024x2_S4096x2_1_0_0_1_n_n none x0 y0 (ix2 r a) = ∑ k : Fin 1024, x0 (ix2 r k) * y0 (ix2 k a) := by
  simp only [Host.dotGeneral]
  rw [Ideal.dotGeneral_apply, ← Equiv.sum_comp (ValueIdx.contrEquiv1 dot_S4096x1024_S1024x2_S4096x2_1_0_0_1_n_n 1024 rfl rfl).symm]
  refine Finset.sum_congr rfl fun k _ => ?_
  have hk := ValueIdx.contrEquiv1_symm_val dot_S4096x1024_S1024x2_S4096x2_1_0_0_1_n_n 1024 rfl rfl k
  have el : dot_S4096x1024_S1024x2_S4096x2_1_0_0_1_n_n.lhsIdx (ix2 r a) ((ValueIdx.contrEquiv1 dot_S4096x1024_S1024x2_S4096x2_1_0_0_1_n_n 1024 rfl rfl).symm k) = ix2 r k := funext fun b => Fin.ext (by
    match b with
    | ⟨0, _⟩ => exact dot_lhs0 _ _
    | ⟨1, _⟩ => exact (dot_lhs1 _ _).trans hk)
  have er : dot_S4096x1024_S1024x2_S4096x2_1_0_0_1_n_n.rhsIdx (ix2 r a) ((ValueIdx.contrEquiv1 dot_S4096x1024_S1024x2_S4096x2_1_0_0_1_n_n 1024 rfl rfl).symm k) = ix2 k a := funext fun b => Fin.ext (by
    match b with
    | ⟨0, _⟩ => exact (dot_rhs0 _ _).trans hk
    | ⟨1, _⟩ => exact dot_rhs1 _ _)
  rw [el, er]

theorem clusterLogits_apply (x0 : VF S4096x1024) (x4 : VF S2x1024) (x5 : VF S2) (r : Fin 4096) (a : Fin 2) :
    clusterLogits x0 x4 x5 (ix2 r a)
      = Spec.clogE (fun r k => x0 (ix2 r k)) (fun a k => x4 (ix2 a k)) (fun a => x5 (ix1 a)) r a := by
  unfold clusterLogits Spec.clogE
  rw [ValueIdx.addf_apply, dot_apply]
  have ht : ∀ k : Fin 1024, transpose S1024x2 [1, 0] x4 transposes_S2x1024_S1024x2_1_0 (ix2 k a) = x4 (ix2 a k) := fun k =>
    transpose_apply [1, 0] x4 transposes_S2x1024_S1024x2_1_0 (ix2 k a) (ix2 a k) (fun b => match b with
      | ⟨0, _⟩ => rfl
      | ⟨1, _⟩ => rfl)
  have hb : broadcastInDim S4096x2 ![0, 1] bcast_S1x2_S4096x2_0_1 (broadcastInDim S1x2 ![1] bcast_S2_S1x2_1 x5) (ix2 r a) = x5 (ix1 a) := by
    refine (broadcastInDim_apply _ bcast_S1x2_S4096x2_0_1 _ (ix2 r a) (ix2 (0 : Fin 1) a) (fun b => match b with
      | ⟨0, _⟩ => by show 0 = if (1 : Nat) = 1 then 0 else r.val; rw [if_pos rfl]
      | ⟨1, _⟩ => by show a.val = if (2 : Nat) = 1 then 0 else a.val; rw [if_neg (by decide)])).trans ?_
    exact broadcastInDim_apply _ bcast_S2_S1x2_1 x5 (ix2 (0 : Fin 1) a) (ix1 a) (fun b => match b with
      | ⟨0, _⟩ => by show a.val = if (2 : Nat) = 1 then 0 else a.val; rw [if_neg (by decide)])
  rw [hb]
  exact congrArg (· + x5 (ix1 a)) (Finset.sum_congr rfl fun k _ => by rw [ht k])

theorem col0_apply (y : VF S4096x2) (r : Fin 4096) : col0 y (ix2 r 0) = y (ix2 r 0) :=
  extractStridedSlice_apply ![0, 0] y slices_S4096x2_S4096x1_0_0 (ix2 r 0) (ix2 r 0) (fun b => match b with
    | ⟨0, _⟩ => by show r.val = 0 + r.val; omega
    | ⟨1, _⟩ => by show 0 = 0 + 0; omega)
theorem col1_apply (y : VF S4096x2) (r : Fin 4096) : col1 y (ix2 r 0) = y (ix2 r 1) :=
  extractStridedSlice_apply ![0, 1] y slices_S4096x2_S4096x1_0_1 (ix2 r 0) (ix2 r 1) (fun b => match b with
    | ⟨0, _⟩ => by show r.val = 0 + r.val; omega
    | ⟨1, _⟩ => by show 1 = 1 + 0; omega)

theorem flat_apply (y : VF S4096x1) (r : Fin 4096) : flat y (ix1 r) = y (ix2 r 0) :=
  shapeCast_apply y shapeCasts_S4096x1_S4096 (ix1 r) (ix2 r 0)
    (by rewrite [Shape.rowMajor_val_two, Shape.rowMajor_val_one]; show r.val * 1 + 0 = r.val; omega)

theorem shortV_apply (a0 a1 a2 k0 k1 : VF S4096x1) (r : Fin 4096) :
    shortV a0 a1 a2 k0 k1 (ix1 r)
      = Spec.kShort ⟨a0 (ix2 r 0), a1 (ix2 r 0), a2 (ix2 r 0)⟩ (k0 (ix2 r 0)) (k1 (ix2 r 0)) := by
  unfold shortV
  rw [flat_apply]
  rfl

theorem tailV_apply (a0 a1 k0 k1 kc b0 b1 b2 : VF S4096x1) (r : Fin 4096) (s : EReal) :
    tailV a0 a1 k0 k1 kc b0 b1 b2 (ix1 r)
      = Spec.headLse ⟨a0 (ix2 r 0), a1 (ix2 r 0), s⟩ (k0 (ix2 r 0)) (k1 (ix2 r 0)) - kc (ix2 r 0)
          + (b0 (ix2 r 0) + Ideal.log (b1 (ix2 r 0))) - b2 (ix2 r 0) := by
  unfold tailV
  rw [ValueIdx.subf_apply, ValueIdx.addf_apply, ValueIdx.subf_apply, flat_apply, flat_apply, flat_apply, flat_apply]
  rfl

theorem constRow_apply (w : BitVec 32) (i : S4096.Idx) : constRow w i = w :=
  broadcastInDim_apply _ bcast_S_S4096 (constantI S_ 32 w) i (fun a => a.elim0) (fun a => a.elim0)
theorem zeroRow_apply (i : S4096.Idx) : zeroRow (constant (F := Ideal) S_ .f32 0x00000000#32) i = 0 :=
  (broadcastInDim_apply _ bcast_S_S4096 (constant (F := Ideal) S_ .f32 0x00000000#32) i (fun a => a.elim0) (fun a => a.elim0)).trans
    Ideal.ofBits_zero_f32

theorem slt_iff_toInt (a b : BitVec 32) : IntOp.cmpi .slt a b = 1#1 ↔ a.toInt < b.toInt := by
  simp only [IntOp.cmpi, BitVec.slt, ofBool_eq_one_iff, decide_eq_true_eq]
theorem sge_iff_toInt (a b : BitVec 32) : IntOp.cmpi .sge a b = 1#1 ↔ b.toInt ≤ a.toInt := by
  simp only [IntOp.cmpi, BitVec.sle, ofBool_eq_one_iff, decide_eq_true_eq]

theorem andi_one_iff (c d : BitVec 1) : IntOp.andi c d = 1#1 ↔ c = 1#1 ∧ d = 1#1 := by revert c d; decide

theorem maskLt_apply (t : VI S4096) (hi : BitVec 32) (i : S4096.Idx) : maskLt t hi i = 1#1 ↔ (t i).toInt < hi.toInt := by
  show IntOp.cmpi .slt (t i) (constRow hi i) = 1#1 ↔ _
  rw [constRow_apply]
  exact slt_iff_toInt _ _
theorem maskIn_apply (t : VI S4096) (lo hi : BitVec 32) (i : S4096.Idx) :
    maskIn t lo hi i = 1#1 ↔ lo.toInt ≤ (t i).toInt ∧ (t i).toInt < hi.toInt := by
  show IntOp.andi (IntOp.cmpi .sge (t i) (constRow lo i)) (IntOp.cmpi .slt (t i) (constRow hi i)) = 1#1 ↔ _
  rw [constRow_apply, constRow_apply, andi_one_iff, sge_iff_toInt, slt_iff_toInt]

theorem select_of_iff {α : Type} {b : BitVec 1} {P : Prop} [Decidable P] (h : b = 1#1 ↔ P) (x y : α) :
    Scalar.select b x y = if P then x else y := by
  show (if b = 1#1 then x else y) = _
  by_cases hp : P
  · rw [if_pos hp, if_pos (h.mpr hp)]
  · rw [if_neg hp, if_neg (mt h.mp hp)]

end Read

section Tail

variable (m : (ℓ : Loc nD τ sig) → Buf (Elt Ideal) ℓ) (outs : Outs (F := Ideal)) (c : Dev nD)

theorem V6_arg0 : V6 m outs c main_arg0 = m ((c : Thread nD τ).loc main_arg0) :=
  (V6_of m outs c main_arg0 (by decide)).trans <| (V5_of m outs c main_arg0 (by decide)).trans <| (V4_of m outs c main_arg0 (by decide)).trans <|
    (V3_of m outs c main_arg0 (by decide)).trans <| (V2_of m outs c main_arg0 (by decide)).trans <| V1_of m c main_arg0 (by decide)
theorem V6_arg1 : V6 m outs c main_arg1 = m ((c : Thread nD τ).loc main_arg1) :=
  (V6_of m outs c main_arg1 (by decide)).trans <| (V5_of m outs c main_arg1 (by decide)).trans <| (V4_of m outs c main_arg1 (by decide)).trans <|
    (V3_of m outs c main_arg1 (by decide)).trans <| (V2_of m outs c main_arg1 (by decide)).trans <| V1_of m c main_arg1 (by decide)
theorem V6_arg4 : V6 m outs c main_arg4 = m ((c : Thread nD τ).loc main_arg4) :=
  (V6_of m outs c main_arg4 (by decide)).trans <| (V5_of m outs c main_arg4 (by decide)).trans <| (V4_of m outs c main_arg4 (by decide)).trans <|
    (V3_of m outs c main_arg4 (by decide)).trans <| (V2_of m outs c main_arg4 (by decide)).trans <| V1_of m c main_arg4 (by decide)
theorem V6_arg5 : V6 m outs c main_arg5 = m ((c : Thread nD τ).loc main_arg5) :=
  (V6_of m outs c main_arg5 (by decide)).trans <| (V5_of m outs c main_arg5 (by decide)).trans <| (V4_of m outs c main_arg5 (by decide)).trans <|
    (V3_of m outs c main_arg5 (by decide)).trans <| (V2_of m outs c main_arg5 (by decide)).trans <| V1_of m c main_arg5 (by decide)

theorem V2_v4_0 : V2 m outs c main_v4_0 = outs 2 main_v4_0 c :=
  (Function.update_of_ne (StableHlo.devRef_ne_of_ne (by decide : main_v4_0 ≠ main_v4_2)) _ _).trans <|
    (Function.update_of_ne (StableHlo.devRef_ne_of_ne (by decide : main_v4_0 ≠ main_v4_1)) _ _).trans (Function.update_self _ _ _)
theorem V2_v4_1 : V2 m outs c main_v4_1 = outs 2 main_v4_1 c :=
  (Function.update_of_ne (StableHlo.devRef_ne_of_ne (by decide : main_v4_1 ≠ main_v4_2)) _ _).trans (Function.update_self _ _ _)
theorem V2_v4_2 : V2 m outs c main_v4_2 = outs 2 main_v4_2 c := Function.update_self _ _ _
theorem V4_v6_0 : V4 m outs c main_v6_0 = outs 4 main_v6_0 c :=
  (Function.update_of_ne (StableHlo.devRef_ne_of_ne (by decide : main_v6_0 ≠ main_v6_2)) _ _).trans <|
    (Function.update_of_ne (StableHlo.devRef_ne_of_ne (by decide : main_v6_0 ≠ main_v6_1)) _ _).trans (Function.update_self _ _ _)
theorem V4_v6_1 : V4 m outs c main_v6_1 = outs 4 main_v6_1 c :=
  (Function.update_of_ne (StableHlo.devRef_ne_of_ne (by decide : main_v6_1 ≠ main_v6_2)) _ _).trans (Function.update_self _ _ _)
theorem V4_v6_2 : V4 m outs c main_v6_2 = outs 4 main_v6_2 c := Function.update_self _ _ _
theorem V6_v8_0 : V6 m outs c main_v8_0 = outs 6 main_v8_0 c :=
  (Function.update_of_ne (StableHlo.devRef_ne_of_ne (by decide : main_v8_0 ≠ main_v8_2)) _ _).trans <|
    (Function.update_of_ne (StableHlo.devRef_ne_of_ne (by decide : main_v8_0 ≠ main_v8_1)) _ _).trans (Function.update_self _ _ _)
theorem V6_v8_1 : V6 m outs c main_v8_1 = outs 6 main_v8_1 c :=
  (Function.update_of_ne (StableHlo.devRef_ne_of_ne (by decide : main_v8_1 ≠ main_v8_2)) _ _).trans (Function.update_self _ _ _)
theorem V6_v8_2 : V6 m outs c main_v8_2 = outs 6 main_v8_2 c := Function.update_self _ _ _

theorem V6_v4_0 : V6 m outs c main_v4_0 = outs 2 main_v4_0 c :=
  (V6_of m outs c main_v4_0 (by decide)).trans <| (V5_of m outs c main_v4_0 (by decide)).trans <| (V4_of m outs c main_v4_0 (by decide)).trans <|
    (V3_of m outs c main_v4_0 (by decide)).trans (V2_v4_0 m outs c)
theorem V6_v4_1 : V6 m outs c main_v4_1 = outs 2 main_v4_1 c :=
  (V6_of m outs c main_v4_1 (by decide)).trans <| (V5_of m outs c main_v4_1 (by decide)).trans <| (V4_of m outs c main_v4_1 (by decide)).trans <|
    (V3_of m outs c main_v4_1 (by decide)).trans (V2_v4_1 m outs c)
theorem V6_v4_2 : V6 m outs c main_v4_2 = outs 2 main_v4_2 c :=
  (V6_of m outs c main_v4_2 (by decide)).trans <| (V5_of m outs c main_v4_2 (by decide)).trans <| (V4_of m outs c main_v4_2 (by decide)).trans <|
    (V3_of m outs c main_v4_2 (by decide)).trans (V2_v4_2 m outs c)
theorem V6_v6_0 : V6 m outs c main_v6_0 = outs 4 main_v6_0 c :=
  (V6_of m outs c main_v6_0 (by decide)).trans <| (V5_of m outs c main_v6_0 (by decide)).trans (V4_v6_0 m outs c)
theorem V6_v6_1 : V6 m outs c main_v6_1 = outs 4 main_v6_1 c :=
  (V6_of m outs c main_v6_1 (by decide)).trans <| (V5_of m outs c main_v6_1 (by decide)).trans (V4_v6_1 m outs c)
theorem V6_v6_2 : V6 m outs c main_v6_2 = outs 4 main_v6_2 c :=
  (V6_of m outs c main_v6_2 (by decide)).trans <| (V5_of m outs c main_v6_2 (by decide)).trans (V4_v6_2 m outs c)

abbrev tgt (r : Fin 4096) : BitVec 32 := (m ((c : Thread nD τ).loc main_arg1) : S4096.Idx → BitVec 32) (ix1 r)

abbrev clog (r : Fin 4096) (a : Fin 2) : EReal :=
  Spec.clogE (fun r k => (m ((c : Thread nD τ).loc main_arg0) : S4096x1024.Idx → EReal) (ix2 r k))
    (fun a k => (m ((c : Thread nD τ).loc main_arg4) : S2x1024.Idx → EReal) (ix2 a k))
    (fun a => (m ((c : Thread nD τ).loc main_arg5) : S2.Idx → EReal) (ix1 a)) r a

abbrev st0 (r : Fin 4096) : Spec.St :=
  ⟨(outs 2 main_v4_0 c : S4096x1.Idx → EReal) (ix2 r 0), (outs 2 main_v4_1 c : S4096x1.Idx → EReal) (ix2 r 0), (outs 2 main_v4_2 c : S4096x1.Idx → EReal) (ix2 r 0)⟩
abbrev st1 (r : Fin 4096) : Spec.St :=
  ⟨(outs 4 main_v6_0 c : S4096x1.Idx → EReal) (ix2 r 0), (outs 4 main_v6_1 c : S4096x1.Idx → EReal) (ix2 r 0), (outs 4 main_v6_2 c : S4096x1.Idx → EReal) (ix2 r 0)⟩
abbrev st2 (r : Fin 4096) : Spec.St :=
  ⟨(outs 6 main_v8_0 c : S4096x1.Idx → EReal) (ix2 r 0), (outs 6 main_v8_1 c : S4096x1.Idx → EReal) (ix2 r 0), (outs 6 main_v8_2 c : S4096x1.Idx → EReal) (ix2 r 0)⟩

end Tail

end KTail

open KTail

theorem ker_tail (m : (ℓ : Loc nD τ sig) → Buf (Elt Ideal) ℓ) (outs : Outs (F := Ideal)) (c : Dev nD) (r : Fin 4096) :
    (V12 m outs c main_v63 : S4096.Idx → EReal) (ix1 r)
      = Spec.pick (BitVec.toInt ((m ((c : Thread nD τ).loc main_arg1) : S4096.Idx → BitVec 32) (ix1 r)))
          (Spec.kShort
            ⟨(outs 2 main_v4_0 c : S4096x1.Idx → EReal) (ix2 r 0), (outs 2 main_v4_1 c : S4096x1.Idx → EReal) (ix2 r 0), (outs 2 main_v4_2 c : S4096x1.Idx → EReal) (ix2 r 0)⟩
            (Spec.clogE (fun r k => (m ((c : Thread nD τ).loc main_arg0) : S4096x1024.Idx → EReal) (ix2 r k))
              (fun a k => (m ((c : Thread nD τ).loc main_arg4) : S2x1024.Idx → EReal) (ix2 a k))
              (fun a => (m ((c : Thread nD τ).loc main_arg5) : S2.Idx → EReal) (ix1 a)) r 0)
            (Spec.clogE (fun r k => (m ((c : Thread nD τ).loc main_arg0) : S4096x1024.Idx → EReal) (ix2 r k))
              (fun a k => (m ((c : Thread nD τ).loc main_arg4) : S2x1024.Idx → EReal) (ix2 a k))
              (fun a => (m ((c : Thread nD τ).loc main_arg5) : S2.Idx → EReal) (ix1 a)) r 1))
          (Spec.kTail1
            ⟨(outs 2 main_v4_0 c : S4096x1.Idx → EReal) (ix2 r 0), (outs 2 main_v4_1 c : S4096x1.Idx → EReal) (ix2 r 0), (outs 2 main_v4_2 c : S4096x1.Idx → EReal) (ix2 r 0)⟩
            ⟨(outs 4 main_v6_0 c : S4096x1.Idx → EReal) (ix2 r 0), (outs 4 main_v6_1 c : S4096x1.Idx → EReal) (ix2 r 0), (outs 4 main_v6_2 c : S4096x1.Idx → EReal) (ix2 r 0)⟩
            (Spec.clogE (fun r k => (m ((c : Thread nD τ).loc main_arg0) : S4096x1024.Idx → EReal) (ix2 r k))
              (fun a k => (m ((c : Thread nD τ).loc main_arg4) : S2x1024.Idx → EReal) (ix2 a k))
              (fun a => (m ((c : Thread nD τ).loc main_arg5) : S2.Idx → EReal) (ix1 a)) r 0)
            (Spec.clogE (fun r k => (m ((c : Thread nD τ).loc main_arg0) : S4096x1024.Idx → EReal) (ix2 r k))
              (fun a k => (m ((c : Thread nD τ).loc main_arg4) : S2x1024.Idx → EReal) (ix2 a k))
              (fun a => (m ((c : Thread nD τ).loc main_arg5) : S2.Idx → EReal) (ix1 a)) r 1))
          (Spec.kTail2
            ⟨(outs 2 main_v4_0 c : S4096x1.Idx → EReal) (ix2 r 0), (outs 2 main_v4_1 c : S4096x1.Idx → EReal) (ix2 r 0), (outs 2 main_v4_2 c : S4096x1.Idx → EReal) (ix2 r 0)⟩
            ⟨(outs 6 main_v8_0 c : S4096x1.Idx → EReal) (ix2 r 0), (outs 6 main_v8_1 c : S4096x1.Idx → EReal) (ix2 r 0), (outs 6 main_v8_2 c : S4096x1.Idx → EReal) (ix2 r 0)⟩
            (Spec.clogE (fun r k => (m ((c : Thread nD τ).loc main_arg0) : S4096x1024.Idx → EReal) (ix2 r k))
              (fun a k => (m ((c : Thread nD τ).loc main_arg4) : S2x1024.Idx → EReal) (ix2 a k))
              (fun a => (m ((c : Thread nD τ).loc main_arg5) : S2.Idx → EReal) (ix1 a)) r 0)
            (Spec.clogE (fun r k => (m ((c : Thread nD τ).loc main_arg0) : S4096x1024.Idx → EReal) (ix2 r k))
              (fun a k => (m ((c : Thread nD τ).loc main_arg4) : S2x1024.Idx → EReal) (ix2 a k))
              (fun a => (m ((c : Thread nD τ).loc main_arg5) : S2.Idx → EReal) (ix1 a)) r 1)) := by
  show _ = Spec.pick (BitVec.toInt (tgt m c r)) (Spec.kShort (st0 outs c r) (clog m c r 0) (clog m c r 1))
      (Spec.kTail1 (st0 outs c r) (st1 outs c r) (clog m c r 0) (clog m c r 1))
      (Spec.kTail2 (st0 outs c r) (st2 outs c r) (clog m c r 0) (clog m c r 1))

  have a6 := V6_arg1 m outs c
  have a8 : V8 m outs c main_arg1 = m ((c : Thread nD τ).loc main_arg1) :=
    (V8_of m outs c main_arg1 (by decide)).trans <| (V7_of m outs c main_arg1 (by decide)).trans a6
  have a10 : V10 m outs c main_arg1 = m ((c : Thread nD τ).loc main_arg1) :=
    (V10_of m outs c main_arg1 (by decide)).trans <| (V9_of m outs c main_arg1 (by decide)).trans a8
  have k2 : (20000#32 : BitVec 32).toInt = 20000 := by decide
  have k4 : (40000#32 : BitVec 32).toInt = 40000 := by decide
  have k5 : (50000#32 : BitVec 32).toInt = 50000 := by decide

  have h30 : (V7 m outs c main_v30 : S4096.Idx → EReal) (ix1 r) = Spec.kShort (st0 outs c r) (clog m c r 0) (clog m c r 1) := by
    rw [show V7 m outs c main_v30 = _ from run3_v30 (V6 m outs c), V6_arg0, V6_arg4, V6_arg5, V6_v4_0, V6_v4_1, V6_v4_2,
      shortV_apply, col0_apply, col1_apply, clusterLogits_apply, clusterLogits_apply]
  have h42 : (V7 m outs c main_v42 : S4096.Idx → EReal) (ix1 r)
      = Spec.kTail1 (st0 outs c r) (st1 outs c r) (clog m c r 0) (clog m c r 1) := by
    rw [show V7 m outs c main_v42 = _ from run3_v42 (V6 m outs c), V6_arg0, V6_arg4, V6_arg5, V6_v4_0, V6_v4_1, V6_v6_0, V6_v6_1, V6_v6_2,
      tailV_apply _ _ _ _ _ _ _ _ r ((outs 2 main_v4_2 c : S4096x1.Idx → EReal) (ix2 r 0)), col0_apply, col1_apply,
      clusterLogits_apply, clusterLogits_apply]
    rfl
  have h48 : (V7 m outs c main_v48 : S4096.Idx → EReal) (ix1 r)
      = Spec.kTail2 (st0 outs c r) (st2 outs c r) (clog m c r 0) (clog m c r 1) := by
    rw [show V7 m outs c main_v48 = _ from run3_v48 (V6 m outs c), V6_arg0, V6_arg4, V6_arg5, V6_v4_0, V6_v4_1, V6_v8_0, V6_v8_1, V6_v8_2,
      tailV_apply _ _ _ _ _ _ _ _ r ((outs 2 main_v4_2 c : S4096x1.Idx → EReal) (ix2 r 0)), col0_apply, col1_apply,
      clusterLogits_apply, clusterLogits_apply]
    rfl

  have m50 : (V7 m outs c main_v50 : S4096.Idx → BitVec 1) (ix1 r) = 1#1 ↔ (tgt m c r).toInt < 20000 := by
    rw [show V7 m outs c main_v50 = _ from run3_v50 (V6 m outs c), a6, ← k2]
    exact maskLt_apply _ _ _
  have m56 : (V9 m outs c main_v56 : S4096.Idx → BitVec 1) (ix1 r) = 1#1
      ↔ 20000 ≤ (tgt m c r).toInt ∧ (tgt m c r).toInt < 40000 := by
    rw [show V9 m outs c main_v56 = _ from run3_2_v56 (V8 m outs c), a8, ← k2, ← k4]
    exact maskIn_apply _ _ _ _
  have m62 : (V11 m outs c main_v62 : S4096.Idx → BitVec 1) (ix1 r) = 1#1
      ↔ 40000 ≤ (tgt m c r).toInt ∧ (tgt m c r).toInt < 50000 := by
    rw [show V11 m outs c main_v62 = _ from run3_4_v62 (V10 m outs c), a10, ← k4, ← k5]
    exact maskIn_apply _ _ _ _

  have hz : zeroRow (V7 m outs c main_cst) (ix1 r) = 0 := by
    rw [show V7 m outs c main_cst = _ from run3_cst (V6 m outs c)]
    exact zeroRow_apply _

  have h51 : (V8 m outs c main_v51 : S4096.Idx → EReal) (ix1 r)
      = if (tgt m c r).toInt < 20000 then Spec.kShort (st0 outs c r) (clog m c r 0) (clog m c r 1) else 0 := by
    rw [show V8 m outs c main_v51 = _ from run3_1_v51 (V7 m outs c), ValueIdx.select_apply, select_of_iff m50, h30, hz]
  have h57 : (V10 m outs c main_v57 : S4096.Idx → EReal) (ix1 r)
      = if 20000 ≤ (tgt m c r).toInt ∧ (tgt m c r).toInt < 40000 then Spec.kTail1 (st0 outs c r) (st1 outs c r) (clog m c r 0) (clog m c r 1)
        else if (tgt m c r).toInt < 20000 then Spec.kShort (st0 outs c r) (clog m c r 0) (clog m c r 1) else 0 := by
    rw [show V10 m outs c main_v57 = _ from run3_3_v57 (V9 m outs c), ValueIdx.select_apply, select_of_iff m56,
      V9_of m outs c main_v42 (by decide), V8_of m outs c main_v42 (by decide), h42, V9_of m outs c main_v51 (by decide), h51]
  rw [show V12 m outs c main_v63 = _ from run3_5_v63 (V11 m outs c), ValueIdx.select_apply, select_of_iff m62,
    V11_of m outs c main_v48 (by decide), V10_of m outs c main_v48 (by decide), V9_of m outs c main_v48 (by decide),
    V8_of m outs c main_v48 (by decide), h48, V11_of m outs c main_v57 (by decide), h57]
  rfl

end Cert.KernelIdeal.Hand

end
-- ==== Proof.KEntry.lean ====
import proofs.«429997_j76270029243071_3_alg».proof.Proof.Gen.KernelIdeal.Regions
import Idealize.ShloMosaic.Lib.StableHlo.Run
import Idealize.ShloMosaic.Lib.Pipeline.Value
import Idealize.ShloMosaic.Lib.ValueIdx
import Idealize.ShloMosaic.PureOps.Ideal

set_option maxRecDepth 1048

noncomputable section

namespace Cert.KernelIdeal.Hand

open Cert.KernelIdeal Cert.KernelIdeal.Gen Idealize.ShloMosaic Idealize.ShloMosaic.TcCoe ValueIdx

variable (m : (ℓ : Loc nD τ sig) → Buf (Elt Ideal) ℓ) (outs : Outs (F := Ideal)) (c : Dev nD)

theorem col_apply {α : Type} (x : S4096.Idx → α) (r : Fin 4096) :
    shapeCast S4096x1 x shapeCasts_S4096_S4096x1 (ix2 r 0) = x (ix1 r) := by
  refine shapeCast_apply x _ _ _ ?_
  rw [Shape.rowMajor_val_two, Shape.rowMajor_val_one]
  show r.val = r.val * 1 + 0
  omega

theorem chunk_apply {α : Type} (x : S50000.Idx → α) (a : Fin 25) (q : Fin 2000) :
    shapeCast S25x1x2000 x shapeCasts_S50000_S25x1x2000 (ix3 a 0 q) = x (ix1 ⟨2000 * a.val + q.val, by omega⟩) := by
  refine shapeCast_apply x _ _ _ ?_
  rw [Shape.rowMajor_val_three, Shape.rowMajor_val_one]
  show 2000 * a.val + q.val = (a.val * 1 + 0) * 2000 + q.val
  omega

theorem V1_v0 : (V1 m c main_v0 : S4096x1024.Idx → EReal) = (m ((c.tc : Thread nD τ).loc main_arg0) : S4096x1024.Idx → EReal) := by
  show StableHlo.after hostOps0 _ (Proc.devRef .tc main_v0) = _
  after_results
  rfl

theorem V1_v1 : (V1 m c main_v1 : S50000x1024.Idx → EReal) = (m ((c.tc : Thread nD τ).loc main_arg2) : S50000x1024.Idx → EReal) := by
  show StableHlo.after hostOps0 _ (Proc.devRef .tc main_v1) = _
  after_results
  rfl

theorem V1_v2 : (V1 m c main_v2 : S4096x1.Idx → BitVec 32)
    = shapeCast S4096x1 (m ((c.tc : Thread nD τ).loc main_arg1) : S4096.Idx → BitVec 32) shapeCasts_S4096_S4096x1 := by
  show StableHlo.after hostOps0 _ (Proc.devRef .tc main_v2) = _
  after_results
  rfl

theorem V1_v3 : (V1 m c main_v3 : S25x1x2000.Idx → EReal)
    = shapeCast S25x1x2000 (m ((c.tc : Thread nD τ).loc main_arg3) : S50000.Idx → EReal) shapeCasts_S50000_S25x1x2000 := by
  show StableHlo.after hostOps0 _ (Proc.devRef .tc main_v3) = _
  after_results
  rfl

theorem entry0_H (r : Fin 4096) (k : Fin 1024) :
    (V1 m c main_v0 : S4096x1024.Idx → EReal) (ix2 r k) = (m ((c.tc : Thread nD τ).loc main_arg0) : S4096x1024.Idx → EReal) (ix2 r k) :=
  congrFun (V1_v0 m c) (ix2 r k)

theorem entry0_W (v : Fin 50000) (k : Fin 1024) :
    (V1 m c main_v1 : S50000x1024.Idx → EReal) (ix2 v k) = (m ((c.tc : Thread nD τ).loc main_arg2) : S50000x1024.Idx → EReal) (ix2 v k) :=
  congrFun (V1_v1 m c) (ix2 v k)

theorem entry0_T (r : Fin 4096) :
    (V1 m c main_v2 : S4096x1.Idx → BitVec 32) (ix2 r 0) = (m ((c.tc : Thread nD τ).loc main_arg1) : S4096.Idx → BitVec 32) (ix1 r) :=
  (congrFun (V1_v2 m c) (ix2 r 0)).trans (col_apply _ r)

theorem entry0_b (a : Fin 25) (q : Fin 2000) :
    (V1 m c main_v3 : S25x1x2000.Idx → EReal) (ix3 a 0 q)
      = (m ((c.tc : Thread nD τ).loc main_arg3) : S50000.Idx → EReal) (ix1 ⟨2000 * a.val + q.val, by omega⟩) :=
  (congrFun (V1_v3 m c) (ix3 a 0 q)).trans (chunk_apply _ a q)

theorem V3_v0 : (V3 m outs c main_v0 : S4096x1024.Idx → EReal) = (V1 m c main_v0 : S4096x1024.Idx → EReal) :=
  (V3_of m outs c main_v0 (by decide)).trans (V2_of m outs c main_v0 (by decide))

theorem V3_v1 : (V3 m outs c main_v1 : S50000x1024.Idx → EReal) = (V1 m c main_v1 : S50000x1024.Idx → EReal) :=
  (V3_of m outs c main_v1 (by decide)).trans (V2_of m outs c main_v1 (by decide))

theorem V3_v2 : (V3 m outs c main_v2 : S4096x1.Idx → BitVec 32) = (V1 m c main_v2 : S4096x1.Idx → BitVec 32) :=
  (V3_of m outs c main_v2 (by decide)).trans (V2_of m outs c main_v2 (by decide))

theorem V2_arg3 : (V2 m outs c main_arg3 : S50000.Idx → EReal) = (m ((c.tc : Thread nD τ).loc main_arg3) : S50000.Idx → EReal) :=
  (V2_of m outs c main_arg3 (by decide)).trans (V1_of m c main_arg3 (by decide))

theorem V3_bias : (V3 m outs c main_v5 : S25x1x2000.Idx → EReal)
    = shapeCast S25x1x2000 (m ((c.tc : Thread nD τ).loc main_arg3) : S50000.Idx → EReal) shapeCasts_S50000_S25x1x2000 := by
  show StableHlo.after hostOps1 _ (Proc.devRef .tc main_v5) = _
  after_results
  exact congrArg (fun x : S50000.Idx → EReal => shapeCast S25x1x2000 x shapeCasts_S50000_S25x1x2000) (V2_arg3 m outs c)

theorem entry1_H (r : Fin 4096) (k : Fin 1024) :
    (V3 m outs c main_v0 : S4096x1024.Idx → EReal) (ix2 r k) = (m ((c.tc : Thread nD τ).loc main_arg0) : S4096x1024.Idx → EReal) (ix2 r k) :=
  (congrFun (V3_v0 m outs c) (ix2 r k)).trans (entry0_H m c r k)

theorem entry1_W (v : Fin 50000) (k : Fin 1024) :
    (V3 m outs c main_v1 : S50000x1024.Idx → EReal) (ix2 v k) = (m ((c.tc : Thread nD τ).loc main_arg2) : S50000x1024.Idx → EReal) (ix2 v k) :=
  (congrFun (V3_v1 m outs c) (ix2 v k)).trans (entry0_W m c v k)

theorem entry1_T (r : Fin 4096) :
    (V3 m outs c main_v2 : S4096x1.Idx → BitVec 32) (ix2 r 0) = (m ((c.tc : Thread nD τ).loc main_arg1) : S4096.Idx → BitVec 32) (ix1 r) :=
  (congrFun (V3_v2 m outs c) (ix2 r 0)).trans (entry0_T m c r)

theorem entry1_b (a : Fin 25) (q : Fin 2000) :
    (V3 m outs c main_v5 : S25x1x2000.Idx → EReal) (ix3 a 0 q)
      = (m ((c.tc : Thread nD τ).loc main_arg3) : S50000.Idx → EReal) (ix1 ⟨2000 * a.val + q.val, by omega⟩) :=
  (congrFun (V3_bias m outs c) (ix3 a 0 q)).trans (chunk_apply _ a q)

theorem V5_v0 : (V5 m outs c main_v0 : S4096x1024.Idx → EReal) = (V1 m c main_v0 : S4096x1024.Idx → EReal) :=
  (V5_of m outs c main_v0 (by decide)).trans <| (V4_of m outs c main_v0 (by decide)).trans <| (V3_of m outs c main_v0 (by decide)).trans (V2_of m outs c main_v0 (by decide))

theorem V5_v1 : (V5 m outs c main_v1 : S50000x1024.Idx → EReal) = (V1 m c main_v1 : S50000x1024.Idx → EReal) :=
  (V5_of m outs c main_v1 (by decide)).trans <| (V4_of m outs c main_v1 (by decide)).trans <| (V3_of m outs c main_v1 (by decide)).trans (V2_of m outs c main_v1 (by decide))

theorem V5_v2 : (V5 m outs c main_v2 : S4096x1.Idx → BitVec 32) = (V1 m c main_v2 : S4096x1.Idx → BitVec 32) :=
  (V5_of m outs c main_v2 (by decide)).trans <| (V4_of m outs c main_v2 (by decide)).trans <| (V3_of m outs c main_v2 (by decide)).trans (V2_of m outs c main_v2 (by decide))

theorem V4_arg3 : (V4 m outs c main_arg3 : S50000.Idx → EReal) = (m ((c.tc : Thread nD τ).loc main_arg3) : S50000.Idx → EReal) :=
  (V4_of m outs c main_arg3 (by decide)).trans <| (V3_of m outs c main_arg3 (by decide)).trans (V2_arg3 m outs c)

theorem V5_bias : (V5 m outs c main_v7 : S25x1x2000.Idx → EReal)
    = shapeCast S25x1x2000 (m ((c.tc : Thread nD τ).loc main_arg3) : S50000.Idx → EReal) shapeCasts_S50000_S25x1x2000 := by
  show StableHlo.after hostOps2 _ (Proc.devRef .tc main_v7) = _
  after_results
  exact congrArg (fun x : S50000.Idx → EReal => shapeCast S25x1x2000 x shapeCasts_S50000_S25x1x2000) (V4_arg3 m outs c)

theorem entry2_H (r : Fin 4096) (k : Fin 1024) :
    (V5 m outs c main_v0 : S4096x1024.Idx → EReal) (ix2 r k) = (m ((c.tc : Thread nD τ).loc main_arg0) : S4096x1024.Idx → EReal) (ix2 r k) :=
  (congrFun (V5_v0 m outs c) (ix2 r k)).trans (entry0_H m c r k)

theorem entry2_W (v : Fin 50000) (k : Fin 1024) :
    (V5 m outs c main_v1 : S50000x1024.Idx → EReal) (ix2 v k) = (m ((c.tc : Thread nD τ).loc main_arg2) : S50000x1024.Idx → EReal) (ix2 v k) :=
  (congrFun (V5_v1 m outs c) (ix2 v k)).trans (entry0_W m c v k)

theorem entry2_T (r : Fin 4096) :
    (V5 m outs c main_v2 : S4096x1.Idx → BitVec 32) (ix2 r 0) = (m ((c.tc : Thread nD τ).loc main_arg1) : S4096.Idx → BitVec 32) (ix1 r) :=
  (congrFun (V5_v2 m outs c) (ix2 r 0)).trans (entry0_T m c r)

theorem entry2_b (a : Fin 25) (q : Fin 2000) :
    (V5 m outs c main_v7 : S25x1x2000.Idx → EReal) (ix3 a 0 q)
      = (m ((c.tc : Thread nD τ).loc main_arg3) : S50000.Idx → EReal) (ix1 ⟨2000 * a.val + q.val, by omega⟩) :=
  (congrFun (V5_bias m outs c) (ix3 a 0 q)).trans (chunk_apply _ a q)

end Cert.KernelIdeal.Hand

end
-- ==== Proof.KStepLib.lean ====
import proofs.«429997_j76270029243071_3_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

section Column
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

theorem lhs_blk_dot_0 (i : S512x2000.Idx) (q : dot_S512x1024_S1024x2000_S512x2000_1_0_0_1_n_n.contr.Idx) :
    (dot_S512x1024_S1024x2000_S512x2000_1_0_0_1_n_n.lhsIdx i q 0).val = (i 0).val := by
  unfold DotDims.lhsIdx
  rw [dif_neg (show ¬(0 : Fin S512x1024.rank) ∈ dot_S512x1024_S1024x2000_S512x2000_1_0_0_1_n_n.lhsBatch by decide), dif_pos (show (0 : Fin S512x1024.rank) ∈ dot_S512x1024_S1024x2000_S512x2000_1_0_0_1_n_n.lhsNonContracting by decide)]
  rfl

theorem lhs_blk_dot_1 (i : S512x2000.Idx) (q : dot_S512x1024_S1024x2000_S512x2000_1_0_0_1_n_n.contr.Idx) :
    (dot_S512x1024_S1024x2000_S512x2000_1_0_0_1_n_n.lhsIdx i q 1).val = (q ⟨0, by decide⟩).val :=
  dot_S512x1024_S1024x2000_S512x2000_1_0_0_1_n_n.lhsIdx_val_of_single rfl i q

theorem rhs_blk_dot_0 (i : S512x2000.Idx) (q : dot_S512x1024_S1024x2000_S512x2000_1_0_0_1_n_n.contr.Idx) :
    (dot_S512x1024_S1024x2000_S512x2000_1_0_0_1_n_n.rhsIdx i q 0).val = (q ⟨0, by decide⟩).val :=
  dot_S512x1024_S1024x2000_S512x2000_1_0_0_1_n_n.rhsIdx_val_of_single rfl i q

theorem rhs_blk_dot_1 (i : S512x2000.Idx) (q : dot_S512x1024_S1024x2000_S512x2000_1_0_0_1_n_n.contr.Idx) :
    (dot_S512x1024_S1024x2000_S512x2000_1_0_0_1_n_n.rhsIdx i q 1).val = (i 1).val := by
  unfold DotDims.rhsIdx
  rw [dif_neg (show ¬(1 : Fin S1024x2000.rank) ∈ dot_S512x1024_S1024x2000_S512x2000_1_0_0_1_n_n.rhsBatch by decide), dif_pos (show (1 : Fin S1024x2000.rank) ∈ dot_S512x1024_S1024x2000_S512x2000_1_0_0_1_n_n.rhsNonContracting by decide)]
  rfl

theorem blk_matmul_apply (a : FVec Ideal S512x1024 .bf16) (b : FVec Ideal S1024x2000 .bf16) (p : Fin 512) (q : Fin 2000) :
    matmul dot_S512x1024_S1024x2000_S512x2000_1_0_0_1_n_n none a b (constant (F := Ideal) S512x2000 .f32 0x00000000#32) (ix2 p q)
      = ∑ k : Fin 1024, a (ix2 p k) * b (ix2 k q) := by
  simp only [matmul]
  rw [Ideal.matmul_constant_zero_apply, ← Equiv.sum_comp (contrEquiv1 dot_S512x1024_S1024x2000_S512x2000_1_0_0_1_n_n 1024 rfl rfl).symm]
  refine Finset.sum_congr rfl fun k _ => ?_
  have hk := contrEquiv1_symm_val dot_S512x1024_S1024x2000_S512x2000_1_0_0_1_n_n 1024 rfl rfl k
  have el : dot_S512x1024_S1024x2000_S512x2000_1_0_0_1_n_n.lhsIdx (ix2 p q) ((contrEquiv1 dot_S512x1024_S1024x2000_S512x2000_1_0_0_1_n_n 1024 rfl rfl).symm k) = ix2 p k := funext fun c => Fin.ext (by
    match c with
    | ⟨0, _⟩ => exact lhs_blk_dot_0 _ _
    | ⟨1, _⟩ => exact (lhs_blk_dot_1 _ _).trans hk)
  have er : dot_S512x1024_S1024x2000_S512x2000_1_0_0_1_n_n.rhsIdx (ix2 p q) ((contrEquiv1 dot_S512x1024_S1024x2000_S512x2000_1_0_0_1_n_n 1024 rfl rfl).symm k) = ix2 k q := funext fun c => Fin.ext (by
    match c with
    | ⟨0, _⟩ => exact (rhs_blk_dot_0 _ _).trans hk
    | ⟨1, _⟩ => exact rhs_blk_dot_1 _ _)
  rw [el, er]

def blkLogit (x0 : Vec Ideal S512x1024 .bf16) (x1 : Vec Ideal S2000x1024 .bf16) (x2 : Vec Ideal S1x1x2000 .f32) (p : Fin 512) (q : Fin 2000) : EReal :=
  (∑ k : Fin 1024, x0 (ix2 p k) * x1 (ix2 q k)) + x2 (ix3 0 0 q)

section Rows

theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  exact Finset.sum_congr rfl fun k _ => congrArg src (lift_row h p k)

theorem ofBits_negInf_f32 : Ideal.ofBits .f32 0xFF800000#32 = ⊥ := by simp [Ideal.ofBits, Ideal.ieee]

theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (fun k => src (h.lift (ix1 p) k)) = _
  rw [ofBits_negInf_f32]
  exact congrArg (fun f => Finset.fold max ⊥ f (Finset.univ : Finset (Fin b))) (funext fun k => congrArg src (lift_row h p k))

end Rows

theorem hit_word (lo j q : ℕ) (tgt : BitVec 32) (h : lo + 2000 * j + q < 2 ^ 31) :
    (BitVec.ofNat 32 q + BitVec.ofNat 32 j * 2000#32 = tgt - BitVec.ofNat 32 lo) ↔ (((lo + 2000 * j + q : ℕ) : ℤ) = tgt.toInt) := by
  have e : BitVec.ofNat 32 q + BitVec.ofNat 32 j * 2000#32 + BitVec.ofNat 32 lo = BitVec.ofNat 32 (lo + 2000 * j + q) := by
    apply BitVec.eq_of_toNat_eq
    simp only [BitVec.toNat_add, BitVec.toNat_mul, BitVec.toNat_ofNat]
    omega
  have hiff : ∀ a t l : BitVec 32, (a = t - l) ↔ (a + l = t) := fun a t l =>
    ⟨fun h => by rw [h, BitVec.sub_add_cancel], fun h => by rw [← h, BitVec.add_sub_cancel]⟩
  rw [hiff, e, BitVec.toInt_eq_toNat_cond]
  have ht := tgt.isLt
  constructor
  · intro hw
    rw [← hw, BitVec.toNat_ofNat]
    omega
  · intro hn
    apply BitVec.eq_of_toNat_eq
    rw [BitVec.toNat_ofNat]
    split at hn <;> omega

theorem select_cmpi_eq {α : Type} (x y : BitVec 32) (a b : α) :
    Scalar.select (IntOp.cmpi .eq x y) a b = if x = y then a else b := by
  by_cases h : x = y
  · rw [if_pos h]; subst h
    show (if BitVec.ofBool (x == x) = 1#1 then a else b) = a
    rw [beq_self_eq_true]; rfl
  · rw [if_neg h]
    show (if BitVec.ofBool (x == y) = 1#1 then a else b) = b
    rw [beq_eq_false_iff_ne.mpr h]; rfl

theorem addi_apply {s : Shape} {w : ℕ} (x y : IVec s w) (i : s.Idx) : addi x y i = x i + y i := rfl
theorem subi_apply {s : Shape} {w : ℕ} (x y : IVec s w) (i : s.Idx) : subi x y i = x i - y i := rfl
theorem cmpi_apply {s : Shape} {w : ℕ} (c : CmpIPredicate) (x y : IVec s w) (i : s.Idx) : cmpi c x y i = IntOp.cmpi c (x i) (y i) := rfl
theorem exp_apply {s : Shape} {φ : FTy} (x : FVec Ideal s φ) (i : s.Idx) : exp x i = Ideal.exp (x i) := rfl

end Cert.KernelIdeal.Hand

end
-- ==== Proof.K0Step.lean ====
import proofs.«429997_j76270029243071_3_alg».proof.Proof.KStepLib
import proofs.«429997_j76270029243071_3_alg».proof.Proof.R0Data
import proofs.«429997_j76270029243071_3_alg».proof.Proof.Spec2

noncomputable section

namespace Cert.KernelIdeal.Hand

open Cert.KernelIdeal Cert.KernelIdeal.Gen Idealize.ShloMosaic Idealize.ShloMosaic.ValueIdx

abbrev tokLo0 : ℕ := 0

abbrev colLo0 : ℕ := 0

section Values
variable (x0 : Vec Ideal S512x1024 .bf16) (x1 : Vec Ideal S2000x1024 .bf16) (x2 : Vec Ideal S1x1x2000 .f32)

theorem k0_pay7_apply (p : Fin 512) (q : Fin 2000) :
    k0_pay7 (F := Ideal) x0 x1 x2 (ix2 p q) = blkLogit x0 x1 x2 p q := by
  unfold k0_pay7 blkLogit
  rw [shapeCast_self, shapeCast_self, addf_apply, blk_matmul_apply, broadcastTo_1b_ab_apply, shapeCast_1ab_ab_apply]
  refine congrArg (· + _) (Finset.sum_congr rfl fun k _ => ?_)
  rw [transpose_ix2_apply]

theorem k0_pay9_apply (m : Vec Ideal S512x1 .f32) (p : Fin 512) :
    k0_pay9 (F := Ideal) x0 x1 x2 m (ix2 p 0) = max (m (ix2 p 0)) (Spec.chunkMax (blkLogit x0 x1 x2 p)) := by
  unfold k0_pay9
  rw [maximumf_apply, shapeCast_a_a1_apply, rowMax_apply]
  simp only [k0_pay7_apply]
  rfl

theorem k0_pay10_apply (m m' : Vec Ideal S512x1 .f32) (p : Fin 512) :
    k0_pay10 (F := Ideal) x0 x1 x2 m m' (ix2 p 0)
      = Ideal.exp (m' (ix2 p 0) - max (m (ix2 p 0)) (Spec.chunkMax (blkLogit x0 x1 x2 p))) := by
  unfold k0_pay10
  rw [exp_apply, subf_apply, k0_pay9_apply]

theorem k0_pay1_apply (v12 : FVec Ideal S512x2000 .f32) (v30 v33 : FVec Ideal S512x1 .f32) (v34 : Vec Ideal S512x1 .f32) (p : Fin 512) :
    k0_pay1 (F := Ideal) v12 v30 v33 v34 (ix2 p 0)
      = v33 (ix2 p 0) * v34 (ix2 p 0) + ∑ q : Fin 2000, Ideal.exp (v12 (ix2 p q) - v30 (ix2 p 0)) := by
  unfold k0_pay1
  rw [shapeCast_self, addf_apply, mulf_apply, shapeCast_a_a1_apply, rowSum_apply]
  refine congrArg (_ + ·) (Finset.sum_congr rfl fun q _ => ?_)
  rw [exp_apply, subf_apply, broadcastTo_a1_ab_apply]

theorem k0_pay2_apply (v30 : FVec Ideal S512x1 .f32) (j : S512x1.Idx) : k0_pay2 (F := Ideal) v30 j = v30 j := by
  unfold k0_pay2
  rw [shapeCast_self]

theorem k0_pay3_apply (v26 : FVec Ideal S512x1 .f32) (v48 : Vec Ideal S512x1 .f32) (j : S512x1.Idx) :
    k0_pay3 (F := Ideal) v26 v48 j = v48 j + v26 j := by
  unfold k0_pay3
  rw [shapeCast_self, addf_apply]

theorem k0_pay8_apply (i : grid0.Coords) (x3 : Vec Ideal S512x1 .i32) (p : Fin 512) :
    k0_pay8 (F := Ideal) i x0 x1 x2 x3 (ix2 p 0)
      = ∑ q : Fin 2000, (if Spec.hitZ (x3 (ix2 p 0)).toInt tokLo0 (i 1).val q then blkLogit x0 x1 x2 p q else 0) := by
  have hj : (i 1).val < 10 := lt_of_lt_of_le (i 1).isLt (by decide)
  have hlo : tokLo0 ≤ 40000 := by decide
  unfold k0_pay8
  dsimp only
  rw [shapeCast_a_a1_apply, rowSum_apply]
  refine Finset.sum_congr rfl fun q _ => ?_
  rw [select_apply, cmpi_apply, addi_apply, iota_single_apply, broadcastTo_a1_ab_apply, subi_apply, shapeCast_self,
    k0_pay7_apply, select_cmpi_eq]
  refine if_congr ?_ rfl Ideal.ofBits_zero_f32
  refine (hit_word tokLo0 (i 1).val q.val (x3 (ix2 p 0)) ?_).trans decide_eq_true_iff.symm
  have hq := q.isLt
  omega

end Values

theorem colsInit0_row (p : Fin 512) :
    Spec.St.mk ((colsInit0 (F := Ideal)).m (ix2 p 0)) ((colsInit0 (F := Ideal)).l (ix2 p 0)) ((colsInit0 (F := Ideal)).s (ix2 p 0)) = Spec.St.init := by
  have hm : (colsInit0 (F := Ideal)).m (ix2 p 0) = Spec.negBig := by
    show k0_pay4 (F := Ideal) (ix2 p 0) = _
    unfold k0_pay4
    rw [shapeCast_self, broadcast_apply]
    rfl
  have hl : (colsInit0 (F := Ideal)).l (ix2 p 0) = 0 := by
    show k0_pay5 (F := Ideal) (ix2 p 0) = _
    unfold k0_pay5
    rw [shapeCast_self, broadcast_apply]
    exact Ideal.ofBits_zero_f32
  have hs : (colsInit0 (F := Ideal)).s (ix2 p 0) = 0 := by
    show k0_pay6 (F := Ideal) (ix2 p 0) = _
    unfold k0_pay6
    rw [shapeCast_self, broadcast_apply]
    exact Ideal.ofBits_zero_f32
  rw [hm, hl, hs]
  rfl

theorem colsStep0_row (i : grid0.Coords) (x0 : Vec Ideal S512x1024 .bf16) (x1 : Vec Ideal S2000x1024 .bf16) (x2 : Vec Ideal S1x1x2000 .f32)
    (x3 : Vec Ideal S512x1 .i32) (σ : Cols0 Ideal) (p : Fin 512) :
    Spec.St.mk ((colsStep0 i x0 x1 x2 x3 σ).m (ix2 p 0)) ((colsStep0 i x0 x1 x2 x3 σ).l (ix2 p 0)) ((colsStep0 i x0 x1 x2 x3 σ).s (ix2 p 0))
      = Spec.St.step (blkLogit x0 x1 x2 p) (Spec.hitZ (x3 (ix2 p 0)).toInt tokLo0 (i 1).val) ⟨σ.m (ix2 p 0), σ.l (ix2 p 0), σ.s (ix2 p 0)⟩ := by
  have hm : (colsStep0 i x0 x1 x2 x3 σ).m (ix2 p 0) = max (σ.m (ix2 p 0)) (Spec.chunkMax (blkLogit x0 x1 x2 p)) := by
    show k0_pay2 (F := Ideal) (k0_pay9 x0 x1 x2 σ.m) (ix2 p 0) = _
    rw [k0_pay2_apply, k0_pay9_apply]
  have hl : (colsStep0 i x0 x1 x2 x3 σ).l (ix2 p 0)
      = Ideal.exp (σ.m (ix2 p 0) - max (σ.m (ix2 p 0)) (Spec.chunkMax (blkLogit x0 x1 x2 p))) * σ.l (ix2 p 0)
        + ∑ q : Fin 2000, Ideal.exp (blkLogit x0 x1 x2 p q - max (σ.m (ix2 p 0)) (Spec.chunkMax (blkLogit x0 x1 x2 p))) := by
    show k0_pay1 (F := Ideal) (k0_pay7 x0 x1 x2) (k0_pay9 x0 x1 x2 σ.m) (k0_pay10 x0 x1 x2 σ.m σ.m) σ.l (ix2 p 0) = _
    rw [k0_pay1_apply, k0_pay10_apply, k0_pay9_apply]
    simp only [k0_pay7_apply]
  have hs : (colsStep0 i x0 x1 x2 x3 σ).s (ix2 p 0)
      = σ.s (ix2 p 0) + ∑ q : Fin 2000, (if Spec.hitZ (x3 (ix2 p 0)).toInt tokLo0 (i 1).val q then blkLogit x0 x1 x2 p q else 0) := by
    show k0_pay3 (F := Ideal) (k0_pay8 i x0 x1 x2 x3) σ.s (ix2 p 0) = _
    rw [k0_pay3_apply, k0_pay8_apply]
  rw [hm, hl, hs]
  rfl

end Cert.KernelIdeal.Hand

end
-- ==== Proof.R0Value.lean ====
import proofs.«429997_j76270029243071_3_alg».proof.Proof.K0Step

set_option maxRecDepth 16384

noncomputable section

namespace Cert.KernelIdeal.Hand

open Idealize.ShloMosaic Idealize.ShloMosaic.TcCoe
open Idealize.ShloMosaic.Pipeline (Dat)
open Cert.KernelIdeal Cert.KernelIdeal.Gen Idealize.ShloMosaic.ValueIdx

local notation "nChunk" => (10 : ℕ)
local notation "lastChunk" => (9 : ℕ)
local notation "nPoint" => (80 : ℕ)

theorem tokLo0_eq : tokLo0 = 2000 * colLo0 := by decide

theorem colLo0_le : colLo0 + nChunk ≤ 25 := by decide

theorem iblk0_coord : ∀ t : Fin cfg0.N, ((grid0.coords t) 1).val = t.val % nChunk :=
  (by decide +kernel : ∀ t : Fin grid0.N, ((grid0.coords t) 1).val = t.val % nChunk)

theorem iblk0_idx_0 : ∀ t : Fin cfg0.N, win0_0.index t 0 = t.val / nChunk ∧ win0_0.index t 1 = 0 :=
  (by decide +kernel : ∀ t : Fin grid0.N, win0_0.index t 0 = t.val / nChunk ∧ win0_0.index t 1 = 0)
theorem iblk0_idx_1 : ∀ t : Fin cfg0.N, win0_1.index t 0 = colLo0 + t.val % nChunk ∧ win0_1.index t 1 = 0 :=
  (by decide +kernel : ∀ t : Fin grid0.N, win0_1.index t 0 = colLo0 + t.val % nChunk ∧ win0_1.index t 1 = 0)
theorem iblk0_idx_2 : ∀ t : Fin cfg0.N, win0_2.index t 0 = colLo0 + t.val % nChunk ∧ win0_2.index t 1 = 0 ∧ win0_2.index t 2 = 0 :=
  (by decide +kernel : ∀ t : Fin grid0.N, win0_2.index t 0 = colLo0 + t.val % nChunk ∧ win0_2.index t 1 = 0 ∧ win0_2.index t 2 = 0)
theorem iblk0_idx_3 : ∀ t : Fin cfg0.N, win0_3.index t 0 = t.val / nChunk ∧ win0_3.index t 1 = 0 :=
  (by decide +kernel : ∀ t : Fin grid0.N, win0_3.index t 0 = t.val / nChunk ∧ win0_3.index t 1 = 0)

theorem arrAt0_idx_4 : ∀ t : Fin cfg0.N, win0_4.index t 0 = t.val / nChunk ∧ win0_4.index t 1 = 0 :=
  (by decide +kernel : ∀ t : Fin grid0.N, win0_4.index t 0 = t.val / nChunk ∧ win0_4.index t 1 = 0)
theorem arrAt0_idx_5 : ∀ t : Fin cfg0.N, win0_5.index t 0 = t.val / nChunk ∧ win0_5.index t 1 = 0 :=
  (by decide +kernel : ∀ t : Fin grid0.N, win0_5.index t 0 = t.val / nChunk ∧ win0_5.index t 1 = 0)
theorem arrAt0_idx_6 : ∀ t : Fin cfg0.N, win0_6.index t 0 = t.val / nChunk ∧ win0_6.index t 1 = 0 :=
  (by decide +kernel : ∀ t : Fin grid0.N, win0_6.index t 0 = t.val / nChunk ∧ win0_6.index t 1 = 0)

section
variable (V : (c : Dev nD) → (b : Ref sig .tc) → Buf (Elt Ideal) ((c : Thread nD τ).loc b))

theorem iblk0_0_apply (c : Dev nD) (t : Fin cfg0.N) (y : S512x1024.Idx) (k : S4096x1024.Idx)
    (hk0 : (k 0).val = 512 * (t.val / nChunk) + (y 0).val) (hk1 : (k 1).val = (y 1).val) :
    (iblk0 V c 0 t : Vec Ideal S512x1024 .bf16) y = (V c (Pipeline.arrRef spec0 0) : S4096x1024.Idx → EReal) k := by
  unfold iblk0
  rw [View.read_apply]
  show (V c (Pipeline.arrRef spec0 0) : S4096x1024.Idx → EReal) (((cfg0.win 0).blk t).view.emb y) = (V c (Pipeline.arrRef spec0 0) : S4096x1024.Idx → EReal) k
  congr 1
  funext a
  apply Fin.ext
  match a with
  | ⟨0, _⟩ => show win0_0.index t 0 * 512 + 1 * (y 0).val = (k 0).val; rw [(iblk0_idx_0 t).1, hk0]; omega
  | ⟨1, _⟩ => show win0_0.index t 1 * 1024 + 1 * (y 1).val = (k 1).val; rw [(iblk0_idx_0 t).2, hk1]; omega

theorem iblk0_1_apply (c : Dev nD) (t : Fin cfg0.N) (y : S2000x1024.Idx) (k : S50000x1024.Idx)
    (hk0 : (k 0).val = 2000 * (colLo0 + t.val % nChunk) + (y 0).val) (hk1 : (k 1).val = (y 1).val) :
    (iblk0 V c 1 t : Vec Ideal S2000x1024 .bf16) y = (V c (Pipeline.arrRef spec0 1) : S50000x1024.Idx → EReal) k := by
  unfold iblk0
  rw [View.read_apply]
  show (V c (Pipeline.arrRef spec0 1) : S50000x1024.Idx → EReal) (((cfg0.win 1).blk t).view.emb y) = (V c (Pipeline.arrRef spec0 1) : S50000x1024.Idx → EReal) k
  congr 1
  funext a
  apply Fin.ext
  match a with
  | ⟨0, _⟩ => show win0_1.index t 0 * 2000 + 1 * (y 0).val = (k 0).val; rw [(iblk0_idx_1 t).1, hk0]; omega
  | ⟨1, _⟩ => show win0_1.index t 1 * 1024 + 1 * (y 1).val = (k 1).val; rw [(iblk0_idx_1 t).2, hk1]; omega

theorem iblk0_2_apply (c : Dev nD) (t : Fin cfg0.N) (y : S1x1x2000.Idx) (k : S25x1x2000.Idx)
    (hk0 : (k 0).val = colLo0 + t.val % nChunk) (hk2 : (k 2).val = (y 2).val) :
    (iblk0 V c 2 t : Vec Ideal S1x1x2000 .f32) y = (V c (Pipeline.arrRef spec0 2) : S25x1x2000.Idx → EReal) k := by
  unfold iblk0
  rw [View.read_apply]
  show (V c (Pipeline.arrRef spec0 2) : S25x1x2000.Idx → EReal) (((cfg0.win 2).blk t).view.emb y) = (V c (Pipeline.arrRef spec0 2) : S25x1x2000.Idx → EReal) k
  congr 1
  funext a
  apply Fin.ext
  have hy0 : (y 0).val = 0 := by have h : (y 0).val < 1 := (y 0).isLt; omega
  have hy1 : (y 1).val = 0 := by have h : (y 1).val < 1 := (y 1).isLt; omega
  have hk1 : (k 1).val = 0 := by have h : (k 1).val < 1 := (k 1).isLt; omega
  match a with
  | ⟨0, _⟩ => show win0_2.index t 0 * 1 + 1 * (y 0).val = (k 0).val; rw [(iblk0_idx_2 t).1, hk0, hy0]; omega
  | ⟨1, _⟩ => show win0_2.index t 1 * 1 + 1 * (y 1).val = (k 1).val; rw [(iblk0_idx_2 t).2.1, hk1, hy1]
  | ⟨2, _⟩ => show win0_2.index t 2 * 2000 + 1 * (y 2).val = (k 2).val; rw [(iblk0_idx_2 t).2.2, hk2]; omega

theorem iblk0_3_apply (c : Dev nD) (t : Fin cfg0.N) (y : S512x1.Idx) (k : S4096x1.Idx)
    (hk0 : (k 0).val = 512 * (t.val / nChunk) + (y 0).val) :
    (iblk0 V c 3 t : Vec Ideal S512x1 .i32) y = (V c (Pipeline.arrRef spec0 3) : S4096x1.Idx → BitVec 32) k := by
  unfold iblk0
  rw [View.read_apply]
  show (V c (Pipeline.arrRef spec0 3) : S4096x1.Idx → BitVec 32) (((cfg0.win 3).blk t).view.emb y) = (V c (Pipeline.arrRef spec0 3) : S4096x1.Idx → BitVec 32) k
  congr 1
  funext a
  apply Fin.ext
  have hy1 : (y 1).val = 0 := by have h : (y 1).val < 1 := (y 1).isLt; omega
  have hk1 : (k 1).val = 0 := by have h : (k 1).val < 1 := (k 1).isLt; omega
  match a with
  | ⟨0, _⟩ => show win0_3.index t 0 * 512 + 1 * (y 0).val = (k 0).val; rw [(iblk0_idx_3 t).1, hk0]; omega
  | ⟨1, _⟩ => show win0_3.index t 1 * 1 + 1 * (y 1).val = (k 1).val; rw [(iblk0_idx_3 t).2, hk1, hy1]

end

section
variable (V : (c : Dev nD) → (b : Ref sig .tc) → Buf (Elt Ideal) ((c : Thread nD τ).loc b))

def Cols0.row (σ : Cols0 Ideal) (p : Fin 512) : Spec.St := ⟨σ.m (ix2 p 0), σ.l (ix2 p 0), σ.s (ix2 p 0)⟩

theorem colsAt0_congr (c : Dev nD) {n n' : ℕ} (e : n = n') (h : n < cfg0.N) (h' : n' < cfg0.N) :
    colsAt0 V c n h = colsAt0 V c n' h' := by subst e; rfl

def iblk0_logits (c : Dev nD) (p : Fin 512) (n : ℕ) (hn : n < cfg0.N) : Fin 2000 → EReal :=
  blkLogit (iblk0 V c 0 ⟨n, hn⟩) (iblk0 V c 1 ⟨n, hn⟩) (iblk0 V c 2 ⟨n, hn⟩) p
def iblk0_hit (c : Dev nD) (p : Fin 512) (n : ℕ) (hn : n < cfg0.N) : Fin 2000 → Bool :=
  Spec.hitZ ((iblk0 V c 3 ⟨n, hn⟩ : Vec Ideal S512x1 .i32) (ix2 p 0)).toInt tokLo0 (n % nChunk)

theorem colsAt0_row_first (c : Dev nD) (t : Fin cfg0.N) (h0 : t.val % nChunk = 0) (p : Fin 512) :
    (colsAt0 V c t.val t.isLt).row p = Spec.St.step (iblk0_logits V c p t.val t.isLt) (iblk0_hit V c p t.val t.isLt) Spec.St.init := by
  rw [colsAt0_first V c t h0]
  refine (colsStep0_row (grid0.coords t) (iblk0 V c 0 t) (iblk0 V c 1 t) (iblk0 V c 2 t) (iblk0 V c 3 t) colsInit0 p).trans ?_
  rw [colsInit0_row p, iblk0_coord t]
  rfl

theorem colsAt0_row_next (c : Dev nD) (t : Fin cfg0.N) (h0 : ¬t.val % nChunk = 0) (p : Fin 512) :
    (colsAt0 V c t.val t.isLt).row p
      = Spec.St.step (iblk0_logits V c p t.val t.isLt) (iblk0_hit V c p t.val t.isLt)
          ((colsAt0 V c (t.val - 1) (Nat.lt_of_le_of_lt (Nat.sub_le _ _) t.isLt)).row p) := by
  rw [colsAt0_next V c t h0]
  refine (colsStep0_row (grid0.coords t) (iblk0 V c 0 t) (iblk0 V c 1 t) (iblk0 V c 2 t) (iblk0 V c 3 t)
    (colsAt0 V c (t.val - 1) (Nat.lt_of_le_of_lt (Nat.sub_le _ _) t.isLt)) p).trans ?_
  rw [iblk0_coord t]
  rfl

theorem colsAt0_row_run (c : Dev nD) (q : ℕ) (p : Fin 512) (X : ℕ → Fin 2000 → EReal) (hit : ℕ → Fin 2000 → Bool)
    (hX : ∀ (j : ℕ) (h : nChunk * q + j < cfg0.N), j < nChunk → iblk0_logits V c p (nChunk * q + j) h = X j)
    (hhit : ∀ (j : ℕ) (h : nChunk * q + j < cfg0.N), j < nChunk → iblk0_hit V c p (nChunk * q + j) h = hit j) :
    ∀ (j : ℕ) (h : nChunk * q + j < cfg0.N), j < nChunk → (colsAt0 V c (nChunk * q + j) h).row p = Spec.St.run X hit (j + 1)
  | 0, h, _ => by
    have e := colsAt0_row_first V c ⟨nChunk * q + 0, h⟩ (by show (nChunk * q + 0) % nChunk = 0; omega) p
    dsimp only at e
    rw [hX 0 h (by omega), hhit 0 h (by omega)] at e
    exact e
  | j + 1, h, hj => by
    have ih := colsAt0_row_run c q p X hit hX hhit j (by omega) (by omega)
    have e := colsAt0_row_next V c ⟨nChunk * q + (j + 1), h⟩ (by show ¬(nChunk * q + (j + 1)) % nChunk = 0; omega) p
    dsimp only at e
    rw [hX (j + 1) h hj, hhit (j + 1) h hj, colsAt0_congr V c (show nChunk * q + (j + 1) - 1 = nChunk * q + j by omega) _ (by omega), ih] at e
    exact e

end

section
variable (V : (c : Dev nD) → (b : Ref sig .tc) → Buf (Elt Ideal) ((c : Thread nD τ).loc b))

theorem arrAt0_pt_lt (r : ℕ) (hr : r < 4096) : nChunk * (r / 512) + lastChunk < cfg0.N := by
  rw [show cfg0.N = nPoint from N_0]; omega

def arrAt0_col (c : Dev nD) (sel : Cols0 Ideal → Vec Ideal S512x1 .f32) : S4096x1.Idx → EReal := fun k =>
  sel (colsAt0 V c (nChunk * ((k 0).val / 512) + lastChunk) (arrAt0_pt_lt _ (k 0).isLt)) (ix2 ⟨(k 0).val % 512, Nat.mod_lt _ (by decide)⟩ (k 1))

theorem arrAt0_col_apply (c : Dev nD) (sel : Cols0 Ideal → Vec Ideal S512x1 .f32) (k : S4096x1.Idx) (n : ℕ) (hn : n < cfg0.N)
    (y : S512x1.Idx) (h1 : nChunk * ((k 0).val / 512) + lastChunk = n) (h2 : (k 0).val % 512 = (y 0).val) :
    arrAt0_col V c sel k = sel (colsAt0 V c n hn) y := by
  have e1 : colsAt0 V c (nChunk * ((k 0).val / 512) + lastChunk) (arrAt0_pt_lt _ (k 0).isLt) = colsAt0 V c n hn := colsAt0_congr V c h1 _ _
  have e2 : (ix2 ⟨(k 0).val % 512, Nat.mod_lt _ (by decide)⟩ (k 1) : S512x1.Idx) = y := by
    funext a
    apply Fin.ext
    match a with
    | ⟨0, _⟩ => exact h2
    | ⟨1, _⟩ =>
      have hy1 : (y 1).val < 1 := (y 1).isLt
      have hk1 : (k 1).val < 1 := (k 1).isLt
      show (k 1).val = (y 1).val
      omega
  show sel (colsAt0 V c (nChunk * ((k 0).val / 512) + lastChunk) _) (ix2 ⟨(k 0).val % 512, _⟩ (k 1)) = _
  rw [e1, e2]

theorem arrAt0_flushed_4 (c : Dev nD) (t : Fin cfg0.N) (hf : (cfg0.win 4).flush t = true) :
    (dat0 V c).flushed 4 t = ((cfg0.win 4).blk t).view.read (Elt Ideal) (arrAt0_col V c Cols0.m) := by
  have h9 : t.val % nChunk = lastChunk := (flush0_4 t).mp hf
  show (cfg0.win 4).cut (grid0.coords t) ((dat0 V c).after 4 t) = _
  rw [after0_4]
  funext y
  rw [View.read_apply]
  have e0 : ((((cfg0.win 4).blk t).view.emb y) 0).val = win0_4.index t 0 * 512 + 1 * (y 0).val := rfl
  have hy0 : (y 0).val < 512 := (y 0).isLt
  refine (arrAt0_col_apply V c Cols0.m (((cfg0.win 4).blk t).view.emb y) t.val t.isLt y ?_ ?_).symm
  · rw [e0, (arrAt0_idx_4 t).1]; omega
  · rw [e0, (arrAt0_idx_4 t).1]; omega

theorem arrAt0_flushed_5 (c : Dev nD) (t : Fin cfg0.N) (hf : (cfg0.win 5).flush t = true) :
    (dat0 V c).flushed 5 t = ((cfg0.win 5).blk t).view.read (Elt Ideal) (arrAt0_col V c Cols0.l) := by
  have h9 : t.val % nChunk = lastChunk := (flush0_5 t).mp hf
  show (cfg0.win 5).cut (grid0.coords t) ((dat0 V c).after 5 t) = _
  rw [after0_5]
  funext y
  rw [View.read_apply]
  have e0 : ((((cfg0.win 5).blk t).view.emb y) 0).val = win0_5.index t 0 * 512 + 1 * (y 0).val := rfl
  have hy0 : (y 0).val < 512 := (y 0).isLt
  refine (arrAt0_col_apply V c Cols0.l (((cfg0.win 5).blk t).view.emb y) t.val t.isLt y ?_ ?_).symm
  · rw [e0, (arrAt0_idx_5 t).1]; omega
  · rw [e0, (arrAt0_idx_5 t).1]; omega

theorem arrAt0_flushed_6 (c : Dev nD) (t : Fin cfg0.N) (hf : (cfg0.win 6).flush t = true) :
    (dat0 V c).flushed 6 t = ((cfg0.win 6).blk t).view.read (Elt Ideal) (arrAt0_col V c Cols0.s) := by
  have h9 : t.val % nChunk = lastChunk := (flush0_6 t).mp hf
  show (cfg0.win 6).cut (grid0.coords t) ((dat0 V c).after 6 t) = _
  rw [after0_6]
  funext y
  rw [View.read_apply]
  have e0 : ((((cfg0.win 6).blk t).view.emb y) 0).val = win0_6.index t 0 * 512 + 1 * (y 0).val := rfl
  have hy0 : (y 0).val < 512 := (y 0).isLt
  refine (arrAt0_col_apply V c Cols0.s (((cfg0.win 6).blk t).view.emb y) t.val t.isLt y ?_ ?_).symm
  · rw [e0, (arrAt0_idx_6 t).1]; omega
  · rw [e0, (arrAt0_idx_6 t).1]; omega

theorem arrAt0_mem_4 (t : Fin cfg0.N) (k : S4096x1.Idx) (h : (k 0).val / 512 = t.val / nChunk) : k ∈ ((cfg0.win 4).blk t).view.set := by
  show k ∈ ((View.whole (Pipeline.arrRef spec0 4)).slice (win0_4.rect t)).set
  rw [View.set_slice_whole, Rect.mem_set_unit]
  intro a
  have hk1 : (k 1).val < 1 := (k 1).isLt
  match a with
  | ⟨0, _⟩ =>
    show win0_4.index t 0 * 512 ≤ (k 0).val ∧ (k 0).val < win0_4.index t 0 * 512 + 512
    rw [(arrAt0_idx_4 t).1]; omega
  | ⟨1, _⟩ =>
    show win0_4.index t 1 * 1 ≤ (k 1).val ∧ (k 1).val < win0_4.index t 1 * 1 + 1
    rw [(arrAt0_idx_4 t).2]; omega
theorem arrAt0_mem_5 (t : Fin cfg0.N) (k : S4096x1.Idx) (h : (k 0).val / 512 = t.val / nChunk) : k ∈ ((cfg0.win 5).blk t).view.set := by
  show k ∈ ((View.whole (Pipeline.arrRef spec0 5)).slice (win0_5.rect t)).set
  rw [View.set_slice_whole, Rect.mem_set_unit]
  intro a
  have hk1 : (k 1).val < 1 := (k 1).isLt
  match a with
  | ⟨0, _⟩ =>
    show win0_5.index t 0 * 512 ≤ (k 0).val ∧ (k 0).val < win0_5.index t 0 * 512 + 512
    rw [(arrAt0_idx_5 t).1]; omega
  | ⟨1, _⟩ =>
    show win0_5.index t 1 * 1 ≤ (k 1).val ∧ (k 1).val < win0_5.index t 1 * 1 + 1
    rw [(arrAt0_idx_5 t).2]; omega
theorem arrAt0_mem_6 (t : Fin cfg0.N) (k : S4096x1.Idx) (h : (k 0).val / 512 = t.val / nChunk) : k ∈ ((cfg0.win 6).blk t).view.set := by
  show k ∈ ((View.whole (Pipeline.arrRef spec0 6)).slice (win0_6.rect t)).set
  rw [View.set_slice_whole, Rect.mem_set_unit]
  intro a
  have hk1 : (k 1).val < 1 := (k 1).isLt
  match a with
  | ⟨0, _⟩ =>
    show win0_6.index t 0 * 512 ≤ (k 0).val ∧ (k 0).val < win0_6.index t 0 * 512 + 512
    rw [(arrAt0_idx_6 t).1]; omega
  | ⟨1, _⟩ =>
    show win0_6.index t 1 * 1 ≤ (k 1).val ∧ (k 1).val < win0_6.index t 1 * 1 + 1
    rw [(arrAt0_idx_6 t).2]; omega

theorem arrAt0_row (c : Dev nD) (r : Fin 4096) :
    Spec.St.mk (((dat0 V c).arrAt 4 cfg0.N : S4096x1.Idx → EReal) (ix2 r 0)) (((dat0 V c).arrAt 5 cfg0.N : S4096x1.Idx → EReal) (ix2 r 0))
        (((dat0 V c).arrAt 6 cfg0.N : S4096x1.Idx → EReal) (ix2 r 0))
      = (colsAt0 V c (nChunk * (r.val / 512) + lastChunk) (arrAt0_pt_lt _ r.isLt)).row ⟨r.val % 512, Nat.mod_lt _ (by decide)⟩ := by
  have hN : cfg0.N = nPoint := N_0
  have hr : r.val < 4096 := r.isLt
  have ht9 : (nChunk * (r.val / 512) + lastChunk) % nChunk = lastChunk := by omega
  have htq : r.val / 512 = (nChunk * (r.val / 512) + lastChunk) / nChunk := by omega
  have e4 := (dat0 V c).arrAt_apply_of_mem 4 (arrAt0_col V c Cols0.m) (arrAt0_flushed_4 V c) cfg0.N ⟨nChunk * (r.val / 512) + lastChunk, arrAt0_pt_lt _ r.isLt⟩ (ix2 r 0)
    (arrAt0_pt_lt _ r.isLt) ((flush0_4 _).mpr ht9) (arrAt0_mem_4 _ (ix2 r 0) htq)
  have e5 := (dat0 V c).arrAt_apply_of_mem 5 (arrAt0_col V c Cols0.l) (arrAt0_flushed_5 V c) cfg0.N ⟨nChunk * (r.val / 512) + lastChunk, arrAt0_pt_lt _ r.isLt⟩ (ix2 r 0)
    (arrAt0_pt_lt _ r.isLt) ((flush0_5 _).mpr ht9) (arrAt0_mem_5 _ (ix2 r 0) htq)
  have e6 := (dat0 V c).arrAt_apply_of_mem 6 (arrAt0_col V c Cols0.s) (arrAt0_flushed_6 V c) cfg0.N ⟨nChunk * (r.val / 512) + lastChunk, arrAt0_pt_lt _ r.isLt⟩ (ix2 r 0)
    (arrAt0_pt_lt _ r.isLt) ((flush0_6 _).mpr ht9) (arrAt0_mem_6 _ (ix2 r 0) htq)
  rw [e4, e5, e6]
  rfl

end

private theorem blkLogit_eq (x0 : Vec Ideal S512x1024 .bf16) (x1 : Vec Ideal S2000x1024 .bf16) (x2 : Vec Ideal S1x1x2000 .f32) (p : Fin 512) (q : Fin 2000)
    (Hr Wv : Fin 1024 → EReal) (bv : EReal) (e0 : ∀ k, x0 (ix2 p k) = Hr k) (e1 : ∀ k, x1 (ix2 q k) = Wv k) (e2 : x2 (ix3 0 0 q) = bv) :
    blkLogit x0 x1 x2 p q = (∑ k : Fin 1024, Hr k * Wv k) + bv := by
  unfold blkLogit
  rw [e2]
  congr 1
  exact Finset.sum_congr rfl fun k _ => by rw [e0 k, e1 k]

theorem out0_row (V : (c : Dev nD) → (b : Ref sig .tc) → Buf (Elt Ideal) ((c : Thread nD τ).loc b)) (c : Dev nD)
    (H : Fin 4096 → Fin 1024 → EReal) (W : Fin 50000 → Fin 1024 → EReal) (b : Fin 50000 → EReal) (T : Fin 4096 → BitVec 32)
    (hH : ∀ r k, (V c (Pipeline.arrRef spec0 0) : S4096x1024.Idx → EReal) (ix2 r k) = H r k)
    (hW : ∀ v k, (V c (Pipeline.arrRef spec0 1) : S50000x1024.Idx → EReal) (ix2 v k) = W v k)
    (hb : ∀ (a : Fin 25) (q : Fin 2000), (V c (Pipeline.arrRef spec0 2) : S25x1x2000.Idx → EReal) (ix3 a 0 q) = b ⟨2000 * a.val + q.val, by omega⟩)
    (hT : ∀ r, (V c (Pipeline.arrRef spec0 3) : S4096x1.Idx → BitVec 32) (ix2 r 0) = T r) (r : Fin 4096) :
    Spec.St.mk (((dat0 V c).arrAt 4 cfg0.N : S4096x1.Idx → EReal) (ix2 r 0)) (((dat0 V c).arrAt 5 cfg0.N : S4096x1.Idx → EReal) (ix2 r 0))
        (((dat0 V c).arrAt 6 cfg0.N : S4096x1.Idx → EReal) (ix2 r 0))
      = Spec.St.run (Spec.chunkE (fun v => Spec.logitE H W b r v) tokLo0) (Spec.hitZ (T r).toInt tokLo0) nChunk := by
  have hN : cfg0.N = nPoint := N_0
  have hr : r.val < 4096 := r.isLt
  have hlo := tokLo0_eq
  have hcol := colLo0_le
  rw [arrAt0_row V c r]
  refine colsAt0_row_run V c (r.val / 512) ⟨r.val % 512, Nat.mod_lt _ (by decide)⟩ _ _ ?_ ?_ lastChunk _ (by omega)
  ·
    intro j h hj
    funext q
    have hq : q.val < 2000 := q.isLt
    have hv : tokLo0 + 2000 * j + q.val < 50000 := by omega
    have hjm : (nChunk * (r.val / 512) + j) % nChunk = j := by omega
    have hjd : (nChunk * (r.val / 512) + j) / nChunk = r.val / 512 := by omega
    have e0 : ∀ k : Fin 1024, (iblk0 V c 0 ⟨nChunk * (r.val / 512) + j, h⟩ : Vec Ideal S512x1024 .bf16) (ix2 ⟨r.val % 512, Nat.mod_lt _ (by decide)⟩ k) = H r k := fun k =>
      (iblk0_0_apply V c ⟨nChunk * (r.val / 512) + j, h⟩ (ix2 ⟨r.val % 512, Nat.mod_lt _ (by decide)⟩ k) (ix2 r k)
        (by show r.val = 512 * ((nChunk * (r.val / 512) + j) / nChunk) + r.val % 512; omega) rfl).trans (hH r k)
    have e1 : ∀ k : Fin 1024, (iblk0 V c 1 ⟨nChunk * (r.val / 512) + j, h⟩ : Vec Ideal S2000x1024 .bf16) (ix2 q k) = W ⟨tokLo0 + 2000 * j + q.val, hv⟩ k := fun k =>
      (iblk0_1_apply V c ⟨nChunk * (r.val / 512) + j, h⟩ (ix2 q k) (ix2 ⟨tokLo0 + 2000 * j + q.val, hv⟩ k)
        (by show tokLo0 + 2000 * j + q.val = 2000 * (colLo0 + (nChunk * (r.val / 512) + j) % nChunk) + q.val; omega) rfl).trans (hW _ k)
    have e2 : (iblk0 V c 2 ⟨nChunk * (r.val / 512) + j, h⟩ : Vec Ideal S1x1x2000 .f32) (ix3 0 0 q) = b ⟨tokLo0 + 2000 * j + q.val, hv⟩ :=
      ((iblk0_2_apply V c ⟨nChunk * (r.val / 512) + j, h⟩ (ix3 0 0 q) (ix3 ⟨colLo0 + j, by omega⟩ 0 q)
        (by show colLo0 + j = colLo0 + (nChunk * (r.val / 512) + j) % nChunk; omega) rfl).trans (hb ⟨colLo0 + j, by omega⟩ q)).trans
        (congrArg b (Fin.ext (by show 2000 * (colLo0 + j) + q.val = tokLo0 + 2000 * j + q.val; omega)))
    unfold iblk0_logits
    refine (blkLogit_eq (iblk0 V c 0 ⟨nChunk * (r.val / 512) + j, h⟩) (iblk0 V c 1 ⟨nChunk * (r.val / 512) + j, h⟩) (iblk0 V c 2 ⟨nChunk * (r.val / 512) + j, h⟩)
      ⟨r.val % 512, Nat.mod_lt _ (by decide)⟩ q (H r) (W ⟨tokLo0 + 2000 * j + q.val, hv⟩) (b ⟨tokLo0 + 2000 * j + q.val, hv⟩) e0 e1 e2).trans ?_
    show _ = Spec.logitE H W b r (tokLo0 + 2000 * j + q.val)
    unfold Spec.logitE
    rw [dif_pos hv]
  ·
    intro j h hj
    have hjm : (nChunk * (r.val / 512) + j) % nChunk = j := by omega
    have e3 : (iblk0 V c 3 ⟨nChunk * (r.val / 512) + j, h⟩ : Vec Ideal S512x1 .i32) (ix2 ⟨r.val % 512, Nat.mod_lt _ (by decide)⟩ 0) = T r :=
      (iblk0_3_apply V c ⟨nChunk * (r.val / 512) + j, h⟩ (ix2 ⟨r.val % 512, Nat.mod_lt _ (by decide)⟩ 0) (ix2 r 0)
        (by show r.val = 512 * ((nChunk * (r.val / 512) + j) / nChunk) + r.val % 512; omega)).trans (hT r)
    unfold iblk0_hit
    rw [e3, hjm]

end Cert.KernelIdeal.Hand

end
-- ==== Proof.K1Step.lean ====
import proofs.«429997_j76270029243071_3_alg».proof.Proof.KStepLib
import proofs.«429997_j76270029243071_3_alg».proof.Proof.R1Data
import proofs.«429997_j76270029243071_3_alg».proof.Proof.Spec2

noncomputable section

namespace Cert.KernelIdeal.Hand

open Cert.KernelIdeal Cert.KernelIdeal.Gen Idealize.ShloMosaic Idealize.ShloMosaic.ValueIdx

abbrev tokLo1 : ℕ := 20000

abbrev colLo1 : ℕ := 10

section Values
variable (x0 : Vec Ideal S512x1024 .bf16) (x1 : Vec Ideal S2000x1024 .bf16) (x2 : Vec Ideal S1x1x2000 .f32)

theorem k1_pay7_apply (p : Fin 512) (q : Fin 2000) :
    k1_pay7 (F := Ideal) x0 x1 x2 (ix2 p q) = blkLogit x0 x1 x2 p q := by
  unfold k1_pay7 blkLogit
  rw [shapeCast_self, shapeCast_self, addf_apply, blk_matmul_apply, broadcastTo_1b_ab_apply, shapeCast_1ab_ab_apply]
  refine congrArg (· + _) (Finset.sum_congr rfl fun k _ => ?_)
  rw [transpose_ix2_apply]

theorem k1_pay9_apply (m : Vec Ideal S512x1 .f32) (p : Fin 512) :
    k1_pay9 (F := Ideal) x0 x1 x2 m (ix2 p 0) = max (m (ix2 p 0)) (Spec.chunkMax (blkLogit x0 x1 x2 p)) := by
  unfold k1_pay9
  rw [maximumf_apply, shapeCast_a_a1_apply, rowMax_apply]
  simp only [k1_pay7_apply]
  rfl

theorem k1_pay10_apply (m m' : Vec Ideal S512x1 .f32) (p : Fin 512) :
    k1_pay10 (F := Ideal) x0 x1 x2 m m' (ix2 p 0)
      = Ideal.exp (m' (ix2 p 0) - max (m (ix2 p 0)) (Spec.chunkMax (blkLogit x0 x1 x2 p))) := by
  unfold k1_pay10
  rw [exp_apply, subf_apply, k1_pay9_apply]

theorem k1_pay1_apply (v12 : FVec Ideal S512x2000 .f32) (v30 v33 : FVec Ideal S512x1 .f32) (v34 : Vec Ideal S512x1 .f32) (p : Fin 512) :
    k1_pay1 (F := Ideal) v12 v30 v33 v34 (ix2 p 0)
      = v33 (ix2 p 0) * v34 (ix2 p 0) + ∑ q : Fin 2000, Ideal.exp (v12 (ix2 p q) - v30 (ix2 p 0)) := by
  unfold k1_pay1
  rw [shapeCast_self, addf_apply, mulf_apply, shapeCast_a_a1_apply, rowSum_apply]
  refine congrArg (_ + ·) (Finset.sum_congr rfl fun q _ => ?_)
  rw [exp_apply, subf_apply, broadcastTo_a1_ab_apply]

theorem k1_pay2_apply (v30 : FVec Ideal S512x1 .f32) (j : S512x1.Idx) : k1_pay2 (F := Ideal) v30 j = v30 j := by
  unfold k1_pay2
  rw [shapeCast_self]

theorem k1_pay3_apply (v26 : FVec Ideal S512x1 .f32) (v48 : Vec Ideal S512x1 .f32) (j : S512x1.Idx) :
    k1_pay3 (F := Ideal) v26 v48 j = v48 j + v26 j := by
  unfold k1_pay3
  rw [shapeCast_self, addf_apply]

theorem k1_pay8_apply (i : grid1.Coords) (x3 : Vec Ideal S512x1 .i32) (p : Fin 512) :
    k1_pay8 (F := Ideal) i x0 x1 x2 x3 (ix2 p 0)
      = ∑ q : Fin 2000, (if Spec.hitZ (x3 (ix2 p 0)).toInt tokLo1 (i 1).val q then blkLogit x0 x1 x2 p q else 0) := by
  have hj : (i 1).val < 10 := lt_of_lt_of_le (i 1).isLt (by decide)
  have hlo : tokLo1 ≤ 40000 := by decide
  unfold k1_pay8
  dsimp only
  rw [shapeCast_a_a1_apply, rowSum_apply]
  refine Finset.sum_congr rfl fun q _ => ?_
  rw [select_apply, cmpi_apply, addi_apply, iota_single_apply, broadcastTo_a1_ab_apply, subi_apply, shapeCast_self,
    k1_pay7_apply, select_cmpi_eq]
  refine if_congr ?_ rfl Ideal.ofBits_zero_f32
  refine (hit_word tokLo1 (i 1).val q.val (x3 (ix2 p 0)) ?_).trans decide_eq_true_iff.symm
  have hq := q.isLt
  omega

end Values

theorem colsInit1_row (p : Fin 512) :
    Spec.St.mk ((colsInit1 (F := Ideal)).m (ix2 p 0)) ((colsInit1 (F := Ideal)).l (ix2 p 0)) ((colsInit1 (F := Ideal)).s (ix2 p 0)) = Spec.St.init := by
  have hm : (colsInit1 (F := Ideal)).m (ix2 p 0) = Spec.negBig := by
    show k1_pay4 (F := Ideal) (ix2 p 0) = _
    unfold k1_pay4
    rw [shapeCast_self, broadcast_apply]
    rfl
  have hl : (colsInit1 (F := Ideal)).l (ix2 p 0) = 0 := by
    show k1_pay5 (F := Ideal) (ix2 p 0) = _
    unfold k1_pay5
    rw [shapeCast_self, broadcast_apply]
    exact Ideal.ofBits_zero_f32
  have hs : (colsInit1 (F := Ideal)).s (ix2 p 0) = 0 := by
    show k1_pay6 (F := Ideal) (ix2 p 0) = _
    unfold k1_pay6
    rw [shapeCast_self, broadcast_apply]
    exact Ideal.ofBits_zero_f32
  rw [hm, hl, hs]
  rfl

theorem colsStep1_row (i : grid1.Coords) (x0 : Vec Ideal S512x1024 .bf16) (x1 : Vec Ideal S2000x1024 .bf16) (x2 : Vec Ideal S1x1x2000 .f32)
    (x3 : Vec Ideal S512x1 .i32) (σ : Cols1 Ideal) (p : Fin 512) :
    Spec.St.mk ((colsStep1 i x0 x1 x2 x3 σ).m (ix2 p 0)) ((colsStep1 i x0 x1 x2 x3 σ).l (ix2 p 0)) ((colsStep1 i x0 x1 x2 x3 σ).s (ix2 p 0))
      = Spec.St.step (blkLogit x0 x1 x2 p) (Spec.hitZ (x3 (ix2 p 0)).toInt tokLo1 (i 1).val) ⟨σ.m (ix2 p 0), σ.l (ix2 p 0), σ.s (ix2 p 0)⟩ := by
  have hm : (colsStep1 i x0 x1 x2 x3 σ).m (ix2 p 0) = max (σ.m (ix2 p 0)) (Spec.chunkMax (blkLogit x0 x1 x2 p)) := by
    show k1_pay2 (F := Ideal) (k1_pay9 x0 x1 x2 σ.m) (ix2 p 0) = _
    rw [k1_pay2_apply, k1_pay9_apply]
  have hl : (colsStep1 i x0 x1 x2 x3 σ).l (ix2 p 0)
      = Ideal.exp (σ.m (ix2 p 0) - max (σ.m (ix2 p 0)) (Spec.chunkMax (blkLogit x0 x1 x2 p))) * σ.l (ix2 p 0)
        + ∑ q : Fin 2000, Ideal.exp (blkLogit x0 x1 x2 p q - max (σ.m (ix2 p 0)) (Spec.chunkMax (blkLogit x0 x1 x2 p))) := by
    show k1_pay1 (F := Ideal) (k1_pay7 x0 x1 x2) (k1_pay9 x0 x1 x2 σ.m) (k1_pay10 x0 x1 x2 σ.m σ.m) σ.l (ix2 p 0) = _
    rw [k1_pay1_apply, k1_pay10_apply, k1_pay9_apply]
    simp only [k1_pay7_apply]
  have hs : (colsStep1 i x0 x1 x2 x3 σ).s (ix2 p 0)
      = σ.s (ix2 p 0) + ∑ q : Fin 2000, (if Spec.hitZ (x3 (ix2 p 0)).toInt tokLo1 (i 1).val q then blkLogit x0 x1 x2 p q else 0) := by
    show k1_pay3 (F := Ideal) (k1_pay8 i x0 x1 x2 x3) σ.s (ix2 p 0) = _
    rw [k1_pay3_apply, k1_pay8_apply]
  rw [hm, hl, hs]
  rfl

end Cert.KernelIdeal.Hand

end
-- ==== Proof.R1Value.lean ====
import proofs.«429997_j76270029243071_3_alg».proof.Proof.K1Step

set_option maxRecDepth 16384

noncomputable section

namespace Cert.KernelIdeal.Hand

open Idealize.ShloMosaic Idealize.ShloMosaic.TcCoe
open Idealize.ShloMosaic.Pipeline (Dat)
open Cert.KernelIdeal Cert.KernelIdeal.Gen Idealize.ShloMosaic.ValueIdx

local notation "nChunk" => (10 : ℕ)
local notation "lastChunk" => (9 : ℕ)
local notation "nPoint" => (80 : ℕ)

theorem tokLo1_eq : tokLo1 = 2000 * colLo1 := by decide

theorem colLo1_le : colLo1 + nChunk ≤ 25 := by decide

theorem iblk1_coord : ∀ t : Fin cfg1.N, ((grid1.coords t) 1).val = t.val % nChunk :=
  (by decide +kernel : ∀ t : Fin grid1.N, ((grid1.coords t) 1).val = t.val % nChunk)

theorem iblk1_idx_0 : ∀ t : Fin cfg1.N, win1_0.index t 0 = t.val / nChunk ∧ win1_0.index t 1 = 0 :=
  (by decide +kernel : ∀ t : Fin grid1.N, win1_0.index t 0 = t.val / nChunk ∧ win1_0.index t 1 = 0)
theorem iblk1_idx_1 : ∀ t : Fin cfg1.N, win1_1.index t 0 = colLo1 + t.val % nChunk ∧ win1_1.index t 1 = 0 :=
  (by decide +kernel : ∀ t : Fin grid1.N, win1_1.index t 0 = colLo1 + t.val % nChunk ∧ win1_1.index t 1 = 0)
theorem iblk1_idx_2 : ∀ t : Fin cfg1.N, win1_2.index t 0 = colLo1 + t.val % nChunk ∧ win1_2.index t 1 = 0 ∧ win1_2.index t 2 = 0 :=
  (by decide +kernel : ∀ t : Fin grid1.N, win1_2.index t 0 = colLo1 + t.val % nChunk ∧ win1_2.index t 1 = 0 ∧ win1_2.index t 2 = 0)
theorem iblk1_idx_3 : ∀ t : Fin cfg1.N, win1_3.index t 0 = t.val / nChunk ∧ win1_3.index t 1 = 0 :=
  (by decide +kernel : ∀ t : Fin grid1.N, win1_3.index t 0 = t.val / nChunk ∧ win1_3.index t 1 = 0)

theorem arrAt1_idx_4 : ∀ t : Fin cfg1.N, win1_4.index t 0 = t.val / nChunk ∧ win1_4.index t 1 = 0 :=
  (by decide +kernel : ∀ t : Fin grid1.N, win1_4.index t 0 = t.val / nChunk ∧ win1_4.index t 1 = 0)
theorem arrAt1_idx_5 : ∀ t : Fin cfg1.N, win1_5.index t 0 = t.val / nChunk ∧ win1_5.index t 1 = 0 :=
  (by decide +kernel : ∀ t : Fin grid1.N, win1_5.index t 0 = t.val / nChunk ∧ win1_5.index t 1 = 0)
theorem arrAt1_idx_6 : ∀ t : Fin cfg1.N, win1_6.index t 0 = t.val / nChunk ∧ win1_6.index t 1 = 0 :=
  (by decide +kernel : ∀ t : Fin grid1.N, win1_6.index t 0 = t.val / nChunk ∧ win1_6.index t 1 = 0)

section
variable (V : (c : Dev nD) → (b : Ref sig .tc) → Buf (Elt Ideal) ((c : Thread nD τ).loc b))

theorem iblk1_0_apply (c : Dev nD) (t : Fin cfg1.N) (y : S512x1024.Idx) (k : S4096x1024.Idx)
    (hk0 : (k 0).val = 512 * (t.val / nChunk) + (y 0).val) (hk1 : (k 1).val = (y 1).val) :
    (iblk1 V c 0 t : Vec Ideal S512x1024 .bf16) y = (V c (Pipeline.arrRef spec1 0) : S4096x1024.Idx → EReal) k := by
  unfold iblk1
  rw [View.read_apply]
  show (V c (Pipeline.arrRef spec1 0) : S4096x1024.Idx → EReal) (((cfg1.win 0).blk t).view.emb y) = (V c (Pipeline.arrRef spec1 0) : S4096x1024.Idx → EReal) k
  congr 1
  funext a
  apply Fin.ext
  match a with
  | ⟨0, _⟩ => show win1_0.index t 0 * 512 + 1 * (y 0).val = (k 0).val; rw [(iblk1_idx_0 t).1, hk0]; omega
  | ⟨1, _⟩ => show win1_0.index t 1 * 1024 + 1 * (y 1).val = (k 1).val; rw [(iblk1_idx_0 t).2, hk1]; omega

theorem iblk1_1_apply (c : Dev nD) (t : Fin cfg1.N) (y : S2000x1024.Idx) (k : S50000x1024.Idx)
    (hk0 : (k 0).val = 2000 * (colLo1 + t.val % nChunk) + (y 0).val) (hk1 : (k 1).val = (y 1).val) :
    (iblk1 V c 1 t : Vec Ideal S2000x1024 .bf16) y = (V c (Pipeline.arrRef spec1 1) : S50000x1024.Idx → EReal) k := by
  unfold iblk1
  rw [View.read_apply]
  show (V c (Pipeline.arrRef spec1 1) : S50000x1024.Idx → EReal) (((cfg1.win 1).blk t).view.emb y) = (V c (Pipeline.arrRef spec1 1) : S50000x1024.Idx → EReal) k
  congr 1
  funext a
  apply Fin.ext
  match a with
  | ⟨0, _⟩ => show win1_1.index t 0 * 2000 + 1 * (y 0).val = (k 0).val; rw [(iblk1_idx_1 t).1, hk0]; omega
  | ⟨1, _⟩ => show win1_1.index t 1 * 1024 + 1 * (y 1).val = (k 1).val; rw [(iblk1_idx_1 t).2, hk1]; omega

theorem iblk1_2_apply (c : Dev nD) (t : Fin cfg1.N) (y : S1x1x2000.Idx) (k : S25x1x2000.Idx)
    (hk0 : (k 0).val = colLo1 + t.val % nChunk) (hk2 : (k 2).val = (y 2).val) :
    (iblk1 V c 2 t : Vec Ideal S1x1x2000 .f32) y = (V c (Pipeline.arrRef spec1 2) : S25x1x2000.Idx → EReal) k := by
  unfold iblk1
  rw [View.read_apply]
  show (V c (Pipeline.arrRef spec1 2) : S25x1x2000.Idx → EReal) (((cfg1.win 2).blk t).view.emb y) = (V c (Pipeline.arrRef spec1 2) : S25x1x2000.Idx → EReal) k
  congr 1
  funext a
  apply Fin.ext
  have hy0 : (y 0).val = 0 := by have h : (y 0).val < 1 := (y 0).isLt; omega
  have hy1 : (y 1).val = 0 := by have h : (y 1).val < 1 := (y 1).isLt; omega
  have hk1 : (k 1).val = 0 := by have h : (k 1).val < 1 := (k 1).isLt; omega
  match a with
  | ⟨0, _⟩ => show win1_2.index t 0 * 1 + 1 * (y 0).val = (k 0).val; rw [(iblk1_idx_2 t).1, hk0, hy0]; omega
  | ⟨1, _⟩ => show win1_2.index t 1 * 1 + 1 * (y 1).val = (k 1).val; rw [(iblk1_idx_2 t).2.1, hk1, hy1]
  | ⟨2, _⟩ => show win1_2.index t 2 * 2000 + 1 * (y 2).val = (k 2).val; rw [(iblk1_idx_2 t).2.2, hk2]; omega

theorem iblk1_3_apply (c : Dev nD) (t : Fin cfg1.N) (y : S512x1.Idx) (k : S4096x1.Idx)
    (hk0 : (k 0).val = 512 * (t.val / nChunk) + (y 0).val) :
    (iblk1 V c 3 t : Vec Ideal S512x1 .i32) y = (V c (Pipeline.arrRef spec1 3) : S4096x1.Idx → BitVec 32) k := by
  unfold iblk1
  rw [View.read_apply]
  show (V c (Pipeline.arrRef spec1 3) : S4096x1.Idx → BitVec 32) (((cfg1.win 3).blk t).view.emb y) = (V c (Pipeline.arrRef spec1 3) : S4096x1.Idx → BitVec 32) k
  congr 1
  funext a
  apply Fin.ext
  have hy1 : (y 1).val = 0 := by have h : (y 1).val < 1 := (y 1).isLt; omega
  have hk1 : (k 1).val = 0 := by have h : (k 1).val < 1 := (k 1).isLt; omega
  match a with
  | ⟨0, _⟩ => show win1_3.index t 0 * 512 + 1 * (y 0).val = (k 0).val; rw [(iblk1_idx_3 t).1, hk0]; omega
  | ⟨1, _⟩ => show win1_3.index t 1 * 1 + 1 * (y 1).val = (k 1).val; rw [(iblk1_idx_3 t).2, hk1, hy1]

end

section
variable (V : (c : Dev nD) → (b : Ref sig .tc) → Buf (Elt Ideal) ((c : Thread nD τ).loc b))

def Cols1.row (σ : Cols1 Ideal) (p : Fin 512) : Spec.St := ⟨σ.m (ix2 p 0), σ.l (ix2 p 0), σ.s (ix2 p 0)⟩

theorem colsAt1_congr (c : Dev nD) {n n' : ℕ} (e : n = n') (h : n < cfg1.N) (h' : n' < cfg1.N) :
    colsAt1 V c n h = colsAt1 V c n' h' := by subst e; rfl

def iblk1_logits (c : Dev nD) (p : Fin 512) (n : ℕ) (hn : n < cfg1.N) : Fin 2000 → EReal :=
  blkLogit (iblk1 V c 0 ⟨n, hn⟩) (iblk1 V c 1 ⟨n, hn⟩) (iblk1 V c 2 ⟨n, hn⟩) p
def iblk1_hit (c : Dev nD) (p : Fin 512) (n : ℕ) (hn : n < cfg1.N) : Fin 2000 → Bool :=
  Spec.hitZ ((iblk1 V c 3 ⟨n, hn⟩ : Vec Ideal S512x1 .i32) (ix2 p 0)).toInt tokLo1 (n % nChunk)

theorem colsAt1_row_first (c : Dev nD) (t : Fin cfg1.N) (h0 : t.val % nChunk = 0) (p : Fin 512) :
    (colsAt1 V c t.val t.isLt).row p = Spec.St.step (iblk1_logits V c p t.val t.isLt) (iblk1_hit V c p t.val t.isLt) Spec.St.init := by
  rw [colsAt1_first V c t h0]
  refine (colsStep1_row (grid1.coords t) (iblk1 V c 0 t) (iblk1 V c 1 t) (iblk1 V c 2 t) (iblk1 V c 3 t) colsInit1 p).trans ?_
  rw [colsInit1_row p, iblk1_coord t]
  rfl

theorem colsAt1_row_next (c : Dev nD) (t : Fin cfg1.N) (h0 : ¬t.val % nChunk = 0) (p : Fin 512) :
    (colsAt1 V c t.val t.isLt).row p
      = Spec.St.step (iblk1_logits V c p t.val t.isLt) (iblk1_hit V c p t.val t.isLt)
          ((colsAt1 V c (t.val - 1) (Nat.lt_of_le_of_lt (Nat.sub_le _ _) t.isLt)).row p) := by
  rw [colsAt1_next V c t h0]
  refine (colsStep1_row (grid1.coords t) (iblk1 V c 0 t) (iblk1 V c 1 t) (iblk1 V c 2 t) (iblk1 V c 3 t)
    (colsAt1 V c (t.val - 1) (Nat.lt_of_le_of_lt (Nat.sub_le _ _) t.isLt)) p).trans ?_
  rw [iblk1_coord t]
  rfl

theorem colsAt1_row_run (c : Dev nD) (q : ℕ) (p : Fin 512) (X : ℕ → Fin 2000 → EReal) (hit : ℕ → Fin 2000 → Bool)
    (hX : ∀ (j : ℕ) (h : nChunk * q + j < cfg1.N), j < nChunk → iblk1_logits V c p (nChunk * q + j) h = X j)
    (hhit : ∀ (j : ℕ) (h : nChunk * q + j < cfg1.N), j < nChunk → iblk1_hit V c p (nChunk * q + j) h = hit j) :
    ∀ (j : ℕ) (h : nChunk * q + j < cfg1.N), j < nChunk → (colsAt1 V c (nChunk * q + j) h).row p = Spec.St.run X hit (j + 1)
  | 0, h, _ => by
    have e := colsAt1_row_first V c ⟨nChunk * q + 0, h⟩ (by show (nChunk * q + 0) % nChunk = 0; omega) p
    dsimp only at e
    rw [hX 0 h (by omega), hhit 0 h (by omega)] at e
    exact e
  | j + 1, h, hj => by
    have ih := colsAt1_row_run c q p X hit hX hhit j (by omega) (by omega)
    have e := colsAt1_row_next V c ⟨nChunk * q + (j + 1), h⟩ (by show ¬(nChunk * q + (j + 1)) % nChunk = 0; omega) p
    dsimp only at e
    rw [hX (j + 1) h hj, hhit (j + 1) h hj, colsAt1_congr V c (show nChunk * q + (j + 1) - 1 = nChunk * q + j by omega) _ (by omega), ih] at e
    exact e

end

section
variable (V : (c : Dev nD) → (b : Ref sig .tc) → Buf (Elt Ideal) ((c : Thread nD τ).loc b))

theorem arrAt1_pt_lt (r : ℕ) (hr : r < 4096) : nChunk * (r / 512) + lastChunk < cfg1.N := by
  rw [show cfg1.N = nPoint from N_1]; omega

def arrAt1_col (c : Dev nD) (sel : Cols1 Ideal → Vec Ideal S512x1 .f32) : S4096x1.Idx → EReal := fun k =>
  sel (colsAt1 V c (nChunk * ((k 0).val / 512) + lastChunk) (arrAt1_pt_lt _ (k 0).isLt)) (ix2 ⟨(k 0).val % 512, Nat.mod_lt _ (by decide)⟩ (k 1))

theorem arrAt1_col_apply (c : Dev nD) (sel : Cols1 Ideal → Vec Ideal S512x1 .f32) (k : S4096x1.Idx) (n : ℕ) (hn : n < cfg1.N)
    (y : S512x1.Idx) (h1 : nChunk * ((k 0).val / 512) + lastChunk = n) (h2 : (k 0).val % 512 = (y 0).val) :
    arrAt1_col V c sel k = sel (colsAt1 V c n hn) y := by
  have e1 : colsAt1 V c (nChunk * ((k 0).val / 512) + lastChunk) (arrAt1_pt_lt _ (k 0).isLt) = colsAt1 V c n hn := colsAt1_congr V c h1 _ _
  have e2 : (ix2 ⟨(k 0).val % 512, Nat.mod_lt _ (by decide)⟩ (k 1) : S512x1.Idx) = y := by
    funext a
    apply Fin.ext
    match a with
    | ⟨0, _⟩ => exact h2
    | ⟨1, _⟩ =>
      have hy1 : (y 1).val < 1 := (y 1).isLt
      have hk1 : (k 1).val < 1 := (k 1).isLt
      show (k 1).val = (y 1).val
      omega
  show sel (colsAt1 V c (nChunk * ((k 0).val / 512) + lastChunk) _) (ix2 ⟨(k 0).val % 512, _⟩ (k 1)) = _
  rw [e1, e2]

theorem arrAt1_flushed_4 (c : Dev nD) (t : Fin cfg1.N) (hf : (cfg1.win 4).flush t = true) :
    (dat1 V c).flushed 4 t = ((cfg1.win 4).blk t).view.read (Elt Ideal) (arrAt1_col V c Cols1.m) := by
  have h9 : t.val % nChunk = lastChunk := (flush1_4 t).mp hf
  show (cfg1.win 4).cut (grid1.coords t) ((dat1 V c).after 4 t) = _
  rw [after1_4]
  funext y
  rw [View.read_apply]
  have e0 : ((((cfg1.win 4).blk t).view.emb y) 0).val = win1_4.index t 0 * 512 + 1 * (y 0).val := rfl
  have hy0 : (y 0).val < 512 := (y 0).isLt
  refine (arrAt1_col_apply V c Cols1.m (((cfg1.win 4).blk t).view.emb y) t.val t.isLt y ?_ ?_).symm
  · rw [e0, (arrAt1_idx_4 t).1]; omega
  · rw [e0, (arrAt1_idx_4 t).1]; omega

theorem arrAt1_flushed_5 (c : Dev nD) (t : Fin cfg1.N) (hf : (cfg1.win 5).flush t = true) :
    (dat1 V c).flushed 5 t = ((cfg1.win 5).blk t).view.read (Elt Ideal) (arrAt1_col V c Cols1.l) := by
  have h9 : t.val % nChunk = lastChunk := (flush1_5 t).mp hf
  show (cfg1.win 5).cut (grid1.coords t) ((dat1 V c).after 5 t) = _
  rw [after1_5]
  funext y
  rw [View.read_apply]
  have e0 : ((((cfg1.win 5).blk t).view.emb y) 0).val = win1_5.index t 0 * 512 + 1 * (y 0).val := rfl
  have hy0 : (y 0).val < 512 := (y 0).isLt
  refine (arrAt1_col_apply V c Cols1.l (((cfg1.win 5).blk t).view.emb y) t.val t.isLt y ?_ ?_).symm
  · rw [e0, (arrAt1_idx_5 t).1]; omega
  · rw [e0, (arrAt1_idx_5 t).1]; omega

theorem arrAt1_flushed_6 (c : Dev nD) (t : Fin cfg1.N) (hf : (cfg1.win 6).flush t = true) :
    (dat1 V c).flushed 6 t = ((cfg1.win 6).blk t).view.read (Elt Ideal) (arrAt1_col V c Cols1.s) := by
  have h9 : t.val % nChunk = lastChunk := (flush1_6 t).mp hf
  show (cfg1.win 6).cut (grid1.coords t) ((dat1 V c).after 6 t) = _
  rw [after1_6]
  funext y
  rw [View.read_apply]
  have e0 : ((((cfg1.win 6).blk t).view.emb y) 0).val = win1_6.index t 0 * 512 + 1 * (y 0).val := rfl
  have hy0 : (y 0).val < 512 := (y 0).isLt
  refine (arrAt1_col_apply V c Cols1.s (((cfg1.win 6).blk t).view.emb y) t.val t.isLt y ?_ ?_).symm
  · rw [e0, (arrAt1_idx_6 t).1]; omega
  · rw [e0, (arrAt1_idx_6 t).1]; omega

theorem arrAt1_mem_4 (t : Fin cfg1.N) (k : S4096x1.Idx) (h : (k 0).val / 512 = t.val / nChunk) : k ∈ ((cfg1.win 4).blk t).view.set := by
  show k ∈ ((View.whole (Pipeline.arrRef spec1 4)).slice (win1_4.rect t)).set
  rw [View.set_slice_whole, Rect.mem_set_unit]
  intro a
  have hk1 : (k 1).val < 1 := (k 1).isLt
  match a with
  | ⟨0, _⟩ =>
    show win1_4.index t 0 * 512 ≤ (k 0).val ∧ (k 0).val < win1_4.index t 0 * 512 + 512
    rw [(arrAt1_idx_4 t).1]; omega
  | ⟨1, _⟩ =>
    show win1_4.index t 1 * 1 ≤ (k 1).val ∧ (k 1).val < win1_4.index t 1 * 1 + 1
    rw [(arrAt1_idx_4 t).2]; omega
theorem arrAt1_mem_5 (t : Fin cfg1.N) (k : S4096x1.Idx) (h : (k 0).val / 512 = t.val / nChunk) : k ∈ ((cfg1.win 5).blk t).view.set := by
  show k ∈ ((View.whole (Pipeline.arrRef spec1 5)).slice (win1_5.rect t)).set
  rw [View.set_slice_whole, Rect.mem_set_unit]
  intro a
  have hk1 : (k 1).val < 1 := (k 1).isLt
  match a with
  | ⟨0, _⟩ =>
    show win1_5.index t 0 * 512 ≤ (k 0).val ∧ (k 0).val < win1_5.index t 0 * 512 + 512
    rw [(arrAt1_idx_5 t).1]; omega
  | ⟨1, _⟩ =>
    show win1_5.index t 1 * 1 ≤ (k 1).val ∧ (k 1).val < win1_5.index t 1 * 1 + 1
    rw [(arrAt1_idx_5 t).2]; omega
theorem arrAt1_mem_6 (t : Fin cfg1.N) (k : S4096x1.Idx) (h : (k 0).val / 512 = t.val / nChunk) : k ∈ ((cfg1.win 6).blk t).view.set := by
  show k ∈ ((View.whole (Pipeline.arrRef spec1 6)).slice (win1_6.rect t)).set
  rw [View.set_slice_whole, Rect.mem_set_unit]
  intro a
  have hk1 : (k 1).val < 1 := (k 1).isLt
  match a with
  | ⟨0, _⟩ =>
    show win1_6.index t 0 * 512 ≤ (k 0).val ∧ (k 0).val < win1_6.index t 0 * 512 + 512
    rw [(arrAt1_idx_6 t).1]; omega
  | ⟨1, _⟩ =>
    show win1_6.index t 1 * 1 ≤ (k 1).val ∧ (k 1).val < win1_6.index t 1 * 1 + 1
    rw [(arrAt1_idx_6 t).2]; omega

theorem arrAt1_row (c : Dev nD) (r : Fin 4096) :
    Spec.St.mk (((dat1 V c).arrAt 4 cfg1.N : S4096x1.Idx → EReal) (ix2 r 0)) (((dat1 V c).arrAt 5 cfg1.N : S4096x1.Idx → EReal) (ix2 r 0))
        (((dat1 V c).arrAt 6 cfg1.N : S4096x1.Idx → EReal) (ix2 r 0))
      = (colsAt1 V c (nChunk * (r.val / 512) + lastChunk) (arrAt1_pt_lt _ r.isLt)).row ⟨r.val % 512, Nat.mod_lt _ (by decide)⟩ := by
  have hN : cfg1.N = nPoint := N_1
  have hr : r.val < 4096 := r.isLt
  have ht9 : (nChunk * (r.val / 512) + lastChunk) % nChunk = lastChunk := by omega
  have htq : r.val / 512 = (nChunk * (r.val / 512) + lastChunk) / nChunk := by omega
  have e4 := (dat1 V c).arrAt_apply_of_mem 4 (arrAt1_col V c Cols1.m) (arrAt1_flushed_4 V c) cfg1.N ⟨nChunk * (r.val / 512) + lastChunk, arrAt1_pt_lt _ r.isLt⟩ (ix2 r 0)
    (arrAt1_pt_lt _ r.isLt) ((flush1_4 _).mpr ht9) (arrAt1_mem_4 _ (ix2 r 0) htq)
  have e5 := (dat1 V c).arrAt_apply_of_mem 5 (arrAt1_col V c Cols1.l) (arrAt1_flushed_5 V c) cfg1.N ⟨nChunk * (r.val / 512) + lastChunk, arrAt1_pt_lt _ r.isLt⟩ (ix2 r 0)
    (arrAt1_pt_lt _ r.isLt) ((flush1_5 _).mpr ht9) (arrAt1_mem_5 _ (ix2 r 0) htq)
  have e6 := (dat1 V c).arrAt_apply_of_mem 6 (arrAt1_col V c Cols1.s) (arrAt1_flushed_6 V c) cfg1.N ⟨nChunk * (r.val / 512) + lastChunk, arrAt1_pt_lt _ r.isLt⟩ (ix2 r 0)
    (arrAt1_pt_lt _ r.isLt) ((flush1_6 _).mpr ht9) (arrAt1_mem_6 _ (ix2 r 0) htq)
  rw [e4, e5, e6]
  rfl

end

private theorem blkLogit_eq (x0 : Vec Ideal S512x1024 .bf16) (x1 : Vec Ideal S2000x1024 .bf16) (x2 : Vec Ideal S1x1x2000 .f32) (p : Fin 512) (q : Fin 2000)
    (Hr Wv : Fin 1024 → EReal) (bv : EReal) (e0 : ∀ k, x0 (ix2 p k) = Hr k) (e1 : ∀ k, x1 (ix2 q k) = Wv k) (e2 : x2 (ix3 0 0 q) = bv) :
    blkLogit x0 x1 x2 p q = (∑ k : Fin 1024, Hr k * Wv k) + bv := by
  unfold blkLogit
  rw [e2]
  congr 1
  exact Finset.sum_congr rfl fun k _ => by rw [e0 k, e1 k]

theorem out1_row (V : (c : Dev nD) → (b : Ref sig .tc) → Buf (Elt Ideal) ((c : Thread nD τ).loc b)) (c : Dev nD)
    (H : Fin 4096 → Fin 1024 → EReal) (W : Fin 50000 → Fin 1024 → EReal) (b : Fin 50000 → EReal) (T : Fin 4096 → BitVec 32)
    (hH : ∀ r k, (V c (Pipeline.arrRef spec1 0) : S4096x1024.Idx → EReal) (ix2 r k) = H r k)
    (hW : ∀ v k, (V c (Pipeline.arrRef spec1 1) : S50000x1024.Idx → EReal) (ix2 v k) = W v k)
    (hb : ∀ (a : Fin 25) (q : Fin 2000), (V c (Pipeline.arrRef spec1 2) : S25x1x2000.Idx → EReal) (ix3 a 0 q) = b ⟨2000 * a.val + q.val, by omega⟩)
    (hT : ∀ r, (V c (Pipeline.arrRef spec1 3) : S4096x1.Idx → BitVec 32) (ix2 r 0) = T r) (r : Fin 4096) :
    Spec.St.mk (((dat1 V c).arrAt 4 cfg1.N : S4096x1.Idx → EReal) (ix2 r 0)) (((dat1 V c).arrAt 5 cfg1.N : S4096x1.Idx → EReal) (ix2 r 0))
        (((dat1 V c).arrAt 6 cfg1.N : S4096x1.Idx → EReal) (ix2 r 0))
      = Spec.St.run (Spec.chunkE (fun v => Spec.logitE H W b r v) tokLo1) (Spec.hitZ (T r).toInt tokLo1) nChunk := by
  have hN : cfg1.N = nPoint := N_1
  have hr : r.val < 4096 := r.isLt
  have hlo := tokLo1_eq
  have hcol := colLo1_le
  rw [arrAt1_row V c r]
  refine colsAt1_row_run V c (r.val / 512) ⟨r.val % 512, Nat.mod_lt _ (by decide)⟩ _ _ ?_ ?_ lastChunk _ (by omega)
  ·
    intro j h hj
    funext q
    have hq : q.val < 2000 := q.isLt
    have hv : tokLo1 + 2000 * j + q.val < 50000 := by omega
    have hjm : (nChunk * (r.val / 512) + j) % nChunk = j := by omega
    have hjd : (nChunk * (r.val / 512) + j) / nChunk = r.val / 512 := by omega
    have e0 : ∀ k : Fin 1024, (iblk1 V c 0 ⟨nChunk * (r.val / 512) + j, h⟩ : Vec Ideal S512x1024 .bf16) (ix2 ⟨r.val % 512, Nat.mod_lt _ (by decide)⟩ k) = H r k := fun k =>
      (iblk1_0_apply V c ⟨nChunk * (r.val / 512) + j, h⟩ (ix2 ⟨r.val % 512, Nat.mod_lt _ (by decide)⟩ k) (ix2 r k)
        (by show r.val = 512 * ((nChunk * (r.val / 512) + j) / nChunk) + r.val % 512; omega) rfl).trans (hH r k)
    have e1 : ∀ k : Fin 1024, (iblk1 V c 1 ⟨nChunk * (r.val / 512) + j, h⟩ : Vec Ideal S2000x1024 .bf16) (ix2 q k) = W ⟨tokLo1 + 2000 * j + q.val, hv⟩ k := fun k =>
      (iblk1_1_apply V c ⟨nChunk * (r.val / 512) + j, h⟩ (ix2 q k) (ix2 ⟨tokLo1 + 2000 * j + q.val, hv⟩ k)
        (by show tokLo1 + 2000 * j + q.val = 2000 * (colLo1 + (nChunk * (r.val / 512) + j) % nChunk) + q.val; omega) rfl).trans (hW _ k)
    have e2 : (iblk1 V c 2 ⟨nChunk * (r.val / 512) + j, h⟩ : Vec Ideal S1x1x2000 .f32) (ix3 0 0 q) = b ⟨tokLo1 + 2000 * j + q.val, hv⟩ :=
      ((iblk1_2_apply V c ⟨nChunk * (r.val / 512) + j, h⟩ (ix3 0 0 q) (ix3 ⟨colLo1 + j, by omega⟩ 0 q)
        (by show colLo1 + j = colLo1 + (nChunk * (r.val / 512) + j) % nChunk; omega) rfl).trans (hb ⟨colLo1 + j, by omega⟩ q)).trans
        (congrArg b (Fin.ext (by show 2000 * (colLo1 + j) + q.val = tokLo1 + 2000 * j + q.val; omega)))
    unfold iblk1_logits
    refine (blkLogit_eq (iblk1 V c 0 ⟨nChunk * (r.val / 512) + j, h⟩) (iblk1 V c 1 ⟨nChunk * (r.val / 512) + j, h⟩) (iblk1 V c 2 ⟨nChunk * (r.val / 512) + j, h⟩)
      ⟨r.val % 512, Nat.mod_lt _ (by decide)⟩ q (H r) (W ⟨tokLo1 + 2000 * j + q.val, hv⟩) (b ⟨tokLo1 + 2000 * j + q.val, hv⟩) e0 e1 e2).trans ?_
    show _ = Spec.logitE H W b r (tokLo1 + 2000 * j + q.val)
    unfold Spec.logitE
    rw [dif_pos hv]
  ·
    intro j h hj
    have hjm : (nChunk * (r.val / 512) + j) % nChunk = j := by omega
    have e3 : (iblk1 V c 3 ⟨nChunk * (r.val / 512) + j, h⟩ : Vec Ideal S512x1 .i32) (ix2 ⟨r.val % 512, Nat.mod_lt _ (by decide)⟩ 0) = T r :=
      (iblk1_3_apply V c ⟨nChunk * (r.val / 512) + j, h⟩ (ix2 ⟨r.val % 512, Nat.mod_lt _ (by decide)⟩ 0) (ix2 r 0)
        (by show r.val = 512 * ((nChunk * (r.val / 512) + j) / nChunk) + r.val % 512; omega)).trans (hT r)
    unfold iblk1_hit
    rw [e3, hjm]

end Cert.KernelIdeal.Hand

end
-- ==== Proof.K2Step.lean ====
import proofs.«429997_j76270029243071_3_alg».proof.Proof.KStepLib
import proofs.«429997_j76270029243071_3_alg».proof.Proof.R2Data
import proofs.«429997_j76270029243071_3_alg».proof.Proof.Spec2

noncomputable section

namespace Cert.KernelIdeal.Hand

open Cert.KernelIdeal Cert.KernelIdeal.Gen Idealize.ShloMosaic Idealize.ShloMosaic.ValueIdx

abbrev tokLo2 : ℕ := 40000

abbrev colLo2 : ℕ := 20

section Values
variable (x0 : Vec Ideal S512x1024 .bf16) (x1 : Vec Ideal S2000x1024 .bf16) (x2 : Vec Ideal S1x1x2000 .f32)

theorem k2_pay7_apply (p : Fin 512) (q : Fin 2000) :
    k2_pay7 (F := Ideal) x0 x1 x2 (ix2 p q) = blkLogit x0 x1 x2 p q := by
  unfold k2_pay7 blkLogit
  rw [shapeCast_self, shapeCast_self, addf_apply, blk_matmul_apply, broadcastTo_1b_ab_apply, shapeCast_1ab_ab_apply]
  refine congrArg (· + _) (Finset.sum_congr rfl fun k _ => ?_)
  rw [transpose_ix2_apply]

theorem k2_pay9_apply (m : Vec Ideal S512x1 .f32) (p : Fin 512) :
    k2_pay9 (F := Ideal) x0 x1 x2 m (ix2 p 0) = max (m (ix2 p 0)) (Spec.chunkMax (blkLogit x0 x1 x2 p)) := by
  unfold k2_pay9
  rw [maximumf_apply, shapeCast_a_a1_apply, rowMax_apply]
  simp only [k2_pay7_apply]
  rfl

theorem k2_pay10_apply (m m' : Vec Ideal S512x1 .f32) (p : Fin 512) :
    k2_pay10 (F := Ideal) x0 x1 x2 m m' (ix2 p 0)
      = Ideal.exp (m' (ix2 p 0) - max (m (ix2 p 0)) (Spec.chunkMax (blkLogit x0 x1 x2 p))) := by
  unfold k2_pay10
  rw [exp_apply, subf_apply, k2_pay9_apply]

theorem k2_pay1_apply (v12 : FVec Ideal S512x2000 .f32) (v30 v33 : FVec Ideal S512x1 .f32) (v34 : Vec Ideal S512x1 .f32) (p : Fin 512) :
    k2_pay1 (F := Ideal) v12 v30 v33 v34 (ix2 p 0)
      = v33 (ix2 p 0) * v34 (ix2 p 0) + ∑ q : Fin 2000, Ideal.exp (v12 (ix2 p q) - v30 (ix2 p 0)) := by
  unfold k2_pay1
  rw [shapeCast_self, addf_apply, mulf_apply, shapeCast_a_a1_apply, rowSum_apply]
  refine congrArg (_ + ·) (Finset.sum_congr rfl fun q _ => ?_)
  rw [exp_apply, subf_apply, broadcastTo_a1_ab_apply]

theorem k2_pay2_apply (v30 : FVec Ideal S512x1 .f32) (j : S512x1.Idx) : k2_pay2 (F := Ideal) v30 j = v30 j := by
  unfold k2_pay2
  rw [shapeCast_self]

theorem k2_pay3_apply (v26 : FVec Ideal S512x1 .f32) (v48 : Vec Ideal S512x1 .f32) (j : S512x1.Idx) :
    k2_pay3 (F := Ideal) v26 v48 j = v48 j + v26 j := by
  unfold k2_pay3
  rw [shapeCast_self, addf_apply]

theorem k2_pay8_apply (i : grid2.Coords) (x3 : Vec Ideal S512x1 .i32) (p : Fin 512) :
    k2_pay8 (F := Ideal) i x0 x1 x2 x3 (ix2 p 0)
      = ∑ q : Fin 2000, (if Spec.hitZ (x3 (ix2 p 0)).toInt tokLo2 (i 1).val q then blkLogit x0 x1 x2 p q else 0) := by
  have hj : (i 1).val < 10 := lt_of_lt_of_le (i 1).isLt (by decide)
  have hlo : tokLo2 ≤ 40000 := by decide
  unfold k2_pay8
  dsimp only
  rw [shapeCast_a_a1_apply, rowSum_apply]
  refine Finset.sum_congr rfl fun q _ => ?_
  rw [select_apply, cmpi_apply, addi_apply, iota_single_apply, broadcastTo_a1_ab_apply, subi_apply, shapeCast_self,
    k2_pay7_apply, select_cmpi_eq]
  refine if_congr ?_ rfl Ideal.ofBits_zero_f32
  refine (hit_word tokLo2 (i 1).val q.val (x3 (ix2 p 0)) ?_).trans decide_eq_true_iff.symm
  have hq := q.isLt
  omega

end Values

theorem colsInit2_row (p : Fin 512) :
    Spec.St.mk ((colsInit2 (F := Ideal)).m (ix2 p 0)) ((colsInit2 (F := Ideal)).l (ix2 p 0)) ((colsInit2 (F := Ideal)).s (ix2 p 0)) = Spec.St.init := by
  have hm : (colsInit2 (F := Ideal)).m (ix2 p 0) = Spec.negBig := by
    show k2_pay4 (F := Ideal) (ix2 p 0) = _
    unfold k2_pay4
    rw [shapeCast_self, broadcast_apply]
    rfl
  have hl : (colsInit2 (F := Ideal)).l (ix2 p 0) = 0 := by
    show k2_pay5 (F := Ideal) (ix2 p 0) = _
    unfold k2_pay5
    rw [shapeCast_self, broadcast_apply]
    exact Ideal.ofBits_zero_f32
  have hs : (colsInit2 (F := Ideal)).s (ix2 p 0) = 0 := by
    show k2_pay6 (F := Ideal) (ix2 p 0) = _
    unfold k2_pay6
    rw [shapeCast_self, broadcast_apply]
    exact Ideal.ofBits_zero_f32
  rw [hm, hl, hs]
  rfl

theorem colsStep2_row (i : grid2.Coords) (x0 : Vec Ideal S512x1024 .bf16) (x1 : Vec Ideal S2000x1024 .bf16) (x2 : Vec Ideal S1x1x2000 .f32)
    (x3 : Vec Ideal S512x1 .i32) (σ : Cols2 Ideal) (p : Fin 512) :
    Spec.St.mk ((colsStep2 i x0 x1 x2 x3 σ).m (ix2 p 0)) ((colsStep2 i x0 x1 x2 x3 σ).l (ix2 p 0)) ((colsStep2 i x0 x1 x2 x3 σ).s (ix2 p 0))
      = Spec.St.step (blkLogit x0 x1 x2 p) (Spec.hitZ (x3 (ix2 p 0)).toInt tokLo2 (i 1).val) ⟨σ.m (ix2 p 0), σ.l (ix2 p 0), σ.s (ix2 p 0)⟩ := by
  have hm : (colsStep2 i x0 x1 x2 x3 σ).m (ix2 p 0) = max (σ.m (ix2 p 0)) (Spec.chunkMax (blkLogit x0 x1 x2 p)) := by
    show k2_pay2 (F := Ideal) (k2_pay9 x0 x1 x2 σ.m) (ix2 p 0) = _
    rw [k2_pay2_apply, k2_pay9_apply]
  have hl : (colsStep2 i x0 x1 x2 x3 σ).l (ix2 p 0)
      = Ideal.exp (σ.m (ix2 p 0) - max (σ.m (ix2 p 0)) (Spec.chunkMax (blkLogit x0 x1 x2 p))) * σ.l (ix2 p 0)
        + ∑ q : Fin 2000, Ideal.exp (blkLogit x0 x1 x2 p q - max (σ.m (ix2 p 0)) (Spec.chunkMax (blkLogit x0 x1 x2 p))) := by
    show k2_pay1 (F := Ideal) (k2_pay7 x0 x1 x2) (k2_pay9 x0 x1 x2 σ.m) (k2_pay10 x0 x1 x2 σ.m σ.m) σ.l (ix2 p 0) = _
    rw [k2_pay1_apply, k2_pay10_apply, k2_pay9_apply]
    simp only [k2_pay7_apply]
  have hs : (colsStep2 i x0 x1 x2 x3 σ).s (ix2 p 0)
      = σ.s (ix2 p 0) + ∑ q : Fin 2000, (if Spec.hitZ (x3 (ix2 p 0)).toInt tokLo2 (i 1).val q then blkLogit x0 x1 x2 p q else 0) := by
    show k2_pay3 (F := Ideal) (k2_pay8 i x0 x1 x2 x3) σ.s (ix2 p 0) = _
    rw [k2_pay3_apply, k2_pay8_apply]
  rw [hm, hl, hs]
  rfl

end Cert.KernelIdeal.Hand

end
-- ==== Proof.R2Value.lean ====
import proofs.«429997_j76270029243071_3_alg».proof.Proof.K2Step

set_option maxRecDepth 16384

noncomputable section

namespace Cert.KernelIdeal.Hand

open Idealize.ShloMosaic Idealize.ShloMosaic.TcCoe
open Idealize.ShloMosaic.Pipeline (Dat)
open Cert.KernelIdeal Cert.KernelIdeal.Gen Idealize.ShloMosaic.ValueIdx

local notation "nChunk" => (5 : ℕ)
local notation "lastChunk" => (4 : ℕ)
local notation "nPoint" => (40 : ℕ)

theorem tokLo2_eq : tokLo2 = 2000 * colLo2 := by decide

theorem colLo2_le : colLo2 + nChunk ≤ 25 := by decide

theorem iblk2_coord : ∀ t : Fin cfg2.N, ((grid2.coords t) 1).val = t.val % nChunk :=
  (by decide +kernel : ∀ t : Fin grid2.N, ((grid2.coords t) 1).val = t.val % nChunk)

theorem iblk2_idx_0 : ∀ t : Fin cfg2.N, win2_0.index t 0 = t.val / nChunk ∧ win2_0.index t 1 = 0 :=
  (by decide +kernel : ∀ t : Fin grid2.N, win2_0.index t 0 = t.val / nChunk ∧ win2_0.index t 1 = 0)
theorem iblk2_idx_1 : ∀ t : Fin cfg2.N, win2_1.index t 0 = colLo2 + t.val % nChunk ∧ win2_1.index t 1 = 0 :=
  (by decide +kernel : ∀ t : Fin grid2.N, win2_1.index t 0 = colLo2 + t.val % nChunk ∧ win2_1.index t 1 = 0)
theorem iblk2_idx_2 : ∀ t : Fin cfg2.N, win2_2.index t 0 = colLo2 + t.val % nChunk ∧ win2_2.index t 1 = 0 ∧ win2_2.index t 2 = 0 :=
  (by decide +kernel : ∀ t : Fin grid2.N, win2_2.index t 0 = colLo2 + t.val % nChunk ∧ win2_2.index t 1 = 0 ∧ win2_2.index t 2 = 0)
theorem iblk2_idx_3 : ∀ t : Fin cfg2.N, win2_3.index t 0 = t.val / nChunk ∧ win2_3.index t 1 = 0 :=
  (by decide +kernel : ∀ t : Fin grid2.N, win2_3.index t 0 = t.val / nChunk ∧ win2_3.index t 1 = 0)

theorem arrAt2_idx_4 : ∀ t : Fin cfg2.N, win2_4.index t 0 = t.val / nChunk ∧ win2_4.index t 1 = 0 :=
  (by decide +kernel : ∀ t : Fin grid2.N, win2_4.index t 0 = t.val / nChunk ∧ win2_4.index t 1 = 0)
theorem arrAt2_idx_5 : ∀ t : Fin cfg2.N, win2_5.index t 0 = t.val / nChunk ∧ win2_5.index t 1 = 0 :=
  (by decide +kernel : ∀ t : Fin grid2.N, win2_5.index t 0 = t.val / nChunk ∧ win2_5.index t 1 = 0)
theorem arrAt2_idx_6 : ∀ t : Fin cfg2.N, win2_6.index t 0 = t.val / nChunk ∧ win2_6.index t 1 = 0 :=
  (by decide +kernel : ∀ t : Fin grid2.N, win2_6.index t 0 = t.val / nChunk ∧ win2_6.index t 1 = 0)

section
variable (V : (c : Dev nD) → (b : Ref sig .tc) → Buf (Elt Ideal) ((c : Thread nD τ).loc b))

theorem iblk2_0_apply (c : Dev nD) (t : Fin cfg2.N) (y : S512x1024.Idx) (k : S4096x1024.Idx)
    (hk0 : (k 0).val = 512 * (t.val / nChunk) + (y 0).val) (hk1 : (k 1).val = (y 1).val) :
    (iblk2 V c 0 t : Vec Ideal S512x1024 .bf16) y = (V c (Pipeline.arrRef spec2 0) : S4096x1024.Idx → EReal) k := by
  unfold iblk2
  rw [View.read_apply]
  show (V c (Pipeline.arrRef spec2 0) : S4096x1024.Idx → EReal) (((cfg2.win 0).blk t).view.emb y) = (V c (Pipeline.arrRef spec2 0) : S4096x1024.Idx → EReal) k
  congr 1
  funext a
  apply Fin.ext
  match a with
  | ⟨0, _⟩ => show win2_0.index t 0 * 512 + 1 * (y 0).val = (k 0).val; rw [(iblk2_idx_0 t).1, hk0]; omega
  | ⟨1, _⟩ => show win2_0.index t 1 * 1024 + 1 * (y 1).val = (k 1).val; rw [(iblk2_idx_0 t).2, hk1]; omega

theorem iblk2_1_apply (c : Dev nD) (t : Fin cfg2.N) (y : S2000x1024.Idx) (k : S50000x1024.Idx)
    (hk0 : (k 0).val = 2000 * (colLo2 + t.val % nChunk) + (y 0).val) (hk1 : (k 1).val = (y 1).val) :
    (iblk2 V c 1 t : Vec Ideal S2000x1024 .bf16) y = (V c (Pipeline.arrRef spec2 1) : S50000x1024.Idx → EReal) k := by
  unfold iblk2
  rw [View.read_apply]
  show (V c (Pipeline.arrRef spec2 1) : S50000x1024.Idx → EReal) (((cfg2.win 1).blk t).view.emb y) = (V c (Pipeline.arrRef spec2 1) : S50000x1024.Idx → EReal) k
  congr 1
  funext a
  apply Fin.ext
  match a with
  | ⟨0, _⟩ => show win2_1.index t 0 * 2000 + 1 * (y 0).val = (k 0).val; rw [(iblk2_idx_1 t).1, hk0]; omega
  | ⟨1, _⟩ => show win2_1.index t 1 * 1024 + 1 * (y 1).val = (k 1).val; rw [(iblk2_idx_1 t).2, hk1]; omega

theorem iblk2_2_apply (c : Dev nD) (t : Fin cfg2.N) (y : S1x1x2000.Idx) (k : S25x1x2000.Idx)
    (hk0 : (k 0).val = colLo2 + t.val % nChunk) (hk2 : (k 2).val = (y 2).val) :
    (iblk2 V c 2 t : Vec Ideal S1x1x2000 .f32) y = (V c (Pipeline.arrRef spec2 2) : S25x1x2000.Idx → EReal) k := by
  unfold iblk2
  rw [View.read_apply]
  show (V c (Pipeline.arrRef spec2 2) : S25x1x2000.Idx → EReal) (((cfg2.win 2).blk t).view.emb y) = (V c (Pipeline.arrRef spec2 2) : S25x1x2000.Idx → EReal) k
  congr 1
  funext a
  apply Fin.ext
  have hy0 : (y 0).val = 0 := by have h : (y 0).val < 1 := (y 0).isLt; omega
  have hy1 : (y 1).val = 0 := by have h : (y 1).val < 1 := (y 1).isLt; omega
  have hk1 : (k 1).val = 0 := by have h : (k 1).val < 1 := (k 1).isLt; omega
  match a with
  | ⟨0, _⟩ => show win2_2.index t 0 * 1 + 1 * (y 0).val = (k 0).val; rw [(iblk2_idx_2 t).1, hk0, hy0]; omega
  | ⟨1, _⟩ => show win2_2.index t 1 * 1 + 1 * (y 1).val = (k 1).val; rw [(iblk2_idx_2 t).2.1, hk1, hy1]
  | ⟨2, _⟩ => show win2_2.index t 2 * 2000 + 1 * (y 2).val = (k 2).val; rw [(iblk2_idx_2 t).2.2, hk2]; omega

theorem iblk2_3_apply (c : Dev nD) (t : Fin cfg2.N) (y : S512x1.Idx) (k : S4096x1.Idx)
    (hk0 : (k 0).val = 512 * (t.val / nChunk) + (y 0).val) :
    (iblk2 V c 3 t : Vec Ideal S512x1 .i32) y = (V c (Pipeline.arrRef spec2 3) : S4096x1.Idx → BitVec 32) k := by
  unfold iblk2
  rw [View.read_apply]
  show (V c (Pipeline.arrRef spec2 3) : S4096x1.Idx → BitVec 32) (((cfg2.win 3).blk t).view.emb y) = (V c (Pipeline.arrRef spec2 3) : S4096x1.Idx → BitVec 32) k
  congr 1
  funext a
  apply Fin.ext
  have hy1 : (y 1).val = 0 := by have h : (y 1).val < 1 := (y 1).isLt; omega
  have hk1 : (k 1).val = 0 := by have h : (k 1).val < 1 := (k 1).isLt; omega
  match a with
  | ⟨0, _⟩ => show win2_3.index t 0 * 512 + 1 * (y 0).val = (k 0).val; rw [(iblk2_idx_3 t).1, hk0]; omega
  | ⟨1, _⟩ => show win2_3.index t 1 * 1 + 1 * (y 1).val = (k 1).val; rw [(iblk2_idx_3 t).2, hk1, hy1]

end

section
variable (V : (c : Dev nD) → (b : Ref sig .tc) → Buf (Elt Ideal) ((c : Thread nD τ).loc b))

def Cols2.row (σ : Cols2 Ideal) (p : Fin 512) : Spec.St := ⟨σ.m (ix2 p 0), σ.l (ix2 p 0), σ.s (ix2 p 0)⟩

theorem colsAt2_congr (c : Dev nD) {n n' : ℕ} (e : n = n') (h : n < cfg2.N) (h' : n' < cfg2.N) :
    colsAt2 V c n h = colsAt2 V c n' h' := by subst e; rfl

def iblk2_logits (c : Dev nD) (p : Fin 512) (n : ℕ) (hn : n < cfg2.N) : Fin 2000 → EReal :=
  blkLogit (iblk2 V c 0 ⟨n, hn⟩) (iblk2 V c 1 ⟨n, hn⟩) (iblk2 V c 2 ⟨n, hn⟩) p
def iblk2_hit (c : Dev nD) (p : Fin 512) (n : ℕ) (hn : n < cfg2.N) : Fin 2000 → Bool :=
  Spec.hitZ ((iblk2 V c 3 ⟨n, hn⟩ : Vec Ideal S512x1 .i32) (ix2 p 0)).toInt tokLo2 (n % nChunk)

theorem colsAt2_row_first (c : Dev nD) (t : Fin cfg2.N) (h0 : t.val % nChunk = 0) (p : Fin 512) :
    (colsAt2 V c t.val t.isLt).row p = Spec.St.step (iblk2_logits V c p t.val t.isLt) (iblk2_hit V c p t.val t.isLt) Spec.St.init := by
  rw [colsAt2_first V c t h0]
  refine (colsStep2_row (grid2.coords t) (iblk2 V c 0 t) (iblk2 V c 1 t) (iblk2 V c 2 t) (iblk2 V c 3 t) colsInit2 p).trans ?_
  rw [colsInit2_row p, iblk2_coord t]
  rfl

theorem colsAt2_row_next (c : Dev nD) (t : Fin cfg2.N) (h0 : ¬t.val % nChunk = 0) (p : Fin 512) :
    (colsAt2 V c t.val t.isLt).row p
      = Spec.St.step (iblk2_logits V c p t.val t.isLt) (iblk2_hit V c p t.val t.isLt)
          ((colsAt2 V c (t.val - 1) (Nat.lt_of_le_of_lt (Nat.sub_le _ _) t.isLt)).row p) := by
  rw [colsAt2_next V c t h0]
  refine (colsStep2_row (grid2.coords t) (iblk2 V c 0 t) (iblk2 V c 1 t) (iblk2 V c 2 t) (iblk2 V c 3 t)
    (colsAt2 V c (t.val - 1) (Nat.lt_of_le_of_lt (Nat.sub_le _ _) t.isLt)) p).trans ?_
  rw [iblk2_coord t]
  rfl

theorem colsAt2_row_run (c : Dev nD) (q : ℕ) (p : Fin 512) (X : ℕ → Fin 2000 → EReal) (hit : ℕ → Fin 2000 → Bool)
    (hX : ∀ (j : ℕ) (h : nChunk * q + j < cfg2.N), j < nChunk → iblk2_logits V c p (nChunk * q + j) h = X j)
    (hhit : ∀ (j : ℕ) (h : nChunk * q + j < cfg2.N), j < nChunk → iblk2_hit V c p (nChunk * q + j) h = hit j) :
    ∀ (j : ℕ) (h : nChunk * q + j < cfg2.N), j < nChunk → (colsAt2 V c (nChunk * q + j) h).row p = Spec.St.run X hit (j + 1)
  | 0, h, _ => by
    have e := colsAt2_row_first V c ⟨nChunk * q + 0, h⟩ (by show (nChunk * q + 0) % nChunk = 0; omega) p
    dsimp only at e
    rw [hX 0 h (by omega), hhit 0 h (by omega)] at e
    exact e
  | j + 1, h, hj => by
    have ih := colsAt2_row_run c q p X hit hX hhit j (by omega) (by omega)
    have e := colsAt2_row_next V c ⟨nChunk * q + (j + 1), h⟩ (by show ¬(nChunk * q + (j + 1)) % nChunk = 0; omega) p
    dsimp only at e
    rw [hX (j + 1) h hj, hhit (j + 1) h hj, colsAt2_congr V c (show nChunk * q + (j + 1) - 1 = nChunk * q + j by omega) _ (by omega), ih] at e
    exact e

end

section
variable (V : (c : Dev nD) → (b : Ref sig .tc) → Buf (Elt Ideal) ((c : Thread nD τ).loc b))

theorem arrAt2_pt_lt (r : ℕ) (hr : r < 4096) : nChunk * (r / 512) + lastChunk < cfg2.N := by
  rw [show cfg2.N = nPoint from N_2]; omega

def arrAt2_col (c : Dev nD) (sel : Cols2 Ideal → Vec Ideal S512x1 .f32) : S4096x1.Idx → EReal := fun k =>
  sel (colsAt2 V c (nChunk * ((k 0).val / 512) + lastChunk) (arrAt2_pt_lt _ (k 0).isLt)) (ix2 ⟨(k 0).val % 512, Nat.mod_lt _ (by decide)⟩ (k 1))

theorem arrAt2_col_apply (c : Dev nD) (sel : Cols2 Ideal → Vec Ideal S512x1 .f32) (k : S4096x1.Idx) (n : ℕ) (hn : n < cfg2.N)
    (y : S512x1.Idx) (h1 : nChunk * ((k 0).val / 512) + lastChunk = n) (h2 : (k 0).val % 512 = (y 0).val) :
    arrAt2_col V c sel k = sel (colsAt2 V c n hn) y := by
  have e1 : colsAt2 V c (nChunk * ((k 0).val / 512) + lastChunk) (arrAt2_pt_lt _ (k 0).isLt) = colsAt2 V c n hn := colsAt2_congr V c h1 _ _
  have e2 : (ix2 ⟨(k 0).val % 512, Nat.mod_lt _ (by decide)⟩ (k 1) : S512x1.Idx) = y := by
    funext a
    apply Fin.ext
    match a with
    | ⟨0, _⟩ => exact h2
    | ⟨1, _⟩ =>
      have hy1 : (y 1).val < 1 := (y 1).isLt
      have hk1 : (k 1).val < 1 := (k 1).isLt
      show (k 1).val = (y 1).val
      omega
  show sel (colsAt2 V c (nChunk * ((k 0).val / 512) + lastChunk) _) (ix2 ⟨(k 0).val % 512, _⟩ (k 1)) = _
  rw [e1, e2]

theorem arrAt2_flushed_4 (c : Dev nD) (t : Fin cfg2.N) (hf : (cfg2.win 4).flush t = true) :
    (dat2 V c).flushed 4 t = ((cfg2.win 4).blk t).view.read (Elt Ideal) (arrAt2_col V c Cols2.m) := by
  have h9 : t.val % nChunk = lastChunk := (flush2_4 t).mp hf
  show (cfg2.win 4).cut (grid2.coords t) ((dat2 V c).after 4 t) = _
  rw [after2_4]
  funext y
  rw [View.read_apply]
  have e0 : ((((cfg2.win 4).blk t).view.emb y) 0).val = win2_4.index t 0 * 512 + 1 * (y 0).val := rfl
  have hy0 : (y 0).val < 512 := (y 0).isLt
  refine (arrAt2_col_apply V c Cols2.m (((cfg2.win 4).blk t).view.emb y) t.val t.isLt y ?_ ?_).symm
  · rw [e0, (arrAt2_idx_4 t).1]; omega
  · rw [e0, (arrAt2_idx_4 t).1]; omega

theorem arrAt2_flushed_5 (c : Dev nD) (t : Fin cfg2.N) (hf : (cfg2.win 5).flush t = true) :
    (dat2 V c).flushed 5 t = ((cfg2.win 5).blk t).view.read (Elt Ideal) (arrAt2_col V c Cols2.l) := by
  have h9 : t.val % nChunk = lastChunk := (flush2_5 t).mp hf
  show (cfg2.win 5).cut (grid2.coords t) ((dat2 V c).after 5 t) = _
  rw [after2_5]
  funext y
  rw [View.read_apply]
  have e0 : ((((cfg2.win 5).blk t).view.emb y) 0).val = win2_5.index t 0 * 512 + 1 * (y 0).val := rfl
  have hy0 : (y 0).val < 512 := (y 0).isLt
  refine (arrAt2_col_apply V c Cols2.l (((cfg2.win 5).blk t).view.emb y) t.val t.isLt y ?_ ?_).symm
  · rw [e0, (arrAt2_idx_5 t).1]; omega
  · rw [e0, (arrAt2_idx_5 t).1]; omega

theorem arrAt2_flushed_6 (c : Dev nD) (t : Fin cfg2.N) (hf : (cfg2.win 6).flush t = true) :
    (dat2 V c).flushed 6 t = ((cfg2.win 6).blk t).view.read (Elt Ideal) (arrAt2_col V c Cols2.s) := by
  have h9 : t.val % nChunk = lastChunk := (flush2_6 t).mp hf
  show (cfg2.win 6).cut (grid2.coords t) ((dat2 V c).after 6 t) = _
  rw [after2_6]
  funext y
  rw [View.read_apply]
  have e0 : ((((cfg2.win 6).blk t).view.emb y) 0).val = win2_6.index t 0 * 512 + 1 * (y 0).val := rfl
  have hy0 : (y 0).val < 512 := (y 0).isLt
  refine (arrAt2_col_apply V c Cols2.s (((cfg2.win 6).blk t).view.emb y) t.val t.isLt y ?_ ?_).symm
  · rw [e0, (arrAt2_idx_6 t).1]; omega
  · rw [e0, (arrAt2_idx_6 t).1]; omega

theorem arrAt2_mem_4 (t : Fin cfg2.N) (k : S4096x1.Idx) (h : (k 0).val / 512 = t.val / nChunk) : k ∈ ((cfg2.win 4).blk t).view.set := by
  show k ∈ ((View.whole (Pipeline.arrRef spec2 4)).slice (win2_4.rect t)).set
  rw [View.set_slice_whole, Rect.mem_set_unit]
  intro a
  have hk1 : (k 1).val < 1 := (k 1).isLt
  match a with
  | ⟨0, _⟩ =>
    show win2_4.index t 0 * 512 ≤ (k 0).val ∧ (k 0).val < win2_4.index t 0 * 512 + 512
    rw [(arrAt2_idx_4 t).1]; omega
  | ⟨1, _⟩ =>
    show win2_4.index t 1 * 1 ≤ (k 1).val ∧ (k 1).val < win2_4.index t 1 * 1 + 1
    rw [(arrAt2_idx_4 t).2]; omega
theorem arrAt2_mem_5 (t : Fin cfg2.N) (k : S4096x1.Idx) (h : (k 0).val / 512 = t.val / nChunk) : k ∈ ((cfg2.win 5).blk t).view.set := by
  show k ∈ ((View.whole (Pipeline.arrRef spec2 5)).slice (win2_5.rect t)).set
  rw [View.set_slice_whole, Rect.mem_set_unit]
  intro a
  have hk1 : (k 1).val < 1 := (k 1).isLt
  match a with
  | ⟨0, _⟩ =>
    show win2_5.index t 0 * 512 ≤ (k 0).val ∧ (k 0).val < win2_5.index t 0 * 512 + 512
    rw [(arrAt2_idx_5 t).1]; omega
  | ⟨1, _⟩ =>
    show win2_5.index t 1 * 1 ≤ (k 1).val ∧ (k 1).val < win2_5.index t 1 * 1 + 1
    rw [(arrAt2_idx_5 t).2]; omega
theorem arrAt2_mem_6 (t : Fin cfg2.N) (k : S4096x1.Idx) (h : (k 0).val / 512 = t.val / nChunk) : k ∈ ((cfg2.win 6).blk t).view.set := by
  show k ∈ ((View.whole (Pipeline.arrRef spec2 6)).slice (win2_6.rect t)).set
  rw [View.set_slice_whole, Rect.mem_set_unit]
  intro a
  have hk1 : (k 1).val < 1 := (k 1).isLt
  match a with
  | ⟨0, _⟩ =>
    show win2_6.index t 0 * 512 ≤ (k 0).val ∧ (k 0).val < win2_6.index t 0 * 512 + 512
    rw [(arrAt2_idx_6 t).1]; omega
  | ⟨1, _⟩ =>
    show win2_6.index t 1 * 1 ≤ (k 1).val ∧ (k 1).val < win2_6.index t 1 * 1 + 1
    rw [(arrAt2_idx_6 t).2]; omega

theorem arrAt2_row (c : Dev nD) (r : Fin 4096) :
    Spec.St.mk (((dat2 V c).arrAt 4 cfg2.N : S4096x1.Idx → EReal) (ix2 r 0)) (((dat2 V c).arrAt 5 cfg2.N : S4096x1.Idx → EReal) (ix2 r 0))
        (((dat2 V c).arrAt 6 cfg2.N : S4096x1.Idx → EReal) (ix2 r 0))
      = (colsAt2 V c (nChunk * (r.val / 512) + lastChunk) (arrAt2_pt_lt _ r.isLt)).row ⟨r.val % 512, Nat.mod_lt _ (by decide)⟩ := by
  have hN : cfg2.N = nPoint := N_2
  have hr : r.val < 4096 := r.isLt
  have ht9 : (nChunk * (r.val / 512) + lastChunk) % nChunk = lastChunk := by omega
  have htq : r.val / 512 = (nChunk * (r.val / 512) + lastChunk) / nChunk := by omega
  have e4 := (dat2 V c).arrAt_apply_of_mem 4 (arrAt2_col V c Cols2.m) (arrAt2_flushed_4 V c) cfg2.N ⟨nChunk * (r.val / 512) + lastChunk, arrAt2_pt_lt _ r.isLt⟩ (ix2 r 0)
    (arrAt2_pt_lt _ r.isLt) ((flush2_4 _).mpr ht9) (arrAt2_mem_4 _ (ix2 r 0) htq)
  have e5 := (dat2 V c).arrAt_apply_of_mem 5 (arrAt2_col V c Cols2.l) (arrAt2_flushed_5 V c) cfg2.N ⟨nChunk * (r.val / 512) + lastChunk, arrAt2_pt_lt _ r.isLt⟩ (ix2 r 0)
    (arrAt2_pt_lt _ r.isLt) ((flush2_5 _).mpr ht9) (arrAt2_mem_5 _ (ix2 r 0) htq)
  have e6 := (dat2 V c).arrAt_apply_of_mem 6 (arrAt2_col V c Cols2.s) (arrAt2_flushed_6 V c) cfg2.N ⟨nChunk * (r.val / 512) + lastChunk, arrAt2_pt_lt _ r.isLt⟩ (ix2 r 0)
    (arrAt2_pt_lt _ r.isLt) ((flush2_6 _).mpr ht9) (arrAt2_mem_6 _ (ix2 r 0) htq)
  rw [e4, e5, e6]
  rfl

end

private theorem blkLogit_eq (x0 : Vec Ideal S512x1024 .bf16) (x1 : Vec Ideal S2000x1024 .bf16) (x2 : Vec Ideal S1x1x2000 .f32) (p : Fin 512) (q : Fin 2000)
    (Hr Wv : Fin 1024 → EReal) (bv : EReal) (e0 : ∀ k, x0 (ix2 p k) = Hr k) (e1 : ∀ k, x1 (ix2 q k) = Wv k) (e2 : x2 (ix3 0 0 q) = bv) :
    blkLogit x0 x1 x2 p q = (∑ k : Fin 1024, Hr k * Wv k) + bv := by
  unfold blkLogit
  rw [e2]
  congr 1
  exact Finset.sum_congr rfl fun k _ => by rw [e0 k, e1 k]

theorem out2_row (V : (c : Dev nD) → (b : Ref sig .tc) → Buf (Elt Ideal) ((c : Thread nD τ).loc b)) (c : Dev nD)
    (H : Fin 4096 → Fin 1024 → EReal) (W : Fin 50000 → Fin 1024 → EReal) (b : Fin 50000 → EReal) (T : Fin 4096 → BitVec 32)
    (hH : ∀ r k, (V c (Pipeline.arrRef spec2 0) : S4096x1024.Idx → EReal) (ix2 r k) = H r k)
    (hW : ∀ v k, (V c (Pipeline.arrRef spec2 1) : S50000x1024.Idx → EReal) (ix2 v k) = W v k)
    (hb : ∀ (a : Fin 25) (q : Fin 2000), (V c (Pipeline.arrRef spec2 2) : S25x1x2000.Idx → EReal) (ix3 a 0 q) = b ⟨2000 * a.val + q.val, by omega⟩)
    (hT : ∀ r, (V c (Pipeline.arrRef spec2 3) : S4096x1.Idx → BitVec 32) (ix2 r 0) = T r) (r : Fin 4096) :
    Spec.St.mk (((dat2 V c).arrAt 4 cfg2.N : S4096x1.Idx → EReal) (ix2 r 0)) (((dat2 V c).arrAt 5 cfg2.N : S4096x1.Idx → EReal) (ix2 r 0))
        (((dat2 V c).arrAt 6 cfg2.N : S4096x1.Idx → EReal) (ix2 r 0))
      = Spec.St.run (Spec.chunkE (fun v => Spec.logitE H W b r v) tokLo2) (Spec.hitZ (T r).toInt tokLo2) nChunk := by
  have hN : cfg2.N = nPoint := N_2
  have hr : r.val < 4096 := r.isLt
  have hlo := tokLo2_eq
  have hcol := colLo2_le
  rw [arrAt2_row V c r]
  refine colsAt2_row_run V c (r.val / 512) ⟨r.val % 512, Nat.mod_lt _ (by decide)⟩ _ _ ?_ ?_ lastChunk _ (by omega)
  ·
    intro j h hj
    funext q
    have hq : q.val < 2000 := q.isLt
    have hv : tokLo2 + 2000 * j + q.val < 50000 := by omega
    have hjm : (nChunk * (r.val / 512) + j) % nChunk = j := by omega
    have hjd : (nChunk * (r.val / 512) + j) / nChunk = r.val / 512 := by omega
    have e0 : ∀ k : Fin 1024, (iblk2 V c 0 ⟨nChunk * (r.val / 512) + j, h⟩ : Vec Ideal S512x1024 .bf16) (ix2 ⟨r.val % 512, Nat.mod_lt _ (by decide)⟩ k) = H r k := fun k =>
      (iblk2_0_apply V c ⟨nChunk * (r.val / 512) + j, h⟩ (ix2 ⟨r.val % 512, Nat.mod_lt _ (by decide)⟩ k) (ix2 r k)
        (by show r.val = 512 * ((nChunk * (r.val / 512) + j) / nChunk) + r.val % 512; omega) rfl).trans (hH r k)
    have e1 : ∀ k : Fin 1024, (iblk2 V c 1 ⟨nChunk * (r.val / 512) + j, h⟩ : Vec Ideal S2000x1024 .bf16) (ix2 q k) = W ⟨tokLo2 + 2000 * j + q.val, hv⟩ k := fun k =>
      (iblk2_1_apply V c ⟨nChunk * (r.val / 512) + j, h⟩ (ix2 q k) (ix2 ⟨tokLo2 + 2000 * j + q.val, hv⟩ k)
        (by show tokLo2 + 2000 * j + q.val = 2000 * (colLo2 + (nChunk * (r.val / 512) + j) % nChunk) + q.val; omega) rfl).trans (hW _ k)
    have e2 : (iblk2 V c 2 ⟨nChunk * (r.val / 512) + j, h⟩ : Vec Ideal S1x1x2000 .f32) (ix3 0 0 q) = b ⟨tokLo2 + 2000 * j + q.val, hv⟩ :=
      ((iblk2_2_apply V c ⟨nChunk * (r.val / 512) + j, h⟩ (ix3 0 0 q) (ix3 ⟨colLo2 + j, by omega⟩ 0 q)
        (by show colLo2 + j = colLo2 + (nChunk * (r.val / 512) + j) % nChunk; omega) rfl).trans (hb ⟨colLo2 + j, by omega⟩ q)).trans
        (congrArg b (Fin.ext (by show 2000 * (colLo2 + j) + q.val = tokLo2 + 2000 * j + q.val; omega)))
    unfold iblk2_logits
    refine (blkLogit_eq (iblk2 V c 0 ⟨nChunk * (r.val / 512) + j, h⟩) (iblk2 V c 1 ⟨nChunk * (r.val / 512) + j, h⟩) (iblk2 V c 2 ⟨nChunk * (r.val / 512) + j, h⟩)
      ⟨r.val % 512, Nat.mod_lt _ (by decide)⟩ q (H r) (W ⟨tokLo2 + 2000 * j + q.val, hv⟩) (b ⟨tokLo2 + 2000 * j + q.val, hv⟩) e0 e1 e2).trans ?_
    show _ = Spec.logitE H W b r (tokLo2 + 2000 * j + q.val)
    unfold Spec.logitE
    rw [dif_pos hv]
  ·
    intro j h hj
    have hjm : (nChunk * (r.val / 512) + j) % nChunk = j := by omega
    have e3 : (iblk2 V c 3 ⟨nChunk * (r.val / 512) + j, h⟩ : Vec Ideal S512x1 .i32) (ix2 ⟨r.val % 512, Nat.mod_lt _ (by decide)⟩ 0) = T r :=
      (iblk2_3_apply V c ⟨nChunk * (r.val / 512) + j, h⟩ (ix2 ⟨r.val % 512, Nat.mod_lt _ (by decide)⟩ 0) (ix2 r 0)
        (by show r.val = 512 * ((nChunk * (r.val / 512) + j) / nChunk) + r.val % 512; omega)).trans (hT r)
    unfold iblk2_hit
    rw [e3, hjm]

end Cert.KernelIdeal.Hand

end
-- ==== Proof.KValue.lean ====
import proofs.«429997_j76270029243071_3_alg».proof.Proof.KSegs
import proofs.«429997_j76270029243071_3_alg».proof.Proof.KTail
import proofs.«429997_j76270029243071_3_alg».proof.Proof.KEntry
import proofs.«429997_j76270029243071_3_alg».proof.Proof.R0Value
import proofs.«429997_j76270029243071_3_alg».proof.Proof.R1Value
import proofs.«429997_j76270029243071_3_alg».proof.Proof.R2Value
import Idealize.ShloMosaic.Lib.Pipeline.FrameSuffix
import Idealize.ShloMosaic.Lib.ValueIdx

set_option maxRecDepth 16384

noncomputable section

namespace Cert.KernelIdeal.Hand

open Idealize.ShloMosaic Idealize.ShloMosaic.TcCoe
open Cert.KernelIdeal Cert.KernelIdeal.Gen ValueIdx

namespace KValue

section Value

variable (m : (ℓ : Loc nD τ sig) → Buf (Elt Ideal) ℓ) (c : Dev nD)

abbrev Hm : Fin 4096 → Fin 1024 → EReal := fun r k => (m ((c : Thread nD τ).loc main_arg0) : S4096x1024.Idx → EReal) (ix2 r k)
abbrev Wm : Fin 50000 → Fin 1024 → EReal := fun v k => (m ((c : Thread nD τ).loc main_arg2) : S50000x1024.Idx → EReal) (ix2 v k)
abbrev bm : Fin 50000 → EReal := fun v => (m ((c : Thread nD τ).loc main_arg3) : S50000.Idx → EReal) (ix1 v)
abbrev Tm : Fin 4096 → BitVec 32 := fun r => (m ((c : Thread nD τ).loc main_arg1) : S4096.Idx → BitVec 32) (ix1 r)

theorem outs_row0 (r : Fin 4096) :
    (⟨(outs m 2 main_v4_0 c : S4096x1.Idx → EReal) (ix2 r 0), (outs m 2 main_v4_1 c : S4096x1.Idx → EReal) (ix2 r 0),
        (outs m 2 main_v4_2 c : S4096x1.Idx → EReal) (ix2 r 0)⟩ : Spec.St)
      = Spec.St.run (Spec.chunkE (fun v => Spec.logitE (Hm m c) (Wm m c) (bm m c) r v) 0) (Spec.hitZ (Tm m c r).toInt 0) 10 := by
  have e4 : (outs m 2 main_v4_0 c : S4096x1.Idx → EReal) = ((dat0 (fun c b => V1 m c b) c).arrAt 4 cfg0.N : S4096x1.Idx → EReal) :=
    Pipeline.withArrays_arr spec0 launch0.win.arr_inj c (V1 m c) (fun w => (dat0 (fun c b => V1 m c b) c).arrAt w cfg0.N) 4
  have e5 : (outs m 2 main_v4_1 c : S4096x1.Idx → EReal) = ((dat0 (fun c b => V1 m c b) c).arrAt 5 cfg0.N : S4096x1.Idx → EReal) :=
    Pipeline.withArrays_arr spec0 launch0.win.arr_inj c (V1 m c) (fun w => (dat0 (fun c b => V1 m c b) c).arrAt w cfg0.N) 5
  have e6 : (outs m 2 main_v4_2 c : S4096x1.Idx → EReal) = ((dat0 (fun c b => V1 m c b) c).arrAt 6 cfg0.N : S4096x1.Idx → EReal) :=
    Pipeline.withArrays_arr spec0 launch0.win.arr_inj c (V1 m c) (fun w => (dat0 (fun c b => V1 m c b) c).arrAt w cfg0.N) 6
  rw [e4, e5, e6]
  exact out0_row (fun c b => V1 m c b) c (Hm m c) (Wm m c) (bm m c) (Tm m c) (entry0_H m c) (entry0_W m c) (entry0_b m c) (entry0_T m c) r

theorem outs_row1 (r : Fin 4096) :
    (⟨(outs m 4 main_v6_0 c : S4096x1.Idx → EReal) (ix2 r 0), (outs m 4 main_v6_1 c : S4096x1.Idx → EReal) (ix2 r 0),
        (outs m 4 main_v6_2 c : S4096x1.Idx → EReal) (ix2 r 0)⟩ : Spec.St)
      = Spec.St.run (Spec.chunkE (fun v => Spec.logitE (Hm m c) (Wm m c) (bm m c) r v) 20000) (Spec.hitZ (Tm m c r).toInt 20000) 10 := by
  have e4 : (outs m 4 main_v6_0 c : S4096x1.Idx → EReal) = ((dat1 (fun c b => V3 m (outsA m) c b) c).arrAt 4 cfg1.N : S4096x1.Idx → EReal) :=
    Pipeline.withArrays_arr spec1 launch1.win.arr_inj c (V3 m (outsA m) c) (fun w => (dat1 (fun c b => V3 m (outsA m) c b) c).arrAt w cfg1.N) 4
  have e5 : (outs m 4 main_v6_1 c : S4096x1.Idx → EReal) = ((dat1 (fun c b => V3 m (outsA m) c b) c).arrAt 5 cfg1.N : S4096x1.Idx → EReal) :=
    Pipeline.withArrays_arr spec1 launch1.win.arr_inj c (V3 m (outsA m) c) (fun w => (dat1 (fun c b => V3 m (outsA m) c b) c).arrAt w cfg1.N) 5
  have e6 : (outs m 4 main_v6_2 c : S4096x1.Idx → EReal) = ((dat1 (fun c b => V3 m (outsA m) c b) c).arrAt 6 cfg1.N : S4096x1.Idx → EReal) :=
    Pipeline.withArrays_arr spec1 launch1.win.arr_inj c (V3 m (outsA m) c) (fun w => (dat1 (fun c b => V3 m (outsA m) c b) c).arrAt w cfg1.N) 6
  rw [e4, e5, e6]
  exact out1_row (fun c b => V3 m (outsA m) c b) c (Hm m c) (Wm m c) (bm m c) (Tm m c) (entry1_H m (outsA m) c) (entry1_W m (outsA m) c)
    (entry1_b m (outsA m) c) (entry1_T m (outsA m) c) r

theorem outs_row2 (r : Fin 4096) :
    (⟨(outs m 6 main_v8_0 c : S4096x1.Idx → EReal) (ix2 r 0), (outs m 6 main_v8_1 c : S4096x1.Idx → EReal) (ix2 r 0),
        (outs m 6 main_v8_2 c : S4096x1.Idx → EReal) (ix2 r 0)⟩ : Spec.St)
      = Spec.St.run (Spec.chunkE (fun v => Spec.logitE (Hm m c) (Wm m c) (bm m c) r v) 40000) (Spec.hitZ (Tm m c r).toInt 40000) 5 := by
  have e4 : (outs m 6 main_v8_0 c : S4096x1.Idx → EReal) = ((dat2 (fun c b => V5 m (outsB m) c b) c).arrAt 4 cfg2.N : S4096x1.Idx → EReal) :=
    Pipeline.withArrays_arr spec2 launch2.win.arr_inj c (V5 m (outsB m) c) (fun w => (dat2 (fun c b => V5 m (outsB m) c b) c).arrAt w cfg2.N) 4
  have e5 : (outs m 6 main_v8_1 c : S4096x1.Idx → EReal) = ((dat2 (fun c b => V5 m (outsB m) c b) c).arrAt 5 cfg2.N : S4096x1.Idx → EReal) :=
    Pipeline.withArrays_arr spec2 launch2.win.arr_inj c (V5 m (outsB m) c) (fun w => (dat2 (fun c b => V5 m (outsB m) c b) c).arrAt w cfg2.N) 5
  have e6 : (outs m 6 main_v8_2 c : S4096x1.Idx → EReal) = ((dat2 (fun c b => V5 m (outsB m) c b) c).arrAt 6 cfg2.N : S4096x1.Idx → EReal) :=
    Pipeline.withArrays_arr spec2 launch2.win.arr_inj c (V5 m (outsB m) c) (fun w => (dat2 (fun c b => V5 m (outsB m) c b) c).arrAt w cfg2.N) 6
  rw [e4, e5, e6]
  exact out2_row (fun c b => V5 m (outsB m) c b) c (Hm m c) (Wm m c) (bm m c) (Tm m c) (entry2_H m (outsB m) c) (entry2_W m (outsB m) c)
    (entry2_b m (outsB m) c) (entry2_T m (outsB m) c) r

end Value

end KValue

open KValue

theorem ker_value (m : (ℓ : Loc nD τ sig) → Buf (Elt Ideal) ℓ) (c : Dev nD) (r : Fin 4096) :
    (V12 m (outs m) c main_v63 : S4096.Idx → EReal) (ix1 r)
      = Spec.kerLossE
          (fun v => Spec.logitE (fun r k => (m ((c : Thread nD τ).loc main_arg0) : S4096x1024.Idx → EReal) (ix2 r k))
            (fun v k => (m ((c : Thread nD τ).loc main_arg2) : S50000x1024.Idx → EReal) (ix2 v k))
            (fun v => (m ((c : Thread nD τ).loc main_arg3) : S50000.Idx → EReal) (ix1 v)) r v)
          (Spec.clogE (fun r k => (m ((c : Thread nD τ).loc main_arg0) : S4096x1024.Idx → EReal) (ix2 r k))
            (fun a k => (m ((c : Thread nD τ).loc main_arg4) : S2x1024.Idx → EReal) (ix2 a k))
            (fun a => (m ((c : Thread nD τ).loc main_arg5) : S2.Idx → EReal) (ix1 a)) r 0)
          (Spec.clogE (fun r k => (m ((c : Thread nD τ).loc main_arg0) : S4096x1024.Idx → EReal) (ix2 r k))
            (fun a k => (m ((c : Thread nD τ).loc main_arg4) : S2x1024.Idx → EReal) (ix2 a k))
            (fun a => (m ((c : Thread nD τ).loc main_arg5) : S2.Idx → EReal) (ix1 a)) r 1)
          (BitVec.toInt ((m ((c : Thread nD τ).loc main_arg1) : S4096.Idx → BitVec 32) (ix1 r))) := by
  rw [ker_tail m (outs m) c r, outs_row0 m c r, outs_row1 m c r, outs_row2 m c r]
  rfl

end Cert.KernelIdeal.Hand

end
-- ==== Proof.RefLogits.lean ====
import proofs.«429997_j76270029243071_3_alg».proof.Proof.RefRead
import proofs.«429997_j76270029243071_3_alg».proof.Proof.Spec2

noncomputable section

namespace Cert.ReferenceIdeal.Hand

open Idealize.ShloMosaic Idealize.ShloMosaic.ValueIdx Cert.ReferenceIdeal Cert.ReferenceIdeal.Gen

open Cert.ReferenceIdeal.ReadP

abbrev rowsOf {a b : Nat} (x : (⟨2, ![a, b]⟩ : Shape).Idx → EReal) : Fin a → Fin b → EReal := fun r k => x (ix2 r k)

abbrev entriesOf {a : Nat} (x : (⟨1, ![a]⟩ : Shape).Idx → EReal) : Fin a → EReal := fun v => x (ix1 v)

section Concat
variable {F : FTy → Type} [FloatOps F]

theorem headW_lt (x2 : Vec F S50000x1024 .f32) (x4 : Vec F S2x1024 .f32) (v : Fin 20002) (k : Fin 1024) (hv : v.val < 20000) :
    val_main_v1 (F := F) x2 x4 (ix2 v k) = x2 (ix2 (⟨v.val, by omega⟩ : Fin 50000) k) := by
  unfold val_main_v1
  refine (concatenate_pair_apply_left (0 : Fin S20002x1024.rank) (val_main_v0 (F := F) x2) x4
    concatenates_S20000x1024_S2x1024_S20002x1024_d0 (ix2 v k) rfl (ix2 (⟨v.val, hv⟩ : Fin 20000) k)
    (fun b => by match b with | ⟨0, _⟩ => rfl | ⟨1, _⟩ => rfl)).trans ?_
  rw [val_main_v0_apply]
  exact congrArg x2 (funext fun a => Fin.ext (by match a with | ⟨0, _⟩ => rfl | ⟨1, _⟩ => rfl))

theorem headW_ge (x2 : Vec F S50000x1024 .f32) (x4 : Vec F S2x1024 .f32) (v : Fin 20002) (k : Fin 1024) (a : Fin 2)
    (ha : a.val + 20000 = v.val) :
    val_main_v1 (F := F) x2 x4 (ix2 v k) = x4 (ix2 a k) := by
  unfold val_main_v1
  exact concatenate_pair_apply_right (0 : Fin S20002x1024.rank) (val_main_v0 (F := F) x2) x4
    concatenates_S20000x1024_S2x1024_S20002x1024_d0 (ix2 v k) rfl rfl (ix2 a k)
    (fun b hb => by match b with | ⟨0, _⟩ => exact absurd rfl hb | ⟨1, _⟩ => rfl)
    ha

theorem headB_lt (x3 : Vec F S50000 .f32) (x5 : Vec F S2 .f32) (v : Fin 20002) (hv : v.val < 20000) :
    val_main_v3 (F := F) x3 x5 (ix1 v) = x3 (ix1 (⟨v.val, by omega⟩ : Fin 50000)) := by
  unfold val_main_v3
  refine (concatenate_pair_apply_left (0 : Fin S20002.rank) (val_main_v2 (F := F) x3) x5
    concatenates_S20000_S2_S20002_d0 (ix1 v) rfl (ix1 (⟨v.val, hv⟩ : Fin 20000))
    (fun b => by match b with | ⟨0, _⟩ => rfl)).trans ?_
  rw [val_main_v2_apply]
  exact congrArg x3 (funext fun a => Fin.ext (by match a with | ⟨0, _⟩ => rfl))

theorem headB_ge (x3 : Vec F S50000 .f32) (x5 : Vec F S2 .f32) (v : Fin 20002) (a : Fin 2) (ha : a.val + 20000 = v.val) :
    val_main_v3 (F := F) x3 x5 (ix1 v) = x5 (ix1 a) := by
  unfold val_main_v3
  exact concatenate_pair_apply_right (0 : Fin S20002.rank) (val_main_v2 (F := F) x3) x5
    concatenates_S20000_S2_S20002_d0 (ix1 v) rfl rfl (ix1 a)
    (fun b hb => by match b with | ⟨0, _⟩ => exact absurd rfl hb)
    ha

end Concat

section Logits

theorem head_logit (x0 : Vec Ideal S4096x1024 .f32) (x2 : Vec Ideal S50000x1024 .f32) (x3 : Vec Ideal S50000 .f32)
    (x4 : Vec Ideal S2x1024 .f32) (x5 : Vec Ideal S2 .f32) (r : Fin 4096) (v : Fin 20002) :
    val_main_v8 (F := Ideal) x0 x2 x3 x4 x5 (ix2 r v)
      = Spec.headRowE (Spec.logitE (rowsOf x0) (rowsOf x2) (entriesOf x3) r)
          (Spec.clogE (rowsOf x0) (rowsOf x4) (entriesOf x5) r 0) (Spec.clogE (rowsOf x0) (rowsOf x4) (entriesOf x5) r 1) v := by
  rw [val_main_v8_apply, val_main_v5_apply, val_main_v7_apply, val_main_v6_apply]
  simp only [val_main_v4_apply]
  have eL : ∀ k : Fin 1024, lidx_main_v5 (ix2 r v) k = ix2 r k :=
    fun k => funext fun a => Fin.ext (by match a with | ⟨0, _⟩ => rfl | ⟨1, _⟩ => rfl)
  have eR : ∀ k : Fin 1024, idx_main_v4 (ridx_main_v5 (ix2 r v) k) = ix2 v k :=
    fun k => funext fun a => Fin.ext (by match a with | ⟨0, _⟩ => rfl | ⟨1, _⟩ => rfl)
  have eB : idx_main_v6 (idx_main_v7 (ix2 r v)) = ix1 v :=
    funext fun a => Fin.ext (by match a with | ⟨0, _⟩ => rfl)
  simp only [eL, eR, eB]
  unfold Spec.headRowE
  by_cases hv : v.val < 20000
  · rw [if_pos hv, headB_lt x3 x5 v hv]
    simp only [fun k => headW_lt x2 x4 v k hv]
    unfold Spec.logitE
    rw [dif_pos (show v.val < 50000 by omega)]
    rfl
  · rw [if_neg hv]
    by_cases h0 : v.val = 20000
    · have ha : (0 : Fin 2).val + 20000 = v.val := by show 0 + 20000 = v.val; omega
      rw [if_pos h0, headB_ge x3 x5 v 0 ha]
      simp only [fun k => headW_ge x2 x4 v k 0 ha]
      rfl
    · have ha : (1 : Fin 2).val + 20000 = v.val := by show 1 + 20000 = v.val; have := v.isLt; omega
      rw [if_neg h0, headB_ge x3 x5 v 1 ha]
      simp only [fun k => headW_ge x2 x4 v k 1 ha]
      rfl

theorem tail1_logit (x0 : Vec Ideal S4096x1024 .f32) (x2 : Vec Ideal S50000x1024 .f32) (x3 : Vec Ideal S50000 .f32)
    (r : Fin 4096) (v : Fin 20000) :
    val_main_v24 (F := Ideal) x0 x2 x3 (ix2 r v)
      = Spec.tailRowE (Spec.logitE (rowsOf x0) (rowsOf x2) (entriesOf x3) r) 20000 20000 v := by
  rw [val_main_v24_apply, val_main_v20_apply, val_main_v23_apply, val_main_v22_apply, val_main_v21_apply]
  simp only [val_main_v19_apply, val_main_v18_apply]
  have eL : ∀ k : Fin 1024, lidx_main_v20 (ix2 r v) k = ix2 r k :=
    fun k => funext fun a => Fin.ext (by match a with | ⟨0, _⟩ => rfl | ⟨1, _⟩ => rfl)
  have eR : ∀ k : Fin 1024, idx_main_v18 (idx_main_v19 (ridx_main_v20 (ix2 r v) k)) = ix2 (⟨20000 + v.val, by omega⟩ : Fin 50000) k :=
    fun k => funext fun a => Fin.ext (by match a with | ⟨0, _⟩ => rfl | ⟨1, _⟩ => rfl)
  have eB : idx_main_v21 (idx_main_v22 (idx_main_v23 (ix2 r v))) = ix1 (⟨20000 + v.val, by omega⟩ : Fin 50000) :=
    funext fun a => Fin.ext (by match a with | ⟨0, _⟩ => rfl)
  simp only [eL, eR, eB]
  unfold Spec.tailRowE Spec.logitE
  rw [dif_pos (show 20000 + v.val < 50000 by omega)]
  rfl

theorem tail2_logit (x0 : Vec Ideal S4096x1024 .f32) (x2 : Vec Ideal S50000x1024 .f32) (x3 : Vec Ideal S50000 .f32)
    (r : Fin 4096) (v : Fin 10000) :
    val_main_v48 (F := Ideal) x0 x2 x3 (ix2 r v)
      = Spec.tailRowE (Spec.logitE (rowsOf x0) (rowsOf x2) (entriesOf x3) r) 40000 10000 v := by
  rw [val_main_v48_apply, val_main_v44_apply, val_main_v47_apply, val_main_v46_apply, val_main_v45_apply]
  simp only [val_main_v43_apply, val_main_v42_apply]
  have eL : ∀ k : Fin 1024, lidx_main_v44 (ix2 r v) k = ix2 r k :=
    fun k => funext fun a => Fin.ext (by match a with | ⟨0, _⟩ => rfl | ⟨1, _⟩ => rfl)
  have eR : ∀ k : Fin 1024, idx_main_v42 (idx_main_v43 (ridx_main_v44 (ix2 r v) k)) = ix2 (⟨40000 + v.val, by omega⟩ : Fin 50000) k :=
    fun k => funext fun a => Fin.ext (by match a with | ⟨0, _⟩ => rfl | ⟨1, _⟩ => rfl)
  have eB : idx_main_v45 (idx_main_v46 (idx_main_v47 (ix2 r v))) = ix1 (⟨40000 + v.val, by omega⟩ : Fin 50000) :=
    funext fun a => Fin.ext (by match a with | ⟨0, _⟩ => rfl)
  simp only [eL, eR, eB]
  unfold Spec.tailRowE Spec.logitE
  rw [dif_pos (show 40000 + v.val < 50000 by omega)]
  rfl

end Logits

end Cert.ReferenceIdeal.Hand

end
-- ==== Proof.RefOps.lean ====
import proofs.«429997_j76270029243071_3_alg».proof.Proof.Gen.ReferenceIdeal
import Idealize.ShloMosaic.Lib.ValueIdx
import Idealize.ShloMosaic.Lib.Pipeline.Value
import Idealize.ShloMosaic.PureOps.Ideal.Laws
import Idealize.ShloMosaic.Lib.Affine

noncomputable section

namespace Cert.ReferenceIdeal.Hand

open Idealize.ShloMosaic Idealize.ShloMosaic.ValueIdx Cert.ReferenceIdeal Cert.ReferenceIdeal.Gen

section Gather
variable {α : Type}

abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

theorem along_coord0 {R N w : Nat}
    (wf : GatherDims.WF ⟨2, ![R, N]⟩ ⟨3, ![R, 1, 1]⟩ ⟨2, ![R, 1]⟩ [] [1] [0] [1] [0] 2 ![1, 1])
    (idx : IVec ⟨3, ![R, 1, 1]⟩ w) (r : Fin R) :
    (alongDims R N wf).start (ix2 r (0 : Fin 1)) idx (0 : Fin 2) + (alongDims R N wf).batchCoord (ix2 r (0 : Fin 1)) (0 : Fin 2)
      + (alongDims R N wf).offCoord (ix2 r (0 : Fin 1)) (0 : Fin 2) = r.val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 2) ∈ (alongDims R N wf).operandBatchingDims from List.mem_singleton.mpr rfl)]
  rfl

theorem along_coord1 {R N w : Nat}
    (wf : GatherDims.WF ⟨2, ![R, N]⟩ ⟨3, ![R, 1, 1]⟩ ⟨2, ![R, 1]⟩ [] [1] [0] [1] [0] 2 ![1, 1])
    (idx : IVec ⟨3, ![R, 1, 1]⟩ w) (r : Fin R) :
    (alongDims R N wf).start (ix2 r (0 : Fin 1)) idx (1 : Fin 2) + (alongDims R N wf).batchCoord (ix2 r (0 : Fin 1)) (1 : Fin 2)
      + (alongDims R N wf).offCoord (ix2 r (0 : Fin 1)) (1 : Fin 2) = min (idx (ix3 r (0 : Fin 1) (0 : Fin 1))).toInt.toNat (N - 1) := by
  rw [GatherDims.batchCoord_eq_zero _ _ _ (fun h => absurd (List.mem_singleton.mp h) (show ¬ ((1 : Fin 2) = 0) by decide)),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (alongDims R N wf).startIndexMap from List.mem_singleton.mpr rfl)]
  have hsi : (alongDims R N wf).siIdx (ix2 r (0 : Fin 1)) ⟨List.idxOf (1 : Fin 2) (alongDims R N wf).startIndexMap,
      List.idxOf_lt_length_iff.2 (List.mem_singleton.mpr rfl)⟩ = ix3 r (0 : Fin 1) (0 : Fin 1) := by
    funext b; refine Fin.ext ?_
    match b with
    | ⟨0, _⟩ => rfl
    | ⟨1, _⟩ => rfl
    | ⟨2, _⟩ => rfl
  rw [hsi]
  rfl

theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r ⟨min (idx (ix3 r (0 : Fin 1) (0 : Fin 1))).toInt.toNat (N - 1), by omega⟩) := by
  unfold Host.gather
  congr 1
  funext a
  refine Fin.ext ?_
  show (alongDims R N wf).start (ix2 r (0 : Fin 1)) idx a + (alongDims R N wf).batchCoord (ix2 r (0 : Fin 1)) a
      + (alongDims R N wf).offCoord (ix2 r (0 : Fin 1)) a = _
  match a with
  | ⟨0, _⟩ => exact along_coord0 wf idx r
  | ⟨1, _⟩ => exact along_coord1 wf idx r

end Gather

section Reduce

theorem reduceMax_row {N : Nat} (x : FVec Ideal ⟨2, ![4096, N]⟩ .f32) (init : FVec Ideal ⟨0, ![]⟩ .f32)
    (h' : (⟨2, ![4096, N]⟩ : Shape).ReducesTo [1] ⟨1, ![4096]⟩) (h : (⟨2, ![4096, N]⟩ : Shape).Reduces [1] ⟨1, ![4096]⟩)
    (hu : 0 < (⟨0, ![]⟩ : Shape).numel) (r : Fin 4096) :
    Host.reduce FloatOps.maximumf x init h' hu (ix1 r)
      = (Finset.univ : Finset (Fin N)).fold max (init ix0) (fun v => x (ix2 r v)) := by
  refine (Host.reduce_eq_fold_single FloatOps.maximumf x init h' h hu (ix1 r)).trans ?_
  have e1 : init (Shape.Idx.first hu) = init ix0 := congrArg init (funext fun a => a.elim0)
  have e2 : (x ∘ h.lift (ix1 r)) = fun v : Fin N => x (ix2 r v) :=
    funext fun v => congrArg x (funext fun c => Fin.ext (by match c with | ⟨0, _⟩ => rfl | ⟨1, _⟩ => rfl))
  rw [e1, e2]
  rfl

theorem fold_fin1 {β : Type} (f : β → β → β) [Std.Commutative f] [Std.Associative f] (b : β) (g : Fin 1 → β) :
    (Finset.univ : Finset (Fin 1)).fold f b g = f (g 0) b := by
  rw [show (Finset.univ : Finset (Fin 1)) = {0} from rfl, Finset.fold_singleton]

theorem reduceAnd_row (x : IVec ⟨3, ![4096, 1, 1]⟩ 1) (init : IVec ⟨0, ![]⟩ 1)
    (h' : (⟨3, ![4096, 1, 1]⟩ : Shape).ReducesTo [2] ⟨2, ![4096, 1]⟩) (h : (⟨3, ![4096, 1, 1]⟩ : Shape).Reduces [2] ⟨2, ![4096, 1]⟩)
    (hu : 0 < (⟨0, ![]⟩ : Shape).numel) (r : Fin 4096) :
    Host.reduce IntOp.andi x init h' hu (ix2 r (0 : Fin 1))
      = IntOp.andi (x (ix3 r (0 : Fin 1) (0 : Fin 1))) (init ix0) := by
  refine (Host.reduce_eq_fold_single IntOp.andi x init h' h hu (ix2 r (0 : Fin 1))).trans ?_
  have e1 : init (Shape.Idx.first hu) = init ix0 := congrArg init (funext fun a => a.elim0)
  rw [e1]
  refine (fold_fin1 IntOp.andi (init ix0) (fun k : Fin 1 => x (h.lift (ix2 r (0 : Fin 1)) k))).trans ?_
  refine congrArg (fun i => IntOp.andi (x i) (init ix0)) ?_
  exact funext fun c => Fin.ext (by match c with | ⟨0, _⟩ => rfl | ⟨1, _⟩ => rfl | ⟨2, _⟩ => rfl)

end Reduce

section Words
variable {α : Type}

theorem toInt_maxsi (x y : BitVec 32) : (IntOp.maxsi x y).toInt = max x.toInt y.toInt := by
  unfold IntOp.maxsi
  by_cases h : y.slt x = true
  · rw [if_pos h]; have := BitVec.slt_iff_toInt_lt.mp h; omega
  · rw [if_neg h]; have : ¬ y.toInt < x.toInt := fun h' => h (BitVec.slt_iff_toInt_lt.mpr h'); omega

theorem toInt_minsi (x y : BitVec 32) : (IntOp.minsi x y).toInt = min x.toInt y.toInt := by
  unfold IntOp.minsi
  by_cases h : x.slt y = true
  · rw [if_pos h]; have := BitVec.slt_iff_toInt_lt.mp h; omega
  · rw [if_neg h]; have : ¬ x.toInt < y.toInt := fun h' => h (BitVec.slt_iff_toInt_lt.mpr h'); omega

theorem toInt_clip (lo hi t : BitVec 32) :
    (IntOp.minsi hi (IntOp.maxsi lo t)).toInt = min hi.toInt (max lo.toInt t.toInt) := by
  rw [toInt_minsi, toInt_maxsi]

theorem toInt_subi_of_nonneg (t c : BitVec 32) (ht : 0 ≤ t.toInt) (hc : 0 ≤ c.toInt) :
    (IntOp.subi t c).toInt = t.toInt - c.toInt := by
  unfold IntOp.subi
  rw [BitVec.toInt_sub]
  have h1 := BitVec.toInt_lt (x := t)
  have h2 := BitVec.toInt_lt (x := c)
  refine Int.bmod_eq_of_le_mul_two ?_ ?_ <;> norm_num at h1 h2 ⊢ <;> omega

theorem select_range (t lo hi : BitVec 32) (A B : α) :
    Scalar.select (IntOp.andi (IntOp.cmpi .sge t lo) (IntOp.cmpi .slt t hi)) A B
      = if lo.toInt ≤ t.toInt ∧ t.toInt < hi.toInt then A else B := by
  unfold Scalar.select
  exact if_congr (IntOp.andi_eq_one.trans (and_congr IntOp.cmpi_sge IntOp.cmpi_slt)) rfl rfl

theorem select_lt (t hi : BitVec 32) (A B : α) :
    Scalar.select (IntOp.cmpi .slt t hi) A B = if t.toInt < hi.toInt then A else B := by
  unfold Scalar.select
  exact if_congr IntOp.cmpi_slt rfl rfl

theorem word0 : (0#32 : BitVec 32).toInt = 0 := by decide
theorem word9999 : (9999#32 : BitVec 32).toInt = 9999 := by decide
theorem word19999 : (19999#32 : BitVec 32).toInt = 19999 := by decide
theorem word20000 : (20000#32 : BitVec 32).toInt = 20000 := by decide
theorem word20001 : (20001#32 : BitVec 32).toInt = 20001 := by decide
theorem word40000 : (40000#32 : BitVec 32).toInt = 40000 := by decide
theorem word50000 : (50000#32 : BitVec 32).toInt = 50000 := by decide

end Words

section TakeWords

theorem wrap_of_nonneg (c n : BitVec 32) (hc : 0 ≤ c.toInt) :
    Scalar.select (IntOp.cmpi .slt c 0#32) (IntOp.addi c n) c = c := by
  rw [select_lt]
  exact if_neg (by show ¬ c.toInt < (0#32 : BitVec 32).toInt; have : (0#32 : BitVec 32).toInt = 0 := by decide
                   omega)

theorem inb_of_range (c hi : BitVec 32) (h0 : 0 ≤ c.toInt) (h1 : c.toInt ≤ hi.toInt) :
    IntOp.andi (IntOp.andi (IntOp.cmpi .sge c 0#32) (IntOp.cmpi .sle c hi)) 1#1 = 1#1 := by
  refine IntOp.andi_eq_one.mpr ⟨IntOp.andi_eq_one.mpr ⟨IntOp.cmpi_sge.mpr ?_, IntOp.cmpi_sle.mpr h1⟩, rfl⟩
  have : (0#32 : BitVec 32).toInt = 0 := by decide
  omega

end TakeWords

end Cert.ReferenceIdeal.Hand

end
-- ==== Proof.RefLsm.lean ====
import proofs.«429997_j76270029243071_3_alg».proof.Proof.RefRead
import proofs.«429997_j76270029243071_3_alg».proof.Proof.RefOps
import proofs.«429997_j76270029243071_3_alg».proof.Proof.Spec2

noncomputable section

namespace Cert.ReferenceIdeal.Hand

open Idealize.ShloMosaic Idealize.ShloMosaic.ValueIdx Cert.ReferenceIdeal Cert.ReferenceIdeal.Gen

open Cert.ReferenceIdeal.ReadP

section LogSoftmax

theorem negInf_eq : (FloatOps.ofBits (F := Ideal) .f32 0xFF800000#32 : EReal) = ⊥ := by
  simp [Ideal.ofBits, Ideal.ieee]

theorem head_rowmax (x0 : Vec Ideal S4096x1024 .f32) (x2 : Vec Ideal S50000x1024 .f32) (x3 : Vec Ideal S50000 .f32)
    (x4 : Vec Ideal S2x1024 .f32) (x5 : Vec Ideal S2 .f32) (r : Fin 4096) :
    val_main_call0_v2 (F := Ideal) x0 x2 x3 x4 x5 (ix1 r)
      = Spec.rowMax (fun u : Fin 20002 => val_main_v8 (F := Ideal) x0 x2 x3 x4 x5 (ix2 r u)) := by
  rw [val_main_call0_v2_apply, val_main_call0_v1_apply, val_main_call0_cst_0_apply]
  unfold val_main_call0_v0
  rw [reduceMax_row (val_main_v8 (F := Ideal) x0 x2 x3 x4 x5) (val_main_call0_cst (F := Ideal))
    reducesTo_S4096x20002_S4096_d1 (by decide) h_S_ r, val_main_call0_cst_apply, negInf_eq]
  rfl

theorem lsm_head (x0 : Vec Ideal S4096x1024 .f32) (x2 : Vec Ideal S50000x1024 .f32) (x3 : Vec Ideal S50000 .f32)
    (x4 : Vec Ideal S2x1024 .f32) (x5 : Vec Ideal S2 .f32) (r : Fin 4096) (v : Fin 20002) :
    val_main_v9 (F := Ideal) x0 x2 x3 x4 x5 (ix2 r v)
      = Spec.lsm (fun u : Fin 20002 => val_main_v8 (F := Ideal) x0 x2 x3 x4 x5 (ix2 r u)) v := by
  have eM : ∀ u : Fin 20002, idx_main_call0_v3 (idx_main_call0_v4 (ix2 r u)) = ix1 r :=
    fun u => funext fun a => Fin.ext (by match a with | ⟨0, _⟩ => rfl)
  have eS : idx_main_call0_v8 (idx_main_call0_v10 (ix2 r v)) = ix1 r :=
    funext fun a => Fin.ext (by match a with | ⟨0, _⟩ => rfl)
  have eK : ∀ k : Fin 20002, idx_main_call0_v7 (ix1 r) k = ix2 r k :=
    fun k => funext fun a => Fin.ext (by match a with | ⟨0, _⟩ => rfl | ⟨1, _⟩ => rfl)
  rw [val_main_v9_apply, val_main_call0_v10_apply, val_main_call0_v9_apply, val_main_call0_v8_apply, eS,
    val_main_call0_v7_apply, val_main_call0_cst_1_apply]
  simp only [val_main_call0_v6_apply, val_main_call0_v5_apply, val_main_call0_v4_apply, val_main_call0_v3_apply, eK, eM,
    head_rowmax]
  unfold Spec.lsm
  simp only [Ideal.ofBits_def, Ideal.ofBits_zero_f32, Ideal.subf_def, Ideal.hostUnary_exp_def, Ideal.hostUnary_log_def]

end LogSoftmax

section LogSoftmaxTails

theorem tail1_rowmax (x0 : Vec Ideal S4096x1024 .f32) (x2 : Vec Ideal S50000x1024 .f32) (x3 : Vec Ideal S50000 .f32) (r : Fin 4096) :
    val_main_call4_v2 (F := Ideal) x0 x2 x3 (ix1 r)
      = Spec.rowMax (fun u : Fin 20000 => val_main_v24 (F := Ideal) x0 x2 x3 (ix2 r u)) := by
  rw [val_main_call4_v2_apply, val_main_call4_v1_apply, val_main_call4_cst_0_apply]
  unfold val_main_call4_v0
  rw [reduceMax_row (val_main_v24 (F := Ideal) x0 x2 x3) (val_main_call4_cst (F := Ideal))
    reducesTo_S4096x20000_S4096_d1 (by decide) h_S_ r, val_main_call4_cst_apply, negInf_eq]
  rfl

theorem lsm_tail1 (x0 : Vec Ideal S4096x1024 .f32) (x2 : Vec Ideal S50000x1024 .f32) (x3 : Vec Ideal S50000 .f32)
    (r : Fin 4096) (v : Fin 20000) :
    val_main_v25 (F := Ideal) x0 x2 x3 (ix2 r v)
      = Spec.lsm (fun u : Fin 20000 => val_main_v24 (F := Ideal) x0 x2 x3 (ix2 r u)) v := by
  have eM : ∀ u : Fin 20000, idx_main_call4_v3 (idx_main_call4_v4 (ix2 r u)) = ix1 r :=
    fun u => funext fun a => Fin.ext (by match a with | ⟨0, _⟩ => rfl)
  have eS : idx_main_call4_v8 (idx_main_call4_v10 (ix2 r v)) = ix1 r :=
    funext fun a => Fin.ext (by match a with | ⟨0, _⟩ => rfl)
  have eK : ∀ k : Fin 20000, idx_main_call4_v7 (ix1 r) k = ix2 r k :=
    fun k => funext fun a => Fin.ext (by match a with | ⟨0, _⟩ => rfl | ⟨1, _⟩ => rfl)
  rw [val_main_v25_apply, val_main_call4_v10_apply, val_main_call4_v9_apply, val_main_call4_v8_apply, eS,
    val_main_call4_v7_apply, val_main_call4_cst_1_apply]
  simp only [val_main_call4_v6_apply, val_main_call4_v5_apply, val_main_call4_v4_apply, val_main_call4_v3_apply, eK, eM,
    tail1_rowmax]
  unfold Spec.lsm
  simp only [Ideal.ofBits_def, Ideal.ofBits_zero_f32, Ideal.subf_def, Ideal.hostUnary_exp_def, Ideal.hostUnary_log_def]

theorem tail2_rowmax (x0 : Vec Ideal S4096x1024 .f32) (x2 : Vec Ideal S50000x1024 .f32) (x3 : Vec Ideal S50000 .f32) (r : Fin 4096) :
    val_main_call8_v2 (F := Ideal) x0 x2 x3 (ix1 r)
      = Spec.rowMax (fun u : Fin 10000 => val_main_v48 (F := Ideal) x0 x2 x3 (ix2 r u)) := by
  rw [val_main_call8_v2_apply, val_main_call8_v1_apply, val_main_call8_cst_0_apply]
  unfold val_main_call8_v0
  rw [reduceMax_row (val_main_v48 (F := Ideal) x0 x2 x3) (val_main_call8_cst (F := Ideal))
    reducesTo_S4096x10000_S4096_d1 (by decide) h_S_ r, val_main_call8_cst_apply, negInf_eq]
  rfl

theorem lsm_tail2 (x0 : Vec Ideal S4096x1024 .f32) (x2 : Vec Ideal S50000x1024 .f32) (x3 : Vec Ideal S50000 .f32)
    (r : Fin 4096) (v : Fin 10000) :
    val_main_v49 (F := Ideal) x0 x2 x3 (ix2 r v)
      = Spec.lsm (fun u : Fin 10000 => val_main_v48 (F := Ideal) x0 x2 x3 (ix2 r u)) v := by
  have eM : ∀ u : Fin 10000, idx_main_call8_v3 (idx_main_call8_v4 (ix2 r u)) = ix1 r :=
    fun u => funext fun a => Fin.ext (by match a with | ⟨0, _⟩ => rfl)
  have eS : idx_main_call8_v8 (idx_main_call8_v10 (ix2 r v)) = ix1 r :=
    funext fun a => Fin.ext (by match a with | ⟨0, _⟩ => rfl)
  have eK : ∀ k : Fin 10000, idx_main_call8_v7 (ix1 r) k = ix2 r k :=
    fun k => funext fun a => Fin.ext (by match a with | ⟨0, _⟩ => rfl | ⟨1, _⟩ => rfl)
  rw [val_main_v49_apply, val_main_call8_v10_apply, val_main_call8_v9_apply, val_main_call8_v8_apply, eS,
    val_main_call8_v7_apply, val_main_call8_cst_1_apply]
  simp only [val_main_call8_v6_apply, val_main_call8_v5_apply, val_main_call8_v4_apply, val_main_call8_v3_apply, eK, eM,
    tail2_rowmax]
  unfold Spec.lsm
  simp only [Ideal.ofBits_def, Ideal.ofBits_zero_f32, Ideal.subf_def, Ideal.hostUnary_exp_def, Ideal.hostUnary_log_def]

end LogSoftmaxTails

end Cert.ReferenceIdeal.Hand

end
-- ==== Proof.RefTake.lean ====
import proofs.«429997_j76270029243071_3_alg».proof.Proof.RefRead
import proofs.«429997_j76270029243071_3_alg».proof.Proof.RefOps
import proofs.«429997_j76270029243071_3_alg».proof.Proof.Spec2

noncomputable section

namespace Cert.ReferenceIdeal.Hand

open Idealize.ShloMosaic Idealize.ShloMosaic.ValueIdx Cert.ReferenceIdeal Cert.ReferenceIdeal.Gen

open Cert.ReferenceIdeal.ReadP

section TakeHead

theorem clip_head (x1 : Vec Ideal S4096 .i32) (r : Fin 4096) :
    val_main_v10 (F := Ideal) x1 (ix1 r) = IntOp.minsi 19999#32 (IntOp.maxsi 0#32 (x1 (ix1 r))) := by
  rw [val_main_v10_apply, val_main_call1_v4_apply, val_main_call1_v3_apply, val_main_c_0_apply,
    val_main_call1_v2_apply, val_main_call1_v1_apply, val_main_call1_v0_apply, val_main_c_apply]

theorem idx_head (x1 : Vec Ideal S4096 .i32) (r : Fin 4096) :
    val_main_call2_v5 (F := Ideal) x1 (ix3 r (0 : Fin 1) (0 : Fin 1))
      = IntOp.minsi 19999#32 (IntOp.maxsi 0#32 (x1 (ix1 r))) := by
  have e5 : idx_main_call2_v5 (ix3 r (0 : Fin 1) (0 : Fin 1)) = ix2 r (0 : Fin 1) :=
    funext fun a => Fin.ext (by
      match a with
      | ⟨0, _⟩ => show ((r.val * 1 + 0) * 1 + 0) / 1 = r.val; omega
      | ⟨1, _⟩ => rfl)
  have e11 : idx_main_v11 (ix2 r (0 : Fin 1)) = ix1 r := funext fun a => Fin.ext (by match a with | ⟨0, _⟩ => rfl)
  rw [val_main_call2_v5_apply, e5, val_main_call2_v4_apply, val_main_call2_v1_apply, val_main_call2_v3_apply,
    val_main_call2_v0_apply, val_main_call2_c_apply, val_main_v11_apply, e11, clip_head]
  refine wrap_of_nonneg _ _ ?_
  rw [toInt_clip]
  have : (0#32 : BitVec 32).toInt = 0 := by decide
  have : (19999#32 : BitVec 32).toInt = 19999 := by decide
  omega

end TakeHead

section TakeHead2

theorem inb_head (x1 : Vec Ideal S4096 .i32) (r : Fin 4096) :
    val_main_call2_v12 (F := Ideal) x1 (ix2 r (0 : Fin 1)) = 1#1 := by
  unfold val_main_call2_v12
  rw [reduceAnd_row (val_main_call2_v11 (F := Ideal) x1) (val_main_call2_c_3 (F := Ideal))
    reducesTo_S4096x1x1_S4096x1_d2 (by decide) h_S_ r, val_main_call2_c_3_apply, val_main_call2_v11_apply,
    val_main_call2_v7_apply, val_main_call2_v10_apply, val_main_call2_v6_apply, val_main_call2_c_2_apply,
    val_main_call2_v9_apply, val_main_call2_v8_apply, val_main_call2_c_1_apply, idx_head]
  refine inb_of_range _ _ ?_ ?_ <;> rw [toInt_clip] <;> have := word0 <;> have := word19999 <;> have := word20001 <;> omega

theorem take_head (x0 : Vec Ideal S4096x1024 .f32) (x1 : Vec Ideal S4096 .i32) (x2 : Vec Ideal S50000x1024 .f32)
    (x3 : Vec Ideal S50000 .f32) (x4 : Vec Ideal S2x1024 .f32) (x5 : Vec Ideal S2 .f32) (r : Fin 4096)
    (j : Fin 20002) (hj : (j.val : ℤ) = Spec.clampZ (x1 (ix1 r)).toInt 0 19999) :
    val_main_v13 (F := Ideal) x0 x1 x2 x3 x4 x5 (ix1 r) = val_main_v9 (F := Ideal) x0 x2 x3 x4 x5 (ix2 r j) := by
  have e13 : idx_main_v13 (ix1 r) = ix2 r (0 : Fin 1) :=
    funext fun a => Fin.ext (by
      match a with
      | ⟨0, _⟩ => show r.val / 1 = r.val; omega
      | ⟨1, _⟩ => rfl)
  rw [val_main_v13_apply, e13, val_main_v12_apply, inb_head, select_one]
  unfold val_main_call2_v13
  generalize val_main_v9 (F := Ideal) x0 x2 x3 x4 x5 = y
  refine (gather_along_apply (by decide) gather_S4096x20002_S4096x1x1_S4096x1_n_1_0_0_1_2_11_wf y
    (val_main_call2_v5 (F := Ideal) x1) r).trans ?_
  refine congrArg (fun q : Fin 20002 => y (ix2 r q)) (Fin.ext ?_)
  show min (val_main_call2_v5 (F := Ideal) x1 (ix3 r (0 : Fin 1) (0 : Fin 1))).toInt.toNat (20002 - 1) = j.val
  rw [idx_head, toInt_clip]
  unfold Spec.clampZ at hj
  have := word0; have := word19999
  omega

end TakeHead2

end Cert.ReferenceIdeal.Hand

end
-- ==== Proof.RefTakeTails.lean ====
import proofs.«429997_j76270029243071_3_alg».proof.Proof.RefRead
import proofs.«429997_j76270029243071_3_alg».proof.Proof.RefOps
import proofs.«429997_j76270029243071_3_alg».proof.Proof.Spec2

noncomputable section

namespace Cert.ReferenceIdeal.Hand

open Idealize.ShloMosaic Idealize.ShloMosaic.ValueIdx Cert.ReferenceIdeal Cert.ReferenceIdeal.Gen

open Cert.ReferenceIdeal.ReadP

section TakeTail1

theorem clip_tail1 (x1 : Vec Ideal S4096 .i32) (r : Fin 4096) :
    val_main_v28 (F := Ideal) x1 (ix1 r) = IntOp.minsi 19999#32 (IntOp.maxsi 0#32 (IntOp.subi (x1 (ix1 r)) 20000#32)) := by
  rw [val_main_v28_apply, val_main_call5_v4_apply, val_main_call5_v3_apply, val_main_c_4_apply,
    val_main_call5_v2_apply, val_main_call5_v1_apply, val_main_call5_v0_apply, val_main_c_3_apply,
    val_main_v27_apply, val_main_v26_apply, val_main_c_2_apply]

theorem idx_tail1 (x1 : Vec Ideal S4096 .i32) (r : Fin 4096) :
    val_main_call6_v5 (F := Ideal) x1 (ix3 r (0 : Fin 1) (0 : Fin 1))
      = IntOp.minsi 19999#32 (IntOp.maxsi 0#32 (IntOp.subi (x1 (ix1 r)) 20000#32)) := by
  have e5 : idx_main_call6_v5 (ix3 r (0 : Fin 1) (0 : Fin 1)) = ix2 r (0 : Fin 1) :=
    funext fun a => Fin.ext (by
      match a with
      | ⟨0, _⟩ => show ((r.val * 1 + 0) * 1 + 0) / 1 = r.val; omega
      | ⟨1, _⟩ => rfl)
  have eb : idx_main_v31 (ix2 r (0 : Fin 1)) = ix1 r := funext fun a => Fin.ext (by match a with | ⟨0, _⟩ => rfl)
  rw [val_main_call6_v5_apply, e5, val_main_call6_v4_apply, val_main_call6_v1_apply, val_main_call6_v3_apply,
    val_main_call6_v0_apply, val_main_call6_c_apply, val_main_v31_apply, eb, clip_tail1]
  refine wrap_of_nonneg _ _ ?_
  rw [toInt_clip]
  have := word0; have := word19999
  omega

theorem inb_tail1 (x1 : Vec Ideal S4096 .i32) (r : Fin 4096) :
    val_main_call6_v12 (F := Ideal) x1 (ix2 r (0 : Fin 1)) = 1#1 := by
  unfold val_main_call6_v12
  rw [reduceAnd_row (val_main_call6_v11 (F := Ideal) x1) (val_main_call6_c_3 (F := Ideal))
    reducesTo_S4096x1x1_S4096x1_d2 (by decide) h_S_ r, val_main_call6_c_3_apply, val_main_call6_v11_apply,
    val_main_call6_v7_apply, val_main_call6_v10_apply, val_main_call6_v6_apply, val_main_call6_c_2_apply,
    val_main_call6_v9_apply, val_main_call6_v8_apply, val_main_call6_c_1_apply, idx_tail1]
  refine inb_of_range _ _ ?_ ?_ <;> rw [toInt_clip] <;> have := word0 <;> have := word19999 <;> omega

theorem take_tail1 (x0 : Vec Ideal S4096x1024 .f32) (x1 : Vec Ideal S4096 .i32) (x2 : Vec Ideal S50000x1024 .f32)
    (x3 : Vec Ideal S50000 .f32) (r : Fin 4096) (ht : 0 ≤ (x1 (ix1 r)).toInt)
    (j : Fin 20000) (hj : (j.val : ℤ) = Spec.clampZ ((x1 (ix1 r)).toInt - 20000) 0 19999) :
    val_main_v33 (F := Ideal) x0 x1 x2 x3 (ix1 r) = val_main_v25 (F := Ideal) x0 x2 x3 (ix2 r j) := by
  have eo : idx_main_v33 (ix1 r) = ix2 r (0 : Fin 1) :=
    funext fun a => Fin.ext (by
      match a with
      | ⟨0, _⟩ => show r.val / 1 = r.val; omega
      | ⟨1, _⟩ => rfl)
  rw [val_main_v33_apply, eo, val_main_v32_apply, inb_tail1, select_one]
  unfold val_main_call6_v13
  generalize val_main_v25 (F := Ideal) x0 x2 x3 = y
  refine (gather_along_apply (by decide) gather_S4096x20000_S4096x1x1_S4096x1_n_1_0_0_1_2_11_wf y
    (val_main_call6_v5 (F := Ideal) x1) r).trans ?_
  refine congrArg (fun q : Fin 20000 => y (ix2 r q)) (Fin.ext ?_)
  show min (val_main_call6_v5 (F := Ideal) x1 (ix3 r (0 : Fin 1) (0 : Fin 1))).toInt.toNat (20000 - 1) = j.val
  rw [idx_tail1, toInt_clip, toInt_subi_of_nonneg (x1 (ix1 r)) 20000#32 ht (by decide)]
  unfold Spec.clampZ at hj
  have := word0; have := word19999; have := word20000
  omega

end TakeTail1

section TakeTail2

theorem clip_tail2 (x1 : Vec Ideal S4096 .i32) (r : Fin 4096) :
    val_main_v52 (F := Ideal) x1 (ix1 r) = IntOp.minsi 9999#32 (IntOp.maxsi 0#32 (IntOp.subi (x1 (ix1 r)) 40000#32)) := by
  rw [val_main_v52_apply, val_main_call9_v4_apply, val_main_call9_v3_apply, val_main_c_9_apply,
    val_main_call9_v2_apply, val_main_call9_v1_apply, val_main_call9_v0_apply, val_main_c_8_apply,
    val_main_v51_apply, val_main_v50_apply, val_main_c_7_apply]

theorem idx_tail2 (x1 : Vec Ideal S4096 .i32) (r : Fin 4096) :
    val_main_call10_v5 (F := Ideal) x1 (ix3 r (0 : Fin 1) (0 : Fin 1))
      = IntOp.minsi 9999#32 (IntOp.maxsi 0#32 (IntOp.subi (x1 (ix1 r)) 40000#32)) := by
  have e5 : idx_main_call10_v5 (ix3 r (0 : Fin 1) (0 : Fin 1)) = ix2 r (0 : Fin 1) :=
    funext fun a => Fin.ext (by
      match a with
      | ⟨0, _⟩ => show ((r.val * 1 + 0) * 1 + 0) / 1 = r.val; omega
      | ⟨1, _⟩ => rfl)
  have eb : idx_main_v55 (ix2 r (0 : Fin 1)) = ix1 r := funext fun a => Fin.ext (by match a with | ⟨0, _⟩ => rfl)
  rw [val_main_call10_v5_apply, e5, val_main_call10_v4_apply, val_main_call10_v1_apply, val_main_call10_v3_apply,
    val_main_call10_v0_apply, val_main_call10_c_apply, val_main_v55_apply, eb, clip_tail2]
  refine wrap_of_nonneg _ _ ?_
  rw [toInt_clip]
  have := word0; have := word9999
  omega

theorem inb_tail2 (x1 : Vec Ideal S4096 .i32) (r : Fin 4096) :
    val_main_call10_v12 (F := Ideal) x1 (ix2 r (0 : Fin 1)) = 1#1 := by
  unfold val_main_call10_v12
  rw [reduceAnd_row (val_main_call10_v11 (F := Ideal) x1) (val_main_call10_c_3 (F := Ideal))
    reducesTo_S4096x1x1_S4096x1_d2 (by decide) h_S_ r, val_main_call10_c_3_apply, val_main_call10_v11_apply,
    val_main_call10_v7_apply, val_main_call10_v10_apply, val_main_call10_v6_apply, val_main_call10_c_2_apply,
    val_main_call10_v9_apply, val_main_call10_v8_apply, val_main_call10_c_1_apply, idx_tail2]
  refine inb_of_range _ _ ?_ ?_ <;> rw [toInt_clip] <;> have := word0 <;> have := word9999 <;> omega

theorem take_tail2 (x0 : Vec Ideal S4096x1024 .f32) (x1 : Vec Ideal S4096 .i32) (x2 : Vec Ideal S50000x1024 .f32)
    (x3 : Vec Ideal S50000 .f32) (r : Fin 4096) (ht : 0 ≤ (x1 (ix1 r)).toInt)
    (j : Fin 10000) (hj : (j.val : ℤ) = Spec.clampZ ((x1 (ix1 r)).toInt - 40000) 0 9999) :
    val_main_v57 (F := Ideal) x0 x1 x2 x3 (ix1 r) = val_main_v49 (F := Ideal) x0 x2 x3 (ix2 r j) := by
  have eo : idx_main_v57 (ix1 r) = ix2 r (0 : Fin 1) :=
    funext fun a => Fin.ext (by
      match a with
      | ⟨0, _⟩ => show r.val / 1 = r.val; omega
      | ⟨1, _⟩ => rfl)
  rw [val_main_v57_apply, eo, val_main_v56_apply, inb_tail2, select_one]
  unfold val_main_call10_v13
  generalize val_main_v49 (F := Ideal) x0 x2 x3 = y
  refine (gather_along_apply (by decide) gather_S4096x10000_S4096x1x1_S4096x1_n_1_0_0_1_2_11_wf y
    (val_main_call10_v5 (F := Ideal) x1) r).trans ?_
  refine congrArg (fun q : Fin 10000 => y (ix2 r q)) (Fin.ext ?_)
  show min (val_main_call10_v5 (F := Ideal) x1 (ix3 r (0 : Fin 1) (0 : Fin 1))).toInt.toNat (10000 - 1) = j.val
  rw [idx_tail2, toInt_clip, toInt_subi_of_nonneg (x1 (ix1 r)) 40000#32 ht (by decide)]
  unfold Spec.clampZ at hj
  have := word0; have := word9999; have := word40000
  omega

end TakeTail2

end Cert.ReferenceIdeal.Hand

end
-- ==== Proof.RefValue.lean ====
import proofs.«429997_j76270029243071_3_alg».proof.Proof.RefLogits
import proofs.«429997_j76270029243071_3_alg».proof.Proof.RefLsm
import proofs.«429997_j76270029243071_3_alg».proof.Proof.RefTake
import proofs.«429997_j76270029243071_3_alg».proof.Proof.RefTakeTails

noncomputable section

namespace Cert.ReferenceIdeal.Hand

open Idealize.ShloMosaic Idealize.ShloMosaic.ValueIdx Cert.ReferenceIdeal Cert.ReferenceIdeal.Gen

open Cert.ReferenceIdeal.ReadP

section Assembly

variable (x0 : Vec Ideal S4096x1024 .f32) (x1 : Vec Ideal S4096 .i32) (x2 : Vec Ideal S50000x1024 .f32)
  (x3 : Vec Ideal S50000 .f32) (x4 : Vec Ideal S2x1024 .f32) (x5 : Vec Ideal S2 .f32) (r : Fin 4096)

abbrev logitRow : ℕ → EReal := Spec.logitE (rowsOf x0) (rowsOf x2) (entriesOf x3) r

abbrev headRow : Fin 20002 → EReal :=
  Spec.headRowE (logitRow x0 x2 x3 r) (Spec.clogE (rowsOf x0) (rowsOf x4) (entriesOf x5) r 0)
    (Spec.clogE (rowsOf x0) (rowsOf x4) (entriesOf x5) r 1)

theorem head_at (n : ℕ) (hn : n < 20002) :
    val_main_v9 (F := Ideal) x0 x2 x3 x4 x5 (ix2 r (⟨n, hn⟩ : Fin 20002)) = Spec.lsmAt (headRow x0 x2 x3 x4 x5 r) n := by
  rw [lsm_head, show (fun u : Fin 20002 => val_main_v8 (F := Ideal) x0 x2 x3 x4 x5 (ix2 r u)) = headRow x0 x2 x3 x4 x5 r
    from funext fun u => head_logit x0 x2 x3 x4 x5 r u]
  unfold Spec.lsmAt
  rw [dif_pos hn]

theorem tail1_at (n : ℕ) (hn : n < 20000) :
    val_main_v25 (F := Ideal) x0 x2 x3 (ix2 r (⟨n, hn⟩ : Fin 20000))
      = Spec.lsmAt (Spec.tailRowE (logitRow x0 x2 x3 r) 20000 20000) n := by
  rw [lsm_tail1, show (fun u : Fin 20000 => val_main_v24 (F := Ideal) x0 x2 x3 (ix2 r u)) = Spec.tailRowE (logitRow x0 x2 x3 r) 20000 20000
    from funext fun u => tail1_logit x0 x2 x3 r u]
  unfold Spec.lsmAt
  rw [dif_pos hn]

theorem tail2_at (n : ℕ) (hn : n < 10000) :
    val_main_v49 (F := Ideal) x0 x2 x3 (ix2 r (⟨n, hn⟩ : Fin 10000))
      = Spec.lsmAt (Spec.tailRowE (logitRow x0 x2 x3 r) 40000 10000) n := by
  rw [lsm_tail2, show (fun u : Fin 10000 => val_main_v48 (F := Ideal) x0 x2 x3 (ix2 r u)) = Spec.tailRowE (logitRow x0 x2 x3 r) 40000 10000
    from funext fun u => tail2_logit x0 x2 x3 r u]
  unfold Spec.lsmAt
  rw [dif_pos hn]

theorem clamp_toNat (t hi : ℤ) (hhi : 0 ≤ hi) :
    ((Spec.clampZ t 0 hi).toNat : ℤ) = Spec.clampZ t 0 hi ∧ (Spec.clampZ t 0 hi).toNat ≤ hi.toNat := by
  unfold Spec.clampZ
  constructor <;> omega

theorem short_val :
    val_main_v13 (F := Ideal) x0 x1 x2 x3 x4 x5 (ix1 r)
      = Spec.lsmAt (headRow x0 x2 x3 x4 x5 r) (Spec.clampZ (x1 (ix1 r)).toInt 0 19999).toNat := by
  have hc := clamp_toNat (x1 (ix1 r)).toInt 19999 (by decide)
  have hn : (Spec.clampZ (x1 (ix1 r)).toInt 0 19999).toNat < 20002 := by have := hc.2; omega
  rw [take_head x0 x1 x2 x3 x4 x5 r ⟨_, hn⟩ hc.1, head_at]

theorem tail1_val (ht : 0 ≤ (x1 (ix1 r)).toInt) :
    val_main_v33 (F := Ideal) x0 x1 x2 x3 (ix1 r)
      = Spec.lsmAt (Spec.tailRowE (logitRow x0 x2 x3 r) 20000 20000) (Spec.clampZ ((x1 (ix1 r)).toInt - 20000) 0 19999).toNat := by
  have hc := clamp_toNat ((x1 (ix1 r)).toInt - 20000) 19999 (by decide)
  have hn : (Spec.clampZ ((x1 (ix1 r)).toInt - 20000) 0 19999).toNat < 20000 := by have := hc.2; omega
  rw [take_tail1 x0 x1 x2 x3 r ht ⟨_, hn⟩ hc.1, tail1_at]

theorem tail2_val (ht : 0 ≤ (x1 (ix1 r)).toInt) :
    val_main_v57 (F := Ideal) x0 x1 x2 x3 (ix1 r)
      = Spec.lsmAt (Spec.tailRowE (logitRow x0 x2 x3 r) 40000 10000) (Spec.clampZ ((x1 (ix1 r)).toInt - 40000) 0 9999).toNat := by
  have hc := clamp_toNat ((x1 (ix1 r)).toInt - 40000) 9999 (by decide)
  have hn : (Spec.clampZ ((x1 (ix1 r)).toInt - 40000) 0 9999).toNat < 10000 := by have := hc.2; omega
  rw [take_tail2 x0 x1 x2 x3 r ht ⟨_, hn⟩ hc.1, tail2_at]

theorem cluster1_val :
    val_main_v30 (F := Ideal) x0 x2 x3 x4 x5 (ix1 r) = Spec.lsmAt (headRow x0 x2 x3 x4 x5 r) 20001 := by
  have e : idx_main_v29 (idx_main_v30 (ix1 r)) = ix2 r (⟨20001, by decide⟩ : Fin 20002) :=
    funext fun a => Fin.ext (by
      match a with
      | ⟨0, _⟩ => show r.val / 1 = r.val; omega
      | ⟨1, _⟩ => rfl)
  rw [val_main_v30_apply, val_main_v29_apply, e, head_at]

theorem cluster2_val :
    val_main_v54 (F := Ideal) x0 x2 x3 x4 x5 (ix1 r) = Spec.lsmAt (headRow x0 x2 x3 x4 x5 r) 20000 := by
  have e : idx_main_v53 (idx_main_v54 (ix1 r)) = ix2 r (⟨20000, by decide⟩ : Fin 20002) :=
    funext fun a => Fin.ext (by
      match a with
      | ⟨0, _⟩ => show r.val / 1 = r.val; omega
      | ⟨1, _⟩ => rfl)
  rw [val_main_v54_apply, val_main_v53_apply, e, head_at]

theorem ref_stage_row (ht : 0 ≤ (x1 (ix1 r)).toInt) :
    val_main_v65 (F := Ideal) x0 x1 x2 x3 x4 x5 (ix1 r)
      = Spec.refLossE (logitRow x0 x2 x3 r) (Spec.clogE (rowsOf x0) (rowsOf x4) (entriesOf x5) r 0)
          (Spec.clogE (rowsOf x0) (rowsOf x4) (entriesOf x5) r 1) (x1 (ix1 r)).toInt := by
  rw [val_main_v65_apply, val_main_v63_apply, val_main_v60_apply, val_main_v62_apply, val_main_v59_apply, val_main_v61_apply,
    val_main_c_10_apply, val_main_c_11_apply, select_range,
    val_main_v64_apply, val_main_v58_apply, cluster2_val, tail2_val x0 x1 x2 x3 r ht,
    val_main_v41_apply, val_main_v39_apply, val_main_v36_apply, val_main_v38_apply, val_main_v35_apply, val_main_v37_apply,
    val_main_c_5_apply, val_main_c_6_apply, select_range,
    val_main_v40_apply, val_main_v34_apply, cluster1_val, tail1_val x0 x1 x2 x3 r ht,
    val_main_v17_apply, val_main_v15_apply, val_main_v14_apply, val_main_c_1_apply, select_lt,
    val_main_v16_apply, short_val, val_main_call3_v0_apply, val_main_cst_apply,
    word20000, word40000, word50000]
  unfold Spec.refLossE Spec.pick
  simp only [Ideal.hostNegf_def, Ideal.negf_def, Ideal.addf_def, Ideal.ofBits_def, Ideal.ofBits_zero_f32]

end Assembly

section Row

open Idealize.ShloMosaic.TcCoe Idealize.SL.Sem Idealize.ShloMosaic.StableHlo

theorem ref_row (m : (ℓ : Loc nD τ sig) → Buf (Elt Ideal) ℓ) (c : Dev nD) (r : Fin 4096)
    (ht : 0 ≤ BitVec.toInt ((m ((c.tc : Thread nD τ).loc main_arg1) : S4096.Idx → BitVec 32) (ix1 r))) :
    (Cert.ReferenceIdeal.ValueP.res_main_v65 (F := Ideal) m c : S4096.Idx → EReal) (ix1 r)
      = Spec.refLossE
          (fun v => Spec.logitE (fun r k => (m ((c.tc : Thread nD τ).loc main_arg0) : S4096x1024.Idx → EReal) (ix2 r k))
            (fun v k => (m ((c.tc : Thread nD τ).loc main_arg2) : S50000x1024.Idx → EReal) (ix2 v k))
            (fun v => (m ((c.tc : Thread nD τ).loc main_arg3) : S50000.Idx → EReal) (ix1 v)) r v)
          (Spec.clogE (fun r k => (m ((c.tc : Thread nD τ).loc main_arg0) : S4096x1024.Idx → EReal) (ix2 r k))
            (fun a k => (m ((c.tc : Thread nD τ).loc main_arg4) : S2x1024.Idx → EReal) (ix2 a k))
            (fun a => (m ((c.tc : Thread nD τ).loc main_arg5) : S2.Idx → EReal) (ix1 a)) r 0)
          (Spec.clogE (fun r k => (m ((c.tc : Thread nD τ).loc main_arg0) : S4096x1024.Idx → EReal) (ix2 r k))
            (fun a k => (m ((c.tc : Thread nD τ).loc main_arg4) : S2x1024.Idx → EReal) (ix2 a k))
            (fun a => (m ((c.tc : Thread nD τ).loc main_arg5) : S2.Idx → EReal) (ix1 a)) r 1)
          (BitVec.toInt ((m ((c.tc : Thread nD τ).loc main_arg1) : S4096.Idx → BitVec 32) (ix1 r))) := by
  rw [Cert.ReferenceIdeal.ReadP.val_main_v65_eq]
  exact ref_stage_row (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) r ht

end Row

end Cert.ReferenceIdeal.Hand

end
-- ==== Proof.Bridge.lean ====
import proofs.«429997_j76270029243071_3_alg».proof.Defs
import proofs.«429997_j76270029243071_3_alg».proof.Proof.MathGlue
import proofs.«429997_j76270029243071_3_alg».proof.Proof.PreFacts
import proofs.«429997_j76270029243071_3_alg».proof.Proof.LogitReal
import proofs.«429997_j76270029243071_3_alg».proof.Proof.KValue
import proofs.«429997_j76270029243071_3_alg».proof.Proof.RefRun
import proofs.«429997_j76270029243071_3_alg».proof.Proof.RefValue
import Idealize.ShloMosaic.Lib.ValueIdx

noncomputable section

namespace Cert.Bridge

open Idealize.ShloMosaic Idealize.ShloMosaic.TcCoe ValueIdx

theorem loss_agree (A0 : (⟨2, ![4096, 1024]⟩ : Shape).Idx → EReal) (A1 : (⟨1, ![4096]⟩ : Shape).Idx → BitVec 32)
    (A2 : (⟨2, ![50000, 1024]⟩ : Shape).Idx → EReal) (A3 : (⟨1, ![50000]⟩ : Shape).Idx → EReal)
    (A4 : (⟨2, ![2, 1024]⟩ : Shape).Idx → EReal) (A5 : (⟨1, ![2]⟩ : Shape).Idx → EReal)
    (h0 : ∀ i, ∃ x : ℝ, A0 i = (x : EReal)) (h2 : ∀ i, ∃ x : ℝ, A2 i = (x : EReal)) (h3 : ∀ i, ∃ x : ℝ, A3 i = (x : EReal))
    (h4 : ∀ i, ∃ x : ℝ, A4 i = (x : EReal)) (h5 : ∀ i, ∃ x : ℝ, A5 i = (x : EReal)) (h1 : ∀ i, 0 ≤ (A1 i).toInt)
    (r : Fin 4096) :
    Spec.kerLossE
        (fun v => Spec.logitE (fun r k => A0 (ix2 r k)) (fun v k => A2 (ix2 v k)) (fun v => A3 (ix1 v)) r v)
        (Spec.clogE (fun r k => A0 (ix2 r k)) (fun a k => A4 (ix2 a k)) (fun a => A5 (ix1 a)) r 0)
        (Spec.clogE (fun r k => A0 (ix2 r k)) (fun a k => A4 (ix2 a k)) (fun a => A5 (ix1 a)) r 1)
        (BitVec.toInt (A1 (ix1 r)))
      = Spec.refLossE
        (fun v => Spec.logitE (fun r k => A0 (ix2 r k)) (fun v k => A2 (ix2 v k)) (fun v => A3 (ix1 v)) r v)
        (Spec.clogE (fun r k => A0 (ix2 r k)) (fun a k => A4 (ix2 a k)) (fun a => A5 (ix1 a)) r 0)
        (Spec.clogE (fun r k => A0 (ix2 r k)) (fun a k => A4 (ix2 a k)) (fun a => A5 (ix1 a)) r 1)
        (BitVec.toInt (A1 (ix1 r))) := by
  obtain ⟨xr, hx⟩ := Spec.logitE_real (fun r k => A0 (ix2 r k)) (fun v k => A2 (ix2 v k)) (fun v => A3 (ix1 v))
    (fun r k => h0 (ix2 r k)) (fun v k => h2 (ix2 v k)) (fun v => h3 (ix1 v)) r
  obtain ⟨c0, hc0⟩ := Spec.clogE_real (fun r k => A0 (ix2 r k)) (fun a k => A4 (ix2 a k)) (fun a => A5 (ix1 a))
    (fun r k => h0 (ix2 r k)) (fun a k => h4 (ix2 a k)) (fun a => h5 (ix1 a)) r 0
  obtain ⟨c1, hc1⟩ := Spec.clogE_real (fun r k => A0 (ix2 r k)) (fun a k => A4 (ix2 a k)) (fun a => A5 (ix1 a))
    (fun r k => h0 (ix2 r k)) (fun a k => h4 (ix2 a k)) (fun a => h5 (ix1 a)) r 1
  rw [hc0, hc1]
  exact Spec.loss_eq xr c0 c1 _ hx _ (h1 (ix1 r))

theorem refLoss_congr {A0 B0 : (⟨2, ![4096, 1024]⟩ : Shape).Idx → EReal} {A1 B1 : (⟨1, ![4096]⟩ : Shape).Idx → BitVec 32}
    {A2 B2 : (⟨2, ![50000, 1024]⟩ : Shape).Idx → EReal} {A3 B3 : (⟨1, ![50000]⟩ : Shape).Idx → EReal}
    {A4 B4 : (⟨2, ![2, 1024]⟩ : Shape).Idx → EReal} {A5 B5 : (⟨1, ![2]⟩ : Shape).Idx → EReal}
    (e0 : B0 = A0) (e1 : B1 = A1) (e2 : B2 = A2) (e3 : B3 = A3) (e4 : B4 = A4) (e5 : B5 = A5) (r : Fin 4096) :
    Spec.refLossE
        (fun v => Spec.logitE (fun r k => B0 (ix2 r k)) (fun v k => B2 (ix2 v k)) (fun v => B3 (ix1 v)) r v)
        (Spec.clogE (fun r k => B0 (ix2 r k)) (fun a k => B4 (ix2 a k)) (fun a => B5 (ix1 a)) r 0)
        (Spec.clogE (fun r k => B0 (ix2 r k)) (fun a k => B4 (ix2 a k)) (fun a => B5 (ix1 a)) r 1)
        (BitVec.toInt (B1 (ix1 r)))
      = Spec.refLossE
        (fun v => Spec.logitE (fun r k => A0 (ix2 r k)) (fun v k => A2 (ix2 v k)) (fun v => A3 (ix1 v)) r v)
        (Spec.clogE (fun r k => A0 (ix2 r k)) (fun a k => A4 (ix2 a k)) (fun a => A5 (ix1 a)) r 0)
        (Spec.clogE (fun r k => A0 (ix2 r k)) (fun a k => A4 (ix2 a k)) (fun a => A5 (ix1 a)) r 1)
        (BitVec.toInt (A1 (ix1 r))) := by
  subst e0 e1 e2 e3 e4 e5
  rfl

variable [Cert.KernelIdeal.Facts] [Cert.ReferenceIdeal.Facts] [Cert.Pre_finite_inputs.Facts]

theorem result_at (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.ReferenceIdeal.nD) (r : Fin 4096) :
    (Cert.ReferenceIdeal.ValueP.res_main_v65 (F := Ideal) m' c : (⟨1, ![4096]⟩ : Shape).Idx → EReal) (ix1 r)
      = (Cert.KernelIdeal.Gen.V12 m (Cert.KernelIdeal.Hand.outs m) c Cert.KernelIdeal.main_v63 : (⟨1, ![4096]⟩ : Shape).Idx → EReal) (ix1 r) := by
  obtain ⟨e0, e1, e2, e3, e4, e5⟩ := hagree c
  obtain ⟨hH, hW, hb, hC, hc, ht⟩ := Cert.PreFacts.of_pre _ _ _ _ _ _ (hpre c)
  have ht' : 0 ≤ BitVec.toInt ((m' ((c.tc : Thread Cert.ReferenceIdeal.nD Cert.ReferenceIdeal.τ).loc Cert.ReferenceIdeal.main_arg1) : (⟨1, ![4096]⟩ : Shape).Idx → BitVec 32) (ix1 r)) :=
    (congrArg (fun a : (⟨1, ![4096]⟩ : Shape).Idx → BitVec 32 => BitVec.toInt (a (ix1 r))) e1).symm ▸ ht (ix1 r)
  refine (Cert.ReferenceIdeal.Hand.ref_row m' c r ht').trans ?_
  refine (refLoss_congr e0 e1 e2 e3 e4 e5 r).trans ?_
  refine (loss_agree _ _ _ _ _ _ hH hW hb hC hc ht r).symm.trans ?_
  exact (Cert.KernelIdeal.Hand.ker_value m c r).symm

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.ReferenceIdeal.nD) :
    Cert.ReferenceIdeal.ValueP.res_main_v65 (F := Ideal) m' c
      = (Cert.KernelIdeal.Gen.V12 m (Cert.KernelIdeal.Hand.outs m) c Cert.KernelIdeal.main_v63 : Buf (Elt Ideal) ((c.tc : Thread Cert.KernelIdeal.nD Cert.KernelIdeal.τ).loc Cert.KernelIdeal.main_v63)) := by
  show (Cert.ReferenceIdeal.ValueP.res_main_v65 (F := Ideal) m' c : (⟨1, ![4096]⟩ : Shape).Idx → EReal)
      = (Cert.KernelIdeal.Gen.V12 m (Cert.KernelIdeal.Hand.outs m) c Cert.KernelIdeal.main_v63 : (⟨1, ![4096]⟩ : Shape).Idx → EReal)
  funext i
  obtain ⟨r, rfl⟩ : ∃ r : Fin 4096, i = ix1 r := ⟨i 0, eq_ix1 i⟩
  exact result_at m m' hpre hagree c r

end Cert.Bridge

end
-- ==== Proof.lean ====
/- Online softmax: rescaling the running sum by exp (m_old - m_new) keeps l * exp m equal to the sum of the exponentials seen so far, so each pass's
   (m, l) gives its region's log-sum-exp, and the host combination of the three passes is the reference's adaptive log-softmax loss. -/
import proofs.«429997_j76270029243071_3_alg».proof.Defs
import proofs.«429997_j76270029243071_3_alg».proof.Proof.Gen.Kernel
import proofs.«429997_j76270029243071_3_alg».proof.Proof.Gen.KernelIdeal
import proofs.«429997_j76270029243071_3_alg».proof.Proof.Gen.ReferenceIdeal
import proofs.«429997_j76270029243071_3_alg».proof.Proof.Gen.Pre_finite_inputs
import proofs.«429997_j76270029243071_3_alg».proof.Proof.BKSegs
import proofs.«429997_j76270029243071_3_alg».proof.Proof.KSegs
import proofs.«429997_j76270029243071_3_alg».proof.Proof.RefRun
import proofs.«429997_j76270029243071_3_alg».proof.Proof.Bridge
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.V12 m (Cert.KernelIdeal.Hand.outs m) c Cert.KernelIdeal.main_v63, Cert.KernelIdeal.Hand.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_eq m m' hpre hagree c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
